-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S200000x128 : Shape := ⟨2, ![200000, 128]⟩
abbrev S100000x128 : Shape := ⟨2, ![100000, 128]⟩
abbrev S200000x64 : Shape := ⟨2, ![200000, 64]⟩
abbrev S100000x64 : Shape := ⟨2, ![100000, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S200000x64 : S_.BroadcastsInDim S200000x64 (![] : Fin 0 → Fin S200000x64.rank)
  reducesTo_S200000x64_S_d0_1 : S200000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64x1 .f32) (main_arg16 : FVec F S1 .f32) (main_v63 : IVec S_ 1) (main_v67 : IVec S_ 1) : IVec S_ 1 :=
  let main_v68 : IVec S_ 1 := andi main_v63 main_v67
  let main_v69 : FVec F S64x1 .f32 := Host.absf main_arg15
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S64 .f32) (main_arg13 : FVec F S128x64 .f32) (main_arg14 : FVec F S64 .f32) (main_arg15 : FVec F S64x1 .f32) (main_arg16 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S128x64 .f32) (main_arg14 : FVec F S64 .f32) (main_arg15 : FVec F S64x1 .f32) (main_arg16 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_v48 main_v49 main_v50

def fn_part1 {F : FTy → Type} [FloatOps F] (main_arg5 : FVec F S128x64 .f32) (main_arg6 : FVec F S64 .f32) (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S128x64 .f32) (main_arg14 : FVec F S64 .f32) (main_arg15 : FVec F S64x1 .f32) (main_arg16 : FVec F S1 .f32) (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : IVec S2x1000000 32) (main_arg1 : FVec F S200000x128 .f32) (main_arg2 : FVec F S100000x128 .f32) (main_arg3 : FVec F S200000x64 .f32) (main_arg4 : FVec F S100000x64 .f32) (main_arg5 : FVec F S128x64 .f32) (main_arg6 : FVec F S64 .f32) (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S128x64 .f32) (main_arg14 : FVec F S64 .f32) (main_arg15 : FVec F S64x1 .f32) (main_arg16 : FVec F S1 .f32) : IVec S_ 1 :=
  let main_v0 : FVec F S200000x128 .f32 := Host.absf main_arg1
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S200000x64 .f32 := Host.absf main_arg3
  let main_cst_2 : FVec F S_ .f32 := constant S_ .f32 0x7F800000#32
  let main_v10 : FVec F S200000x64 .f32 := broadcastInDim S200000x64 ![] bcast_S_S200000x64 main_cst_2
  let main_v11 : IVec S200000x64 1 := cmpf .olt main_v9 main_v10
  let main_c_3 : IVec S_ 1 := constantI S_ 1 1#1
  let main_v12 : IVec S_ 1 := (fun x v => Host.reduce IntOp.andi x v reducesTo_S200000x64_S_d0_1 h_S_) main_v11 main_c_3
  let main_v13 : IVec S_ 1 := andi main_v8 main_v12
  let main_v14 : FVec F S100000x64 .f32 := Host.absf main_arg4
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S2x1000000 : Shape := ⟨2, ![2, 1000000]⟩
abbrev S200000x128 : Shape := ⟨2, ![200000, 128]⟩
abbrev S100000x128 : Shape := ⟨2, ![100000, 128]⟩
abbrev S200000x64 : Shape := ⟨2, ![200000, 64]⟩
abbrev S100000x64 : Shape := ⟨2, ![100000, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1x64 : Shape := ⟨2, ![1, 64]⟩
abbrev S5000x128 : Shape := ⟨2, ![5000, 128]⟩
abbrev S5000x64 : Shape := ⟨2, ![5000, 64]⟩
abbrev S300000x64 : Shape := ⟨2, ![300000, 64]⟩
abbrev S300000 : Shape := ⟨1, ![300000]⟩
abbrev S2300000 : Shape := ⟨1, ![2300000]⟩
abbrev S_ : Shape := ⟨0, ![]⟩
abbrev S2300000x1 : Shape := ⟨2, ![2300000, 1]⟩
abbrev S300000x1 : Shape := ⟨2, ![300000, 1]⟩
abbrev S5000x1 : Shape := ⟨2, ![5000, 1]⟩
abbrev S2300000x64 : Shape := ⟨2, ![2300000, 64]⟩
abbrev S1000000x1 : Shape := ⟨2, ![1000000, 1]⟩
abbrev S1000000x64 : Shape := ⟨2, ![1000000, 64]⟩
abbrev S1x1 : Shape := ⟨2, ![1, 1]⟩

abbrev nBuf : Space → Nat
  | .hbm => 110
  | .vmem => 57
  | .smem => 0
  | _ => 0

abbrev bufTy : (tb : Table) → Fin (tcTables nBuf tb) → BufTy
  | .hbm, ⟨0, _⟩ => ⟨S2x1000000, .i32⟩
  | .hbm, ⟨1, _⟩ => ⟨S200000x128, .f32⟩
  | .hbm, ⟨2, _⟩ => ⟨S100000x128, .f32⟩
  | .hbm, ⟨3, _⟩ => ⟨S200000x64, .f32⟩
  | .hbm, ⟨4, _⟩ => ⟨S100000x64, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S128x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S1x64, .f32⟩
  | .hbm, ⟨22, _⟩ => ⟨S200000x64, .f32⟩
  | .hbm, ⟨23, _⟩ => ⟨S1x64, .f32⟩
  | .hbm, ⟨24, _⟩ => ⟨S100000x64, .f32⟩
  | .hbm, ⟨25, _⟩ => ⟨S300000x64, .f32⟩
  | .hbm, ⟨26, _⟩ => ⟨S300000, .i32⟩
  | .hbm, ⟨27, _⟩ => ⟨S2300000, .i32⟩
  | .hbm, ⟨28, _⟩ => ⟨S2300000, .i32⟩
  | .hbm, ⟨29, _⟩ => ⟨S_, .f32⟩
  | .hbm, ⟨30, _⟩ => ⟨S2300000, .f32⟩
  | .hbm, ⟨31, _⟩ => ⟨S_, .f32⟩
  | .hbm, ⟨32, _⟩ => ⟨S300000, .f32⟩
  | .hbm, ⟨33, _⟩ => ⟨S2300000x1, .i32⟩
  | .hbm, ⟨34, _⟩ => ⟨S300000, .f32⟩
  | .hbm, ⟨35, _⟩ => ⟨S_, .f32⟩
  | .hbm, ⟨36, _⟩ => ⟨S300000, .f32⟩
  | .hbm, ⟨37, _⟩ => ⟨S300000, .i1⟩
  | .hbm, ⟨38, _⟩ => ⟨S_, .f32⟩
  | .hbm, ⟨39, _⟩ => ⟨S300000, .f32⟩
  | .hbm, ⟨40, _⟩ => ⟨S300000, .f32⟩
  | .hbm, ⟨41, _⟩ => ⟨S300000, .f32⟩
  | .hbm, ⟨42, _⟩ => ⟨S_, .f32⟩
  | .hbm, ⟨43, _⟩ => ⟨S_, .f32⟩
  | .hbm, ⟨44, _⟩ => ⟨S300000, .f32⟩
  | .hbm, ⟨45, _⟩ => ⟨S300000, .f32⟩
  | .hbm, ⟨46, _⟩ => ⟨S300000x1, .f32⟩
  | .hbm, ⟨47, _⟩ => ⟨S300000x64, .bf16⟩
  | .hbm, ⟨48, _⟩ => ⟨S_, .i32⟩
  | .hbm, ⟨49, _⟩ => ⟨S2300000, .i32⟩
  | .hbm, ⟨50, _⟩ => ⟨S2300000, .i1⟩
  | .hbm, ⟨51, _⟩ => ⟨S_, .i32⟩
  | .hbm, ⟨52, _⟩ => ⟨S2300000, .i32⟩
  | .hbm, ⟨53, _⟩ => ⟨S2300000, .i32⟩
  | .hbm, ⟨54, _⟩ => ⟨S2300000, .i32⟩
  | .hbm, ⟨55, _⟩ => ⟨S2300000x1, .i32⟩
  | .hbm, ⟨56, _⟩ => ⟨S2300000x64, .bf16⟩
  | .hbm, ⟨57, _⟩ => ⟨S2300000x64, .f32⟩
  | .hbm, ⟨58, _⟩ => ⟨S_, .f32⟩
  | .hbm, ⟨59, _⟩ => ⟨S300000x64, .f32⟩
  | .hbm, ⟨60, _⟩ => ⟨S2300000x1, .i32⟩
  | .hbm, ⟨61, _⟩ => ⟨S300000x64, .f32⟩
  | .hbm, ⟨62, _⟩ => ⟨S1x64, .f32⟩
  | .hbm, ⟨63, _⟩ => ⟨S300000x1, .f32⟩
  | .hbm, ⟨64, _⟩ => ⟨S300000x64, .bf16⟩
  | .hbm, ⟨65, _⟩ => ⟨S_, .i32⟩
  | .hbm, ⟨66, _⟩ => ⟨S2300000, .i32⟩
  | .hbm, ⟨67, _⟩ => ⟨S2300000, .i1⟩
  | .hbm, ⟨68, _⟩ => ⟨S_, .i32⟩
  | .hbm, ⟨69, _⟩ => ⟨S2300000, .i32⟩
  | .hbm, ⟨70, _⟩ => ⟨S2300000, .i32⟩
  | .hbm, ⟨71, _⟩ => ⟨S2300000, .i32⟩
  | .hbm, ⟨72, _⟩ => ⟨S2300000x1, .i32⟩
  | .hbm, ⟨73, _⟩ => ⟨S2300000x64, .bf16⟩
  | .hbm, ⟨74, _⟩ => ⟨S2300000x64, .f32⟩
  | .hbm, ⟨75, _⟩ => ⟨S_, .f32⟩
  | .hbm, ⟨76, _⟩ => ⟨S300000x64, .f32⟩
  | .hbm, ⟨77, _⟩ => ⟨S2300000x1, .i32⟩
  | .hbm, ⟨78, _⟩ => ⟨S300000x64, .f32⟩
  | .hbm, ⟨79, _⟩ => ⟨S1x64, .f32⟩
  | .hbm, ⟨80, _⟩ => ⟨S300000x1, .f32⟩
  | .hbm, ⟨81, _⟩ => ⟨S300000x64, .f32⟩
  | .hbm, ⟨82, _⟩ => ⟨S64x64, .f32⟩
  | .hbm, ⟨83, _⟩ => ⟨S64x64, .f32⟩
  | .hbm, ⟨84, _⟩ => ⟨S200000x64, .f32⟩
  | .hbm, ⟨85, _⟩ => ⟨S200000x64, .bf16⟩
  | .hbm, ⟨86, _⟩ => ⟨S100000x64, .f32⟩
  | .hbm, ⟨87, _⟩ => ⟨S100000x64, .bf16⟩
  | .hbm, ⟨88, _⟩ => ⟨S_, .i32⟩
  | .hbm, ⟨89, _⟩ => ⟨S1000000, .i32⟩
  | .hbm, ⟨90, _⟩ => ⟨S1000000, .i1⟩
  | .hbm, ⟨91, _⟩ => ⟨S_, .i32⟩
  | .hbm, ⟨92, _⟩ => ⟨S1000000, .i32⟩
  | .hbm, ⟨93, _⟩ => ⟨S1000000, .i32⟩
  | .hbm, ⟨94, _⟩ => ⟨S1000000, .i32⟩
  | .hbm, ⟨95, _⟩ => ⟨S1000000x1, .i32⟩
  | .hbm, ⟨96, _⟩ => ⟨S1000000x64, .bf16⟩
  | .hbm, ⟨97, _⟩ => ⟨S_, .i32⟩
  | .hbm, ⟨98, _⟩ => ⟨S1000000, .i32⟩
  | .hbm, ⟨99, _⟩ => ⟨S1000000, .i1⟩
  | .hbm, ⟨100, _⟩ => ⟨S_, .i32⟩
  | .hbm, ⟨101, _⟩ => ⟨S1000000, .i32⟩
  | .hbm, ⟨102, _⟩ => ⟨S1000000, .i32⟩
  | .hbm, ⟨103, _⟩ => ⟨S1000000, .i32⟩
  | .hbm, ⟨104, _⟩ => ⟨S1000000x1, .i32⟩
  | .hbm, ⟨105, _⟩ => ⟨S1000000x64, .bf16⟩
  | .hbm, ⟨106, _⟩ => ⟨S1x64, .f32⟩
  | .hbm, ⟨107, _⟩ => ⟨S1x1, .f32⟩
  | .hbm, ⟨108, _⟩ => ⟨S1000000x1, .f32⟩
  | .hbm, ⟨109, _⟩ => ⟨S1000000, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x128, .f32⟩
  | .local _ .vmem, ⟨9, _⟩ => ⟨S5000x128, .f32⟩
  | .local _ .vmem, ⟨10, _⟩ => ⟨S128x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x1, .f32⟩
  | .local _ .vmem, ⟨20, _⟩ => ⟨S5000x1, .f32⟩
  | .local _ .vmem, ⟨21, _⟩ => ⟨S5000x64, .bf16⟩
  | .local _ .vmem, ⟨22, _⟩ => ⟨S5000x64, .bf16⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S5000x1, .f32⟩
  | .local _ .vmem, ⟨27, _⟩ => ⟨S5000x1, .f32⟩
  | .local _ .vmem, ⟨28, _⟩ => ⟨S64x64, .f32⟩
  | .local _ .vmem, ⟨29, _⟩ => ⟨S5000x64, .bf16⟩
  | .local _ .vmem, ⟨30, _⟩ => ⟨S5000x64, .bf16⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S5000x1, .f32⟩
  | .local _ .vmem, ⟨35, _⟩ => ⟨S5000x1, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S5000x64, .bf16⟩
  | .local _ .vmem, ⟨42, _⟩ => ⟨S5000x64, .bf16⟩
  | .local _ .vmem, ⟨43, _⟩ => ⟨S5000x64, .f32⟩
  | .local _ .vmem, ⟨44, _⟩ => ⟨S5000x64, .f32⟩
  | .local _ .vmem, ⟨45, _⟩ => ⟨S64x64, .f32⟩
  | .local _ .vmem, ⟨46, _⟩ => ⟨S5000x64, .bf16⟩
  | .local _ .vmem, ⟨47, _⟩ => ⟨S5000x64, .bf16⟩
  | .local _ .vmem, ⟨48, _⟩ => ⟨S5000x64, .bf16⟩
  | .local _ .vmem, ⟨49, _⟩ => ⟨S5000x64, .bf16⟩
  | .local _ .vmem, ⟨50, _⟩ => ⟨S5000x64, .bf16⟩
  | .local _ .vmem, ⟨51, _⟩ => ⟨S5000x64, .bf16⟩
  | .local _ .vmem, ⟨52, _⟩ => ⟨S1x64, .f32⟩
  | .local _ .vmem, ⟨53, _⟩ => ⟨S64x1, .f32⟩
  | .local _ .vmem, ⟨54, _⟩ => ⟨S1x1, .f32⟩
  | .local _ .vmem, ⟨55, _⟩ => ⟨S5000x1, .f32⟩
  | .local _ .vmem, ⟨56, _⟩ => ⟨S5000x1, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c : Ref sig .tc := ⟨.hbm, 48, rfl⟩
abbrev main_v24 : Ref sig .tc := ⟨.hbm, 49, rfl⟩
abbrev main_v25 : Ref sig .tc := ⟨.hbm, 50, rfl⟩
abbrev main_c_4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_6 : Ref sig .tc := ⟨.hbm, 65, rfl⟩
abbrev main_v38 : Ref sig .tc := ⟨.hbm, 66, rfl⟩
abbrev main_v39 : Ref sig .tc := ⟨.hbm, 67, rfl⟩
abbrev main_c_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_9 : Ref sig .tc := ⟨.hbm, 88, rfl⟩
abbrev main_v58 : Ref sig .tc := ⟨.hbm, 89, rfl⟩
abbrev main_v59 : Ref sig .tc := ⟨.hbm, 90, rfl⟩
abbrev main_c_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_11 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg2_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg5_0 : Ref sig .tc := ⟨.vmem, 55, rfl⟩
abbrev cc7_stg5_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem2_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem2_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem4_0 : DmaSem sig := 54
abbrev cc7_sem5_0 : DmaSem sig := 55
abbrev cc7_sem5_1 : DmaSem sig := 56

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![60], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![60], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![60], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![200], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  concatenates_S200000x64_S100000x64_S300000x64_d0 : Shape.Concatenates [S200000x64, S100000x64] S300000x64 0
  concatenates_S1000000_S1000000_S300000_S2300000_d0 : Shape.Concatenates [S1000000, S1000000, S300000] S2300000 0
  bcast_S_S2300000 : S_.BroadcastsInDim S2300000 (![] : Fin 0 → Fin S2300000.rank)
  bcast_S_S300000 : S_.BroadcastsInDim S300000 (![] : Fin 0 → Fin S300000.rank)
  bcast_S2300000_S2300000x1_0 : S2300000.BroadcastsInDim S2300000x1 (![0] : Fin 1 → Fin S2300000x1.rank)
  shapeCasts_S300000_S300000x1 : S300000.ShapeCasts S300000x1
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  packedbf16_S5000x64_S5000x64_0_0 : (Rect.unit (s := S5000x64) ![0, 0] S5000x64.size inb_S5000x64_S5000x64_0_0).PackedRows (EltTy.packing .bf16)
  bcast_S_S300000x64 : S_.BroadcastsInDim S300000x64 (![] : Fin 0 → Fin S300000x64.rank)
  slices_S128x64_S64x64_0_0 : S128x64.Slices ![0, 0] S64x64
  slices_S128x64_S64x64_64_0 : S128x64.Slices ![64, 0] S64x64
  slices_S300000x64_S200000x64_0_0 : S300000x64.Slices ![0, 0] S200000x64
  shapeCasts_S64x64_S64x64 : S64x64.ShapeCasts S64x64
  slices_S300000x64_S100000x64_200000_0 : S300000x64.Slices ![200000, 0] S100000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S1000000x1_S1000000 : S1000000x1.ShapeCasts S1000000
  dot_S5000x128_S128x64_S5000x64_1_0_0_1_n_n_wf : DotDims.WF S5000x128 S128x64 S5000x64 [1] [0] [0] [1] [] []
  scatter_S300000_S2300000x1_S2300000_n_0_0_1_wf : ScatterDims.WF S300000 S2300000x1 S2300000 [] [0] [0] 1
  dot_S5000x64_S64x64_S5000x64_1_0_0_1_n_n_wf : DotDims.WF S5000x64 S64x64 S5000x64 [1] [0] [0] [1] [] []
  gather_S300000x64_S2300000x1_S2300000x64_1_0_n_n_0_1_164_wf : GatherDims.WF S300000x64 S2300000x1 S2300000x64 [1] [0] [] [0] [] 1 ![1, 64]
  scatter_S300000x64_S2300000x1_S2300000x64_1_0_0_1_wf : ScatterDims.WF S300000x64 S2300000x1 S2300000x64 [1] [0] [0] 1
  gather_S200000x64_S1000000x1_S1000000x64_1_0_n_n_0_1_164_wf : GatherDims.WF S200000x64 S1000000x1 S1000000x64 [1] [0] [] [0] [] 1 ![1, 64]
  gather_S100000x64_S1000000x1_S1000000x64_1_0_n_n_0_1_164_wf : GatherDims.WF S100000x64 S1000000x1 S1000000x64 [1] [0] [] [0] [] 1 ![1, 64]
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S200000x64.size a
  hwx0_3 : ∀ i : grid0.Coords, EltTy.bits .f32 = 32 ∨ (Rect.block (s := S200000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S200000x64.size a
  hwx0_4 : ∀ i : grid0.Coords, EltTy.bits .f32 = 32 ∨ (Rect.block (s := S200000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S300000x64.size a
  hwx2_0 : ∀ i : grid2.Coords, EltTy.bits .f32 = 32 ∨ (Rect.block (s := S300000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S300000x1.size a
  hwx2_2 : ∀ i : grid2.Coords, EltTy.bits .f32 = 32 ∨ (Rect.block (s := S300000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S300000x64.size a
  hwx2_3 : ∀ i : grid2.Coords, EltTy.bits .bf16 = 32 ∨ (Rect.block (s := S300000x64) S5000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S300000x64.size a
  hwx3_0 : ∀ i : grid3.Coords, EltTy.bits .f32 = 32 ∨ (Rect.block (s := S300000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S300000x1.size a
  hwx3_2 : ∀ i : grid3.Coords, EltTy.bits .f32 = 32 ∨ (Rect.block (s := S300000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S300000x64.size a
  hwx3_4 : ∀ i : grid3.Coords, EltTy.bits .bf16 = 32 ∨ (Rect.block (s := S300000x64) S5000x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S300000x64.size a
  hwx4_0 : ∀ i : grid4.Coords, EltTy.bits .f32 = 32 ∨ (Rect.block (s := S300000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S300000x1.size a
  hwx4_2 : ∀ i : grid4.Coords, EltTy.bits .f32 = 32 ∨ (Rect.block (s := S300000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S300000x64.size a
  hwx4_3 : ∀ i : grid4.Coords, EltTy.bits .f32 = 32 ∨ (Rect.block (s := S300000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S200000x64.size a
  hwx5_0 : ∀ i : grid5.Coords, EltTy.bits .f32 = 32 ∨ (Rect.block (s := S200000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S200000x64.size a
  hwx5_2 : ∀ i : grid5.Coords, EltTy.bits .bf16 = 32 ∨ (Rect.block (s := S200000x64) S5000x64.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .bf16 = 32 ∨ (Rect.block (s := S100000x64) S5000x64.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S1000000x64.size a
  hwx7_0 : ∀ i : grid7.Coords, EltTy.bits .bf16 = 32 ∨ (Rect.block (s := S1000000x64) S5000x64.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S1000000x64.size a
  hwx7_1 : ∀ i : grid7.Coords, EltTy.bits .bf16 = 32 ∨ (Rect.block (s := S1000000x64) S5000x64.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x1.size a ≤ S64x1.size a
  hwx7_3 : ∀ i : grid7.Coords, EltTy.bits .f32 = 32 ∨ (Rect.block (s := S64x1) S64x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x1.size a ≤ S1000000x1.size a
  hwx7_5 : ∀ i : grid7.Coords, EltTy.bits .f32 = 32 ∨ (Rect.block (s := S1000000x1) S5000x1.size (cc7_transform_5 i) (hinb7_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S300000_S2300000x1_S2300000_n_0_0_1 : ScatterDims S300000 S2300000x1 S2300000 where
  updateWindowDims := []
  insertedWindowDims := [0]
  scatterDimsToOperandDims := [0]
  indexVectorDim := 1
  wf := scatter_S300000_S2300000x1_S2300000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S300000x64_S2300000x1_S2300000x64_1_0_n_n_0_1_164 : GatherDims S300000x64 S2300000x1 S2300000x64 where
  offsetDims := [1]
  collapsedSliceDims := [0]
  operandBatchingDims := []
  startIndicesBatchingDims := []
  startIndexMap := [0]
  indexVectorDim := 1
  sliceSizes := ![1, 64]
  wf := gather_S300000x64_S2300000x1_S2300000x64_1_0_n_n_0_1_164_wf
def scatter_S300000x64_S2300000x1_S2300000x64_1_0_0_1 : ScatterDims S300000x64 S2300000x1 S2300000x64 where
  updateWindowDims := [1]
  insertedWindowDims := [0]
  scatterDimsToOperandDims := [0]
  indexVectorDim := 1
  wf := scatter_S300000x64_S2300000x1_S2300000x64_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v8) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v23) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v34) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v48) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v51) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v54) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v55) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v56) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v53) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v57) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v64) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v71) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v72) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg15) S64x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v73) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v74) S5000x1.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S2x1000000 : Shape := ⟨2, ![2, 1000000]⟩
abbrev S200000x128 : Shape := ⟨2, ![200000, 128]⟩
abbrev S100000x128 : Shape := ⟨2, ![100000, 128]⟩
abbrev S200000x64 : Shape := ⟨2, ![200000, 64]⟩
abbrev S100000x64 : Shape := ⟨2, ![100000, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1x64 : Shape := ⟨2, ![1, 64]⟩
abbrev S300000x64 : Shape := ⟨2, ![300000, 64]⟩
abbrev S300000 : Shape := ⟨1, ![300000]⟩
abbrev S2300000 : Shape := ⟨1, ![2300000]⟩
abbrev S_ : Shape := ⟨0, ![]⟩
abbrev S2300000x1 : Shape := ⟨2, ![2300000, 1]⟩
abbrev S2300000x64 : Shape := ⟨2, ![2300000, 64]⟩
abbrev S1000000x1 : Shape := ⟨2, ![1000000, 1]⟩
abbrev S1000000x64 : Shape := ⟨2, ![1000000, 64]⟩
abbrev S1000000x128 : Shape := ⟨2, ![1000000, 128]⟩
abbrev S1x1 : Shape := ⟨2, ![1, 1]⟩

abbrev nBuf : Space → Nat
  | .hbm => 194
  | .vmem => 0
  | .smem => 0
  | _ => 0

abbrev hbmTy0_0 (i : Nat) : BufTy := match i % 128 with
  | 0 => ⟨S2x1000000, .i32⟩
  | 1 => ⟨S200000x128, .f32⟩
  | 2 => ⟨S100000x128, .f32⟩
  | 3 => ⟨S200000x64, .f32⟩
  | 4 => ⟨S100000x64, .f32⟩
  | 5 => ⟨S128x64, .f32⟩
  | 6 => ⟨S64, .f32⟩
  | 7 => ⟨S128x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S128x64, .f32⟩
  | 14 => ⟨S64, .f32⟩
  | 15 => ⟨S64x1, .f32⟩
  | 16 => ⟨S1, .f32⟩
  | 17 => ⟨S1x1000000, .i32⟩
  | 18 => ⟨S1000000, .i32⟩
  | 19 => ⟨S1x1000000, .i32⟩
  | 20 => ⟨S1000000, .i32⟩
  | 21 => ⟨S200000x64, .f32⟩
  | 22 => ⟨S1x64, .f32⟩
  | 23 => ⟨S200000x64, .f32⟩
  | 24 => ⟨S200000x64, .f32⟩
  | 25 => ⟨S200000x64, .f32⟩
  | 26 => ⟨S100000x64, .f32⟩
  | 27 => ⟨S1x64, .f32⟩
  | 28 => ⟨S100000x64, .f32⟩
  | 29 => ⟨S100000x64, .f32⟩
  | 30 => ⟨S100000x64, .f32⟩
  | 31 => ⟨S300000x64, .f32⟩
  | 32 => ⟨S300000, .i32⟩
  | 33 => ⟨S2300000, .i32⟩
  | 34 => ⟨S2300000, .i32⟩
  | 35 => ⟨S300000x64, .f32⟩
  | 36 => ⟨S_, .f32⟩
  | 37 => ⟨S2300000, .f32⟩
  | 38 => ⟨S_, .f32⟩
  | 39 => ⟨S300000, .f32⟩
  | 40 => ⟨S2300000x1, .i32⟩
  | 41 => ⟨S300000, .f32⟩
  | 42 => ⟨S_, .f32⟩
  | 43 => ⟨S300000, .f32⟩
  | 44 => ⟨S300000, .i1⟩
  | 45 => ⟨S_, .f32⟩
  | 46 => ⟨S300000, .f32⟩
  | 47 => ⟨S300000, .f32⟩
  | 48 => ⟨S300000, .f32⟩
  | 49 => ⟨S_, .f32⟩
  | 50 => ⟨S_, .f32⟩
  | 51 => ⟨S300000, .f32⟩
  | 52 => ⟨S300000, .f32⟩
  | 53 => ⟨S_, .i32⟩
  | 54 => ⟨S2300000, .i32⟩
  | 55 => ⟨S2300000, .i1⟩
  | 56 => ⟨S_, .i32⟩
  | 57 => ⟨S2300000, .i32⟩
  | 58 => ⟨S2300000, .i32⟩
  | 59 => ⟨S2300000, .i32⟩
  | 60 => ⟨S2300000x1, .i32⟩
  | 61 => ⟨S2300000, .f32⟩
  | 62 => ⟨S_, .i32⟩
  | 63 => ⟨S2300000, .i32⟩
  | 64 => ⟨S2300000, .i1⟩
  | 65 => ⟨S_, .i32⟩
  | 66 => ⟨S2300000, .i32⟩
  | 67 => ⟨S2300000, .i32⟩
  | 68 => ⟨S2300000, .i32⟩
  | 69 => ⟨S2300000x1, .i32⟩
  | 70 => ⟨S2300000, .f32⟩
  | 71 => ⟨S2300000, .f32⟩
  | 72 => ⟨S_, .i32⟩
  | 73 => ⟨S2300000, .i32⟩
  | 74 => ⟨S2300000, .i1⟩
  | 75 => ⟨S_, .i32⟩
  | 76 => ⟨S2300000, .i32⟩
  | 77 => ⟨S2300000, .i32⟩
  | 78 => ⟨S2300000, .i32⟩
  | 79 => ⟨S2300000x1, .i32⟩
  | 80 => ⟨S2300000x64, .f32⟩
  | 81 => ⟨S2300000x1, .f32⟩
  | 82 => ⟨S2300000x64, .f32⟩
  | 83 => ⟨S2300000x64, .f32⟩
  | 84 => ⟨S_, .f32⟩
  | 85 => ⟨S300000x64, .f32⟩
  | 86 => ⟨S2300000x1, .i32⟩
  | 87 => ⟨S300000x64, .f32⟩
  | 88 => ⟨S1x64, .f32⟩
  | 89 => ⟨S300000x64, .f32⟩
  | 90 => ⟨S300000x64, .f32⟩
  | 91 => ⟨S_, .f32⟩
  | 92 => ⟨S300000x64, .f32⟩
  | 93 => ⟨S300000x64, .f32⟩
  | 94 => ⟨S300000x64, .f32⟩
  | 95 => ⟨S_, .f32⟩
  | 96 => ⟨S2300000, .f32⟩
  | 97 => ⟨S_, .f32⟩
  | 98 => ⟨S300000, .f32⟩
  | 99 => ⟨S2300000x1, .i32⟩
  | 100 => ⟨S300000, .f32⟩
  | 101 => ⟨S_, .f32⟩
  | 102 => ⟨S300000, .f32⟩
  | 103 => ⟨S300000, .i1⟩
  | 104 => ⟨S_, .f32⟩
  | 105 => ⟨S300000, .f32⟩
  | 106 => ⟨S300000, .f32⟩
  | 107 => ⟨S300000, .f32⟩
  | 108 => ⟨S_, .f32⟩
  | 109 => ⟨S_, .f32⟩
  | 110 => ⟨S300000, .f32⟩
  | 111 => ⟨S300000, .f32⟩
  | 112 => ⟨S_, .i32⟩
  | 113 => ⟨S2300000, .i32⟩
  | 114 => ⟨S2300000, .i1⟩
  | 115 => ⟨S_, .i32⟩
  | 116 => ⟨S2300000, .i32⟩
  | 117 => ⟨S2300000, .i32⟩
  | 118 => ⟨S2300000, .i32⟩
  | 119 => ⟨S2300000x1, .i32⟩
  | 120 => ⟨S2300000, .f32⟩
  | 121 => ⟨S_, .i32⟩
  | 122 => ⟨S2300000, .i32⟩
  | 123 => ⟨S2300000, .i1⟩
  | 124 => ⟨S_, .i32⟩
  | 125 => ⟨S2300000, .i32⟩
  | 126 => ⟨S2300000, .i32⟩
  | 127 => ⟨S2300000, .i32⟩
  | _ => ⟨S2x1000000, .i32⟩

abbrev hbmTy0_1 (i : Nat) : BufTy := match i % 128 with
  | 0 => ⟨S2300000x1, .i32⟩
  | 1 => ⟨S2300000, .f32⟩
  | 2 => ⟨S2300000, .f32⟩
  | 3 => ⟨S_, .i32⟩
  | 4 => ⟨S2300000, .i32⟩
  | 5 => ⟨S2300000, .i1⟩
  | 6 => ⟨S_, .i32⟩
  | 7 => ⟨S2300000, .i32⟩
  | 8 => ⟨S2300000, .i32⟩
  | 9 => ⟨S2300000, .i32⟩
  | 10 => ⟨S2300000x1, .i32⟩
  | 11 => ⟨S2300000x64, .f32⟩
  | 12 => ⟨S2300000x1, .f32⟩
  | 13 => ⟨S2300000x64, .f32⟩
  | 14 => ⟨S2300000x64, .f32⟩
  | 15 => ⟨S_, .f32⟩
  | 16 => ⟨S300000x64, .f32⟩
  | 17 => ⟨S2300000x1, .i32⟩
  | 18 => ⟨S300000x64, .f32⟩
  | 19 => ⟨S1x64, .f32⟩
  | 20 => ⟨S300000x64, .f32⟩
  | 21 => ⟨S300000x64, .f32⟩
  | 22 => ⟨S200000x64, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x64, .f32⟩
  | 32 => ⟨S100000x64, .f32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000x64, .f32⟩
  | 42 => ⟨S1000000x128, .f32⟩
  | 43 => ⟨S1000000x64, .f32⟩
  | 44 => ⟨S1x64, .f32⟩
  | 45 => ⟨S1000000x64, .f32⟩
  | 46 => ⟨S1000000x64, .f32⟩
  | 47 => ⟨S_, .f32⟩
  | 48 => ⟨S1000000x64, .f32⟩
  | 49 => ⟨S1000000x64, .f32⟩
  | 50 => ⟨S1000000x1, .f32⟩
  | 51 => ⟨S1x1, .f32⟩
  | 52 => ⟨S1000000x1, .f32⟩
  | 53 => ⟨S1000000x1, .f32⟩
  | 54 => ⟨S1000000x1, .f32⟩
  | 55 => ⟨S1000000x1, .f32⟩
  | 56 => ⟨S_, .f32⟩
  | 57 => ⟨S1000000x1, .f32⟩
  | 58 => ⟨S1000000x1, .f32⟩
  | 59 => ⟨S_, .f32⟩
  | 60 => ⟨S1000000x1, .f32⟩
  | 61 => ⟨S1000000x1, .f32⟩
  | 62 => ⟨S1000000, .f32⟩
  | 63 => ⟨S_, .f32⟩
  | 64 => ⟨S1000000, .f32⟩
  | 65 => ⟨S1000000, .f32⟩
  | _ => ⟨S2x1000000, .i32⟩

abbrev hbmTy (i : Nat) : BufTy := match i / 128 with
  | 0 => hbmTy0_0 i
  | 1 => hbmTy0_1 i
  | _ => ⟨S2x1000000, .i32⟩

abbrev bufTy : (tb : Table) → Fin (tcTables nBuf tb) → BufTy
  | .hbm, ⟨i, _⟩ => hbmTy i
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_call0_v0 : Ref sig .tc := ⟨.hbm, 50, rfl⟩
abbrev main_call0_v1 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_5 : Ref sig .tc := ⟨.hbm, 62, rfl⟩
abbrev main_v36 : Ref sig .tc := ⟨.hbm, 63, rfl⟩
abbrev main_v37 : Ref sig .tc := ⟨.hbm, 64, rfl⟩
abbrev main_c_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_7 : Ref sig .tc := ⟨.hbm, 72, rfl⟩
abbrev main_v44 : Ref sig .tc := ⟨.hbm, 73, rfl⟩
abbrev main_v45 : Ref sig .tc := ⟨.hbm, 74, rfl⟩
abbrev main_c_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call1_cst : Ref sig .tc := ⟨.hbm, 91, rfl⟩
abbrev main_call1_v0 : Ref sig .tc := ⟨.hbm, 92, rfl⟩
abbrev main_v60 : Ref sig .tc := ⟨.hbm, 93, rfl⟩
abbrev main_v61 : Ref sig .tc := ⟨.hbm, 94, rfl⟩
abbrev main_cst_10 : Ref sig .tc := ⟨.hbm, 95, rfl⟩
abbrev main_v62 : Ref sig .tc := ⟨.hbm, 96, rfl⟩
abbrev main_cst_11 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_12 : Ref sig .tc := ⟨.hbm, 101, rfl⟩
abbrev main_v66 : Ref sig .tc := ⟨.hbm, 102, rfl⟩
abbrev main_v67 : Ref sig .tc := ⟨.hbm, 103, rfl⟩
abbrev main_cst_13 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_14 : Ref sig .tc := ⟨.hbm, 108, rfl⟩
abbrev main_call2_v0 : Ref sig .tc := ⟨.hbm, 109, rfl⟩
abbrev main_call2_v1 : Ref sig .tc := ⟨.hbm, 110, rfl⟩
abbrev main_v71 : Ref sig .tc := ⟨.hbm, 111, rfl⟩
abbrev main_c_15 : Ref sig .tc := ⟨.hbm, 112, rfl⟩
abbrev main_v72 : Ref sig .tc := ⟨.hbm, 113, rfl⟩
abbrev main_v73 : Ref sig .tc := ⟨.hbm, 114, rfl⟩
abbrev main_c_16 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_c_17 : Ref sig .tc := ⟨.hbm, 121, rfl⟩
abbrev main_v79 : Ref sig .tc := ⟨.hbm, 122, rfl⟩
abbrev main_v80 : Ref sig .tc := ⟨.hbm, 123, rfl⟩
abbrev main_c_18 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_c_19 : Ref sig .tc := ⟨.hbm, 131, rfl⟩
abbrev main_v87 : Ref sig .tc := ⟨.hbm, 132, rfl⟩
abbrev main_v88 : Ref sig .tc := ⟨.hbm, 133, rfl⟩
abbrev main_c_20 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_21 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_22 : Ref sig .tc := ⟨.hbm, 151, rfl⟩
abbrev main_v104 : Ref sig .tc := ⟨.hbm, 152, rfl⟩
abbrev main_v105 : Ref sig .tc := ⟨.hbm, 153, rfl⟩
abbrev main_c_23 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_c_24 : Ref sig .tc := ⟨.hbm, 161, rfl⟩
abbrev main_v112 : Ref sig .tc := ⟨.hbm, 162, rfl⟩
abbrev main_v113 : Ref sig .tc := ⟨.hbm, 163, rfl⟩
abbrev main_c_25 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_call3_cst : Ref sig .tc := ⟨.hbm, 175, rfl⟩
abbrev main_call3_v0 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_26 : Ref sig .tc := ⟨.hbm, 184, rfl⟩
abbrev main_v131 : Ref sig .tc := ⟨.hbm, 185, rfl⟩
abbrev main_v132 : Ref sig .tc := ⟨.hbm, 186, rfl⟩
abbrev main_cst_27 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_28 : Ref sig .tc := ⟨.hbm, 191, rfl⟩
abbrev main_v136 : Ref sig .tc := ⟨.hbm, 192, rfl⟩
abbrev main_v137 : Ref sig .tc := ⟨.hbm, 193, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S1x64_S100000x64_0_1 : S1x64.BroadcastsInDim S100000x64 (![0, 1] : Fin 2 → Fin S100000x64.rank)
  concatenates_S200000x64_S100000x64_S300000x64_d0 : Shape.Concatenates [S200000x64, S100000x64] S300000x64 0
  concatenates_S1000000_S1000000_S300000_S2300000_d0 : Shape.Concatenates [S1000000, S1000000, S300000] S2300000 0
  bcast_S_S2300000 : S_.BroadcastsInDim S2300000 (![] : Fin 0 → Fin S2300000.rank)
  bcast_S_S300000 : S_.BroadcastsInDim S300000 (![] : Fin 0 → Fin S300000.rank)
  bcast_S2300000_S2300000x1_0 : S2300000.BroadcastsInDim S2300000x1 (![0] : Fin 1 → Fin S2300000x1.rank)
  bcast_S2300000x1_S2300000x64_0_1 : S2300000x1.BroadcastsInDim S2300000x64 (![0, 1] : Fin 2 → Fin S2300000x64.rank)
  bcast_S_S300000x64 : S_.BroadcastsInDim S300000x64 (![] : Fin 0 → Fin S300000x64.rank)
  bcast_S1x64_S300000x64_0_1 : S1x64.BroadcastsInDim S300000x64 (![0, 1] : Fin 2 → Fin S300000x64.rank)
  slices_S300000x64_S200000x64_0_0 : S300000x64.Slices ![0, 0] S200000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S300000x64_S100000x64_200000_0 : S300000x64.Slices ![200000, 0] S100000x64
  concatenates_S1000000x64_S1000000x64_S1000000x128_d1 : Shape.Concatenates [S1000000x64, S1000000x64] S1000000x128 1
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  shapeCasts_S1000000x1_S1000000 : S1000000x1.ShapeCasts S1000000
  dot_S200000x128_S128x64_S200000x64_1_0_0_1_n_n_wf : DotDims.WF S200000x128 S128x64 S200000x64 [1] [0] [0] [1] [] []
  dot_S100000x128_S128x64_S100000x64_1_0_0_1_n_n_wf : DotDims.WF S100000x128 S128x64 S100000x64 [1] [0] [0] [1] [] []
  dot_S300000x64_S64x64_S300000x64_1_0_0_1_n_n_wf : DotDims.WF S300000x64 S64x64 S300000x64 [1] [0] [0] [1] [] []
  scatter_S300000_S2300000x1_S2300000_n_0_0_1_wf : ScatterDims.WF S300000 S2300000x1 S2300000 [] [0] [0] 1
  gather_S300000_S2300000x1_S2300000_n_0_n_n_0_1_1_wf : GatherDims.WF S300000 S2300000x1 S2300000 [] [0] [] [0] [] 1 ![1]
  gather_S300000x64_S2300000x1_S2300000x64_1_0_n_n_0_1_164_wf : GatherDims.WF S300000x64 S2300000x1 S2300000x64 [1] [0] [] [0] [] 1 ![1, 64]
  scatter_S300000x64_S2300000x1_S2300000x64_1_0_0_1_wf : ScatterDims.WF S300000x64 S2300000x1 S2300000x64 [1] [0] [0] 1
  gather_S200000x64_S1000000x1_S1000000x64_1_0_n_n_0_1_164_wf : GatherDims.WF S200000x64 S1000000x1 S1000000x64 [1] [0] [] [0] [] 1 ![1, 64]
  gather_S100000x64_S1000000x1_S1000000x64_1_0_n_n_0_1_164_wf : GatherDims.WF S100000x64 S1000000x1 S1000000x64 [1] [0] [] [0] [] 1 ![1, 64]
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []

variable [Facts₀]

def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf
def scatter_S300000_S2300000x1_S2300000_n_0_0_1 : ScatterDims S300000 S2300000x1 S2300000 where
  updateWindowDims := []
  insertedWindowDims := [0]
  scatterDimsToOperandDims := [0]
  indexVectorDim := 1
  wf := scatter_S300000_S2300000x1_S2300000_n_0_0_1_wf
def gather_S300000_S2300000x1_S2300000_n_0_n_n_0_1_1 : GatherDims S300000 S2300000x1 S2300000 where
  offsetDims := []
  collapsedSliceDims := [0]
  operandBatchingDims := []
  startIndicesBatchingDims := []
  startIndexMap := [0]
  indexVectorDim := 1
  sliceSizes := ![1]
  wf := gather_S300000_S2300000x1_S2300000_n_0_n_n_0_1_1_wf
def gather_S300000x64_S2300000x1_S2300000x64_1_0_n_n_0_1_164 : GatherDims S300000x64 S2300000x1 S2300000x64 where
  offsetDims := [1]
  collapsedSliceDims := [0]
  operandBatchingDims := []
  startIndicesBatchingDims := []
  startIndexMap := [0]
  indexVectorDim := 1
  sliceSizes := ![1, 64]
  wf := gather_S300000x64_S2300000x1_S2300000x64_1_0_n_n_0_1_164_wf
def scatter_S300000x64_S2300000x1_S2300000x64_1_0_0_1 : ScatterDims S300000x64 S2300000x1 S2300000x64 where
  updateWindowDims := [1]
  insertedWindowDims := [0]
  scatterDimsToOperandDims := [0]
  indexVectorDim := 1
  wf := scatter_S300000x64_S2300000x1_S2300000x64_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.Rb0.lean ====
/- Region 0: the block each window holds at a grid point, the value the body leaves in the output's block as a function of the inputs' blocks, and the body's run at every point, from any contents of the buffers at the region's entry. -/
import proofs.«100265_j85727547228235_2_alg».proof.Proof.Gen.Kernel.Launch
import proofs.«100265_j85727547228235_2_alg».proof.Proof.Gen.Kernel.Skeleton
import proofs.«100265_j85727547228235_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_S5000x128 : Rect S5000x128 := Rect.unit (s := S5000x128) ![0, 0] S5000x128.size inb_S5000x128_S5000x128_0_0
abbrev r0_S128x64 : Rect S128x64 := Rect.unit (s := S128x64) ![0, 0] S128x64.size inb_S128x64_S128x64_0_0
abbrev r0_S1x64 : Rect S1x64 := Rect.unit (s := S1x64) ![0, 0] S1x64.size inb_S1x64_S1x64_0_0
abbrev r0_S5000x64 : Rect S5000x64 := Rect.unit (s := S5000x64) ![0, 0] S5000x64.size inb_S5000x64_S5000x64_0_0

def out0_4 (x0 : Vec F S5000x128 .f32) (x1 : Vec F S128x64 .f32) (x2 : Vec F S1x64 .f32) (x3 : Vec F S5000x64 .f32) : Vec F S5000x64 .f32 :=
  View.canon [⟨r0_S5000x64, k0_pay1 (View.ld x0 r0_S5000x128) (View.ld x1 r0_S128x64) (View.ld x2 r0_S1x64) (View.ld x3 r0_S5000x64)⟩]

set_option maxHeartbeats 1000000 in
theorem sound_kernel0 (c : Dev nD) (E : Set ℕ) (i : grid0.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x128 .f32) (x1 : Vec F S128x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__feat_proj_kernel i arg1 harg1 arg2 harg2 arg3 harg3 arg4 harg4 arg5 harg5) K := by
  rw [cc0__feat_proj_kernel_eq_skeleton]
  unfold cc0__feat_proj_kernel_skel owns
  iintro ⟨⟨%a0, %ha0, Hx0⟩, ⟨%a1, %ha1, Hx1⟩, ⟨%a2, %ha2, Hx2⟩, ⟨%a3, %ha3, Hx3⟩, ⟨%d4, %a4, -, Hx4⟩, Hk⟩
  subst ha0 ha1 ha2 ha3
  sl_exec
  sl_step
  iapply Hk
  isplitl [Hx0]; · iexists a0; iframe Hx0; ipureintro; rfl
  isplitl [Hx1]; · iexists a1; iframe Hx1; ipureintro; rfl
  isplitl [Hx2]; · iexists a2; iframe Hx2; ipureintro; rfl
  isplitl [Hx3]; · iexists a3; iframe Hx3; ipureintro; rfl
  iexists _; isplitr
  swap; · iexact Hx4
  ipureintro
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_4 (c : Dev nD) (t : Fin cfg0.N) : (dat0 V c).after 4 t = out0_4 (iblk0 V c 0 t) (iblk0 V c 1 t) (iblk0 V c 2 t) (iblk0 V c 3 t) := by dsimp only [dat0]

/-- The body returns each input's block unchanged, so an input is found at every point as it is left there. -/
theorem before0 (c : Dev nD) : ∀ w : Fin cfg0.W, (cfg0.win w).isOut = false → ∀ t d, (dat0 V c).before w t d = (dat0 V c).after w t
  | ⟨0, _⟩, h | ⟨1, _⟩, h | ⟨2, _⟩, h | ⟨3, _⟩, h => fun t d =>
    ((dat0 V c).before_in_eq_fetched _ h (fun _ => rfl) (fun _ _ _ => rfl) (fun _ => rfl) t d).trans rfl
  | ⟨4, _⟩, h => nomatch h

theorem body_obligation0 (c : Dev nD) : BodyObligation (dat0 (F := F) V c) (defs₀ (F := F)) Variants.none () Set.univ := fun t => by
  rw [bigSep_W0, bigSep_W0]
  simp (disch := rfl) only [before0 V c, show ∀ w i, cfg0.idle w i = false from fun _ _ => rfl,
    show (dat0 V c).after 4 t = out0_4 ((dat0 V c).after 0 t) ((dat0 V c).after 1 t) ((dat0 V c).after 2 t) ((dat0 V c).after 3 t) from by dsimp only [dat0]]
  rw [show (dat0 V c).Φ t.succ = (dat0 V c).Φ t.castSucc from rfl,
    show (dat0 V c).owesAt () t.succ = (dat0 V c).owesAt () t.castSucc from rfl]
  show _ ⊢ wp _ _ _ (bodyAt0 t) _
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ ((dat0 V c).after 0 t) ((dat0 V c).after 1 t) ((dat0 V c).after 2 t) ((dat0 V c).after 3 t) _)
  iframe H0 H1 H2 H3
  isplitl [H4]; · iexists _; iexact H4
  iintro ⟨H0, H1, H2, H3, H4⟩
  iframe

end Cert.Kernel.Hand

end
-- ==== Proof.Rb1.lean ====
/- Region 1: the block each window holds at a grid point, the value the body leaves in the output's block as a function of the inputs' blocks, and the body's run at every point, from any contents of the buffers at the region's entry. -/
import proofs.«100265_j85727547228235_2_alg».proof.Proof.Gen.Kernel.Launch
import proofs.«100265_j85727547228235_2_alg».proof.Proof.Gen.Kernel.Skeleton
import proofs.«100265_j85727547228235_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_S5000x128 : Rect S5000x128 := Rect.unit (s := S5000x128) ![0, 0] S5000x128.size inb_S5000x128_S5000x128_0_0
abbrev r1_S128x64 : Rect S128x64 := Rect.unit (s := S128x64) ![0, 0] S128x64.size inb_S128x64_S128x64_0_0
abbrev r1_S1x64 : Rect S1x64 := Rect.unit (s := S1x64) ![0, 0] S1x64.size inb_S1x64_S1x64_0_0
abbrev r1_S5000x64 : Rect S5000x64 := Rect.unit (s := S5000x64) ![0, 0] S5000x64.size inb_S5000x64_S5000x64_0_0

def out1_4 (x0 : Vec F S5000x128 .f32) (x1 : Vec F S128x64 .f32) (x2 : Vec F S1x64 .f32) (x3 : Vec F S5000x64 .f32) : Vec F S5000x64 .f32 :=
  View.canon [⟨r1_S5000x64, k1_pay1 (View.ld x0 r1_S5000x128) (View.ld x1 r1_S128x64) (View.ld x2 r1_S1x64) (View.ld x3 r1_S5000x64)⟩]

set_option maxHeartbeats 1000000 in
theorem sound_kernel1 (c : Dev nD) (E : Set ℕ) (i : grid1.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x128 .f32) (x1 : Vec F S128x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__feat_proj_kernel i arg1 harg1 arg2 harg2 arg3 harg3 arg4 harg4 arg5 harg5) K := by
  rw [cc1__feat_proj_kernel_eq_skeleton]
  unfold cc1__feat_proj_kernel_skel owns
  iintro ⟨⟨%a0, %ha0, Hx0⟩, ⟨%a1, %ha1, Hx1⟩, ⟨%a2, %ha2, Hx2⟩, ⟨%a3, %ha3, Hx3⟩, ⟨%d4, %a4, -, Hx4⟩, Hk⟩
  subst ha0 ha1 ha2 ha3
  sl_exec
  sl_step
  iapply Hk
  isplitl [Hx0]; · iexists a0; iframe Hx0; ipureintro; rfl
  isplitl [Hx1]; · iexists a1; iframe Hx1; ipureintro; rfl
  isplitl [Hx2]; · iexists a2; iframe Hx2; ipureintro; rfl
  isplitl [Hx3]; · iexists a3; iframe Hx3; ipureintro; rfl
  iexists _; isplitr
  swap; · iexact Hx4
  ipureintro
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = out1_4 (iblk1 V c 0 t) (iblk1 V c 1 t) (iblk1 V c 2 t) (iblk1 V c 3 t) := by dsimp only [dat1]

/-- The body returns each input's block unchanged, so an input is found at every point as it is left there. -/
theorem before1 (c : Dev nD) : ∀ w : Fin cfg1.W, (cfg1.win w).isOut = false → ∀ t d, (dat1 V c).before w t d = (dat1 V c).after w t
  | ⟨0, _⟩, h | ⟨1, _⟩, h | ⟨2, _⟩, h | ⟨3, _⟩, h => fun t d =>
    ((dat1 V c).before_in_eq_fetched _ h (fun _ => rfl) (fun _ _ _ => rfl) (fun _ => rfl) t d).trans rfl
  | ⟨4, _⟩, h => nomatch h

theorem body_obligation1 (c : Dev nD) : BodyObligation (dat1 (F := F) V c) (defs₀ (F := F)) Variants.none () Set.univ := fun t => by
  rw [bigSep_W1, bigSep_W1]
  simp (disch := rfl) only [before1 V c, show ∀ w i, cfg1.idle w i = false from fun _ _ => rfl,
    show (dat1 V c).after 4 t = out1_4 ((dat1 V c).after 0 t) ((dat1 V c).after 1 t) ((dat1 V c).after 2 t) ((dat1 V c).after 3 t) from by dsimp only [dat1]]
  rw [show (dat1 V c).Φ t.succ = (dat1 V c).Φ t.castSucc from rfl,
    show (dat1 V c).owesAt () t.succ = (dat1 V c).owesAt () t.castSucc from rfl]
  show _ ⊢ wp _ _ _ (bodyAt1 t) _
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ ((dat1 V c).after 0 t) ((dat1 V c).after 1 t) ((dat1 V c).after 2 t) ((dat1 V c).after 3 t) _)
  iframe H0 H1 H2 H3
  isplitl [H4]; · iexists _; iexact H4
  iintro ⟨H0, H1, H2, H3, H4⟩
  iframe

end Cert.Kernel.Hand

end
-- ==== Proof.Rb2.lean ====
/- Region 2: the block each window holds at a grid point, the value the body leaves in the output's block as a function of the inputs' blocks, and the body's run at every point, from any contents of the buffers at the region's entry. -/
import proofs.«100265_j85727547228235_2_alg».proof.Proof.Gen.Kernel.Launch
import proofs.«100265_j85727547228235_2_alg».proof.Proof.Gen.Kernel.Skeleton
import proofs.«100265_j85727547228235_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_S5000x64 : Rect S5000x64 := Rect.unit (s := S5000x64) ![0, 0] S5000x64.size inb_S5000x64_S5000x64_0_0
abbrev r2_S64x64 : Rect S64x64 := Rect.unit (s := S64x64) ![0, 0] S64x64.size inb_S64x64_S64x64_0_0
abbrev r2_S5000x1 : Rect S5000x1 := Rect.unit (s := S5000x1) ![0, 0] S5000x1.size inb_S5000x1_S5000x1_0_0

def out2_3 (x0 : Vec F S5000x64 .f32) (x1 : Vec F S64x64 .f32) (x2 : Vec F S5000x1 .f32) : Vec F S5000x64 .bf16 :=
  View.canon [⟨r2_S5000x64, k2_pay1 (View.ld x0 r2_S5000x64) (View.ld x1 r2_S64x64) (View.ld x2 r2_S5000x1)⟩]

set_option maxHeartbeats 1000000 in
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S5000x1 .f32) (harg3 : arg3.IsWhole) (arg4 : Memref sig .tc .vmem S5000x64 .bf16) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_scaled_kernel i arg1 harg1 arg2 harg2 arg3 harg3 arg4 harg4) K := by
  simp only [cc2__matmul_scaled_kernel_eq_skeleton]; unfold cc2__matmul_scaled_kernel_skel owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  iexists _; isplitr
  swap; · iexact H3
  ipureintro
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by dsimp only [dat2]

/-- The body returns each input's block unchanged, so an input is found at every point as it is left there. -/
theorem before2 (c : Dev nD) : ∀ w : Fin cfg2.W, (cfg2.win w).isOut = false → ∀ t d, (dat2 V c).before w t d = (dat2 V c).after w t
  | ⟨0, _⟩, h | ⟨1, _⟩, h | ⟨2, _⟩, h => fun t d =>
    ((dat2 V c).before_in_eq_fetched _ h (fun _ => rfl) (fun _ _ _ => rfl) (fun _ => rfl) t d).trans rfl
  | ⟨3, _⟩, h => nomatch h

theorem body_obligation2 (c : Dev nD) : BodyObligation (dat2 (F := F) V c) (defs₀ (F := F)) Variants.none () Set.univ := fun t => by
  rw [bigSep_W2, bigSep_W2]
  simp (disch := rfl) only [before2 V c, show ∀ w i, cfg2.idle w i = false from fun _ _ => rfl,
    show (dat2 V c).after 3 t = out2_3 ((dat2 V c).after 0 t) ((dat2 V c).after 1 t) ((dat2 V c).after 2 t) from by dsimp only [dat2]]
  rw [show (dat2 V c).Φ t.succ = (dat2 V c).Φ t.castSucc from rfl,
    show (dat2 V c).owesAt () t.succ = (dat2 V c).owesAt () t.castSucc from rfl]
  show _ ⊢ wp _ _ _ (bodyAt2 t) _
  iintro ⟨HΦ, Ho, ⟨%d0, H0⟩, ⟨%d1, H1⟩, ⟨%d2, H2⟩, ⟨%d3, H3⟩⟩
  iapply (sound_kernel2 c Set.univ _ _ _ _ _ _ _ _ _ ((dat2 V c).after 0 t) ((dat2 V c).after 1 t) ((dat2 V c).after 2 t) _)
  iframe H0 H1 H2
  isplitl [H3]; · iexists _; iexact H3
  iintro ⟨H0, H1, H2, H3⟩
  iframe

end Cert.Kernel.Hand

end
-- ==== Proof.Rb3.lean ====
/- Region 3: the block each window holds at a grid point, the value the body leaves in the output's block as a function of the inputs' blocks, and the body's run at every point, from any contents of the buffers at the region's entry. -/
import proofs.«100265_j85727547228235_2_alg».proof.Proof.Gen.Kernel.Launch
import proofs.«100265_j85727547228235_2_alg».proof.Proof.Gen.Kernel.Skeleton
import proofs.«100265_j85727547228235_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_S5000x64 : Rect S5000x64 := Rect.unit (s := S5000x64) ![0, 0] S5000x64.size inb_S5000x64_S5000x64_0_0
abbrev r3_S1x64 : Rect S1x64 := Rect.unit (s := S1x64) ![0, 0] S1x64.size inb_S1x64_S1x64_0_0
abbrev r3_S5000x1 : Rect S5000x1 := Rect.unit (s := S5000x1) ![0, 0] S5000x1.size inb_S5000x1_S5000x1_0_0
abbrev r3_S64x64 : Rect S64x64 := Rect.unit (s := S64x64) ![0, 0] S64x64.size inb_S64x64_S64x64_0_0

def out3_4 (x0 : Vec F S5000x64 .f32) (x1 : Vec F S1x64 .f32) (x2 : Vec F S5000x1 .f32) (x3 : Vec F S64x64 .f32) : Vec F S5000x64 .bf16 :=
  View.canon [⟨r3_S5000x64, k3_pay1 (View.ld x2 r3_S5000x1) (View.ld x0 r3_S5000x64) (View.ld x1 r3_S1x64) (View.ld x3 r3_S64x64) (View.ld x2 r3_S5000x1)⟩]

set_option maxHeartbeats 1000000 in
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S5000x1 .f32) (harg3 : arg3.IsWhole) (arg4 : Memref sig .tc .vmem S64x64 .f32) (harg4 : arg4.IsWhole) (arg5 : Memref sig .tc .vmem S5000x64 .bf16) (harg5 : arg5.IsWhole)
    (x0 : Vec F S5000x64 .f32) (x1 : Vec F S1x64 .f32) (x2 : Vec F S5000x1 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__bias_relu_matmul_scale_kernel i arg1 harg1 arg2 harg2 arg3 harg3 arg4 harg4 arg5 harg5) K := by
  simp only [cc3__bias_relu_matmul_scale_kernel_eq_skeleton]; unfold cc3__bias_relu_matmul_scale_kernel_skel owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; isplitr
  swap; · iexact H4
  ipureintro
  exact View.read_writes_eq_canon _ _ _ (View.cover_of_tiled _ S5000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) : (dat3 V c).after 4 t = out3_4 (iblk3 V c 0 t) (iblk3 V c 1 t) (iblk3 V c 2 t) (iblk3 V c 3 t) := by dsimp only [dat3]

/-- The body returns each input's block unchanged, so an input is found at every point as it is left there. -/
theorem before3 (c : Dev nD) : ∀ w : Fin cfg3.W, (cfg3.win w).isOut = false → ∀ t d, (dat3 V c).before w t d = (dat3 V c).after w t
  | ⟨0, _⟩, h | ⟨1, _⟩, h | ⟨2, _⟩, h | ⟨3, _⟩, h => fun t d =>
    ((dat3 V c).before_in_eq_fetched _ h (fun _ => rfl) (fun _ _ _ => rfl) (fun _ => rfl) t d).trans rfl
  | ⟨4, _⟩, h => nomatch h

theorem body_obligation3 (c : Dev nD) : BodyObligation (dat3 (F := F) V c) (defs₀ (F := F)) Variants.none () Set.univ := fun t => by
  rw [bigSep_W3, bigSep_W3]
  simp (disch := rfl) only [before3 V c, show ∀ w i, cfg3.idle w i = false from fun _ _ => rfl,
    show (dat3 V c).after 4 t = out3_4 ((dat3 V c).after 0 t) ((dat3 V c).after 1 t) ((dat3 V c).after 2 t) ((dat3 V c).after 3 t) from by dsimp only [dat3]]
  rw [show (dat3 V c).Φ t.succ = (dat3 V c).Φ t.castSucc from rfl,
    show (dat3 V c).owesAt () t.succ = (dat3 V c).owesAt () t.castSucc from rfl]
  show _ ⊢ wp _ _ _ (bodyAt3 t) _
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ ((dat3 V c).after 0 t) ((dat3 V c).after 1 t) ((dat3 V c).after 2 t) ((dat3 V c).after 3 t) _)
  iframe H0 H1 H2 H3
  isplitl [H4]; · iexists _; iexact H4
  iintro ⟨H0, H1, H2, H3, H4⟩
  iframe

end Cert.Kernel.Hand

end
-- ==== Proof.Rb4.lean ====
/- Region 4: the block each window holds at a grid point, the value the body leaves in the output's block as a function of the inputs' blocks, and the body's run at every point, from any contents of the buffers at the region's entry. -/
import proofs.«100265_j85727547228235_2_alg».proof.Proof.Gen.Kernel.Launch
import proofs.«100265_j85727547228235_2_alg».proof.Proof.Gen.Kernel.Skeleton
import proofs.«100265_j85727547228235_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_S5000x64 : Rect S5000x64 := Rect.unit (s := S5000x64) ![0, 0] S5000x64.size inb_S5000x64_S5000x64_0_0
abbrev r4_S1x64 : Rect S1x64 := Rect.unit (s := S1x64) ![0, 0] S1x64.size inb_S1x64_S1x64_0_0
abbrev r4_S5000x1 : Rect S5000x1 := Rect.unit (s := S5000x1) ![0, 0] S5000x1.size inb_S5000x1_S5000x1_0_0

def out4_3 (x0 : Vec F S5000x64 .f32) (x1 : Vec F S1x64 .f32) (x2 : Vec F S5000x1 .f32) : Vec F S5000x64 .f32 :=
  View.canon [⟨r4_S5000x64, k4_pay1 (View.ld x2 r4_S5000x1) (View.ld x0 r4_S5000x64) (View.ld x1 r4_S1x64)⟩]

set_option maxHeartbeats 1000000 in
theorem sound_kernel4 (c : Dev nD) (E : Set ℕ) (i : grid4.Coords) (arg1 : Memref sig .tc .vmem S5000x64 .f32) (harg1 : arg1.IsWhole) (arg2 : Memref sig .tc .vmem S1x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S1x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__bias_scale_kernel i arg1 harg1 arg2 harg2 arg3 harg3 arg4 harg4) K := by
  simp only [cc4__bias_scale_kernel_eq_skeleton]; unfold cc4__bias_scale_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  iexists _; isplitr
  swap; · iexact H3
  ipureintro
  exact View.read_writes_eq_canon _ _ _ (View.cover_of_tiled _ S5000x64.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = out4_3 (iblk4 V c 0 t) (iblk4 V c 1 t) (iblk4 V c 2 t) := by dsimp only [dat4]

/-- The body returns each input's block unchanged, so an input is found at every point as it is left there. -/
theorem before4 (c : Dev nD) : ∀ w : Fin cfg4.W, (cfg4.win w).isOut = false → ∀ t d, (dat4 V c).before w t d = (dat4 V c).after w t
  | ⟨0, _⟩, h | ⟨1, _⟩, h | ⟨2, _⟩, h => fun t d =>
    ((dat4 V c).before_in_eq_fetched _ h (fun _ => rfl) (fun _ _ _ => rfl) (fun _ => rfl) t d).trans rfl
  | ⟨3, _⟩, h => nomatch h

theorem body_obligation4 (c : Dev nD) : BodyObligation (dat4 (F := F) V c) (defs₀ (F := F)) Variants.none () Set.univ := fun t => by
  rw [bigSep_W4, bigSep_W4]
  simp (disch := rfl) only [before4 V c, show ∀ w i, cfg4.idle w i = false from fun _ _ => rfl,
    show (dat4 V c).after 3 t = out4_3 ((dat4 V c).after 0 t) ((dat4 V c).after 1 t) ((dat4 V c).after 2 t) from by dsimp only [dat4]]
  rw [show (dat4 V c).Φ t.succ = (dat4 V c).Φ t.castSucc from rfl,
    show (dat4 V c).owesAt () t.succ = (dat4 V c).owesAt () t.castSucc from rfl]
  show _ ⊢ wp _ _ _ (bodyAt4 t) _
  iintro ⟨HΦ, Ho, ⟨%d0, H0⟩, ⟨%d1, H1⟩, ⟨%d2, H2⟩, ⟨%d3, H3⟩⟩
  iapply (sound_kernel4 c Set.univ (grid4.coords t) _ _ _ _ _ _ _ _ ((dat4 V c).after 0 t) ((dat4 V c).after 1 t) ((dat4 V c).after 2 t) _)
  iframe H0 H1 H2
  isplitl [H3]; · iexists _; iexact H3
  iintro ⟨H0, H1, H2, H3⟩
  iframe

end Cert.Kernel.Hand

end
-- ==== Proof.Rb5.lean ====
/- Region 5: the block each window holds at a grid point, the value the body leaves in the output's block as a function of the inputs' blocks, and the body's run at every point, from any contents of the buffers at the region's entry. -/
import proofs.«100265_j85727547228235_2_alg».proof.Proof.Gen.Kernel.Launch
import proofs.«100265_j85727547228235_2_alg».proof.Proof.Gen.Kernel.Skeleton
import proofs.«100265_j85727547228235_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_S5000x64 : Rect S5000x64 := Rect.unit (s := S5000x64) ![0, 0] S5000x64.size inb_S5000x64_S5000x64_0_0
abbrev r5_S64x64 : Rect S64x64 := Rect.unit (s := S64x64) ![0, 0] S64x64.size inb_S64x64_S64x64_0_0

def out5_2 (x0 : Vec F S5000x64 .f32) (x1 : Vec F S64x64 .f32) : Vec F S5000x64 .bf16 :=
  View.canon [⟨r5_S5000x64, k5_pay1 (View.ld x0 r5_S5000x64) (View.ld x1 r5_S64x64)⟩]

set_option maxHeartbeats 1000000 in
theorem sound_kernel5 (c : Dev nD) (E : Set ℕ) (i : grid5.Coords) (arg1 : Memref sig .tc .vmem S5000x64 .f32) (harg1 : arg1.IsWhole) (arg2 : Memref sig .tc .vmem S64x64 .f32) (harg2 : arg2.IsWhole) (arg3 : Memref sig .tc .vmem S5000x64 .bf16) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe H0; ipureintro; rfl
  isplitl [H1]; · iexists f1; iframe H1; ipureintro; rfl
  iexists _; isplitr
  swap; · iexact H2
  ipureintro
  exact View.read_writes_eq_canon _ _ _ (View.cover_of_tiled _ S5000x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := rfl

theorem after5_2 (c : Dev nD) (t : Fin cfg5.N) : (dat5 V c).after 2 t = out5_2 (iblk5 V c 0 t) (iblk5 V c 1 t) := by dsimp only [dat5]

/-- The body returns each input's block unchanged, so an input is found at every point as it is left there. -/
theorem before5 (c : Dev nD) : ∀ w : Fin cfg5.W, (cfg5.win w).isOut = false → ∀ t d, (dat5 V c).before w t d = (dat5 V c).after w t
  | ⟨0, _⟩, h | ⟨1, _⟩, h => fun t d =>
    ((dat5 V c).before_in_eq_fetched _ h (fun _ => rfl) (fun _ _ _ => rfl) (fun _ => rfl) t d).trans rfl
  | ⟨2, _⟩, h => nomatch h

theorem body_obligation5 (c : Dev nD) : BodyObligation (dat5 (F := F) V c) (defs₀ (F := F)) Variants.none () Set.univ := fun t => by
  rw [bigSep_W5, bigSep_W5]
  simp (disch := rfl) only [before5 V c, show ∀ w i, cfg5.idle w i = false from fun _ _ => rfl,
    show (dat5 V c).after 2 t = out5_2 ((dat5 V c).after 0 t) ((dat5 V c).after 1 t) from by dsimp only [dat5]]
  rw [show (dat5 V c).Φ t.succ = (dat5 V c).Φ t.castSucc from rfl,
    show (dat5 V c).owesAt () t.succ = (dat5 V c).owesAt () t.castSucc from rfl]
  show _ ⊢ wp _ _ _ (bodyAt5 t) _
  iintro ⟨HΦ, Ho, ⟨%d0, H0⟩, ⟨%d1, H1⟩, ⟨%d2, H2⟩⟩
  iapply (sound_kernel5 c Set.univ _ _ _ _ _ _ _ ((dat5 V c).after 0 t) ((dat5 V c).after 1 t) _)
  iframe H0 H1
  isplitl [H2]; · iexists _; iexact H2
  iintro ⟨H0, H1, H2⟩
  iframe

end Cert.Kernel.Hand

end
-- ==== Proof.Rb6.lean ====
/- Region 6: the block each window holds at a grid point, the value the body leaves in the output's block as a function of the inputs' blocks, and the body's run at every point, from any contents of the buffers at the region's entry. -/
import proofs.«100265_j85727547228235_2_alg».proof.Proof.Gen.Kernel.Launch
import proofs.«100265_j85727547228235_2_alg».proof.Proof.Gen.Kernel.Skeleton
import proofs.«100265_j85727547228235_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_S5000x64 : Rect S5000x64 := Rect.unit (s := S5000x64) ![0, 0] S5000x64.size inb_S5000x64_S5000x64_0_0
abbrev r6_S64x64 : Rect S64x64 := Rect.unit (s := S64x64) ![0, 0] S64x64.size inb_S64x64_S64x64_0_0

def out6_2 (x0 : Vec F S5000x64 .f32) (x1 : Vec F S64x64 .f32) : Vec F S5000x64 .bf16 :=
  View.canon [⟨r6_S5000x64, k6_pay1 (View.ld x0 r6_S5000x64) (View.ld x1 r6_S64x64)⟩]

set_option maxHeartbeats 1000000 in
theorem sound_kernel6 (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S5000x64 .bf16) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe H0; ipureintro; rfl
  isplitl [H1]; · iexists f1; iframe H1; ipureintro; rfl
  iexists _; isplitr
  swap; · iexact H2
  ipureintro
  exact View.read_writes_eq_canon _ _ _ (View.cover_of_tiled _ S5000x64.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = out6_2 (iblk6 V c 0 t) (iblk6 V c 1 t) := by dsimp only [dat6]

/-- The body returns each input's block unchanged, so an input is found at every point as it is left there. -/
theorem before6 (c : Dev nD) : ∀ w : Fin cfg6.W, (cfg6.win w).isOut = false → ∀ t d, (dat6 V c).before w t d = (dat6 V c).after w t
  | ⟨0, _⟩, h | ⟨1, _⟩, h => fun t d =>
    ((dat6 V c).before_in_eq_fetched _ h (fun _ => rfl) (fun _ _ _ => rfl) (fun _ => rfl) t d).trans rfl
  | ⟨2, _⟩, h => nomatch h

theorem body_obligation6 (c : Dev nD) : BodyObligation (dat6 (F := F) V c) (defs₀ (F := F)) Variants.none () Set.univ := fun t => by
  rw [bigSep_W6, bigSep_W6]
  simp (disch := rfl) only [before6 V c, show ∀ w i, cfg6.idle w i = false from fun _ _ => rfl,
    show (dat6 V c).after 2 t = out6_2 ((dat6 V c).after 0 t) ((dat6 V c).after 1 t) from by dsimp only [dat6]]
  rw [show (dat6 V c).Φ t.succ = (dat6 V c).Φ t.castSucc from rfl,
    show (dat6 V c).owesAt () t.succ = (dat6 V c).owesAt () t.castSucc from rfl]
  show _ ⊢ wp _ _ _ (bodyAt6 t) _
  iintro ⟨HΦ, Ho, ⟨%d0, H0⟩, ⟨%d1, H1⟩, ⟨%d2, H2⟩⟩
  iapply (sound_kernel6 c Set.univ _ _ _ _ _ _ _ ((dat6 V c).after 0 t) ((dat6 V c).after 1 t) _)
  iframe H0 H1
  isplitl [H2]; · iexists _; iexact H2
  iintro ⟨H0, H1, H2⟩
  iframe

end Cert.Kernel.Hand

end
-- ==== Proof.Rb7.lean ====
/- Region 7: the block each window holds at a grid point, the value the body leaves in the output's block as a function of the inputs' blocks, and the body's run at every point, from any contents of the buffers at the region's entry. -/
import proofs.«100265_j85727547228235_2_alg».proof.Proof.Gen.Kernel.Launch
import proofs.«100265_j85727547228235_2_alg».proof.Proof.Gen.Kernel.Skeleton
import proofs.«100265_j85727547228235_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_S5000x64 : Rect S5000x64 := Rect.unit (s := S5000x64) ![0, 0] S5000x64.size inb_S5000x64_S5000x64_0_0
abbrev r7_S1x64 : Rect S1x64 := Rect.unit (s := S1x64) ![0, 0] S1x64.size inb_S1x64_S1x64_0_0
abbrev r7_S64x1 : Rect S64x1 := Rect.unit (s := S64x1) ![0, 0] S64x1.size inb_S64x1_S64x1_0_0
abbrev r7_S1x1 : Rect S1x1 := Rect.unit (s := S1x1) ![0, 0] S1x1.size inb_S1x1_S1x1_0_0
abbrev r7_S5000x1 : Rect S5000x1 := Rect.unit (s := S5000x1) ![0, 0] S5000x1.size inb_S5000x1_S5000x1_0_0

def out7_5 (x0 : Vec F S5000x64 .bf16) (x1 : Vec F S5000x64 .bf16) (x2 : Vec F S1x64 .f32) (x3 : Vec F S64x1 .f32) (x4 : Vec F S1x1 .f32) : Vec F S5000x1 .f32 :=
  View.canon [⟨r7_S5000x1, k7_pay1 (View.ld x0 r7_S5000x64) (View.ld x1 r7_S5000x64) (View.ld x2 r7_S1x64) (View.ld x3 r7_S64x1) (View.ld x4 r7_S1x1)⟩]

set_option maxHeartbeats 1000000 in
theorem sound_kernel7 (c : Dev nD) (E : Set ℕ) (i : grid7.Coords) (arg1 : Memref sig .tc .vmem S5000x64 .bf16) (harg1 : arg1.IsWhole) (arg2 : Memref sig .tc .vmem S5000x64 .bf16) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S5000x1 .f32) (harg6 : arg6.IsWhole)
    (x0 : Vec F S5000x64 .bf16) (x1 : Vec F S5000x64 .bf16) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__pred_tail_kernel i arg1 harg1 arg2 harg2 arg3 harg3 arg4 harg4 arg5 harg5 arg6 harg6) K := by
  simp only [cc7__pred_tail_kernel_eq_skeleton]; unfold cc7__pred_tail_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; isplitr
  swap; · iexact H5
  ipureintro
  exact View.read_writes_eq_canon _ _ _ (View.cover_of_tiled _ S5000x1.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := rfl

theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

/-- The body returns each input's block unchanged, so an input is found at every point as it is left there. -/
theorem before7 (c : Dev nD) : ∀ w : Fin cfg7.W, (cfg7.win w).isOut = false → ∀ t d, (dat7 V c).before w t d = (dat7 V c).after w t
  | ⟨0, _⟩, h | ⟨1, _⟩, h | ⟨2, _⟩, h | ⟨3, _⟩, h | ⟨4, _⟩, h => fun t d =>
    ((dat7 V c).before_in_eq_fetched _ h (fun _ => rfl) (fun _ _ _ => rfl) (fun _ => rfl) t d).trans rfl
  | ⟨5, _⟩, h => nomatch h

theorem body_obligation7 (c : Dev nD) : BodyObligation (dat7 (F := F) V c) (defs₀ (F := F)) Variants.none () Set.univ := fun t => by
  rw [bigSep_W7, bigSep_W7]
  simp (disch := rfl) only [before7 V c, show ∀ w i, cfg7.idle w i = false from fun _ _ => rfl,
    show (dat7 V c).after 5 t = out7_5 ((dat7 V c).after 0 t) ((dat7 V c).after 1 t) ((dat7 V c).after 2 t) ((dat7 V c).after 3 t) ((dat7 V c).after 4 t) from by dsimp only [dat7]]
  rw [show (dat7 V c).Φ t.succ = (dat7 V c).Φ t.castSucc from rfl,
    show (dat7 V c).owesAt () t.succ = (dat7 V c).owesAt () t.castSucc from rfl]
  show _ ⊢ wp _ _ _ (bodyAt7 t) _
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ ((dat7 V c).after 0 t) ((dat7 V c).after 1 t) ((dat7 V c).after 2 t) ((dat7 V c).after 3 t) ((dat7 V c).after 4 t) _)
  iframe H0 H1 H2 H3 H4
  isplitl [H5]; · iexists _; iexact H5
  iintro ⟨H0, H1, H2, H3, H4, H5⟩
  iframe

end Cert.Kernel.Hand

end
-- ==== Proof.RunB.lean ====
/- The buffers' contents at every boundary between the program's host lines and kernel regions, each region as a segment between two boundaries, and the launch over the list: every execution ends with every buffer at the last boundary's contents. -/
import proofs.«100265_j85727547228235_2_alg».proof.Proof.Gen.Kernel.Launch
import proofs.«100265_j85727547228235_2_alg».proof.Proof.Gen.Kernel.Skeleton
import proofs.«100265_j85727547228235_2_alg».proof.Proof.Gen.Kernel.Points
import proofs.«100265_j85727547228235_2_alg».proof.Proof.Gen.Kernel.Regions
import proofs.«100265_j85727547228235_2_alg».proof.Proof.Rb0
import proofs.«100265_j85727547228235_2_alg».proof.Proof.Rb1
import proofs.«100265_j85727547228235_2_alg».proof.Proof.Rb2
import proofs.«100265_j85727547228235_2_alg».proof.Proof.Rb3
import proofs.«100265_j85727547228235_2_alg».proof.Proof.Rb4
import proofs.«100265_j85727547228235_2_alg».proof.Proof.Rb5
import proofs.«100265_j85727547228235_2_alg».proof.Proof.Rb6
import proofs.«100265_j85727547228235_2_alg».proof.Proof.Rb7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 (m : (ℓ : Loc nD τ sig) → Buf (Elt F) ℓ) (ρ : Dev nD → PrngReg) : Dev nD → Valuation τ sig (Elt F) := fun c b => m (c, b)

abbrev W1 : Dev nD → Valuation τ sig (Elt F) := fun c => StableHlo.after hostOps0 (W0 m ρ c)
abbrev Vh1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

def W2 (c : Dev nD) : Valuation τ sig (Elt F) :=
  Pipeline.withArrays spec0 c (W1 m ρ c) fun w => (dat0 (Vh1 m ρ) c).arrAt w cfg0.N
theorem W2_arr (c : Dev nD) (w : Fin cfg0.W) :
    W2 m ρ c (Proc.devRef .tc (Pipeline.arrRef spec0 w)) = (dat0 (Vh1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vh2 : (c : Dev nD) → (b : Ref sig .tc) → Buf (Elt F) ((c : Thread nD τ).loc b) := fun c b => W2 m ρ c b
theorem hF0 (c : Dev nD) (w : Fin cfg0.W) : (dat0 (Vh1 m ρ) c).arrAt w cfg0.N = Vh2 m ρ c (Pipeline.arrRef spec0 w) :=
  (W2_arr m ρ c w).symm
theorem hrest0 (c : Dev nD) : ∀ b, b ∉ Finset.univ.image (Pipeline.arrRef spec0) → Vh2 m ρ c b = Vh1 m ρ c b :=
  fun b hb => W2_of_ne m ρ c b fun w e => hb (Finset.mem_image.mpr ⟨w, Finset.mem_univ _, e⟩)

theorem W2_in0 (c : Dev nD) : W2 m ρ c (Proc.devRef .tc main_arg1) = W1 m ρ c (Proc.devRef .tc main_arg1) :=
  (W2_arr m ρ c 0).trans (((dat0 (Vh1 m ρ) c).arrAt_in 0 rfl _).trans (A_eq0 (Vh1 m ρ) c 0))
theorem W2_in1 (c : Dev nD) : W2 m ρ c (Proc.devRef .tc main_arg5) = W1 m ρ c (Proc.devRef .tc main_arg5) :=
  (W2_arr m ρ c 1).trans (((dat0 (Vh1 m ρ) c).arrAt_in 1 rfl _).trans (A_eq0 (Vh1 m ρ) c 1))
theorem W2_in2 (c : Dev nD) : W2 m ρ c (Proc.devRef .tc main_v4) = W1 m ρ c (Proc.devRef .tc main_v4) :=
  (W2_arr m ρ c 2).trans (((dat0 (Vh1 m ρ) c).arrAt_in 2 rfl _).trans (A_eq0 (Vh1 m ρ) c 2))
theorem W2_in3 (c : Dev nD) : W2 m ρ c (Proc.devRef .tc main_arg3) = W1 m ρ c (Proc.devRef .tc main_arg3) :=
  (W2_arr m ρ c 3).trans (((dat0 (Vh1 m ρ) c).arrAt_in 3 rfl _).trans (A_eq0 (Vh1 m ρ) c 3))

theorem W2_of (c : Dev nD) (r : Ref sig .tc) (h : r ∉ ([main_v5] : List (Ref sig .tc))) : W2 m ρ c (Proc.devRef .tc r) = W1 m ρ c (Proc.devRef .tc r) := by
  by_cases h0 : r = main_arg1
  · subst h0; exact W2_in0 m ρ c
  by_cases h1 : r = main_arg5
  · subst h1; exact W2_in1 m ρ c
  by_cases h2 : r = main_v4
  · subst h2; exact W2_in2 m ρ c
  by_cases h3 : r = main_arg3
  · subst h3; exact W2_in3 m ρ c
  refine W2_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h (List.mem_singleton.mpr e.symm)
  | ⟨_ + 5, hn⟩ => exact absurd hn (Nat.not_lt.2 (Nat.le_add_left _ _))

abbrev W3 : Dev nD → Valuation τ sig (Elt F) := fun c => StableHlo.after hostOps1 (W2 m ρ c)
abbrev Vh3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

def W4 (c : Dev nD) : Valuation τ sig (Elt F) :=
  Pipeline.withArrays spec1 c (W3 m ρ c) fun w => (dat1 (Vh3 m ρ) c).arrAt w cfg1.N
theorem W4_arr (c : Dev nD) (w : Fin cfg1.W) :
    W4 m ρ c (Proc.devRef .tc (Pipeline.arrRef spec1 w)) = (dat1 (Vh3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vh4 : (c : Dev nD) → (b : Ref sig .tc) → Buf (Elt F) ((c : Thread nD τ).loc b) := fun c b => W4 m ρ c b
theorem hF1 (c : Dev nD) (w : Fin cfg1.W) : (dat1 (Vh3 m ρ) c).arrAt w cfg1.N = Vh4 m ρ c (Pipeline.arrRef spec1 w) :=
  (W4_arr m ρ c w).symm
theorem hrest1 (c : Dev nD) : ∀ b, b ∉ Finset.univ.image (Pipeline.arrRef spec1) → Vh4 m ρ c b = Vh3 m ρ c b :=
  fun b hb => W4_of_ne m ρ c b fun w e => hb (Finset.mem_image.mpr ⟨w, Finset.mem_univ _, e⟩)

theorem W4_in0 (c : Dev nD) : W4 m ρ c (Proc.devRef .tc main_arg2) = W3 m ρ c (Proc.devRef .tc main_arg2) :=
  (W4_arr m ρ c 0).trans (((dat1 (Vh3 m ρ) c).arrAt_in 0 rfl _).trans (A_eq1 (Vh3 m ρ) c 0))
theorem W4_in1 (c : Dev nD) : W4 m ρ c (Proc.devRef .tc main_arg7) = W3 m ρ c (Proc.devRef .tc main_arg7) :=
  (W4_arr m ρ c 1).trans (((dat1 (Vh3 m ρ) c).arrAt_in 1 rfl _).trans (A_eq1 (Vh3 m ρ) c 1))
theorem W4_in2 (c : Dev nD) : W4 m ρ c (Proc.devRef .tc main_v6) = W3 m ρ c (Proc.devRef .tc main_v6) :=
  (W4_arr m ρ c 2).trans (((dat1 (Vh3 m ρ) c).arrAt_in 2 rfl _).trans (A_eq1 (Vh3 m ρ) c 2))
theorem W4_in3 (c : Dev nD) : W4 m ρ c (Proc.devRef .tc main_arg4) = W3 m ρ c (Proc.devRef .tc main_arg4) :=
  (W4_arr m ρ c 3).trans (((dat1 (Vh3 m ρ) c).arrAt_in 3 rfl _).trans (A_eq1 (Vh3 m ρ) c 3))

theorem W4_of (c : Dev nD) (r : Ref sig .tc) (h : r ∉ ([main_v7] : List (Ref sig .tc))) : W4 m ρ c (Proc.devRef .tc r) = W3 m ρ c (Proc.devRef .tc r) := by
  by_cases h0 : r = main_arg2
  · subst h0; exact W4_in0 m ρ c
  by_cases h1 : r = main_arg7
  · subst h1; exact W4_in1 m ρ c
  by_cases h2 : r = main_v6
  · subst h2; exact W4_in2 m ρ c
  by_cases h3 : r = main_arg4
  · subst h3; exact W4_in3 m ρ c
  refine W4_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h (List.mem_singleton.mpr e.symm)
  | ⟨_ + 5, hn⟩ => exact absurd hn (Nat.not_lt.2 (Nat.le_add_left _ _))

abbrev W5 : Dev nD → Valuation τ sig (Elt F) := fun c => StableHlo.after hostOps2 (W4 m ρ c)
abbrev Vh5 : (c : Dev nD) → (b : Ref sig .tc) → Buf (Elt F) ((c : Thread nD τ).loc b) := fun c b => W5 m ρ c b
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

abbrev W6 : Dev nD → Valuation τ sig (Elt F) := fun c => StableHlo.after hostOps2_1 (W5 m ρ c)
abbrev Vh6 : (c : Dev nD) → (b : Ref sig .tc) → Buf (Elt F) ((c : Thread nD τ).loc b) := fun c b => W6 m ρ c b
theorem W6_of (c : Dev nD) (r : Ref sig .tc) (h : r ∉ hostOps2_1_W) : W6 m ρ c (Proc.devRef .tc r) = W5 m ρ c (Proc.devRef .tc r) :=
  StableHlo.after_of_writes_sub hostOps2_1 _ hostOps2_1_writes h

abbrev W7 : Dev nD → Valuation τ sig (Elt F) := fun c => StableHlo.after hostOps2_2 (W6 m ρ c)
abbrev Vh7 : (c : Dev nD) → (b : Ref sig .tc) → Buf (Elt F) ((c : Thread nD τ).loc b) := fun c b => W7 m ρ c b
theorem W7_of (c : Dev nD) (r : Ref sig .tc) (h : r ∉ hostOps2_2_W) : W7 m ρ c (Proc.devRef .tc r) = W6 m ρ c (Proc.devRef .tc r) :=
  StableHlo.after_of_writes_sub hostOps2_2 _ hostOps2_2_writes h

def W8 (c : Dev nD) : Valuation τ sig (Elt F) :=
  Pipeline.withArrays spec2 c (W7 m ρ c) fun w => (dat2 (Vh7 m ρ) c).arrAt w cfg2.N
theorem W8_arr (c : Dev nD) (w : Fin cfg2.W) :
    W8 m ρ c (Proc.devRef .tc (Pipeline.arrRef spec2 w)) = (dat2 (Vh7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev Vh8 : (c : Dev nD) → (b : Ref sig .tc) → Buf (Elt F) ((c : Thread nD τ).loc b) := fun c b => W8 m ρ c b
theorem hF2 (c : Dev nD) (w : Fin cfg2.W) : (dat2 (Vh7 m ρ) c).arrAt w cfg2.N = Vh8 m ρ c (Pipeline.arrRef spec2 w) :=
  (W8_arr m ρ c w).symm
theorem hrest2 (c : Dev nD) : ∀ b, b ∉ Finset.univ.image (Pipeline.arrRef spec2) → Vh8 m ρ c b = Vh7 m ρ c b :=
  fun b hb => W8_of_ne m ρ c b fun w e => hb (Finset.mem_image.mpr ⟨w, Finset.mem_univ _, e⟩)

theorem W8_in0 (c : Dev nD) : W8 m ρ c (Proc.devRef .tc main_v8) = W7 m ρ c (Proc.devRef .tc main_v8) :=
  (W8_arr m ρ c 0).trans (((dat2 (Vh7 m ρ) c).arrAt_in 0 rfl _).trans (A_eq2 (Vh7 m ρ) c 0))
theorem W8_in1 (c : Dev nD) : W8 m ρ c (Proc.devRef .tc main_arg9) = W7 m ρ c (Proc.devRef .tc main_arg9) :=
  (W8_arr m ρ c 1).trans (((dat2 (Vh7 m ρ) c).arrAt_in 1 rfl _).trans (A_eq2 (Vh7 m ρ) c 1))
theorem W8_in2 (c : Dev nD) : W8 m ρ c (Proc.devRef .tc main_v22) = W7 m ρ c (Proc.devRef .tc main_v22) :=
  (W8_arr m ρ c 2).trans (((dat2 (Vh7 m ρ) c).arrAt_in 2 rfl _).trans (A_eq2 (Vh7 m ρ) c 2))

theorem W8_of (c : Dev nD) (r : Ref sig .tc) (h : r ∉ ([main_v23] : List (Ref sig .tc))) : W8 m ρ c (Proc.devRef .tc r) = W7 m ρ c (Proc.devRef .tc r) := by
  by_cases h0 : r = main_v8
  · subst h0; exact W8_in0 m ρ c
  by_cases h1 : r = main_arg9
  · subst h1; exact W8_in1 m ρ c
  by_cases h2 : r = main_v22
  · subst h2; exact W8_in2 m ρ c
  refine W8_of_ne m ρ c r fun w e => ?_
  match w with
  | ⟨0, _⟩ => exact h0 e.symm
  | ⟨1, _⟩ => exact h1 e.symm
  | ⟨2, _⟩ => exact h2 e.symm
  | ⟨3, _⟩ => exact h (List.mem_singleton.mpr e.symm)
  | ⟨_ + 4, hn⟩ => exact absurd hn (Nat.not_lt.2 (Nat.le_add_left _ _))

abbrev W9 : Dev nD → Valuation τ sig (Elt F) := fun c => StableHlo.after hostOps3 (W8 m ρ c)
abbrev Vh9 : (c : Dev nD) → (b : Ref sig .tc) → Buf (Elt F) ((c : Thread nD τ).loc b) := fun c b => W9 m ρ c b
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h

def W10 (c : Dev nD) : Valuation τ sig (Elt F) :=
  Pipeline.withArrays spec3 c (W9 m ρ c) fun w => (dat3 (Vh9 m ρ) c).arrAt w cfg3.N
theorem W10_arr (c : Dev nD) (w : Fin cfg3.W) :
    W10 m ρ c (Proc.devRef .tc (Pipeline.arrRef spec3 w)) = (dat3 (Vh9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev Vh10 : (c : Dev nD) → (b : Ref sig .tc) → Buf (Elt F) ((c : Thread nD τ).loc b) := fun c b => W10 m ρ c b
theorem hF3 (c : Dev nD) (w : Fin cfg3.W) : (dat3 (Vh9 m ρ) c).arrAt w cfg3.N = Vh10 m ρ c (Pipeline.arrRef spec3 w) :=
  (W10_arr m ρ c w).symm
theorem hrest3 (c : Dev nD) : ∀ b, b ∉ Finset.univ.image (Pipeline.arrRef spec3) → Vh10 m ρ c b = Vh9 m ρ c b :=
  fun b hb => W10_of_ne m ρ c b fun w e => hb (Finset.mem_image.mpr ⟨w, Finset.mem_univ _, e⟩)

theorem W10_in0 (c : Dev nD) : W10 m ρ c (Proc.devRef .tc main_v34) = W9 m ρ c (Proc.devRef .tc main_v34) :=
  (W10_arr m ρ c 0).trans (((dat3 (Vh9 m ρ) c).arrAt_in 0 rfl _).trans (A_eq3 (Vh9 m ρ) c 0))
theorem W10_in1 (c : Dev nD) : W10 m ρ c (Proc.devRef .tc main_v35) = W9 m ρ c (Proc.devRef .tc main_v35) :=
  (W10_arr m ρ c 1).trans (((dat3 (Vh9 m ρ) c).arrAt_in 1 rfl _).trans (A_eq3 (Vh9 m ρ) c 1))
theorem W10_in2 (c : Dev nD) : W10 m ρ c (Proc.devRef .tc main_v36) = W9 m ρ c (Proc.devRef .tc main_v36) :=
  (W10_arr m ρ c 2).trans (((dat3 (Vh9 m ρ) c).arrAt_in 2 rfl _).trans (A_eq3 (Vh9 m ρ) c 2))
theorem W10_in3 (c : Dev nD) : W10 m ρ c (Proc.devRef .tc main_arg11) = W9 m ρ c (Proc.devRef .tc main_arg11) :=
  (W10_arr m ρ c 3).trans (((dat3 (Vh9 m ρ) c).arrAt_in 3 rfl _).trans (A_eq3 (Vh9 m ρ) c 3))

theorem W10_of (c : Dev nD) (r : Ref sig .tc) (h : r ∉ ([main_v37] : List (Ref sig .tc))) : W10 m ρ c (Proc.devRef .tc r) = W9 m ρ c (Proc.devRef .tc r) := by
  by_cases h0 : r = main_v34
  · subst h0; exact W10_in0 m ρ c
  by_cases h1 : r = main_v35
  · subst h1; exact W10_in1 m ρ c
  by_cases h2 : r = main_v36
  · subst h2; exact W10_in2 m ρ c
  by_cases h3 : r = main_arg11
  · subst h3; exact W10_in3 m ρ c
  refine W10_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h (List.mem_singleton.mpr e.symm)
  | ⟨_ + 5, hn⟩ => exact absurd hn (Nat.not_lt.2 (Nat.le_add_left _ _))

abbrev W11 : Dev nD → Valuation τ sig (Elt F) := fun c => StableHlo.after hostOps4 (W10 m ρ c)
abbrev Vh11 : (c : Dev nD) → (b : Ref sig .tc) → Buf (Elt F) ((c : Thread nD τ).loc b) := fun c b => W11 m ρ c b
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h

def W12 (c : Dev nD) : Valuation τ sig (Elt F) :=
  Pipeline.withArrays spec4 c (W11 m ρ c) fun w => (dat4 (Vh11 m ρ) c).arrAt w cfg4.N
theorem W12_arr (c : Dev nD) (w : Fin cfg4.W) :
    W12 m ρ c (Proc.devRef .tc (Pipeline.arrRef spec4 w)) = (dat4 (Vh11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev Vh12 : (c : Dev nD) → (b : Ref sig .tc) → Buf (Elt F) ((c : Thread nD τ).loc b) := fun c b => W12 m ρ c b
theorem hF4 (c : Dev nD) (w : Fin cfg4.W) : (dat4 (Vh11 m ρ) c).arrAt w cfg4.N = Vh12 m ρ c (Pipeline.arrRef spec4 w) :=
  (W12_arr m ρ c w).symm
theorem hrest4 (c : Dev nD) : ∀ b, b ∉ Finset.univ.image (Pipeline.arrRef spec4) → Vh12 m ρ c b = Vh11 m ρ c b :=
  fun b hb => W12_of_ne m ρ c b fun w e => hb (Finset.mem_image.mpr ⟨w, Finset.mem_univ _, e⟩)

theorem W12_in0 (c : Dev nD) : W12 m ρ c (Proc.devRef .tc main_v48) = W11 m ρ c (Proc.devRef .tc main_v48) :=
  (W12_arr m ρ c 0).trans (((dat4 (Vh11 m ρ) c).arrAt_in 0 rfl _).trans (A_eq4 (Vh11 m ρ) c 0))
theorem W12_in1 (c : Dev nD) : W12 m ρ c (Proc.devRef .tc main_v49) = W11 m ρ c (Proc.devRef .tc main_v49) :=
  (W12_arr m ρ c 1).trans (((dat4 (Vh11 m ρ) c).arrAt_in 1 rfl _).trans (A_eq4 (Vh11 m ρ) c 1))
theorem W12_in2 (c : Dev nD) : W12 m ρ c (Proc.devRef .tc main_v50) = W11 m ρ c (Proc.devRef .tc main_v50) :=
  (W12_arr m ρ c 2).trans (((dat4 (Vh11 m ρ) c).arrAt_in 2 rfl _).trans (A_eq4 (Vh11 m ρ) c 2))

theorem W12_of (c : Dev nD) (r : Ref sig .tc) (h : r ∉ ([main_v51] : List (Ref sig .tc))) : W12 m ρ c (Proc.devRef .tc r) = W11 m ρ c (Proc.devRef .tc r) := by
  by_cases h0 : r = main_v48
  · subst h0; exact W12_in0 m ρ c
  by_cases h1 : r = main_v49
  · subst h1; exact W12_in1 m ρ c
  by_cases h2 : r = main_v50
  · subst h2; exact W12_in2 m ρ c
  refine W12_of_ne m ρ c r fun w e => ?_
  match w with
  | ⟨0, _⟩ => exact h0 e.symm
  | ⟨1, _⟩ => exact h1 e.symm
  | ⟨2, _⟩ => exact h2 e.symm
  | ⟨3, _⟩ => exact h (List.mem_singleton.mpr e.symm)
  | ⟨_ + 4, hn⟩ => exact absurd hn (Nat.not_lt.2 (Nat.le_add_left _ _))

abbrev W13 : Dev nD → Valuation τ sig (Elt F) := fun c => StableHlo.after hostOps5 (W12 m ρ c)
abbrev Vh13 : (c : Dev nD) → (b : Ref sig .tc) → Buf (Elt F) ((c : Thread nD τ).loc b) := fun c b => W13 m ρ c b
theorem W13_of (c : Dev nD) (r : Ref sig .tc) (h : r ∉ hostOps5_W) : W13 m ρ c (Proc.devRef .tc r) = W12 m ρ c (Proc.devRef .tc r) :=
  StableHlo.after_of_writes_sub hostOps5 _ hostOps5_writes h

def W14 (c : Dev nD) : Valuation τ sig (Elt F) :=
  Pipeline.withArrays spec5 c (W13 m ρ c) fun w => (dat5 (Vh13 m ρ) c).arrAt w cfg5.N
theorem W14_arr (c : Dev nD) (w : Fin cfg5.W) :
    W14 m ρ c (Proc.devRef .tc (Pipeline.arrRef spec5 w)) = (dat5 (Vh13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
abbrev Vh14 : (c : Dev nD) → (b : Ref sig .tc) → Buf (Elt F) ((c : Thread nD τ).loc b) := fun c b => W14 m ρ c b
theorem hF5 (c : Dev nD) (w : Fin cfg5.W) : (dat5 (Vh13 m ρ) c).arrAt w cfg5.N = Vh14 m ρ c (Pipeline.arrRef spec5 w) :=
  (W14_arr m ρ c w).symm
theorem hrest5 (c : Dev nD) : ∀ b, b ∉ Finset.univ.image (Pipeline.arrRef spec5) → Vh14 m ρ c b = Vh13 m ρ c b :=
  fun b hb => W14_of_ne m ρ c b fun w e => hb (Finset.mem_image.mpr ⟨w, Finset.mem_univ _, e⟩)

theorem W14_in0 (c : Dev nD) : W14 m ρ c (Proc.devRef .tc main_v54) = W13 m ρ c (Proc.devRef .tc main_v54) :=
  (W14_arr m ρ c 0).trans (((dat5 (Vh13 m ρ) c).arrAt_in 0 rfl _).trans (A_eq5 (Vh13 m ρ) c 0))
theorem W14_in1 (c : Dev nD) : W14 m ρ c (Proc.devRef .tc main_v52) = W13 m ρ c (Proc.devRef .tc main_v52) :=
  (W14_arr m ρ c 1).trans (((dat5 (Vh13 m ρ) c).arrAt_in 1 rfl _).trans (A_eq5 (Vh13 m ρ) c 1))

theorem W14_of (c : Dev nD) (r : Ref sig .tc) (h : r ∉ ([main_v55] : List (Ref sig .tc))) : W14 m ρ c (Proc.devRef .tc r) = W13 m ρ c (Proc.devRef .tc r) := by
  by_cases h0 : r = main_v54
  · subst h0; exact W14_in0 m ρ c
  by_cases h1 : r = main_v52
  · subst h1; exact W14_in1 m ρ c
  refine W14_of_ne m ρ c r fun w e => ?_
  match w with
  | ⟨0, _⟩ => exact h0 e.symm
  | ⟨1, _⟩ => exact h1 e.symm
  | ⟨2, _⟩ => exact h (List.mem_singleton.mpr e.symm)
  | ⟨_ + 3, hn⟩ => exact absurd hn (Nat.not_lt.2 (Nat.le_add_left _ _))

abbrev W15 : Dev nD → Valuation τ sig (Elt F) := fun c => StableHlo.after hostOps6 (W14 m ρ c)
abbrev Vh15 : (c : Dev nD) → (b : Ref sig .tc) → Buf (Elt F) ((c : Thread nD τ).loc b) := fun c b => W15 m ρ c b
theorem W15_of (c : Dev nD) (r : Ref sig .tc) (h : r ∉ hostOps6_W) : W15 m ρ c (Proc.devRef .tc r) = W14 m ρ c (Proc.devRef .tc r) :=
  StableHlo.after_of_writes_sub hostOps6 _ hostOps6_writes h

def W16 (c : Dev nD) : Valuation τ sig (Elt F) :=
  Pipeline.withArrays spec6 c (W15 m ρ c) fun w => (dat6 (Vh15 m ρ) c).arrAt w cfg6.N
theorem W16_arr (c : Dev nD) (w : Fin cfg6.W) :
    W16 m ρ c (Proc.devRef .tc (Pipeline.arrRef spec6 w)) = (dat6 (Vh15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb
abbrev Vh16 : (c : Dev nD) → (b : Ref sig .tc) → Buf (Elt F) ((c : Thread nD τ).loc b) := fun c b => W16 m ρ c b
theorem hF6 (c : Dev nD) (w : Fin cfg6.W) : (dat6 (Vh15 m ρ) c).arrAt w cfg6.N = Vh16 m ρ c (Pipeline.arrRef spec6 w) :=
  (W16_arr m ρ c w).symm
theorem hrest6 (c : Dev nD) : ∀ b, b ∉ Finset.univ.image (Pipeline.arrRef spec6) → Vh16 m ρ c b = Vh15 m ρ c b :=
  fun b hb => W16_of_ne m ρ c b fun w e => hb (Finset.mem_image.mpr ⟨w, Finset.mem_univ _, e⟩)

theorem W16_in0 (c : Dev nD) : W16 m ρ c (Proc.devRef .tc main_v56) = W15 m ρ c (Proc.devRef .tc main_v56) :=
  (W16_arr m ρ c 0).trans (((dat6 (Vh15 m ρ) c).arrAt_in 0 rfl _).trans (A_eq6 (Vh15 m ρ) c 0))
theorem W16_in1 (c : Dev nD) : W16 m ρ c (Proc.devRef .tc main_v53) = W15 m ρ c (Proc.devRef .tc main_v53) :=
  (W16_arr m ρ c 1).trans (((dat6 (Vh15 m ρ) c).arrAt_in 1 rfl _).trans (A_eq6 (Vh15 m ρ) c 1))

theorem W16_of (c : Dev nD) (r : Ref sig .tc) (h : r ∉ ([main_v57] : List (Ref sig .tc))) : W16 m ρ c (Proc.devRef .tc r) = W15 m ρ c (Proc.devRef .tc r) := by
  by_cases h0 : r = main_v56
  · subst h0; exact W16_in0 m ρ c
  by_cases h1 : r = main_v53
  · subst h1; exact W16_in1 m ρ c
  refine W16_of_ne m ρ c r fun w e => ?_
  match w with
  | ⟨0, _⟩ => exact h0 e.symm
  | ⟨1, _⟩ => exact h1 e.symm
  | ⟨2, _⟩ => exact h (List.mem_singleton.mpr e.symm)
  | ⟨_ + 3, hn⟩ => exact absurd hn (Nat.not_lt.2 (Nat.le_add_left _ _))

abbrev W17 : Dev nD → Valuation τ sig (Elt F) := fun c => StableHlo.after hostOps7 (W16 m ρ c)
abbrev Vh17 : (c : Dev nD) → (b : Ref sig .tc) → Buf (Elt F) ((c : Thread nD τ).loc b) := fun c b => W17 m ρ c b
theorem W17_of (c : Dev nD) (r : Ref sig .tc) (h : r ∉ hostOps7_W) : W17 m ρ c (Proc.devRef .tc r) = W16 m ρ c (Proc.devRef .tc r) :=
  StableHlo.after_of_writes_sub hostOps7 _ hostOps7_writes h

def W18 (c : Dev nD) : Valuation τ sig (Elt F) :=
  Pipeline.withArrays spec7 c (W17 m ρ c) fun w => (dat7 (Vh17 m ρ) c).arrAt w cfg7.N
theorem W18_arr (c : Dev nD) (w : Fin cfg7.W) :
    W18 m ρ c (Proc.devRef .tc (Pipeline.arrRef spec7 w)) = (dat7 (Vh17 m ρ) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m ρ c (Proc.devRef .tc b) = W17 m ρ c (Proc.devRef .tc b) := by
  unfold W18; exact Pipeline.withArrays_of_ne spec7 c _ _ b hb
abbrev Vh18 : (c : Dev nD) → (b : Ref sig .tc) → Buf (Elt F) ((c : Thread nD τ).loc b) := fun c b => W18 m ρ c b
theorem hF7 (c : Dev nD) (w : Fin cfg7.W) : (dat7 (Vh17 m ρ) c).arrAt w cfg7.N = Vh18 m ρ c (Pipeline.arrRef spec7 w) :=
  (W18_arr m ρ c w).symm
theorem hrest7 (c : Dev nD) : ∀ b, b ∉ Finset.univ.image (Pipeline.arrRef spec7) → Vh18 m ρ c b = Vh17 m ρ c b :=
  fun b hb => W18_of_ne m ρ c b fun w e => hb (Finset.mem_image.mpr ⟨w, Finset.mem_univ _, e⟩)

theorem W18_in0 (c : Dev nD) : W18 m ρ c (Proc.devRef .tc main_v64) = W17 m ρ c (Proc.devRef .tc main_v64) :=
  (W18_arr m ρ c 0).trans (((dat7 (Vh17 m ρ) c).arrAt_in 0 rfl _).trans (A_eq7 (Vh17 m ρ) c 0))
theorem W18_in1 (c : Dev nD) : W18 m ρ c (Proc.devRef .tc main_v71) = W17 m ρ c (Proc.devRef .tc main_v71) :=
  (W18_arr m ρ c 1).trans (((dat7 (Vh17 m ρ) c).arrAt_in 1 rfl _).trans (A_eq7 (Vh17 m ρ) c 1))
theorem W18_in2 (c : Dev nD) : W18 m ρ c (Proc.devRef .tc main_v72) = W17 m ρ c (Proc.devRef .tc main_v72) :=
  (W18_arr m ρ c 2).trans (((dat7 (Vh17 m ρ) c).arrAt_in 2 rfl _).trans (A_eq7 (Vh17 m ρ) c 2))
theorem W18_in3 (c : Dev nD) : W18 m ρ c (Proc.devRef .tc main_arg15) = W17 m ρ c (Proc.devRef .tc main_arg15) :=
  (W18_arr m ρ c 3).trans (((dat7 (Vh17 m ρ) c).arrAt_in 3 rfl _).trans (A_eq7 (Vh17 m ρ) c 3))
theorem W18_in4 (c : Dev nD) : W18 m ρ c (Proc.devRef .tc main_v73) = W17 m ρ c (Proc.devRef .tc main_v73) :=
  (W18_arr m ρ c 4).trans (((dat7 (Vh17 m ρ) c).arrAt_in 4 rfl _).trans (A_eq7 (Vh17 m ρ) c 4))

theorem W18_of (c : Dev nD) (r : Ref sig .tc) (h : r ∉ ([main_v74] : List (Ref sig .tc))) : W18 m ρ c (Proc.devRef .tc r) = W17 m ρ c (Proc.devRef .tc r) := by
  by_cases h0 : r = main_v64
  · subst h0; exact W18_in0 m ρ c
  by_cases h1 : r = main_v71
  · subst h1; exact W18_in1 m ρ c
  by_cases h2 : r = main_v72
  · subst h2; exact W18_in2 m ρ c
  by_cases h3 : r = main_arg15
  · subst h3; exact W18_in3 m ρ c
  by_cases h4 : r = main_v73
  · subst h4; exact W18_in4 m ρ c
  refine W18_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h4 e.symm
  | ⟨5, _⟩ => exact h (List.mem_singleton.mpr e.symm)
  | ⟨_ + 6, hn⟩ => exact absurd hn (Nat.not_lt.2 (Nat.le_add_left _ _))

abbrev W19 : Dev nD → Valuation τ sig (Elt F) := fun c => StableHlo.after hostOps8 (W18 m ρ c)
abbrev Vh19 : (c : Dev nD) → (b : Ref sig .tc) → Buf (Elt F) ((c : Thread nD τ).loc b) := fun c b => W19 m ρ c b
theorem W19_of (c : Dev nD) (r : Ref sig .tc) (h : r ∉ hostOps8_W) : W19 m ρ c (Proc.devRef .tc r) = W18 m ρ c (Proc.devRef .tc r) :=
  StableHlo.after_of_writes_sub hostOps8 _ hostOps8_writes h
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16]
theorem arg_k1 : ∀ r ∈ argRefs, r ∉ hostOps0_W := by decide
theorem arg_k2 : ∀ r ∈ argRefs, r ∉ ([main_v5] : List (Ref sig .tc)) := by decide
theorem arg_k3 : ∀ r ∈ argRefs, r ∉ hostOps1_W := by decide
theorem arg_k4 : ∀ r ∈ argRefs, r ∉ ([main_v7] : List (Ref sig .tc)) := by decide
theorem arg_k5 : ∀ r ∈ argRefs, r ∉ hostOps2_W := by decide
theorem arg_k6 : ∀ r ∈ argRefs, r ∉ hostOps2_1_W := by decide
theorem arg_k7 : ∀ r ∈ argRefs, r ∉ hostOps2_2_W := by decide
theorem arg_k8 : ∀ r ∈ argRefs, r ∉ ([main_v23] : List (Ref sig .tc)) := by decide
theorem arg_k9 : ∀ r ∈ argRefs, r ∉ hostOps3_W := by decide
theorem arg_k10 : ∀ r ∈ argRefs, r ∉ ([main_v37] : List (Ref sig .tc)) := by decide
theorem arg_k11 : ∀ r ∈ argRefs, r ∉ hostOps4_W := by decide
theorem arg_k12 : ∀ r ∈ argRefs, r ∉ ([main_v51] : List (Ref sig .tc)) := by decide
theorem arg_k13 : ∀ r ∈ argRefs, r ∉ hostOps5_W := by decide
theorem arg_k14 : ∀ r ∈ argRefs, r ∉ ([main_v55] : List (Ref sig .tc)) := by decide
theorem arg_k15 : ∀ r ∈ argRefs, r ∉ hostOps6_W := by decide
theorem arg_k16 : ∀ r ∈ argRefs, r ∉ ([main_v57] : List (Ref sig .tc)) := by decide
theorem arg_k17 : ∀ r ∈ argRefs, r ∉ hostOps7_W := by decide
theorem arg_k18 : ∀ r ∈ argRefs, r ∉ ([main_v74] : List (Ref sig .tc)) := by decide
theorem arg_k19 : ∀ r ∈ argRefs, r ∉ hostOps8_W := by decide
theorem arg_uc : ∀ r ∈ argRefs, ¬ (Proc.devRef .tc r : DevRef τ sig).isScoped := by decide
theorem W1_arg (c : Dev nD) (r : Ref sig .tc) (h : r ∈ argRefs) : W1 m ρ c (Proc.devRef .tc r) = m ((c : Thread nD τ).loc r) := W1_of m ρ c r (arg_k1 r h)
theorem W2_arg (c : Dev nD) (r : Ref sig .tc) (h : r ∈ argRefs) : W2 m ρ c (Proc.devRef .tc r) = m ((c : Thread nD τ).loc r) := (W2_of m ρ c r (arg_k2 r h)).trans (W1_arg m ρ c r h)
theorem W3_arg (c : Dev nD) (r : Ref sig .tc) (h : r ∈ argRefs) : W3 m ρ c (Proc.devRef .tc r) = m ((c : Thread nD τ).loc r) := (W3_of m ρ c r (arg_k3 r h)).trans (W2_arg m ρ c r h)
theorem W4_arg (c : Dev nD) (r : Ref sig .tc) (h : r ∈ argRefs) : W4 m ρ c (Proc.devRef .tc r) = m ((c : Thread nD τ).loc r) := (W4_of m ρ c r (arg_k4 r h)).trans (W3_arg m ρ c r h)
theorem W5_arg (c : Dev nD) (r : Ref sig .tc) (h : r ∈ argRefs) : W5 m ρ c (Proc.devRef .tc r) = m ((c : Thread nD τ).loc r) := (W5_of m ρ c r (arg_k5 r h)).trans (W4_arg m ρ c r h)
theorem W6_arg (c : Dev nD) (r : Ref sig .tc) (h : r ∈ argRefs) : W6 m ρ c (Proc.devRef .tc r) = m ((c : Thread nD τ).loc r) := (W6_of m ρ c r (arg_k6 r h)).trans (W5_arg m ρ c r h)
theorem W7_arg (c : Dev nD) (r : Ref sig .tc) (h : r ∈ argRefs) : W7 m ρ c (Proc.devRef .tc r) = m ((c : Thread nD τ).loc r) := (W7_of m ρ c r (arg_k7 r h)).trans (W6_arg m ρ c r h)
theorem W8_arg (c : Dev nD) (r : Ref sig .tc) (h : r ∈ argRefs) : W8 m ρ c (Proc.devRef .tc r) = m ((c : Thread nD τ).loc r) := (W8_of m ρ c r (arg_k8 r h)).trans (W7_arg m ρ c r h)
theorem W9_arg (c : Dev nD) (r : Ref sig .tc) (h : r ∈ argRefs) : W9 m ρ c (Proc.devRef .tc r) = m ((c : Thread nD τ).loc r) := (W9_of m ρ c r (arg_k9 r h)).trans (W8_arg m ρ c r h)
theorem W10_arg (c : Dev nD) (r : Ref sig .tc) (h : r ∈ argRefs) : W10 m ρ c (Proc.devRef .tc r) = m ((c : Thread nD τ).loc r) := (W10_of m ρ c r (arg_k10 r h)).trans (W9_arg m ρ c r h)
theorem W11_arg (c : Dev nD) (r : Ref sig .tc) (h : r ∈ argRefs) : W11 m ρ c (Proc.devRef .tc r) = m ((c : Thread nD τ).loc r) := (W11_of m ρ c r (arg_k11 r h)).trans (W10_arg m ρ c r h)
theorem W12_arg (c : Dev nD) (r : Ref sig .tc) (h : r ∈ argRefs) : W12 m ρ c (Proc.devRef .tc r) = m ((c : Thread nD τ).loc r) := (W12_of m ρ c r (arg_k12 r h)).trans (W11_arg m ρ c r h)
theorem W13_arg (c : Dev nD) (r : Ref sig .tc) (h : r ∈ argRefs) : W13 m ρ c (Proc.devRef .tc r) = m ((c : Thread nD τ).loc r) := (W13_of m ρ c r (arg_k13 r h)).trans (W12_arg m ρ c r h)
theorem W14_arg (c : Dev nD) (r : Ref sig .tc) (h : r ∈ argRefs) : W14 m ρ c (Proc.devRef .tc r) = m ((c : Thread nD τ).loc r) := (W14_of m ρ c r (arg_k14 r h)).trans (W13_arg m ρ c r h)
theorem W15_arg (c : Dev nD) (r : Ref sig .tc) (h : r ∈ argRefs) : W15 m ρ c (Proc.devRef .tc r) = m ((c : Thread nD τ).loc r) := (W15_of m ρ c r (arg_k15 r h)).trans (W14_arg m ρ c r h)
theorem W16_arg (c : Dev nD) (r : Ref sig .tc) (h : r ∈ argRefs) : W16 m ρ c (Proc.devRef .tc r) = m ((c : Thread nD τ).loc r) := (W16_of m ρ c r (arg_k16 r h)).trans (W15_arg m ρ c r h)
theorem W17_arg (c : Dev nD) (r : Ref sig .tc) (h : r ∈ argRefs) : W17 m ρ c (Proc.devRef .tc r) = m ((c : Thread nD τ).loc r) := (W17_of m ρ c r (arg_k17 r h)).trans (W16_arg m ρ c r h)
theorem W18_arg (c : Dev nD) (r : Ref sig .tc) (h : r ∈ argRefs) : W18 m ρ c (Proc.devRef .tc r) = m ((c : Thread nD τ).loc r) := (W18_of m ρ c r (arg_k18 r h)).trans (W17_arg m ρ c r h)
theorem W19_arg (c : Dev nD) (r : Ref sig .tc) (h : r ∈ argRefs) : W19 m ρ c (Proc.devRef .tc r) = m ((c : Thread nD τ).loc r) := (W19_of m ρ c r (arg_k19 r h)).trans (W18_arg m ρ c r h)

abbrev admH : (p : Fin 8) → (pcfgs (F := F) p).Adm := fun p => (cfgs p).toPCfg_adm

def pdats : (p : Fin 8) → (c : Dev nD) → Dat τ (Elt F) Unit ℕ (UR sig nD τ) ℕ (Pipeline.pin (pcfgs (F := F)) admH p) c
  | ⟨0, _⟩ => fun c => dat0 (Vh1 m ρ) c
  | ⟨1, _⟩ => fun c => dat1 (Vh3 m ρ) c
  | ⟨2, _⟩ => fun c => dat2 (Vh7 m ρ) c
  | ⟨3, _⟩ => fun c => dat3 (Vh9 m ρ) c
  | ⟨4, _⟩ => fun c => dat4 (Vh11 m ρ) c
  | ⟨5, _⟩ => fun c => dat5 (Vh13 m ρ) c
  | ⟨6, _⟩ => fun c => dat6 (Vh15 m ρ) c
  | ⟨7, _⟩ => fun c => dat7 (Vh17 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W19 m ρ c) ∗ ∃ r, prngReg c r)
theorem arg_end {r : PUnit × MemSt nD τ sig (Elt F)} (h : ∀ c : Dev nD, ∀ b ∈ Pipeline.ucRefs τ sig, r.2.mem (((c : Thread nD τ)).1, b) = W19 m ρ c b)
    (c : Dev nD) (k : Ref sig .tc) (hk : k ∈ argRefs) : r.2.mem ((c : Thread nD τ).loc k) = m ((c : Thread nD τ).loc k) :=
  (h c _ (mem_uc k (arg_uc k hk))).trans (W19_arg m ρ c k hk)

set_option backward.isDefEq.respectTransparency.types false in
def regOf (p : Fin 8) (launch : Pipeline.LaunchFacts (nD := nD) (τ := τ) cfgs p)
    (Wi Wo : Dev nD → Valuation τ sig (Elt F))
    (hbody : ∀ c, BodyObligation (pdats m ρ p c) (defs₀ (F := F)) Variants.none () Set.univ)
    (howed : ∀ c t, (pdats m ρ p c).owed t = 0) (hrec : ∀ c t, (pdats m ρ p c).recorded t = Set.univ)
    (hq : ∀ c w, (pdats m ρ p c).q w = fullShare)
    (hA : ∀ c w, (pdats m ρ p c).A w = Wi c (Proc.devRef .tc (Pipeline.arrRef (cfgs p).spec w)))
    (hΦ : ∀ c i, (pdats m ρ p c).Φ i = Pipeline.ΦA (cfgs p).spec c)
    (hF : ∀ c w, (pdats m ρ p c).arrAt w (cfgs p).N = Wo c (Proc.devRef .tc (Pipeline.arrRef (cfgs p).spec w)))
    (hrest : ∀ c (b : Ref sig .tc), b ∉ Finset.univ.image (Pipeline.arrRef (cfgs p).spec) → Wo c (Proc.devRef .tc b) = Wi c (Proc.devRef .tc b)) :
    Pipeline.RegionSeg (pcfgs (F := F)) admH (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) admH (pdats m ρ) launch.win launch.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      launch.win launch.arr_whole c (pdats m ρ) ((pdats m ρ p c).share_full (hq c))
      (fun b => Wi c b) (fun b => Wo c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) admH (pdats m ρ) () defs₀ 𝒱₀ L lv 0 :=
  regOf m ρ 0 launch0 (W1 m ρ) (W2 m ρ) (body_obligation0 (Vh1 m ρ)) (fun _ _ => rfl) (fun _ _ => rfl) (fun _ _ => rfl) (fun _ _ => rfl) (fun _ _ => rfl)
    (hF0 m ρ) (hrest0 m ρ)
set_option backward.isDefEq.respectTransparency.types false in
def reg1 : Pipeline.RegionSeg (pcfgs (F := F)) admH (pdats m ρ) () defs₀ 𝒱₀ L lv 1 :=
  regOf m ρ 1 launch1 (W3 m ρ) (W4 m ρ) (body_obligation1 (Vh3 m ρ)) (fun _ _ => rfl) (fun _ _ => rfl) (fun _ _ => rfl) (fun _ _ => rfl) (fun _ _ => rfl)
    (hF1 m ρ) (hrest1 m ρ)
set_option backward.isDefEq.respectTransparency.types false in
def reg2 : Pipeline.RegionSeg (pcfgs (F := F)) admH (pdats m ρ) () defs₀ 𝒱₀ L lv 2 :=
  regOf m ρ 2 launch2 (W7 m ρ) (W8 m ρ) (body_obligation2 (Vh7 m ρ)) (fun _ _ => rfl) (fun _ _ => rfl) (fun _ _ => rfl) (fun _ _ => rfl) (fun _ _ => rfl)
    (hF2 m ρ) (hrest2 m ρ)
set_option backward.isDefEq.respectTransparency.types false in
def reg3 : Pipeline.RegionSeg (pcfgs (F := F)) admH (pdats m ρ) () defs₀ 𝒱₀ L lv 3 :=
  regOf m ρ 3 launch3 (W9 m ρ) (W10 m ρ) (body_obligation3 (Vh9 m ρ)) (fun _ _ => rfl) (fun _ _ => rfl) (fun _ _ => rfl) (fun _ _ => rfl) (fun _ _ => rfl)
    (hF3 m ρ) (hrest3 m ρ)
set_option backward.isDefEq.respectTransparency.types false in
def reg4 : Pipeline.RegionSeg (pcfgs (F := F)) admH (pdats m ρ) () defs₀ 𝒱₀ L lv 4 :=
  regOf m ρ 4 launch4 (W11 m ρ) (W12 m ρ) (body_obligation4 (Vh11 m ρ)) (fun _ _ => rfl) (fun _ _ => rfl) (fun _ _ => rfl) (fun _ _ => rfl) (fun _ _ => rfl)
    (hF4 m ρ) (hrest4 m ρ)
set_option backward.isDefEq.respectTransparency.types false in
def reg5 : Pipeline.RegionSeg (pcfgs (F := F)) admH (pdats m ρ) () defs₀ 𝒱₀ L lv 5 :=
  regOf m ρ 5 launch5 (W13 m ρ) (W14 m ρ) (body_obligation5 (Vh13 m ρ)) (fun _ _ => rfl) (fun _ _ => rfl) (fun _ _ => rfl) (fun _ _ => rfl) (fun _ _ => rfl)
    (hF5 m ρ) (hrest5 m ρ)
set_option backward.isDefEq.respectTransparency.types false in
def reg6 : Pipeline.RegionSeg (pcfgs (F := F)) admH (pdats m ρ) () defs₀ 𝒱₀ L lv 6 :=
  regOf m ρ 6 launch6 (W15 m ρ) (W16 m ρ) (body_obligation6 (Vh15 m ρ)) (fun _ _ => rfl) (fun _ _ => rfl) (fun _ _ => rfl) (fun _ _ => rfl) (fun _ _ => rfl)
    (hF6 m ρ) (hrest6 m ρ)
set_option backward.isDefEq.respectTransparency.types false in
def reg7 : Pipeline.RegionSeg (pcfgs (F := F)) admH (pdats m ρ) () defs₀ 𝒱₀ L lv 7 :=
  regOf m ρ 7 launch7 (W17 m ρ) (W18 m ρ) (body_obligation7 (Vh17 m ρ)) (fun _ _ => rfl) (fun _ _ => rfl) (fun _ _ => rfl) (fun _ _ => rfl) (fun _ _ => rfl)
    (hF7 m ρ) (hrest7 m ρ)

abbrev segsH : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ),
    .host (hseg hostOps8 hostOps8_sub hostOps8_fresh (W18 m ρ)) ]

theorem main_run (c : Dev nD) : main (F := F) c = Pipeline.Seg.run (segsH m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W19 m ρ c) ∗ ((∃ r, prngReg c r) ∗ ∃ W, owes (c : Thread nD τ) (0 : CellTallies nD τ sig Unit) W)) : sProp 𝕄)
          ⊢ iprop((StableHlo.held (c : Thread nD τ) (Pipeline.ucRefs τ sig) (W19 m ρ c) ∗ ∃ r, prngReg c r) ∗ ∃ W, owes (c : Thread nD τ) (0 : CellTallies nD τ sig Unit) W)
        iintro ⟨Hh, Hp, Ho⟩
        isplitl [Hh Hp]
        · isplitl [Hh]
          · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

end Cert.Kernel.Hand

end
-- ==== Proof.R0.lean ====
/- Region 0: the block each window holds at a grid point, the value the body leaves in the output's block as a function of the inputs' blocks, and the body's run at every point, from any contents of the buffers at the region's entry. -/
import proofs.«100265_j85727547228235_2_alg».proof.Proof.Gen.KernelIdeal.Launch
import proofs.«100265_j85727547228235_2_alg».proof.Proof.Gen.KernelIdeal.Skeleton
import proofs.«100265_j85727547228235_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_S5000x128 : Rect S5000x128 := Rect.unit (s := S5000x128) ![0, 0] S5000x128.size inb_S5000x128_S5000x128_0_0
abbrev r0_S128x64 : Rect S128x64 := Rect.unit (s := S128x64) ![0, 0] S128x64.size inb_S128x64_S128x64_0_0
abbrev r0_S1x64 : Rect S1x64 := Rect.unit (s := S1x64) ![0, 0] S1x64.size inb_S1x64_S1x64_0_0
abbrev r0_S5000x64 : Rect S5000x64 := Rect.unit (s := S5000x64) ![0, 0] S5000x64.size inb_S5000x64_S5000x64_0_0

def out0_4 (x0 : Vec F S5000x128 .f32) (x1 : Vec F S128x64 .f32) (x2 : Vec F S1x64 .f32) (x3 : Vec F S5000x64 .f32) : Vec F S5000x64 .f32 :=
  View.canon [⟨r0_S5000x64, k0_pay1 (View.ld x0 r0_S5000x128) (View.ld x1 r0_S128x64) (View.ld x2 r0_S1x64) (View.ld x3 r0_S5000x64)⟩]

set_option maxHeartbeats 1000000 in
theorem sound_kernel0 (c : Dev nD) (E : Set ℕ) (i : grid0.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x128 .f32) (x1 : Vec F S128x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__feat_proj_kernel i arg1 harg1 arg2 harg2 arg3 harg3 arg4 harg4 arg5 harg5) K := by
  rw [cc0__feat_proj_kernel_eq_skeleton]
  unfold cc0__feat_proj_kernel_skel owns
  iintro ⟨⟨%a0, %ha0, Hx0⟩, ⟨%a1, %ha1, Hx1⟩, ⟨%a2, %ha2, Hx2⟩, ⟨%a3, %ha3, Hx3⟩, ⟨%d4, %a4, -, Hx4⟩, Hk⟩
  subst ha0 ha1 ha2 ha3
  sl_exec
  sl_step
  iapply Hk
  isplitl [Hx0]; · iexists a0; iframe Hx0; ipureintro; rfl
  isplitl [Hx1]; · iexists a1; iframe Hx1; ipureintro; rfl
  isplitl [Hx2]; · iexists a2; iframe Hx2; ipureintro; rfl
  isplitl [Hx3]; · iexists a3; iframe Hx3; ipureintro; rfl
  iexists _; isplitr
  swap; · iexact Hx4
  ipureintro
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_4 (c : Dev nD) (t : Fin cfg0.N) : (dat0 V c).after 4 t = out0_4 (iblk0 V c 0 t) (iblk0 V c 1 t) (iblk0 V c 2 t) (iblk0 V c 3 t) := by dsimp only [dat0]

/-- The body returns each input's block unchanged, so an input is found at every point as it is left there. -/
theorem before0 (c : Dev nD) : ∀ w : Fin cfg0.W, (cfg0.win w).isOut = false → ∀ t d, (dat0 V c).before w t d = (dat0 V c).after w t
  | ⟨0, _⟩, h | ⟨1, _⟩, h | ⟨2, _⟩, h | ⟨3, _⟩, h => fun t d =>
    ((dat0 V c).before_in_eq_fetched _ h (fun _ => rfl) (fun _ _ _ => rfl) (fun _ => rfl) t d).trans rfl
  | ⟨4, _⟩, h => nomatch h

theorem body_obligation0 (c : Dev nD) : BodyObligation (dat0 (F := F) V c) (defs₀ (F := F)) Variants.none () Set.univ := fun t => by
  rw [bigSep_W0, bigSep_W0]
  simp (disch := rfl) only [before0 V c, show ∀ w i, cfg0.idle w i = false from fun _ _ => rfl,
    show (dat0 V c).after 4 t = out0_4 ((dat0 V c).after 0 t) ((dat0 V c).after 1 t) ((dat0 V c).after 2 t) ((dat0 V c).after 3 t) from by dsimp only [dat0]]
  rw [show (dat0 V c).Φ t.succ = (dat0 V c).Φ t.castSucc from rfl,
    show (dat0 V c).owesAt () t.succ = (dat0 V c).owesAt () t.castSucc from rfl]
  show _ ⊢ wp _ _ _ (bodyAt0 t) _
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ ((dat0 V c).after 0 t) ((dat0 V c).after 1 t) ((dat0 V c).after 2 t) ((dat0 V c).after 3 t) _)
  iframe H0 H1 H2 H3
  isplitl [H4]; · iexists _; iexact H4
  iintro ⟨H0, H1, H2, H3, H4⟩
  iframe

end Cert.KernelIdeal.Hand

end
-- ==== Proof.R1.lean ====
/- Region 1: the block each window holds at a grid point, the value the body leaves in the output's block as a function of the inputs' blocks, and the body's run at every point, from any contents of the buffers at the region's entry. -/
import proofs.«100265_j85727547228235_2_alg».proof.Proof.Gen.KernelIdeal.Launch
import proofs.«100265_j85727547228235_2_alg».proof.Proof.Gen.KernelIdeal.Skeleton
import proofs.«100265_j85727547228235_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_S5000x128 : Rect S5000x128 := Rect.unit (s := S5000x128) ![0, 0] S5000x128.size inb_S5000x128_S5000x128_0_0
abbrev r1_S128x64 : Rect S128x64 := Rect.unit (s := S128x64) ![0, 0] S128x64.size inb_S128x64_S128x64_0_0
abbrev r1_S1x64 : Rect S1x64 := Rect.unit (s := S1x64) ![0, 0] S1x64.size inb_S1x64_S1x64_0_0
abbrev r1_S5000x64 : Rect S5000x64 := Rect.unit (s := S5000x64) ![0, 0] S5000x64.size inb_S5000x64_S5000x64_0_0

def out1_4 (x0 : Vec F S5000x128 .f32) (x1 : Vec F S128x64 .f32) (x2 : Vec F S1x64 .f32) (x3 : Vec F S5000x64 .f32) : Vec F S5000x64 .f32 :=
  View.canon [⟨r1_S5000x64, k1_pay1 (View.ld x0 r1_S5000x128) (View.ld x1 r1_S128x64) (View.ld x2 r1_S1x64) (View.ld x3 r1_S5000x64)⟩]

set_option maxHeartbeats 1000000 in
theorem sound_kernel1 (c : Dev nD) (E : Set ℕ) (i : grid1.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x128 .f32) (x1 : Vec F S128x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__feat_proj_kernel i arg1 harg1 arg2 harg2 arg3 harg3 arg4 harg4 arg5 harg5) K := by
  rw [cc1__feat_proj_kernel_eq_skeleton]
  unfold cc1__feat_proj_kernel_skel owns
  iintro ⟨⟨%a0, %ha0, Hx0⟩, ⟨%a1, %ha1, Hx1⟩, ⟨%a2, %ha2, Hx2⟩, ⟨%a3, %ha3, Hx3⟩, ⟨%d4, %a4, -, Hx4⟩, Hk⟩
  subst ha0 ha1 ha2 ha3
  sl_exec
  sl_step
  iapply Hk
  isplitl [Hx0]; · iexists a0; iframe Hx0; ipureintro; rfl
  isplitl [Hx1]; · iexists a1; iframe Hx1; ipureintro; rfl
  isplitl [Hx2]; · iexists a2; iframe Hx2; ipureintro; rfl
  isplitl [Hx3]; · iexists a3; iframe Hx3; ipureintro; rfl
  iexists _; isplitr
  swap; · iexact Hx4
  ipureintro
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = out1_4 (iblk1 V c 0 t) (iblk1 V c 1 t) (iblk1 V c 2 t) (iblk1 V c 3 t) := by dsimp only [dat1]

/-- The body returns each input's block unchanged, so an input is found at every point as it is left there. -/
theorem before1 (c : Dev nD) : ∀ w : Fin cfg1.W, (cfg1.win w).isOut = false → ∀ t d, (dat1 V c).before w t d = (dat1 V c).after w t
  | ⟨0, _⟩, h | ⟨1, _⟩, h | ⟨2, _⟩, h | ⟨3, _⟩, h => fun t d =>
    ((dat1 V c).before_in_eq_fetched _ h (fun _ => rfl) (fun _ _ _ => rfl) (fun _ => rfl) t d).trans rfl
  | ⟨4, _⟩, h => nomatch h

theorem body_obligation1 (c : Dev nD) : BodyObligation (dat1 (F := F) V c) (defs₀ (F := F)) Variants.none () Set.univ := fun t => by
  rw [bigSep_W1, bigSep_W1]
  simp (disch := rfl) only [before1 V c, show ∀ w i, cfg1.idle w i = false from fun _ _ => rfl,
    show (dat1 V c).after 4 t = out1_4 ((dat1 V c).after 0 t) ((dat1 V c).after 1 t) ((dat1 V c).after 2 t) ((dat1 V c).after 3 t) from by dsimp only [dat1]]
  rw [show (dat1 V c).Φ t.succ = (dat1 V c).Φ t.castSucc from rfl,
    show (dat1 V c).owesAt () t.succ = (dat1 V c).owesAt () t.castSucc from rfl]
  show _ ⊢ wp _ _ _ (bodyAt1 t) _
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ ((dat1 V c).after 0 t) ((dat1 V c).after 1 t) ((dat1 V c).after 2 t) ((dat1 V c).after 3 t) _)
  iframe H0 H1 H2 H3
  isplitl [H4]; · iexists _; iexact H4
  iintro ⟨H0, H1, H2, H3, H4⟩
  iframe

end Cert.KernelIdeal.Hand

end
-- ==== Proof.R2.lean ====
/- Region 2: the block each window holds at a grid point, the value the body leaves in the output's block as a function of the inputs' blocks, and the body's run at every point, from any contents of the buffers at the region's entry. -/
import proofs.«100265_j85727547228235_2_alg».proof.Proof.Gen.KernelIdeal.Launch
import proofs.«100265_j85727547228235_2_alg».proof.Proof.Gen.KernelIdeal.Skeleton
import proofs.«100265_j85727547228235_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_S5000x64 : Rect S5000x64 := Rect.unit (s := S5000x64) ![0, 0] S5000x64.size inb_S5000x64_S5000x64_0_0
abbrev r2_S64x64 : Rect S64x64 := Rect.unit (s := S64x64) ![0, 0] S64x64.size inb_S64x64_S64x64_0_0
abbrev r2_S5000x1 : Rect S5000x1 := Rect.unit (s := S5000x1) ![0, 0] S5000x1.size inb_S5000x1_S5000x1_0_0

def out2_3 (x0 : Vec F S5000x64 .f32) (x1 : Vec F S64x64 .f32) (x2 : Vec F S5000x1 .f32) : Vec F S5000x64 .bf16 :=
  View.canon [⟨r2_S5000x64, k2_pay1 (View.ld x0 r2_S5000x64) (View.ld x1 r2_S64x64) (View.ld x2 r2_S5000x1)⟩]

set_option maxHeartbeats 1000000 in
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S5000x1 .f32) (harg3 : arg3.IsWhole) (arg4 : Memref sig .tc .vmem S5000x64 .bf16) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_scaled_kernel i arg1 harg1 arg2 harg2 arg3 harg3 arg4 harg4) K := by
  simp only [cc2__matmul_scaled_kernel_eq_skeleton]; unfold cc2__matmul_scaled_kernel_skel owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  iexists _; isplitr
  swap; · iexact H3
  ipureintro
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by dsimp only [dat2]

/-- The body returns each input's block unchanged, so an input is found at every point as it is left there. -/
theorem before2 (c : Dev nD) : ∀ w : Fin cfg2.W, (cfg2.win w).isOut = false → ∀ t d, (dat2 V c).before w t d = (dat2 V c).after w t
  | ⟨0, _⟩, h | ⟨1, _⟩, h | ⟨2, _⟩, h => fun t d =>
    ((dat2 V c).before_in_eq_fetched _ h (fun _ => rfl) (fun _ _ _ => rfl) (fun _ => rfl) t d).trans rfl
  | ⟨3, _⟩, h => nomatch h

theorem body_obligation2 (c : Dev nD) : BodyObligation (dat2 (F := F) V c) (defs₀ (F := F)) Variants.none () Set.univ := fun t => by
  rw [bigSep_W2, bigSep_W2]
  simp (disch := rfl) only [before2 V c, show ∀ w i, cfg2.idle w i = false from fun _ _ => rfl,
    show (dat2 V c).after 3 t = out2_3 ((dat2 V c).after 0 t) ((dat2 V c).after 1 t) ((dat2 V c).after 2 t) from by dsimp only [dat2]]
  rw [show (dat2 V c).Φ t.succ = (dat2 V c).Φ t.castSucc from rfl,
    show (dat2 V c).owesAt () t.succ = (dat2 V c).owesAt () t.castSucc from rfl]
  show _ ⊢ wp _ _ _ (bodyAt2 t) _
  iintro ⟨HΦ, Ho, ⟨%d0, H0⟩, ⟨%d1, H1⟩, ⟨%d2, H2⟩, ⟨%d3, H3⟩⟩
  iapply (sound_kernel2 c Set.univ _ _ _ _ _ _ _ _ _ ((dat2 V c).after 0 t) ((dat2 V c).after 1 t) ((dat2 V c).after 2 t) _)
  iframe H0 H1 H2
  isplitl [H3]; · iexists _; iexact H3
  iintro ⟨H0, H1, H2, H3⟩
  iframe

end Cert.KernelIdeal.Hand

end
-- ==== Proof.R3.lean ====
/- Region 3: the block each window holds at a grid point, the value the body leaves in the output's block as a function of the inputs' blocks, and the body's run at every point, from any contents of the buffers at the region's entry. -/
import proofs.«100265_j85727547228235_2_alg».proof.Proof.Gen.KernelIdeal.Launch
import proofs.«100265_j85727547228235_2_alg».proof.Proof.Gen.KernelIdeal.Skeleton
import proofs.«100265_j85727547228235_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_S5000x64 : Rect S5000x64 := Rect.unit (s := S5000x64) ![0, 0] S5000x64.size inb_S5000x64_S5000x64_0_0
abbrev r3_S1x64 : Rect S1x64 := Rect.unit (s := S1x64) ![0, 0] S1x64.size inb_S1x64_S1x64_0_0
abbrev r3_S5000x1 : Rect S5000x1 := Rect.unit (s := S5000x1) ![0, 0] S5000x1.size inb_S5000x1_S5000x1_0_0
abbrev r3_S64x64 : Rect S64x64 := Rect.unit (s := S64x64) ![0, 0] S64x64.size inb_S64x64_S64x64_0_0

def out3_4 (x0 : Vec F S5000x64 .f32) (x1 : Vec F S1x64 .f32) (x2 : Vec F S5000x1 .f32) (x3 : Vec F S64x64 .f32) : Vec F S5000x64 .bf16 :=
  View.canon [⟨r3_S5000x64, k3_pay1 (View.ld x2 r3_S5000x1) (View.ld x0 r3_S5000x64) (View.ld x1 r3_S1x64) (View.ld x3 r3_S64x64) (View.ld x2 r3_S5000x1)⟩]

set_option maxHeartbeats 1000000 in
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S5000x1 .f32) (harg3 : arg3.IsWhole) (arg4 : Memref sig .tc .vmem S64x64 .f32) (harg4 : arg4.IsWhole) (arg5 : Memref sig .tc .vmem S5000x64 .bf16) (harg5 : arg5.IsWhole)
    (x0 : Vec F S5000x64 .f32) (x1 : Vec F S1x64 .f32) (x2 : Vec F S5000x1 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__bias_relu_matmul_scale_kernel i arg1 harg1 arg2 harg2 arg3 harg3 arg4 harg4 arg5 harg5) K := by
  simp only [cc3__bias_relu_matmul_scale_kernel_eq_skeleton]; unfold cc3__bias_relu_matmul_scale_kernel_skel owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; isplitr
  swap; · iexact H4
  ipureintro
  exact View.read_writes_eq_canon _ _ _ (View.cover_of_tiled _ S5000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) : (dat3 V c).after 4 t = out3_4 (iblk3 V c 0 t) (iblk3 V c 1 t) (iblk3 V c 2 t) (iblk3 V c 3 t) := by dsimp only [dat3]

/-- The body returns each input's block unchanged, so an input is found at every point as it is left there. -/
theorem before3 (c : Dev nD) : ∀ w : Fin cfg3.W, (cfg3.win w).isOut = false → ∀ t d, (dat3 V c).before w t d = (dat3 V c).after w t
  | ⟨0, _⟩, h | ⟨1, _⟩, h | ⟨2, _⟩, h | ⟨3, _⟩, h => fun t d =>
    ((dat3 V c).before_in_eq_fetched _ h (fun _ => rfl) (fun _ _ _ => rfl) (fun _ => rfl) t d).trans rfl
  | ⟨4, _⟩, h => nomatch h

theorem body_obligation3 (c : Dev nD) : BodyObligation (dat3 (F := F) V c) (defs₀ (F := F)) Variants.none () Set.univ := fun t => by
  rw [bigSep_W3, bigSep_W3]
  simp (disch := rfl) only [before3 V c, show ∀ w i, cfg3.idle w i = false from fun _ _ => rfl,
    show (dat3 V c).after 4 t = out3_4 ((dat3 V c).after 0 t) ((dat3 V c).after 1 t) ((dat3 V c).after 2 t) ((dat3 V c).after 3 t) from by dsimp only [dat3]]
  rw [show (dat3 V c).Φ t.succ = (dat3 V c).Φ t.castSucc from rfl,
    show (dat3 V c).owesAt () t.succ = (dat3 V c).owesAt () t.castSucc from rfl]
  show _ ⊢ wp _ _ _ (bodyAt3 t) _
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ ((dat3 V c).after 0 t) ((dat3 V c).after 1 t) ((dat3 V c).after 2 t) ((dat3 V c).after 3 t) _)
  iframe H0 H1 H2 H3
  isplitl [H4]; · iexists _; iexact H4
  iintro ⟨H0, H1, H2, H3, H4⟩
  iframe

end Cert.KernelIdeal.Hand

end
-- ==== Proof.R4.lean ====
/- Region 4: the block each window holds at a grid point, the value the body leaves in the output's block as a function of the inputs' blocks, and the body's run at every point, from any contents of the buffers at the region's entry. -/
import proofs.«100265_j85727547228235_2_alg».proof.Proof.Gen.KernelIdeal.Launch
import proofs.«100265_j85727547228235_2_alg».proof.Proof.Gen.KernelIdeal.Skeleton
import proofs.«100265_j85727547228235_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_S5000x64 : Rect S5000x64 := Rect.unit (s := S5000x64) ![0, 0] S5000x64.size inb_S5000x64_S5000x64_0_0
abbrev r4_S1x64 : Rect S1x64 := Rect.unit (s := S1x64) ![0, 0] S1x64.size inb_S1x64_S1x64_0_0
abbrev r4_S5000x1 : Rect S5000x1 := Rect.unit (s := S5000x1) ![0, 0] S5000x1.size inb_S5000x1_S5000x1_0_0

def out4_3 (x0 : Vec F S5000x64 .f32) (x1 : Vec F S1x64 .f32) (x2 : Vec F S5000x1 .f32) : Vec F S5000x64 .f32 :=
  View.canon [⟨r4_S5000x64, k4_pay1 (View.ld x2 r4_S5000x1) (View.ld x0 r4_S5000x64) (View.ld x1 r4_S1x64)⟩]

set_option maxHeartbeats 1000000 in
theorem sound_kernel4 (c : Dev nD) (E : Set ℕ) (i : grid4.Coords) (arg1 : Memref sig .tc .vmem S5000x64 .f32) (harg1 : arg1.IsWhole) (arg2 : Memref sig .tc .vmem S1x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S1x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__bias_scale_kernel i arg1 harg1 arg2 harg2 arg3 harg3 arg4 harg4) K := by
  simp only [cc4__bias_scale_kernel_eq_skeleton]; unfold cc4__bias_scale_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  iexists _; isplitr
  swap; · iexact H3
  ipureintro
  exact View.read_writes_eq_canon _ _ _ (View.cover_of_tiled _ S5000x64.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = out4_3 (iblk4 V c 0 t) (iblk4 V c 1 t) (iblk4 V c 2 t) := by dsimp only [dat4]

/-- The body returns each input's block unchanged, so an input is found at every point as it is left there. -/
theorem before4 (c : Dev nD) : ∀ w : Fin cfg4.W, (cfg4.win w).isOut = false → ∀ t d, (dat4 V c).before w t d = (dat4 V c).after w t
  | ⟨0, _⟩, h | ⟨1, _⟩, h | ⟨2, _⟩, h => fun t d =>
    ((dat4 V c).before_in_eq_fetched _ h (fun _ => rfl) (fun _ _ _ => rfl) (fun _ => rfl) t d).trans rfl
  | ⟨3, _⟩, h => nomatch h

theorem body_obligation4 (c : Dev nD) : BodyObligation (dat4 (F := F) V c) (defs₀ (F := F)) Variants.none () Set.univ := fun t => by
  rw [bigSep_W4, bigSep_W4]
  simp (disch := rfl) only [before4 V c, show ∀ w i, cfg4.idle w i = false from fun _ _ => rfl,
    show (dat4 V c).after 3 t = out4_3 ((dat4 V c).after 0 t) ((dat4 V c).after 1 t) ((dat4 V c).after 2 t) from by dsimp only [dat4]]
  rw [show (dat4 V c).Φ t.succ = (dat4 V c).Φ t.castSucc from rfl,
    show (dat4 V c).owesAt () t.succ = (dat4 V c).owesAt () t.castSucc from rfl]
  show _ ⊢ wp _ _ _ (bodyAt4 t) _
  iintro ⟨HΦ, Ho, ⟨%d0, H0⟩, ⟨%d1, H1⟩, ⟨%d2, H2⟩, ⟨%d3, H3⟩⟩
  iapply (sound_kernel4 c Set.univ (grid4.coords t) _ _ _ _ _ _ _ _ ((dat4 V c).after 0 t) ((dat4 V c).after 1 t) ((dat4 V c).after 2 t) _)
  iframe H0 H1 H2
  isplitl [H3]; · iexists _; iexact H3
  iintro ⟨H0, H1, H2, H3⟩
  iframe

end Cert.KernelIdeal.Hand

end
-- ==== Proof.R5.lean ====
/- Region 5: the block each window holds at a grid point, the value the body leaves in the output's block as a function of the inputs' blocks, and the body's run at every point, from any contents of the buffers at the region's entry. -/
import proofs.«100265_j85727547228235_2_alg».proof.Proof.Gen.KernelIdeal.Launch
import proofs.«100265_j85727547228235_2_alg».proof.Proof.Gen.KernelIdeal.Skeleton
import proofs.«100265_j85727547228235_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_S5000x64 : Rect S5000x64 := Rect.unit (s := S5000x64) ![0, 0] S5000x64.size inb_S5000x64_S5000x64_0_0
abbrev r5_S64x64 : Rect S64x64 := Rect.unit (s := S64x64) ![0, 0] S64x64.size inb_S64x64_S64x64_0_0

def out5_2 (x0 : Vec F S5000x64 .f32) (x1 : Vec F S64x64 .f32) : Vec F S5000x64 .bf16 :=
  View.canon [⟨r5_S5000x64, k5_pay1 (View.ld x0 r5_S5000x64) (View.ld x1 r5_S64x64)⟩]

set_option maxHeartbeats 1000000 in
theorem sound_kernel5 (c : Dev nD) (E : Set ℕ) (i : grid5.Coords) (arg1 : Memref sig .tc .vmem S5000x64 .f32) (harg1 : arg1.IsWhole) (arg2 : Memref sig .tc .vmem S64x64 .f32) (harg2 : arg2.IsWhole) (arg3 : Memref sig .tc .vmem S5000x64 .bf16) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe H0; ipureintro; rfl
  isplitl [H1]; · iexists f1; iframe H1; ipureintro; rfl
  iexists _; isplitr
  swap; · iexact H2
  ipureintro
  exact View.read_writes_eq_canon _ _ _ (View.cover_of_tiled _ S5000x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := rfl

theorem after5_2 (c : Dev nD) (t : Fin cfg5.N) : (dat5 V c).after 2 t = out5_2 (iblk5 V c 0 t) (iblk5 V c 1 t) := by dsimp only [dat5]

/-- The body returns each input's block unchanged, so an input is found at every point as it is left there. -/
theorem before5 (c : Dev nD) : ∀ w : Fin cfg5.W, (cfg5.win w).isOut = false → ∀ t d, (dat5 V c).before w t d = (dat5 V c).after w t
  | ⟨0, _⟩, h | ⟨1, _⟩, h => fun t d =>
    ((dat5 V c).before_in_eq_fetched _ h (fun _ => rfl) (fun _ _ _ => rfl) (fun _ => rfl) t d).trans rfl
  | ⟨2, _⟩, h => nomatch h

theorem body_obligation5 (c : Dev nD) : BodyObligation (dat5 (F := F) V c) (defs₀ (F := F)) Variants.none () Set.univ := fun t => by
  rw [bigSep_W5, bigSep_W5]
  simp (disch := rfl) only [before5 V c, show ∀ w i, cfg5.idle w i = false from fun _ _ => rfl,
    show (dat5 V c).after 2 t = out5_2 ((dat5 V c).after 0 t) ((dat5 V c).after 1 t) from by dsimp only [dat5]]
  rw [show (dat5 V c).Φ t.succ = (dat5 V c).Φ t.castSucc from rfl,
    show (dat5 V c).owesAt () t.succ = (dat5 V c).owesAt () t.castSucc from rfl]
  show _ ⊢ wp _ _ _ (bodyAt5 t) _
  iintro ⟨HΦ, Ho, ⟨%d0, H0⟩, ⟨%d1, H1⟩, ⟨%d2, H2⟩⟩
  iapply (sound_kernel5 c Set.univ _ _ _ _ _ _ _ ((dat5 V c).after 0 t) ((dat5 V c).after 1 t) _)
  iframe H0 H1
  isplitl [H2]; · iexists _; iexact H2
  iintro ⟨H0, H1, H2⟩
  iframe

end Cert.KernelIdeal.Hand

end
-- ==== Proof.R6.lean ====
/- Region 6: the block each window holds at a grid point, the value the body leaves in the output's block as a function of the inputs' blocks, and the body's run at every point, from any contents of the buffers at the region's entry. -/
import proofs.«100265_j85727547228235_2_alg».proof.Proof.Gen.KernelIdeal.Launch
import proofs.«100265_j85727547228235_2_alg».proof.Proof.Gen.KernelIdeal.Skeleton
import proofs.«100265_j85727547228235_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_S5000x64 : Rect S5000x64 := Rect.unit (s := S5000x64) ![0, 0] S5000x64.size inb_S5000x64_S5000x64_0_0
abbrev r6_S64x64 : Rect S64x64 := Rect.unit (s := S64x64) ![0, 0] S64x64.size inb_S64x64_S64x64_0_0

def out6_2 (x0 : Vec F S5000x64 .f32) (x1 : Vec F S64x64 .f32) : Vec F S5000x64 .bf16 :=
  View.canon [⟨r6_S5000x64, k6_pay1 (View.ld x0 r6_S5000x64) (View.ld x1 r6_S64x64)⟩]

set_option maxHeartbeats 1000000 in
theorem sound_kernel6 (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S5000x64 .bf16) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe H0; ipureintro; rfl
  isplitl [H1]; · iexists f1; iframe H1; ipureintro; rfl
  iexists _; isplitr
  swap; · iexact H2
  ipureintro
  exact View.read_writes_eq_canon _ _ _ (View.cover_of_tiled _ S5000x64.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = out6_2 (iblk6 V c 0 t) (iblk6 V c 1 t) := by dsimp only [dat6]

/-- The body returns each input's block unchanged, so an input is found at every point as it is left there. -/
theorem before6 (c : Dev nD) : ∀ w : Fin cfg6.W, (cfg6.win w).isOut = false → ∀ t d, (dat6 V c).before w t d = (dat6 V c).after w t
  | ⟨0, _⟩, h | ⟨1, _⟩, h => fun t d =>
    ((dat6 V c).before_in_eq_fetched _ h (fun _ => rfl) (fun _ _ _ => rfl) (fun _ => rfl) t d).trans rfl
  | ⟨2, _⟩, h => nomatch h

theorem body_obligation6 (c : Dev nD) : BodyObligation (dat6 (F := F) V c) (defs₀ (F := F)) Variants.none () Set.univ := fun t => by
  rw [bigSep_W6, bigSep_W6]
  simp (disch := rfl) only [before6 V c, show ∀ w i, cfg6.idle w i = false from fun _ _ => rfl,
    show (dat6 V c).after 2 t = out6_2 ((dat6 V c).after 0 t) ((dat6 V c).after 1 t) from by dsimp only [dat6]]
  rw [show (dat6 V c).Φ t.succ = (dat6 V c).Φ t.castSucc from rfl,
    show (dat6 V c).owesAt () t.succ = (dat6 V c).owesAt () t.castSucc from rfl]
  show _ ⊢ wp _ _ _ (bodyAt6 t) _
  iintro ⟨HΦ, Ho, ⟨%d0, H0⟩, ⟨%d1, H1⟩, ⟨%d2, H2⟩⟩
  iapply (sound_kernel6 c Set.univ _ _ _ _ _ _ _ ((dat6 V c).after 0 t) ((dat6 V c).after 1 t) _)
  iframe H0 H1
  isplitl [H2]; · iexists _; iexact H2
  iintro ⟨H0, H1, H2⟩
  iframe

end Cert.KernelIdeal.Hand

end
-- ==== Proof.R7.lean ====
/- Region 7: the block each window holds at a grid point, the value the body leaves in the output's block as a function of the inputs' blocks, and the body's run at every point, from any contents of the buffers at the region's entry. -/
import proofs.«100265_j85727547228235_2_alg».proof.Proof.Gen.KernelIdeal.Launch
import proofs.«100265_j85727547228235_2_alg».proof.Proof.Gen.KernelIdeal.Skeleton
import proofs.«100265_j85727547228235_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_S5000x64 : Rect S5000x64 := Rect.unit (s := S5000x64) ![0, 0] S5000x64.size inb_S5000x64_S5000x64_0_0
abbrev r7_S1x64 : Rect S1x64 := Rect.unit (s := S1x64) ![0, 0] S1x64.size inb_S1x64_S1x64_0_0
abbrev r7_S64x1 : Rect S64x1 := Rect.unit (s := S64x1) ![0, 0] S64x1.size inb_S64x1_S64x1_0_0
abbrev r7_S1x1 : Rect S1x1 := Rect.unit (s := S1x1) ![0, 0] S1x1.size inb_S1x1_S1x1_0_0
abbrev r7_S5000x1 : Rect S5000x1 := Rect.unit (s := S5000x1) ![0, 0] S5000x1.size inb_S5000x1_S5000x1_0_0

def out7_5 (x0 : Vec F S5000x64 .bf16) (x1 : Vec F S5000x64 .bf16) (x2 : Vec F S1x64 .f32) (x3 : Vec F S64x1 .f32) (x4 : Vec F S1x1 .f32) : Vec F S5000x1 .f32 :=
  View.canon [⟨r7_S5000x1, k7_pay1 (View.ld x0 r7_S5000x64) (View.ld x1 r7_S5000x64) (View.ld x2 r7_S1x64) (View.ld x3 r7_S64x1) (View.ld x4 r7_S1x1)⟩]

set_option maxHeartbeats 1000000 in
theorem sound_kernel7 (c : Dev nD) (E : Set ℕ) (i : grid7.Coords) (arg1 : Memref sig .tc .vmem S5000x64 .bf16) (harg1 : arg1.IsWhole) (arg2 : Memref sig .tc .vmem S5000x64 .bf16) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S5000x1 .f32) (harg6 : arg6.IsWhole)
    (x0 : Vec F S5000x64 .bf16) (x1 : Vec F S5000x64 .bf16) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__pred_tail_kernel i arg1 harg1 arg2 harg2 arg3 harg3 arg4 harg4 arg5 harg5 arg6 harg6) K := by
  simp only [cc7__pred_tail_kernel_eq_skeleton]; unfold cc7__pred_tail_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; isplitr
  swap; · iexact H5
  ipureintro
  exact View.read_writes_eq_canon _ _ _ (View.cover_of_tiled _ S5000x1.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := rfl

theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

/-- The body returns each input's block unchanged, so an input is found at every point as it is left there. -/
theorem before7 (c : Dev nD) : ∀ w : Fin cfg7.W, (cfg7.win w).isOut = false → ∀ t d, (dat7 V c).before w t d = (dat7 V c).after w t
  | ⟨0, _⟩, h | ⟨1, _⟩, h | ⟨2, _⟩, h | ⟨3, _⟩, h | ⟨4, _⟩, h => fun t d =>
    ((dat7 V c).before_in_eq_fetched _ h (fun _ => rfl) (fun _ _ _ => rfl) (fun _ => rfl) t d).trans rfl
  | ⟨5, _⟩, h => nomatch h

theorem body_obligation7 (c : Dev nD) : BodyObligation (dat7 (F := F) V c) (defs₀ (F := F)) Variants.none () Set.univ := fun t => by
  rw [bigSep_W7, bigSep_W7]
  simp (disch := rfl) only [before7 V c, show ∀ w i, cfg7.idle w i = false from fun _ _ => rfl,
    show (dat7 V c).after 5 t = out7_5 ((dat7 V c).after 0 t) ((dat7 V c).after 1 t) ((dat7 V c).after 2 t) ((dat7 V c).after 3 t) ((dat7 V c).after 4 t) from by dsimp only [dat7]]
  rw [show (dat7 V c).Φ t.succ = (dat7 V c).Φ t.castSucc from rfl,
    show (dat7 V c).owesAt () t.succ = (dat7 V c).owesAt () t.castSucc from rfl]
  show _ ⊢ wp _ _ _ (bodyAt7 t) _
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ ((dat7 V c).after 0 t) ((dat7 V c).after 1 t) ((dat7 V c).after 2 t) ((dat7 V c).after 3 t) ((dat7 V c).after 4 t) _)
  iframe H0 H1 H2 H3 H4
  isplitl [H5]; · iexists _; iexact H5
  iintro ⟨H0, H1, H2, H3, H4, H5⟩
  iframe

end Cert.KernelIdeal.Hand

end
-- ==== Proof.Run.lean ====
/- The buffers' contents at every boundary between the program's host lines and kernel regions, each region as a segment between two boundaries, and the launch over the list: every execution ends with every buffer at the last boundary's contents. -/
import proofs.«100265_j85727547228235_2_alg».proof.Proof.Gen.KernelIdeal.Launch
import proofs.«100265_j85727547228235_2_alg».proof.Proof.Gen.KernelIdeal.Skeleton
import proofs.«100265_j85727547228235_2_alg».proof.Proof.Gen.KernelIdeal.Points
import proofs.«100265_j85727547228235_2_alg».proof.Proof.Gen.KernelIdeal.Regions
import proofs.«100265_j85727547228235_2_alg».proof.Proof.R0
import proofs.«100265_j85727547228235_2_alg».proof.Proof.R1
import proofs.«100265_j85727547228235_2_alg».proof.Proof.R2
import proofs.«100265_j85727547228235_2_alg».proof.Proof.R3
import proofs.«100265_j85727547228235_2_alg».proof.Proof.R4
import proofs.«100265_j85727547228235_2_alg».proof.Proof.R5
import proofs.«100265_j85727547228235_2_alg».proof.Proof.R6
import proofs.«100265_j85727547228235_2_alg».proof.Proof.R7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 (m : (ℓ : Loc nD τ sig) → Buf (Elt F) ℓ) (ρ : Dev nD → PrngReg) : Dev nD → Valuation τ sig (Elt F) := fun c b => m (c, b)

abbrev W1 : Dev nD → Valuation τ sig (Elt F) := fun c => StableHlo.after hostOps0 (W0 m ρ c)
abbrev Vh1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

def W2 (c : Dev nD) : Valuation τ sig (Elt F) :=
  Pipeline.withArrays spec0 c (W1 m ρ c) fun w => (dat0 (Vh1 m ρ) c).arrAt w cfg0.N
theorem W2_arr (c : Dev nD) (w : Fin cfg0.W) :
    W2 m ρ c (Proc.devRef .tc (Pipeline.arrRef spec0 w)) = (dat0 (Vh1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vh2 : (c : Dev nD) → (b : Ref sig .tc) → Buf (Elt F) ((c : Thread nD τ).loc b) := fun c b => W2 m ρ c b
theorem hF0 (c : Dev nD) (w : Fin cfg0.W) : (dat0 (Vh1 m ρ) c).arrAt w cfg0.N = Vh2 m ρ c (Pipeline.arrRef spec0 w) :=
  (W2_arr m ρ c w).symm
theorem hrest0 (c : Dev nD) : ∀ b, b ∉ Finset.univ.image (Pipeline.arrRef spec0) → Vh2 m ρ c b = Vh1 m ρ c b :=
  fun b hb => W2_of_ne m ρ c b fun w e => hb (Finset.mem_image.mpr ⟨w, Finset.mem_univ _, e⟩)

theorem W2_in0 (c : Dev nD) : W2 m ρ c (Proc.devRef .tc main_arg1) = W1 m ρ c (Proc.devRef .tc main_arg1) :=
  (W2_arr m ρ c 0).trans (((dat0 (Vh1 m ρ) c).arrAt_in 0 rfl _).trans (A_eq0 (Vh1 m ρ) c 0))
theorem W2_in1 (c : Dev nD) : W2 m ρ c (Proc.devRef .tc main_arg5) = W1 m ρ c (Proc.devRef .tc main_arg5) :=
  (W2_arr m ρ c 1).trans (((dat0 (Vh1 m ρ) c).arrAt_in 1 rfl _).trans (A_eq0 (Vh1 m ρ) c 1))
theorem W2_in2 (c : Dev nD) : W2 m ρ c (Proc.devRef .tc main_v4) = W1 m ρ c (Proc.devRef .tc main_v4) :=
  (W2_arr m ρ c 2).trans (((dat0 (Vh1 m ρ) c).arrAt_in 2 rfl _).trans (A_eq0 (Vh1 m ρ) c 2))
theorem W2_in3 (c : Dev nD) : W2 m ρ c (Proc.devRef .tc main_arg3) = W1 m ρ c (Proc.devRef .tc main_arg3) :=
  (W2_arr m ρ c 3).trans (((dat0 (Vh1 m ρ) c).arrAt_in 3 rfl _).trans (A_eq0 (Vh1 m ρ) c 3))

theorem W2_of (c : Dev nD) (r : Ref sig .tc) (h : r ∉ ([main_v5] : List (Ref sig .tc))) : W2 m ρ c (Proc.devRef .tc r) = W1 m ρ c (Proc.devRef .tc r) := by
  by_cases h0 : r = main_arg1
  · subst h0; exact W2_in0 m ρ c
  by_cases h1 : r = main_arg5
  · subst h1; exact W2_in1 m ρ c
  by_cases h2 : r = main_v4
  · subst h2; exact W2_in2 m ρ c
  by_cases h3 : r = main_arg3
  · subst h3; exact W2_in3 m ρ c
  refine W2_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h (List.mem_singleton.mpr e.symm)
  | ⟨_ + 5, hn⟩ => exact absurd hn (Nat.not_lt.2 (Nat.le_add_left _ _))

abbrev W3 : Dev nD → Valuation τ sig (Elt F) := fun c => StableHlo.after hostOps1 (W2 m ρ c)
abbrev Vh3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

def W4 (c : Dev nD) : Valuation τ sig (Elt F) :=
  Pipeline.withArrays spec1 c (W3 m ρ c) fun w => (dat1 (Vh3 m ρ) c).arrAt w cfg1.N
theorem W4_arr (c : Dev nD) (w : Fin cfg1.W) :
    W4 m ρ c (Proc.devRef .tc (Pipeline.arrRef spec1 w)) = (dat1 (Vh3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vh4 : (c : Dev nD) → (b : Ref sig .tc) → Buf (Elt F) ((c : Thread nD τ).loc b) := fun c b => W4 m ρ c b
theorem hF1 (c : Dev nD) (w : Fin cfg1.W) : (dat1 (Vh3 m ρ) c).arrAt w cfg1.N = Vh4 m ρ c (Pipeline.arrRef spec1 w) :=
  (W4_arr m ρ c w).symm
theorem hrest1 (c : Dev nD) : ∀ b, b ∉ Finset.univ.image (Pipeline.arrRef spec1) → Vh4 m ρ c b = Vh3 m ρ c b :=
  fun b hb => W4_of_ne m ρ c b fun w e => hb (Finset.mem_image.mpr ⟨w, Finset.mem_univ _, e⟩)

theorem W4_in0 (c : Dev nD) : W4 m ρ c (Proc.devRef .tc main_arg2) = W3 m ρ c (Proc.devRef .tc main_arg2) :=
  (W4_arr m ρ c 0).trans (((dat1 (Vh3 m ρ) c).arrAt_in 0 rfl _).trans (A_eq1 (Vh3 m ρ) c 0))
theorem W4_in1 (c : Dev nD) : W4 m ρ c (Proc.devRef .tc main_arg7) = W3 m ρ c (Proc.devRef .tc main_arg7) :=
  (W4_arr m ρ c 1).trans (((dat1 (Vh3 m ρ) c).arrAt_in 1 rfl _).trans (A_eq1 (Vh3 m ρ) c 1))
theorem W4_in2 (c : Dev nD) : W4 m ρ c (Proc.devRef .tc main_v6) = W3 m ρ c (Proc.devRef .tc main_v6) :=
  (W4_arr m ρ c 2).trans (((dat1 (Vh3 m ρ) c).arrAt_in 2 rfl _).trans (A_eq1 (Vh3 m ρ) c 2))
theorem W4_in3 (c : Dev nD) : W4 m ρ c (Proc.devRef .tc main_arg4) = W3 m ρ c (Proc.devRef .tc main_arg4) :=
  (W4_arr m ρ c 3).trans (((dat1 (Vh3 m ρ) c).arrAt_in 3 rfl _).trans (A_eq1 (Vh3 m ρ) c 3))

theorem W4_of (c : Dev nD) (r : Ref sig .tc) (h : r ∉ ([main_v7] : List (Ref sig .tc))) : W4 m ρ c (Proc.devRef .tc r) = W3 m ρ c (Proc.devRef .tc r) := by
  by_cases h0 : r = main_arg2
  · subst h0; exact W4_in0 m ρ c
  by_cases h1 : r = main_arg7
  · subst h1; exact W4_in1 m ρ c
  by_cases h2 : r = main_v6
  · subst h2; exact W4_in2 m ρ c
  by_cases h3 : r = main_arg4
  · subst h3; exact W4_in3 m ρ c
  refine W4_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h (List.mem_singleton.mpr e.symm)
  | ⟨_ + 5, hn⟩ => exact absurd hn (Nat.not_lt.2 (Nat.le_add_left _ _))

abbrev W5 : Dev nD → Valuation τ sig (Elt F) := fun c => StableHlo.after hostOps2 (W4 m ρ c)
abbrev Vh5 : (c : Dev nD) → (b : Ref sig .tc) → Buf (Elt F) ((c : Thread nD τ).loc b) := fun c b => W5 m ρ c b
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

abbrev W6 : Dev nD → Valuation τ sig (Elt F) := fun c => StableHlo.after hostOps2_1 (W5 m ρ c)
abbrev Vh6 : (c : Dev nD) → (b : Ref sig .tc) → Buf (Elt F) ((c : Thread nD τ).loc b) := fun c b => W6 m ρ c b
theorem W6_of (c : Dev nD) (r : Ref sig .tc) (h : r ∉ hostOps2_1_W) : W6 m ρ c (Proc.devRef .tc r) = W5 m ρ c (Proc.devRef .tc r) :=
  StableHlo.after_of_writes_sub hostOps2_1 _ hostOps2_1_writes h

abbrev W7 : Dev nD → Valuation τ sig (Elt F) := fun c => StableHlo.after hostOps2_2 (W6 m ρ c)
abbrev Vh7 : (c : Dev nD) → (b : Ref sig .tc) → Buf (Elt F) ((c : Thread nD τ).loc b) := fun c b => W7 m ρ c b
theorem W7_of (c : Dev nD) (r : Ref sig .tc) (h : r ∉ hostOps2_2_W) : W7 m ρ c (Proc.devRef .tc r) = W6 m ρ c (Proc.devRef .tc r) :=
  StableHlo.after_of_writes_sub hostOps2_2 _ hostOps2_2_writes h

def W8 (c : Dev nD) : Valuation τ sig (Elt F) :=
  Pipeline.withArrays spec2 c (W7 m ρ c) fun w => (dat2 (Vh7 m ρ) c).arrAt w cfg2.N
theorem W8_arr (c : Dev nD) (w : Fin cfg2.W) :
    W8 m ρ c (Proc.devRef .tc (Pipeline.arrRef spec2 w)) = (dat2 (Vh7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev Vh8 : (c : Dev nD) → (b : Ref sig .tc) → Buf (Elt F) ((c : Thread nD τ).loc b) := fun c b => W8 m ρ c b
theorem hF2 (c : Dev nD) (w : Fin cfg2.W) : (dat2 (Vh7 m ρ) c).arrAt w cfg2.N = Vh8 m ρ c (Pipeline.arrRef spec2 w) :=
  (W8_arr m ρ c w).symm
theorem hrest2 (c : Dev nD) : ∀ b, b ∉ Finset.univ.image (Pipeline.arrRef spec2) → Vh8 m ρ c b = Vh7 m ρ c b :=
  fun b hb => W8_of_ne m ρ c b fun w e => hb (Finset.mem_image.mpr ⟨w, Finset.mem_univ _, e⟩)

theorem W8_in0 (c : Dev nD) : W8 m ρ c (Proc.devRef .tc main_v8) = W7 m ρ c (Proc.devRef .tc main_v8) :=
  (W8_arr m ρ c 0).trans (((dat2 (Vh7 m ρ) c).arrAt_in 0 rfl _).trans (A_eq2 (Vh7 m ρ) c 0))
theorem W8_in1 (c : Dev nD) : W8 m ρ c (Proc.devRef .tc main_arg9) = W7 m ρ c (Proc.devRef .tc main_arg9) :=
  (W8_arr m ρ c 1).trans (((dat2 (Vh7 m ρ) c).arrAt_in 1 rfl _).trans (A_eq2 (Vh7 m ρ) c 1))
theorem W8_in2 (c : Dev nD) : W8 m ρ c (Proc.devRef .tc main_v22) = W7 m ρ c (Proc.devRef .tc main_v22) :=
  (W8_arr m ρ c 2).trans (((dat2 (Vh7 m ρ) c).arrAt_in 2 rfl _).trans (A_eq2 (Vh7 m ρ) c 2))

theorem W8_of (c : Dev nD) (r : Ref sig .tc) (h : r ∉ ([main_v23] : List (Ref sig .tc))) : W8 m ρ c (Proc.devRef .tc r) = W7 m ρ c (Proc.devRef .tc r) := by
  by_cases h0 : r = main_v8
  · subst h0; exact W8_in0 m ρ c
  by_cases h1 : r = main_arg9
  · subst h1; exact W8_in1 m ρ c
  by_cases h2 : r = main_v22
  · subst h2; exact W8_in2 m ρ c
  refine W8_of_ne m ρ c r fun w e => ?_
  match w with
  | ⟨0, _⟩ => exact h0 e.symm
  | ⟨1, _⟩ => exact h1 e.symm
  | ⟨2, _⟩ => exact h2 e.symm
  | ⟨3, _⟩ => exact h (List.mem_singleton.mpr e.symm)
  | ⟨_ + 4, hn⟩ => exact absurd hn (Nat.not_lt.2 (Nat.le_add_left _ _))

abbrev W9 : Dev nD → Valuation τ sig (Elt F) := fun c => StableHlo.after hostOps3 (W8 m ρ c)
abbrev Vh9 : (c : Dev nD) → (b : Ref sig .tc) → Buf (Elt F) ((c : Thread nD τ).loc b) := fun c b => W9 m ρ c b
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h

def W10 (c : Dev nD) : Valuation τ sig (Elt F) :=
  Pipeline.withArrays spec3 c (W9 m ρ c) fun w => (dat3 (Vh9 m ρ) c).arrAt w cfg3.N
theorem W10_arr (c : Dev nD) (w : Fin cfg3.W) :
    W10 m ρ c (Proc.devRef .tc (Pipeline.arrRef spec3 w)) = (dat3 (Vh9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev Vh10 : (c : Dev nD) → (b : Ref sig .tc) → Buf (Elt F) ((c : Thread nD τ).loc b) := fun c b => W10 m ρ c b
theorem hF3 (c : Dev nD) (w : Fin cfg3.W) : (dat3 (Vh9 m ρ) c).arrAt w cfg3.N = Vh10 m ρ c (Pipeline.arrRef spec3 w) :=
  (W10_arr m ρ c w).symm
theorem hrest3 (c : Dev nD) : ∀ b, b ∉ Finset.univ.image (Pipeline.arrRef spec3) → Vh10 m ρ c b = Vh9 m ρ c b :=
  fun b hb => W10_of_ne m ρ c b fun w e => hb (Finset.mem_image.mpr ⟨w, Finset.mem_univ _, e⟩)

theorem W10_in0 (c : Dev nD) : W10 m ρ c (Proc.devRef .tc main_v34) = W9 m ρ c (Proc.devRef .tc main_v34) :=
  (W10_arr m ρ c 0).trans (((dat3 (Vh9 m ρ) c).arrAt_in 0 rfl _).trans (A_eq3 (Vh9 m ρ) c 0))
theorem W10_in1 (c : Dev nD) : W10 m ρ c (Proc.devRef .tc main_v35) = W9 m ρ c (Proc.devRef .tc main_v35) :=
  (W10_arr m ρ c 1).trans (((dat3 (Vh9 m ρ) c).arrAt_in 1 rfl _).trans (A_eq3 (Vh9 m ρ) c 1))
theorem W10_in2 (c : Dev nD) : W10 m ρ c (Proc.devRef .tc main_v36) = W9 m ρ c (Proc.devRef .tc main_v36) :=
  (W10_arr m ρ c 2).trans (((dat3 (Vh9 m ρ) c).arrAt_in 2 rfl _).trans (A_eq3 (Vh9 m ρ) c 2))
theorem W10_in3 (c : Dev nD) : W10 m ρ c (Proc.devRef .tc main_arg11) = W9 m ρ c (Proc.devRef .tc main_arg11) :=
  (W10_arr m ρ c 3).trans (((dat3 (Vh9 m ρ) c).arrAt_in 3 rfl _).trans (A_eq3 (Vh9 m ρ) c 3))

theorem W10_of (c : Dev nD) (r : Ref sig .tc) (h : r ∉ ([main_v37] : List (Ref sig .tc))) : W10 m ρ c (Proc.devRef .tc r) = W9 m ρ c (Proc.devRef .tc r) := by
  by_cases h0 : r = main_v34
  · subst h0; exact W10_in0 m ρ c
  by_cases h1 : r = main_v35
  · subst h1; exact W10_in1 m ρ c
  by_cases h2 : r = main_v36
  · subst h2; exact W10_in2 m ρ c
  by_cases h3 : r = main_arg11
  · subst h3; exact W10_in3 m ρ c
  refine W10_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h (List.mem_singleton.mpr e.symm)
  | ⟨_ + 5, hn⟩ => exact absurd hn (Nat.not_lt.2 (Nat.le_add_left _ _))

abbrev W11 : Dev nD → Valuation τ sig (Elt F) := fun c => StableHlo.after hostOps4 (W10 m ρ c)
abbrev Vh11 : (c : Dev nD) → (b : Ref sig .tc) → Buf (Elt F) ((c : Thread nD τ).loc b) := fun c b => W11 m ρ c b
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h

def W12 (c : Dev nD) : Valuation τ sig (Elt F) :=
  Pipeline.withArrays spec4 c (W11 m ρ c) fun w => (dat4 (Vh11 m ρ) c).arrAt w cfg4.N
theorem W12_arr (c : Dev nD) (w : Fin cfg4.W) :
    W12 m ρ c (Proc.devRef .tc (Pipeline.arrRef spec4 w)) = (dat4 (Vh11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev Vh12 : (c : Dev nD) → (b : Ref sig .tc) → Buf (Elt F) ((c : Thread nD τ).loc b) := fun c b => W12 m ρ c b
theorem hF4 (c : Dev nD) (w : Fin cfg4.W) : (dat4 (Vh11 m ρ) c).arrAt w cfg4.N = Vh12 m ρ c (Pipeline.arrRef spec4 w) :=
  (W12_arr m ρ c w).symm
theorem hrest4 (c : Dev nD) : ∀ b, b ∉ Finset.univ.image (Pipeline.arrRef spec4) → Vh12 m ρ c b = Vh11 m ρ c b :=
  fun b hb => W12_of_ne m ρ c b fun w e => hb (Finset.mem_image.mpr ⟨w, Finset.mem_univ _, e⟩)

theorem W12_in0 (c : Dev nD) : W12 m ρ c (Proc.devRef .tc main_v48) = W11 m ρ c (Proc.devRef .tc main_v48) :=
  (W12_arr m ρ c 0).trans (((dat4 (Vh11 m ρ) c).arrAt_in 0 rfl _).trans (A_eq4 (Vh11 m ρ) c 0))
theorem W12_in1 (c : Dev nD) : W12 m ρ c (Proc.devRef .tc main_v49) = W11 m ρ c (Proc.devRef .tc main_v49) :=
  (W12_arr m ρ c 1).trans (((dat4 (Vh11 m ρ) c).arrAt_in 1 rfl _).trans (A_eq4 (Vh11 m ρ) c 1))
theorem W12_in2 (c : Dev nD) : W12 m ρ c (Proc.devRef .tc main_v50) = W11 m ρ c (Proc.devRef .tc main_v50) :=
  (W12_arr m ρ c 2).trans (((dat4 (Vh11 m ρ) c).arrAt_in 2 rfl _).trans (A_eq4 (Vh11 m ρ) c 2))

theorem W12_of (c : Dev nD) (r : Ref sig .tc) (h : r ∉ ([main_v51] : List (Ref sig .tc))) : W12 m ρ c (Proc.devRef .tc r) = W11 m ρ c (Proc.devRef .tc r) := by
  by_cases h0 : r = main_v48
  · subst h0; exact W12_in0 m ρ c
  by_cases h1 : r = main_v49
  · subst h1; exact W12_in1 m ρ c
  by_cases h2 : r = main_v50
  · subst h2; exact W12_in2 m ρ c
  refine W12_of_ne m ρ c r fun w e => ?_
  match w with
  | ⟨0, _⟩ => exact h0 e.symm
  | ⟨1, _⟩ => exact h1 e.symm
  | ⟨2, _⟩ => exact h2 e.symm
  | ⟨3, _⟩ => exact h (List.mem_singleton.mpr e.symm)
  | ⟨_ + 4, hn⟩ => exact absurd hn (Nat.not_lt.2 (Nat.le_add_left _ _))

abbrev W13 : Dev nD → Valuation τ sig (Elt F) := fun c => StableHlo.after hostOps5 (W12 m ρ c)
abbrev Vh13 : (c : Dev nD) → (b : Ref sig .tc) → Buf (Elt F) ((c : Thread nD τ).loc b) := fun c b => W13 m ρ c b
theorem W13_of (c : Dev nD) (r : Ref sig .tc) (h : r ∉ hostOps5_W) : W13 m ρ c (Proc.devRef .tc r) = W12 m ρ c (Proc.devRef .tc r) :=
  StableHlo.after_of_writes_sub hostOps5 _ hostOps5_writes h

def W14 (c : Dev nD) : Valuation τ sig (Elt F) :=
  Pipeline.withArrays spec5 c (W13 m ρ c) fun w => (dat5 (Vh13 m ρ) c).arrAt w cfg5.N
theorem W14_arr (c : Dev nD) (w : Fin cfg5.W) :
    W14 m ρ c (Proc.devRef .tc (Pipeline.arrRef spec5 w)) = (dat5 (Vh13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
abbrev Vh14 : (c : Dev nD) → (b : Ref sig .tc) → Buf (Elt F) ((c : Thread nD τ).loc b) := fun c b => W14 m ρ c b
theorem hF5 (c : Dev nD) (w : Fin cfg5.W) : (dat5 (Vh13 m ρ) c).arrAt w cfg5.N = Vh14 m ρ c (Pipeline.arrRef spec5 w) :=
  (W14_arr m ρ c w).symm
theorem hrest5 (c : Dev nD) : ∀ b, b ∉ Finset.univ.image (Pipeline.arrRef spec5) → Vh14 m ρ c b = Vh13 m ρ c b :=
  fun b hb => W14_of_ne m ρ c b fun w e => hb (Finset.mem_image.mpr ⟨w, Finset.mem_univ _, e⟩)

theorem W14_in0 (c : Dev nD) : W14 m ρ c (Proc.devRef .tc main_v54) = W13 m ρ c (Proc.devRef .tc main_v54) :=
  (W14_arr m ρ c 0).trans (((dat5 (Vh13 m ρ) c).arrAt_in 0 rfl _).trans (A_eq5 (Vh13 m ρ) c 0))
theorem W14_in1 (c : Dev nD) : W14 m ρ c (Proc.devRef .tc main_v52) = W13 m ρ c (Proc.devRef .tc main_v52) :=
  (W14_arr m ρ c 1).trans (((dat5 (Vh13 m ρ) c).arrAt_in 1 rfl _).trans (A_eq5 (Vh13 m ρ) c 1))

theorem W14_of (c : Dev nD) (r : Ref sig .tc) (h : r ∉ ([main_v55] : List (Ref sig .tc))) : W14 m ρ c (Proc.devRef .tc r) = W13 m ρ c (Proc.devRef .tc r) := by
  by_cases h0 : r = main_v54
  · subst h0; exact W14_in0 m ρ c
  by_cases h1 : r = main_v52
  · subst h1; exact W14_in1 m ρ c
  refine W14_of_ne m ρ c r fun w e => ?_
  match w with
  | ⟨0, _⟩ => exact h0 e.symm
  | ⟨1, _⟩ => exact h1 e.symm
  | ⟨2, _⟩ => exact h (List.mem_singleton.mpr e.symm)
  | ⟨_ + 3, hn⟩ => exact absurd hn (Nat.not_lt.2 (Nat.le_add_left _ _))

abbrev W15 : Dev nD → Valuation τ sig (Elt F) := fun c => StableHlo.after hostOps6 (W14 m ρ c)
abbrev Vh15 : (c : Dev nD) → (b : Ref sig .tc) → Buf (Elt F) ((c : Thread nD τ).loc b) := fun c b => W15 m ρ c b
theorem W15_of (c : Dev nD) (r : Ref sig .tc) (h : r ∉ hostOps6_W) : W15 m ρ c (Proc.devRef .tc r) = W14 m ρ c (Proc.devRef .tc r) :=
  StableHlo.after_of_writes_sub hostOps6 _ hostOps6_writes h

def W16 (c : Dev nD) : Valuation τ sig (Elt F) :=
  Pipeline.withArrays spec6 c (W15 m ρ c) fun w => (dat6 (Vh15 m ρ) c).arrAt w cfg6.N
theorem W16_arr (c : Dev nD) (w : Fin cfg6.W) :
    W16 m ρ c (Proc.devRef .tc (Pipeline.arrRef spec6 w)) = (dat6 (Vh15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb
abbrev Vh16 : (c : Dev nD) → (b : Ref sig .tc) → Buf (Elt F) ((c : Thread nD τ).loc b) := fun c b => W16 m ρ c b
theorem hF6 (c : Dev nD) (w : Fin cfg6.W) : (dat6 (Vh15 m ρ) c).arrAt w cfg6.N = Vh16 m ρ c (Pipeline.arrRef spec6 w) :=
  (W16_arr m ρ c w).symm
theorem hrest6 (c : Dev nD) : ∀ b, b ∉ Finset.univ.image (Pipeline.arrRef spec6) → Vh16 m ρ c b = Vh15 m ρ c b :=
  fun b hb => W16_of_ne m ρ c b fun w e => hb (Finset.mem_image.mpr ⟨w, Finset.mem_univ _, e⟩)

theorem W16_in0 (c : Dev nD) : W16 m ρ c (Proc.devRef .tc main_v56) = W15 m ρ c (Proc.devRef .tc main_v56) :=
  (W16_arr m ρ c 0).trans (((dat6 (Vh15 m ρ) c).arrAt_in 0 rfl _).trans (A_eq6 (Vh15 m ρ) c 0))
theorem W16_in1 (c : Dev nD) : W16 m ρ c (Proc.devRef .tc main_v53) = W15 m ρ c (Proc.devRef .tc main_v53) :=
  (W16_arr m ρ c 1).trans (((dat6 (Vh15 m ρ) c).arrAt_in 1 rfl _).trans (A_eq6 (Vh15 m ρ) c 1))

theorem W16_of (c : Dev nD) (r : Ref sig .tc) (h : r ∉ ([main_v57] : List (Ref sig .tc))) : W16 m ρ c (Proc.devRef .tc r) = W15 m ρ c (Proc.devRef .tc r) := by
  by_cases h0 : r = main_v56
  · subst h0; exact W16_in0 m ρ c
  by_cases h1 : r = main_v53
  · subst h1; exact W16_in1 m ρ c
  refine W16_of_ne m ρ c r fun w e => ?_
  match w with
  | ⟨0, _⟩ => exact h0 e.symm
  | ⟨1, _⟩ => exact h1 e.symm
  | ⟨2, _⟩ => exact h (List.mem_singleton.mpr e.symm)
  | ⟨_ + 3, hn⟩ => exact absurd hn (Nat.not_lt.2 (Nat.le_add_left _ _))

abbrev W17 : Dev nD → Valuation τ sig (Elt F) := fun c => StableHlo.after hostOps7 (W16 m ρ c)
abbrev Vh17 : (c : Dev nD) → (b : Ref sig .tc) → Buf (Elt F) ((c : Thread nD τ).loc b) := fun c b => W17 m ρ c b
theorem W17_of (c : Dev nD) (r : Ref sig .tc) (h : r ∉ hostOps7_W) : W17 m ρ c (Proc.devRef .tc r) = W16 m ρ c (Proc.devRef .tc r) :=
  StableHlo.after_of_writes_sub hostOps7 _ hostOps7_writes h

def W18 (c : Dev nD) : Valuation τ sig (Elt F) :=
  Pipeline.withArrays spec7 c (W17 m ρ c) fun w => (dat7 (Vh17 m ρ) c).arrAt w cfg7.N
theorem W18_arr (c : Dev nD) (w : Fin cfg7.W) :
    W18 m ρ c (Proc.devRef .tc (Pipeline.arrRef spec7 w)) = (dat7 (Vh17 m ρ) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m ρ c (Proc.devRef .tc b) = W17 m ρ c (Proc.devRef .tc b) := by
  unfold W18; exact Pipeline.withArrays_of_ne spec7 c _ _ b hb
abbrev Vh18 : (c : Dev nD) → (b : Ref sig .tc) → Buf (Elt F) ((c : Thread nD τ).loc b) := fun c b => W18 m ρ c b
theorem hF7 (c : Dev nD) (w : Fin cfg7.W) : (dat7 (Vh17 m ρ) c).arrAt w cfg7.N = Vh18 m ρ c (Pipeline.arrRef spec7 w) :=
  (W18_arr m ρ c w).symm
theorem hrest7 (c : Dev nD) : ∀ b, b ∉ Finset.univ.image (Pipeline.arrRef spec7) → Vh18 m ρ c b = Vh17 m ρ c b :=
  fun b hb => W18_of_ne m ρ c b fun w e => hb (Finset.mem_image.mpr ⟨w, Finset.mem_univ _, e⟩)

theorem W18_in0 (c : Dev nD) : W18 m ρ c (Proc.devRef .tc main_v64) = W17 m ρ c (Proc.devRef .tc main_v64) :=
  (W18_arr m ρ c 0).trans (((dat7 (Vh17 m ρ) c).arrAt_in 0 rfl _).trans (A_eq7 (Vh17 m ρ) c 0))
theorem W18_in1 (c : Dev nD) : W18 m ρ c (Proc.devRef .tc main_v71) = W17 m ρ c (Proc.devRef .tc main_v71) :=
  (W18_arr m ρ c 1).trans (((dat7 (Vh17 m ρ) c).arrAt_in 1 rfl _).trans (A_eq7 (Vh17 m ρ) c 1))
theorem W18_in2 (c : Dev nD) : W18 m ρ c (Proc.devRef .tc main_v72) = W17 m ρ c (Proc.devRef .tc main_v72) :=
  (W18_arr m ρ c 2).trans (((dat7 (Vh17 m ρ) c).arrAt_in 2 rfl _).trans (A_eq7 (Vh17 m ρ) c 2))
theorem W18_in3 (c : Dev nD) : W18 m ρ c (Proc.devRef .tc main_arg15) = W17 m ρ c (Proc.devRef .tc main_arg15) :=
  (W18_arr m ρ c 3).trans (((dat7 (Vh17 m ρ) c).arrAt_in 3 rfl _).trans (A_eq7 (Vh17 m ρ) c 3))
theorem W18_in4 (c : Dev nD) : W18 m ρ c (Proc.devRef .tc main_v73) = W17 m ρ c (Proc.devRef .tc main_v73) :=
  (W18_arr m ρ c 4).trans (((dat7 (Vh17 m ρ) c).arrAt_in 4 rfl _).trans (A_eq7 (Vh17 m ρ) c 4))

theorem W18_of (c : Dev nD) (r : Ref sig .tc) (h : r ∉ ([main_v74] : List (Ref sig .tc))) : W18 m ρ c (Proc.devRef .tc r) = W17 m ρ c (Proc.devRef .tc r) := by
  by_cases h0 : r = main_v64
  · subst h0; exact W18_in0 m ρ c
  by_cases h1 : r = main_v71
  · subst h1; exact W18_in1 m ρ c
  by_cases h2 : r = main_v72
  · subst h2; exact W18_in2 m ρ c
  by_cases h3 : r = main_arg15
  · subst h3; exact W18_in3 m ρ c
  by_cases h4 : r = main_v73
  · subst h4; exact W18_in4 m ρ c
  refine W18_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h4 e.symm
  | ⟨5, _⟩ => exact h (List.mem_singleton.mpr e.symm)
  | ⟨_ + 6, hn⟩ => exact absurd hn (Nat.not_lt.2 (Nat.le_add_left _ _))

abbrev W19 : Dev nD → Valuation τ sig (Elt F) := fun c => StableHlo.after hostOps8 (W18 m ρ c)
abbrev Vh19 : (c : Dev nD) → (b : Ref sig .tc) → Buf (Elt F) ((c : Thread nD τ).loc b) := fun c b => W19 m ρ c b
theorem W19_of (c : Dev nD) (r : Ref sig .tc) (h : r ∉ hostOps8_W) : W19 m ρ c (Proc.devRef .tc r) = W18 m ρ c (Proc.devRef .tc r) :=
  StableHlo.after_of_writes_sub hostOps8 _ hostOps8_writes h
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16]
theorem arg_k1 : ∀ r ∈ argRefs, r ∉ hostOps0_W := by decide
theorem arg_k2 : ∀ r ∈ argRefs, r ∉ ([main_v5] : List (Ref sig .tc)) := by decide
theorem arg_k3 : ∀ r ∈ argRefs, r ∉ hostOps1_W := by decide
theorem arg_k4 : ∀ r ∈ argRefs, r ∉ ([main_v7] : List (Ref sig .tc)) := by decide
theorem arg_k5 : ∀ r ∈ argRefs, r ∉ hostOps2_W := by decide
theorem arg_k6 : ∀ r ∈ argRefs, r ∉ hostOps2_1_W := by decide
theorem arg_k7 : ∀ r ∈ argRefs, r ∉ hostOps2_2_W := by decide
theorem arg_k8 : ∀ r ∈ argRefs, r ∉ ([main_v23] : List (Ref sig .tc)) := by decide
theorem arg_k9 : ∀ r ∈ argRefs, r ∉ hostOps3_W := by decide
theorem arg_k10 : ∀ r ∈ argRefs, r ∉ ([main_v37] : List (Ref sig .tc)) := by decide
theorem arg_k11 : ∀ r ∈ argRefs, r ∉ hostOps4_W := by decide
theorem arg_k12 : ∀ r ∈ argRefs, r ∉ ([main_v51] : List (Ref sig .tc)) := by decide
theorem arg_k13 : ∀ r ∈ argRefs, r ∉ hostOps5_W := by decide
theorem arg_k14 : ∀ r ∈ argRefs, r ∉ ([main_v55] : List (Ref sig .tc)) := by decide
theorem arg_k15 : ∀ r ∈ argRefs, r ∉ hostOps6_W := by decide
theorem arg_k16 : ∀ r ∈ argRefs, r ∉ ([main_v57] : List (Ref sig .tc)) := by decide
theorem arg_k17 : ∀ r ∈ argRefs, r ∉ hostOps7_W := by decide
theorem arg_k18 : ∀ r ∈ argRefs, r ∉ ([main_v74] : List (Ref sig .tc)) := by decide
theorem arg_k19 : ∀ r ∈ argRefs, r ∉ hostOps8_W := by decide
theorem arg_uc : ∀ r ∈ argRefs, ¬ (Proc.devRef .tc r : DevRef τ sig).isScoped := by decide
theorem W1_arg (c : Dev nD) (r : Ref sig .tc) (h : r ∈ argRefs) : W1 m ρ c (Proc.devRef .tc r) = m ((c : Thread nD τ).loc r) := W1_of m ρ c r (arg_k1 r h)
theorem W2_arg (c : Dev nD) (r : Ref sig .tc) (h : r ∈ argRefs) : W2 m ρ c (Proc.devRef .tc r) = m ((c : Thread nD τ).loc r) := (W2_of m ρ c r (arg_k2 r h)).trans (W1_arg m ρ c r h)
theorem W3_arg (c : Dev nD) (r : Ref sig .tc) (h : r ∈ argRefs) : W3 m ρ c (Proc.devRef .tc r) = m ((c : Thread nD τ).loc r) := (W3_of m ρ c r (arg_k3 r h)).trans (W2_arg m ρ c r h)
theorem W4_arg (c : Dev nD) (r : Ref sig .tc) (h : r ∈ argRefs) : W4 m ρ c (Proc.devRef .tc r) = m ((c : Thread nD τ).loc r) := (W4_of m ρ c r (arg_k4 r h)).trans (W3_arg m ρ c r h)
theorem W5_arg (c : Dev nD) (r : Ref sig .tc) (h : r ∈ argRefs) : W5 m ρ c (Proc.devRef .tc r) = m ((c : Thread nD τ).loc r) := (W5_of m ρ c r (arg_k5 r h)).trans (W4_arg m ρ c r h)
theorem W6_arg (c : Dev nD) (r : Ref sig .tc) (h : r ∈ argRefs) : W6 m ρ c (Proc.devRef .tc r) = m ((c : Thread nD τ).loc r) := (W6_of m ρ c r (arg_k6 r h)).trans (W5_arg m ρ c r h)
theorem W7_arg (c : Dev nD) (r : Ref sig .tc) (h : r ∈ argRefs) : W7 m ρ c (Proc.devRef .tc r) = m ((c : Thread nD τ).loc r) := (W7_of m ρ c r (arg_k7 r h)).trans (W6_arg m ρ c r h)
theorem W8_arg (c : Dev nD) (r : Ref sig .tc) (h : r ∈ argRefs) : W8 m ρ c (Proc.devRef .tc r) = m ((c : Thread nD τ).loc r) := (W8_of m ρ c r (arg_k8 r h)).trans (W7_arg m ρ c r h)
theorem W9_arg (c : Dev nD) (r : Ref sig .tc) (h : r ∈ argRefs) : W9 m ρ c (Proc.devRef .tc r) = m ((c : Thread nD τ).loc r) := (W9_of m ρ c r (arg_k9 r h)).trans (W8_arg m ρ c r h)
theorem W10_arg (c : Dev nD) (r : Ref sig .tc) (h : r ∈ argRefs) : W10 m ρ c (Proc.devRef .tc r) = m ((c : Thread nD τ).loc r) := (W10_of m ρ c r (arg_k10 r h)).trans (W9_arg m ρ c r h)
theorem W11_arg (c : Dev nD) (r : Ref sig .tc) (h : r ∈ argRefs) : W11 m ρ c (Proc.devRef .tc r) = m ((c : Thread nD τ).loc r) := (W11_of m ρ c r (arg_k11 r h)).trans (W10_arg m ρ c r h)
theorem W12_arg (c : Dev nD) (r : Ref sig .tc) (h : r ∈ argRefs) : W12 m ρ c (Proc.devRef .tc r) = m ((c : Thread nD τ).loc r) := (W12_of m ρ c r (arg_k12 r h)).trans (W11_arg m ρ c r h)
theorem W13_arg (c : Dev nD) (r : Ref sig .tc) (h : r ∈ argRefs) : W13 m ρ c (Proc.devRef .tc r) = m ((c : Thread nD τ).loc r) := (W13_of m ρ c r (arg_k13 r h)).trans (W12_arg m ρ c r h)
theorem W14_arg (c : Dev nD) (r : Ref sig .tc) (h : r ∈ argRefs) : W14 m ρ c (Proc.devRef .tc r) = m ((c : Thread nD τ).loc r) := (W14_of m ρ c r (arg_k14 r h)).trans (W13_arg m ρ c r h)
theorem W15_arg (c : Dev nD) (r : Ref sig .tc) (h : r ∈ argRefs) : W15 m ρ c (Proc.devRef .tc r) = m ((c : Thread nD τ).loc r) := (W15_of m ρ c r (arg_k15 r h)).trans (W14_arg m ρ c r h)
theorem W16_arg (c : Dev nD) (r : Ref sig .tc) (h : r ∈ argRefs) : W16 m ρ c (Proc.devRef .tc r) = m ((c : Thread nD τ).loc r) := (W16_of m ρ c r (arg_k16 r h)).trans (W15_arg m ρ c r h)
theorem W17_arg (c : Dev nD) (r : Ref sig .tc) (h : r ∈ argRefs) : W17 m ρ c (Proc.devRef .tc r) = m ((c : Thread nD τ).loc r) := (W17_of m ρ c r (arg_k17 r h)).trans (W16_arg m ρ c r h)
theorem W18_arg (c : Dev nD) (r : Ref sig .tc) (h : r ∈ argRefs) : W18 m ρ c (Proc.devRef .tc r) = m ((c : Thread nD τ).loc r) := (W18_of m ρ c r (arg_k18 r h)).trans (W17_arg m ρ c r h)
theorem W19_arg (c : Dev nD) (r : Ref sig .tc) (h : r ∈ argRefs) : W19 m ρ c (Proc.devRef .tc r) = m ((c : Thread nD τ).loc r) := (W19_of m ρ c r (arg_k19 r h)).trans (W18_arg m ρ c r h)

abbrev admH : (p : Fin 8) → (pcfgs (F := F) p).Adm := fun p => (cfgs p).toPCfg_adm

def pdats : (p : Fin 8) → (c : Dev nD) → Dat τ (Elt F) Unit ℕ (UR sig nD τ) ℕ (Pipeline.pin (pcfgs (F := F)) admH p) c
  | ⟨0, _⟩ => fun c => dat0 (Vh1 m ρ) c
  | ⟨1, _⟩ => fun c => dat1 (Vh3 m ρ) c
  | ⟨2, _⟩ => fun c => dat2 (Vh7 m ρ) c
  | ⟨3, _⟩ => fun c => dat3 (Vh9 m ρ) c
  | ⟨4, _⟩ => fun c => dat4 (Vh11 m ρ) c
  | ⟨5, _⟩ => fun c => dat5 (Vh13 m ρ) c
  | ⟨6, _⟩ => fun c => dat6 (Vh15 m ρ) c
  | ⟨7, _⟩ => fun c => dat7 (Vh17 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W19 m ρ c) ∗ ∃ r, prngReg c r)
theorem arg_end {r : PUnit × MemSt nD τ sig (Elt F)} (h : ∀ c : Dev nD, ∀ b ∈ Pipeline.ucRefs τ sig, r.2.mem (((c : Thread nD τ)).1, b) = W19 m ρ c b)
    (c : Dev nD) (k : Ref sig .tc) (hk : k ∈ argRefs) : r.2.mem ((c : Thread nD τ).loc k) = m ((c : Thread nD τ).loc k) :=
  (h c _ (mem_uc k (arg_uc k hk))).trans (W19_arg m ρ c k hk)

set_option backward.isDefEq.respectTransparency.types false in
def regOf (p : Fin 8) (launch : Pipeline.LaunchFacts (nD := nD) (τ := τ) cfgs p)
    (Wi Wo : Dev nD → Valuation τ sig (Elt F))
    (hbody : ∀ c, BodyObligation (pdats m ρ p c) (defs₀ (F := F)) Variants.none () Set.univ)
    (howed : ∀ c t, (pdats m ρ p c).owed t = 0) (hrec : ∀ c t, (pdats m ρ p c).recorded t = Set.univ)
    (hq : ∀ c w, (pdats m ρ p c).q w = fullShare)
    (hA : ∀ c w, (pdats m ρ p c).A w = Wi c (Proc.devRef .tc (Pipeline.arrRef (cfgs p).spec w)))
    (hΦ : ∀ c i, (pdats m ρ p c).Φ i = Pipeline.ΦA (cfgs p).spec c)
    (hF : ∀ c w, (pdats m ρ p c).arrAt w (cfgs p).N = Wo c (Proc.devRef .tc (Pipeline.arrRef (cfgs p).spec w)))
    (hrest : ∀ c (b : Ref sig .tc), b ∉ Finset.univ.image (Pipeline.arrRef (cfgs p).spec) → Wo c (Proc.devRef .tc b) = Wi c (Proc.devRef .tc b)) :
    Pipeline.RegionSeg (pcfgs (F := F)) admH (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) admH (pdats m ρ) launch.win launch.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      launch.win launch.arr_whole c (pdats m ρ) ((pdats m ρ p c).share_full (hq c))
      (fun b => Wi c b) (fun b => Wo c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) admH (pdats m ρ) () defs₀ 𝒱₀ L lv 0 :=
  regOf m ρ 0 launch0 (W1 m ρ) (W2 m ρ) (body_obligation0 (Vh1 m ρ)) (fun _ _ => rfl) (fun _ _ => rfl) (fun _ _ => rfl) (fun _ _ => rfl) (fun _ _ => rfl)
    (hF0 m ρ) (hrest0 m ρ)
set_option backward.isDefEq.respectTransparency.types false in
def reg1 : Pipeline.RegionSeg (pcfgs (F := F)) admH (pdats m ρ) () defs₀ 𝒱₀ L lv 1 :=
  regOf m ρ 1 launch1 (W3 m ρ) (W4 m ρ) (body_obligation1 (Vh3 m ρ)) (fun _ _ => rfl) (fun _ _ => rfl) (fun _ _ => rfl) (fun _ _ => rfl) (fun _ _ => rfl)
    (hF1 m ρ) (hrest1 m ρ)
set_option backward.isDefEq.respectTransparency.types false in
def reg2 : Pipeline.RegionSeg (pcfgs (F := F)) admH (pdats m ρ) () defs₀ 𝒱₀ L lv 2 :=
  regOf m ρ 2 launch2 (W7 m ρ) (W8 m ρ) (body_obligation2 (Vh7 m ρ)) (fun _ _ => rfl) (fun _ _ => rfl) (fun _ _ => rfl) (fun _ _ => rfl) (fun _ _ => rfl)
    (hF2 m ρ) (hrest2 m ρ)
set_option backward.isDefEq.respectTransparency.types false in
def reg3 : Pipeline.RegionSeg (pcfgs (F := F)) admH (pdats m ρ) () defs₀ 𝒱₀ L lv 3 :=
  regOf m ρ 3 launch3 (W9 m ρ) (W10 m ρ) (body_obligation3 (Vh9 m ρ)) (fun _ _ => rfl) (fun _ _ => rfl) (fun _ _ => rfl) (fun _ _ => rfl) (fun _ _ => rfl)
    (hF3 m ρ) (hrest3 m ρ)
set_option backward.isDefEq.respectTransparency.types false in
def reg4 : Pipeline.RegionSeg (pcfgs (F := F)) admH (pdats m ρ) () defs₀ 𝒱₀ L lv 4 :=
  regOf m ρ 4 launch4 (W11 m ρ) (W12 m ρ) (body_obligation4 (Vh11 m ρ)) (fun _ _ => rfl) (fun _ _ => rfl) (fun _ _ => rfl) (fun _ _ => rfl) (fun _ _ => rfl)
    (hF4 m ρ) (hrest4 m ρ)
set_option backward.isDefEq.respectTransparency.types false in
def reg5 : Pipeline.RegionSeg (pcfgs (F := F)) admH (pdats m ρ) () defs₀ 𝒱₀ L lv 5 :=
  regOf m ρ 5 launch5 (W13 m ρ) (W14 m ρ) (body_obligation5 (Vh13 m ρ)) (fun _ _ => rfl) (fun _ _ => rfl) (fun _ _ => rfl) (fun _ _ => rfl) (fun _ _ => rfl)
    (hF5 m ρ) (hrest5 m ρ)
set_option backward.isDefEq.respectTransparency.types false in
def reg6 : Pipeline.RegionSeg (pcfgs (F := F)) admH (pdats m ρ) () defs₀ 𝒱₀ L lv 6 :=
  regOf m ρ 6 launch6 (W15 m ρ) (W16 m ρ) (body_obligation6 (Vh15 m ρ)) (fun _ _ => rfl) (fun _ _ => rfl) (fun _ _ => rfl) (fun _ _ => rfl) (fun _ _ => rfl)
    (hF6 m ρ) (hrest6 m ρ)
set_option backward.isDefEq.respectTransparency.types false in
def reg7 : Pipeline.RegionSeg (pcfgs (F := F)) admH (pdats m ρ) () defs₀ 𝒱₀ L lv 7 :=
  regOf m ρ 7 launch7 (W17 m ρ) (W18 m ρ) (body_obligation7 (Vh17 m ρ)) (fun _ _ => rfl) (fun _ _ => rfl) (fun _ _ => rfl) (fun _ _ => rfl) (fun _ _ => rfl)
    (hF7 m ρ) (hrest7 m ρ)

abbrev segsH : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ),
    .host (hseg hostOps8 hostOps8_sub hostOps8_fresh (W18 m ρ)) ]

theorem main_run (c : Dev nD) : main (F := F) c = Pipeline.Seg.run (segsH m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W19 m ρ c) ∗ ((∃ r, prngReg c r) ∗ ∃ W, owes (c : Thread nD τ) (0 : CellTallies nD τ sig Unit) W)) : sProp 𝕄)
          ⊢ iprop((StableHlo.held (c : Thread nD τ) (Pipeline.ucRefs τ sig) (W19 m ρ c) ∗ ∃ r, prngReg c r) ∗ ∃ W, owes (c : Thread nD τ) (0 : CellTallies nD τ sig Unit) W)
        iintro ⟨Hh, Hp, Ho⟩
        isplitl [Hh Hp]
        · isplitl [Hh]
          · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

end Cert.KernelIdeal.Hand

end
-- ==== Proof.GDefs.lean ====
/- Each kernel region over the extended reals as one whole-array function: entry (r, q) of its output in sums and products of entries of its inputs. -/
import proofs.«100265_j85727547228235_2_alg».proof.KernelIdeal
import Idealize.ShloMosaic.Lib.ValueIdx
import Idealize.ShloMosaic.PureOps.Ideal

noncomputable section

namespace Cert.KernelIdeal.Hand

open Idealize.ShloMosaic Idealize.ShloMosaic.ValueIdx
open Cert.KernelIdeal

def g0 (x : FVec Ideal S200000x128 .f32) (w : FVec Ideal S128x64 .f32) (b : FVec Ideal S1x64 .f32) (e : FVec Ideal S200000x64 .f32)
    (r : Fin 200000) (q : Fin 64) : EReal :=
  (∑ k : Fin 128, x (ix2 r k) * w (ix2 k q)) + b (ix2 (0 : Fin 1) q) + e (ix2 r q)
def G0 (x : FVec Ideal S200000x128 .f32) (w : FVec Ideal S128x64 .f32) (b : FVec Ideal S1x64 .f32) (e : FVec Ideal S200000x64 .f32) :
    FVec Ideal S200000x64 .f32 := fun i => g0 x w b e (i 0) (i 1)

def g2 (x : FVec Ideal S300000x64 .f32) (w : FVec Ideal S64x64 .f32) (d : FVec Ideal S300000x1 .f32) (r : Fin 300000) (q : Fin 64) : EReal :=
  (∑ k : Fin 64, x (ix2 r k) * w (ix2 k q)) * d (ix2 r (0 : Fin 1))
def G2 (x : FVec Ideal S300000x64 .f32) (w : FVec Ideal S64x64 .f32) (d : FVec Ideal S300000x1 .f32) : FVec Ideal S300000x64 .bf16 :=
  fun i => g2 x w d (i 0) (i 1)

def g3 (a : FVec Ideal S300000x64 .f32) (b : FVec Ideal S1x64 .f32) (d : FVec Ideal S300000x1 .f32) (w : FVec Ideal S64x64 .f32)
    (r : Fin 300000) (q : Fin 64) : EReal :=
  (∑ k : Fin 64, max (d (ix2 r (0 : Fin 1)) * a (ix2 r k) + b (ix2 (0 : Fin 1) k)) 0 * w (ix2 k q)) * d (ix2 r (0 : Fin 1))
def G3 (a : FVec Ideal S300000x64 .f32) (b : FVec Ideal S1x64 .f32) (d : FVec Ideal S300000x1 .f32) (w : FVec Ideal S64x64 .f32) :
    FVec Ideal S300000x64 .bf16 := fun i => g3 a b d w (i 0) (i 1)

def g4 (a : FVec Ideal S300000x64 .f32) (b : FVec Ideal S1x64 .f32) (d : FVec Ideal S300000x1 .f32) (r : Fin 300000) (q : Fin 64) : EReal :=
  d (ix2 r (0 : Fin 1)) * a (ix2 r q) + b (ix2 (0 : Fin 1) q)
def G4 (a : FVec Ideal S300000x64 .f32) (b : FVec Ideal S1x64 .f32) (d : FVec Ideal S300000x1 .f32) : FVec Ideal S300000x64 .f32 :=
  fun i => g4 a b d (i 0) (i 1)

def g5 (x : FVec Ideal S200000x64 .f32) (w : FVec Ideal S64x64 .f32) (r : Fin 200000) (q : Fin 64) : EReal :=
  ∑ k : Fin 64, x (ix2 r k) * w (ix2 k q)
def G5 (x : FVec Ideal S200000x64 .f32) (w : FVec Ideal S64x64 .f32) : FVec Ideal S200000x64 .bf16 :=
  fun i => g5 x w (i 0) (i 1)

def g7 (u p : FVec Ideal S1000000x64 .bf16) (b1 : FVec Ideal S1x64 .f32) (w2 : FVec Ideal S64x1 .f32) (b2 : FVec Ideal S1x1 .f32)
    (r : Fin 1000000) (q : Fin 1) : EReal :=
  Ideal.logistic ((∑ k : Fin 64, max (u (ix2 r k) + p (ix2 r k) + b1 (ix2 (0 : Fin 1) k)) 0 * w2 (ix2 k q)) + b2 (ix2 (0 : Fin 1) q))
    * Ideal.ofBits .f32 0x40A00000#32
def G7 (u p : FVec Ideal S1000000x64 .bf16) (b1 : FVec Ideal S1x64 .f32) (w2 : FVec Ideal S64x1 .f32) (b2 : FVec Ideal S1x1 .f32) :
    FVec Ideal S1000000x1 .f32 := fun i => g7 u p b1 w2 b2 (i 0) (i 1)

def g1 (x : FVec Ideal S100000x128 .f32) (w : FVec Ideal S128x64 .f32) (b : FVec Ideal S1x64 .f32) (e : FVec Ideal S100000x64 .f32)
    (r : Fin 100000) (q : Fin 64) : EReal :=
  (∑ k : Fin 128, x (ix2 r k) * w (ix2 k q)) + b (ix2 (0 : Fin 1) q) + e (ix2 r q)
def G1 (x : FVec Ideal S100000x128 .f32) (w : FVec Ideal S128x64 .f32) (b : FVec Ideal S1x64 .f32) (e : FVec Ideal S100000x64 .f32) :
    FVec Ideal S100000x64 .f32 := fun i => g1 x w b e (i 0) (i 1)

def g6 (x : FVec Ideal S100000x64 .f32) (w : FVec Ideal S64x64 .f32) (r : Fin 100000) (q : Fin 64) : EReal :=
  ∑ k : Fin 64, x (ix2 r k) * w (ix2 k q)
def G6 (x : FVec Ideal S100000x64 .f32) (w : FVec Ideal S64x64 .f32) : FVec Ideal S100000x64 .bf16 :=
  fun i => g6 x w (i 0) (i 1)

end Cert.KernelIdeal.Hand

end
-- ==== Proof.KerSpec.lean ====
/- The kernel's program as one term of the argument arrays: its host operations as printed, each kernel region as its whole-array function. -/
import proofs.«100265_j85727547228235_2_alg».proof.Proof.GDefs
import proofs.«100265_j85727547228235_2_alg».proof.Proof.Gen.KernelIdeal

noncomputable section

namespace Cert.KernelIdeal.Hand

open Idealize.ShloMosaic Idealize.ShloMosaic.ValueIdx
open Cert.KernelIdeal Cert.KernelIdeal.Gen

set_option quotPrecheck false in
local notation "C[" S "," e "]" => (⟨S, e⟩ : BufTy).Contents (Elt Ideal)

def kvUi (x0 : C[S2x1000000, .i32]) : C[S1000000, .i32] :=
  shapeCast _ (extractStridedSlice S1x1000000 ![0, 0] x0 slices_S2x1000000_S1x1000000_0_0) shapeCasts_S1x1000000_S1000000

def kvPi (x0 : C[S2x1000000, .i32]) : C[S1000000, .i32] :=
  shapeCast _ (extractStridedSlice S1x1000000 ![1, 0] x0 slices_S2x1000000_S1x1000000_1_0) shapeCasts_S1x1000000_S1000000

def kvRow64 (b : C[S64, .f32]) : C[S1x64, .f32] := shapeCast _ b shapeCasts_S64_S1x64

def kvX (x1 : C[S200000x128, .f32]) (x2 : C[S100000x128, .f32]) (x3 : C[S200000x64, .f32]) (x4 : C[S100000x64, .f32])
    (x5 : C[S128x64, .f32]) (x6 : C[S64, .f32]) (x7 : C[S128x64, .f32]) (x8 : C[S64, .f32]) : C[S300000x64, .f32] :=
  concatenate S300000x64 0 [⟨S200000x64, G0 x1 x5 (kvRow64 x6) x3⟩, ⟨S100000x64, G1 x2 x7 (kvRow64 x8) x4⟩] concatenates_S200000x64_S100000x64_S300000x64_d0

def kvRowE (x0 : C[S2x1000000, .i32]) : C[S2300000, .i32] :=
  concatenate S2300000 0 [⟨S1000000, kvUi x0⟩, ⟨S1000000, kvPi x0⟩, ⟨S300000, iotaInDim S300000 32 0⟩] concatenates_S1000000_S1000000_S300000_S2300000_d0

def kvColE (x0 : C[S2x1000000, .i32]) : C[S2300000, .i32] :=
  concatenate S2300000 0 [⟨S1000000, kvPi x0⟩, ⟨S1000000, kvUi x0⟩, ⟨S300000, iotaInDim S300000 32 0⟩] concatenates_S1000000_S1000000_S300000_S2300000_d0

def kvColB (x0 : C[S2x1000000, .i32]) : C[S2300000x1, .i32] :=
  broadcastInDim S2300000x1 ![0] bcast_S2300000_S2300000x1_0 (kvColE x0)

def kvDeg (x0 : C[S2x1000000, .i32]) : C[S300000, .f32] :=
  Host.scatterAdd (F := Ideal) scatter_S300000_S2300000x1_S2300000_n_0_0_1 (broadcastInDim S300000 ![] bcast_S_S300000 (constant (F := Ideal) S_ .f32 0x00000000#32))
    (kvColB x0) (broadcastInDim S2300000 ![] bcast_S_S2300000 (constant (F := Ideal) S_ .f32 0x3F800000#32))

def kvDis (x0 : C[S2x1000000, .i32]) : C[S300000, .f32] :=
  select (cmpf (F := Ideal) .ogt (kvDeg x0) (broadcastInDim S300000 ![] bcast_S_S300000 (constant (F := Ideal) S_ .f32 0x00000000#32)))
    (Host.rsqrt (F := Ideal) (maximumf (F := Ideal) (kvDeg x0) (broadcastInDim S300000 ![] bcast_S_S300000 (constant (F := Ideal) S_ .f32 0x3F800000#32))))
    (broadcastInDim S300000 ![] bcast_S_S300000 (id (constant (F := Ideal) S_ .f32 0x00000000#32)))

def kvDisC (x0 : C[S2x1000000, .i32]) : C[S300000x1, .f32] := shapeCast _ (kvDis x0) shapeCasts_S300000_S300000x1

def kvRowN (x0 : C[S2x1000000, .i32]) : C[S2300000x1, .i32] :=
  broadcastInDim S2300000x1 ![0] bcast_S2300000_S2300000x1_0
    (select (cmpi .slt (kvRowE x0) (broadcastInDim S2300000 ![] bcast_S_S2300000 (constantI S_ 32 0#32)))
      (addi (kvRowE x0) (broadcastInDim S2300000 ![] bcast_S_S2300000 (constantI S_ 32 300000#32))) (kvRowE x0))

def kvAgg (h : C[S300000x64, .bf16]) (x0 : C[S2x1000000, .i32]) : C[S300000x64, .f32] :=
  Host.scatterAdd (F := Ideal) scatter_S300000x64_S2300000x1_S2300000x64_1_0_0_1 (broadcastInDim S300000x64 ![] bcast_S_S300000x64 (constant (F := Ideal) S_ .f32 0x00000000#32))
    (kvColB x0) (extf (F := Ideal) .f32 (Host.gather gather_S300000x64_S2300000x1_S2300000x64_1_0_n_n_0_1_164 h (kvRowN x0)) bitsLt_bf16_f32)

def kvH1 (X : C[S300000x64, .f32]) (x0 : C[S2x1000000, .i32]) (x9 : C[S64x64, .f32]) : C[S300000x64, .bf16] :=
  G2 X x9 (kvDisC x0)

def kvH2 (X : C[S300000x64, .f32]) (x0 : C[S2x1000000, .i32]) (x9 : C[S64x64, .f32]) (x10 : C[S64, .f32]) (x11 : C[S64x64, .f32]) : C[S300000x64, .bf16] :=
  G3 (kvAgg (kvH1 X x0 x9) x0) (kvRow64 x10) (kvDisC x0) x11

def kvX2 (X : C[S300000x64, .f32]) (x0 : C[S2x1000000, .i32]) (x9 : C[S64x64, .f32]) (x10 : C[S64, .f32]) (x11 : C[S64x64, .f32]) (x12 : C[S64, .f32]) : C[S300000x64, .f32] :=
  G4 (kvAgg (kvH2 X x0 x9 x10 x11) x0) (kvRow64 x12) (kvDisC x0)

def kvPu (x2' : C[S300000x64, .f32]) (x13 : C[S128x64, .f32]) : C[S200000x64, .bf16] :=
  G5 (extractStridedSlice S200000x64 ![0, 0] x2' slices_S300000x64_S200000x64_0_0) (extractStridedSlice S64x64 ![0, 0] x13 slices_S128x64_S64x64_0_0)

def kvPp (x2' : C[S300000x64, .f32]) (x13 : C[S128x64, .f32]) : C[S100000x64, .bf16] :=
  G6 (extractStridedSlice S100000x64 ![200000, 0] x2' slices_S300000x64_S100000x64_200000_0) (extractStridedSlice S64x64 ![64, 0] x13 slices_S128x64_S64x64_64_0)

def kvUiN (x0 : C[S2x1000000, .i32]) : C[S1000000x1, .i32] :=
  broadcastInDim S1000000x1 ![0] bcast_S1000000_S1000000x1_0
    (select (cmpi .slt (kvUi x0) (broadcastInDim S1000000 ![] bcast_S_S1000000 (constantI S_ 32 0#32)))
      (addi (kvUi x0) (broadcastInDim S1000000 ![] bcast_S_S1000000 (constantI S_ 32 200000#32))) (kvUi x0))
def kvPiN (x0 : C[S2x1000000, .i32]) : C[S1000000x1, .i32] :=
  broadcastInDim S1000000x1 ![0] bcast_S1000000_S1000000x1_0
    (select (cmpi .slt (kvPi x0) (broadcastInDim S1000000 ![] bcast_S_S1000000 (constantI S_ 32 0#32)))
      (addi (kvPi x0) (broadcastInDim S1000000 ![] bcast_S_S1000000 (constantI S_ 32 100000#32))) (kvPi x0))

def kvOut (x2' : C[S300000x64, .f32]) (x0 : C[S2x1000000, .i32]) (x13 : C[S128x64, .f32]) (x14 : C[S64, .f32]) (x15 : C[S64x1, .f32]) (x16 : C[S1, .f32]) : C[S1000000, .f32] :=
  shapeCast _ (G7 (Host.gather gather_S200000x64_S1000000x1_S1000000x64_1_0_n_n_0_1_164 (kvPu x2' x13) (kvUiN x0))
      (Host.gather gather_S100000x64_S1000000x1_S1000000x64_1_0_n_n_0_1_164 (kvPp x2' x13) (kvPiN x0))
      (kvRow64 x14) x15 (shapeCast _ x16 shapeCasts_S1_S1x1)) shapeCasts_S1000000x1_S1000000

def kvAll (x0 : C[S2x1000000, .i32]) (x1 : C[S200000x128, .f32]) (x2 : C[S100000x128, .f32]) (x3 : C[S200000x64, .f32]) (x4 : C[S100000x64, .f32])
    (x5 : C[S128x64, .f32]) (x6 : C[S64, .f32]) (x7 : C[S128x64, .f32]) (x8 : C[S64, .f32]) (x9 : C[S64x64, .f32]) (x10 : C[S64, .f32])
    (x11 : C[S64x64, .f32]) (x12 : C[S64, .f32]) (x13 : C[S128x64, .f32]) (x14 : C[S64, .f32]) (x15 : C[S64x1, .f32]) (x16 : C[S1, .f32]) : C[S1000000, .f32] :=
  kvOut (kvX2 (kvX x1 x2 x3 x4 x5 x6 x7 x8) x0 x9 x10 x11 x12) x0 x13 x14 x15 x16

end Cert.KernelIdeal.Hand

end
-- ==== Proof.KerHost.lean ====
/- What each line of host operations leaves in the buffers it writes, as a function of the contents it reads. -/
import proofs.«100265_j85727547228235_2_alg».proof.Proof.Gen.KernelIdeal.Launch
import proofs.«100265_j85727547228235_2_alg».proof.Proof.KerSpec
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

local notation "D[" r "]" => Proc.devRef (Proc.tc : Proc τ) r
set_option quotPrecheck false in
local notation "C[" S "," e "]" => (⟨S, e⟩ : BufTy).Contents (Elt Ideal)

theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

theorem nary3_result' {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

macro "host_rw" : tactic =>
  `(tactic| repeat (first
               | rw [nary3_result]
               | rw [StableHlo.nullary_result] | rw [StableHlo.unary_result] | rw [StableHlo.binary_result]
               | rw [StableHlo.ternary_result] | rw [StableHlo.reshape_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide)))
macro "host_reads" : tactic => `(tactic| (simp only [StableHlo.after_cons, StableHlo.after_nil]; host_rw))

macro "host_simp" : tactic =>
  `(tactic| simp (disch := decide) only [StableHlo.after_cons, StableHlo.after_nil, nary3_result',
      StableHlo.nullary_result', StableHlo.unary_result', StableHlo.binary_result', StableHlo.ternary_result', StableHlo.reshape_result',
      StableHlo.nullary_result_ne', StableHlo.unary_result_ne', StableHlo.binary_result_ne', StableHlo.ternary_result_ne',
      StableHlo.reshape_result_ne', StableHlo.nary_result_ne'])

variable (V : Valuation τ sig (Elt Ideal))

theorem h0_v1 : StableHlo.after (hostOps0 (F := Ideal)) V D[main_v1] = kvUi (V D[main_arg0]) := by
  host_reads; rfl
theorem h0_v3 : StableHlo.after (hostOps0 (F := Ideal)) V D[main_v3] = kvPi (V D[main_arg0]) := by
  host_reads; rfl
theorem h0_v4 : StableHlo.after (hostOps0 (F := Ideal)) V D[main_v4] = kvRow64 (V D[main_arg6]) := by
  host_reads; rfl

theorem h1_v6 : StableHlo.after (hostOps1 (F := Ideal)) V D[main_v6] = kvRow64 (V D[main_arg8]) := by
  host_reads; rfl

theorem h2_v8 (x1 : C[S200000x128, .f32]) (x2 : C[S100000x128, .f32]) (x3 : C[S200000x64, .f32]) (x4 : C[S100000x64, .f32])
    (x5 : C[S128x64, .f32]) (x6 : C[S64, .f32]) (x7 : C[S128x64, .f32]) (x8 : C[S64, .f32])
    (h5 : V D[main_v5] = G0 x1 x5 (kvRow64 x6) x3) (h7 : V D[main_v7] = G1 x2 x7 (kvRow64 x8) x4) :
    StableHlo.after (hostOps2 (F := Ideal)) V D[main_v8] = kvX x1 x2 x3 x4 x5 x6 x7 x8 := by
  host_reads; rw [h5, h7]; rfl
theorem h2_v10 (x0 : C[S2x1000000, .i32]) (h1 : V D[main_v1] = kvUi x0) (h3 : V D[main_v3] = kvPi x0) :
    StableHlo.after (hostOps2 (F := Ideal)) V D[main_v10] = kvRowE x0 := by
  host_reads; rw [h1, h3]; rfl
theorem h2_v11 (x0 : C[S2x1000000, .i32]) (h1 : V D[main_v1] = kvUi x0) (h3 : V D[main_v3] = kvPi x0) :
    StableHlo.after (hostOps2 (F := Ideal)) V D[main_v11] = kvColE x0 := by
  host_reads; rw [h1, h3]; rfl

theorem h2_v17 (x0 : C[S2x1000000, .i32]) (h1 : V D[main_v1] = kvUi x0) (h3 : V D[main_v3] = kvPi x0) :
    StableHlo.after (hostOps2 (F := Ideal)) V D[main_v17]
      = cmpf (F := Ideal) .ogt (kvDeg x0) (broadcastInDim S300000 ![] bcast_S_S300000 (constant (F := Ideal) S_ .f32 0x00000000#32)) := by
  host_simp; host_rw; rw [h1, h3]; rfl
theorem h2_v20 (x0 : C[S2x1000000, .i32]) (h1 : V D[main_v1] = kvUi x0) (h3 : V D[main_v3] = kvPi x0) :
    StableHlo.after (hostOps2 (F := Ideal)) V D[main_v20]
      = Host.rsqrt (F := Ideal) (maximumf (F := Ideal) (kvDeg x0) (broadcastInDim S300000 ![] bcast_S_S300000 (constant (F := Ideal) S_ .f32 0x3F800000#32))) := by
  host_simp; host_rw; rw [h1, h3]; rfl
theorem h2_cst3 : StableHlo.after (hostOps2 (F := Ideal)) V D[main_cst_3] = constant (F := Ideal) S_ .f32 0x00000000#32 := by
  host_reads

theorem h21_v21 (a17 : C[S300000, .i1]) (a20 : C[S300000, .f32]) (z : C[S_, .f32]) (e17 : V D[main_v17] = a17) (e20 : V D[main_v20] = a20)
    (ez : V D[main_cst_3] = z) :
    StableHlo.after (hostOps2_1 (F := Ideal)) V D[main_v21] = select a17 a20 (broadcastInDim S300000 ![] bcast_S_S300000 (id z)) := by
  subst e17 e20 ez; host_reads; rfl
theorem h22_v22 (x0 : C[S2x1000000, .i32]) (h21 : V D[main_v21] = kvDis x0) :
    StableHlo.after (hostOps2_2 (F := Ideal)) V D[main_v22] = kvDisC x0 := by
  host_reads; rw [h21]; rfl

theorem h3_v34 (x0 : C[S2x1000000, .i32]) (h : C[S300000x64, .bf16]) (h10 : V D[main_v10] = kvRowE x0) (h11 : V D[main_v11] = kvColE x0)
    (h23 : V D[main_v23] = h) : StableHlo.after (hostOps3 (F := Ideal)) V D[main_v34] = kvAgg h x0 := by
  host_simp; rw [h10, h11, h23]; rfl
theorem h3_v35 : StableHlo.after (hostOps3 (F := Ideal)) V D[main_v35] = kvRow64 (V D[main_arg10]) := by
  host_reads; rfl
theorem h3_v36 (x0 : C[S2x1000000, .i32]) (h21 : V D[main_v21] = kvDis x0) :
    StableHlo.after (hostOps3 (F := Ideal)) V D[main_v36] = kvDisC x0 := by
  host_reads; rw [h21]; rfl
theorem h4_v48 (x0 : C[S2x1000000, .i32]) (h : C[S300000x64, .bf16]) (h10 : V D[main_v10] = kvRowE x0) (h11 : V D[main_v11] = kvColE x0)
    (h37 : V D[main_v37] = h) : StableHlo.after (hostOps4 (F := Ideal)) V D[main_v48] = kvAgg h x0 := by
  host_simp; rw [h10, h11, h37]; rfl
theorem h4_v49 : StableHlo.after (hostOps4 (F := Ideal)) V D[main_v49] = kvRow64 (V D[main_arg12]) := by
  host_reads; rfl
theorem h4_v50 (x0 : C[S2x1000000, .i32]) (h21 : V D[main_v21] = kvDis x0) :
    StableHlo.after (hostOps4 (F := Ideal)) V D[main_v50] = kvDisC x0 := by
  host_reads; rw [h21]; rfl

theorem h5_v52 : StableHlo.after (hostOps5 (F := Ideal)) V D[main_v52]
    = extractStridedSlice S64x64 ![0, 0] (V D[main_arg13]) slices_S128x64_S64x64_0_0 := by
  host_reads
theorem h5_v53 : StableHlo.after (hostOps5 (F := Ideal)) V D[main_v53]
    = extractStridedSlice S64x64 ![64, 0] (V D[main_arg13]) slices_S128x64_S64x64_64_0 := by
  host_reads
theorem h5_v54 : StableHlo.after (hostOps5 (F := Ideal)) V D[main_v54]
    = extractStridedSlice S200000x64 ![0, 0] (V D[main_v51]) slices_S300000x64_S200000x64_0_0 := by
  host_reads
theorem h6_v56 : StableHlo.after (hostOps6 (F := Ideal)) V D[main_v56]
    = extractStridedSlice S100000x64 ![200000, 0] (V D[main_v51]) slices_S300000x64_S100000x64_200000_0 := by
  host_reads

theorem h7_v64 (x0 : C[S2x1000000, .i32]) (pu : C[S200000x64, .bf16]) (h1 : V D[main_v1] = kvUi x0) (h55 : V D[main_v55] = pu) :
    StableHlo.after (hostOps7 (F := Ideal)) V D[main_v64]
      = Host.gather gather_S200000x64_S1000000x1_S1000000x64_1_0_n_n_0_1_164 pu (kvUiN x0) := by
  host_simp; rw [h1, h55]; rfl
theorem h7_v71 (x0 : C[S2x1000000, .i32]) (pp : C[S100000x64, .bf16]) (h3 : V D[main_v3] = kvPi x0) (h57 : V D[main_v57] = pp) :
    StableHlo.after (hostOps7 (F := Ideal)) V D[main_v71]
      = Host.gather gather_S100000x64_S1000000x1_S1000000x64_1_0_n_n_0_1_164 pp (kvPiN x0) := by
  host_simp; rw [h3, h57]; rfl
theorem h7_v72 : StableHlo.after (hostOps7 (F := Ideal)) V D[main_v72] = kvRow64 (V D[main_arg14]) := by
  host_reads; rfl
theorem h7_v73 : StableHlo.after (hostOps7 (F := Ideal)) V D[main_v73] = shapeCast _ (V D[main_arg16]) shapeCasts_S1_S1x1 := by
  host_reads; rfl
theorem h8_v75 : StableHlo.after (hostOps8 (F := Ideal)) V D[main_v75] = shapeCast _ (V D[main_v74]) shapeCasts_S1000000x1_S1000000 := by
  host_reads; rfl

end Cert.KernelIdeal.Hand

end
-- ==== Proof.Val0.lean ====
/- Region 0: the output array is x·w + b + e: entry (r, q) is the sum over k of x[r,k]·w[k,q], plus b[q], plus e[r,q]. -/
import proofs.«100265_j85727547228235_2_alg».proof.Proof.R0
import proofs.«100265_j85727547228235_2_alg».proof.Proof.GDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem mm0_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem mm0_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem mm0_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem mm0_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem mm0_apply (a : FVec Ideal S5000x128 .bf16) (b : FVec Ideal S128x64 .bf16) (p : Fin 5000) (q : Fin 64) :
    matmul dot_S5000x128_S128x64_S5000x64_1_0_0_1_n_n none a b (constant S5000x64 .f32 0x00000000#32) (ix2 p q)
      = ∑ k : Fin 128, a (ix2 p k) * b (ix2 k q) := by
  show FloatOps.matmul _ _ _ _ _ _ = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact mm0_lhs_0 _ _
    | ⟨1, _⟩ => exact (mm0_lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (mm0_rhs_0 _ _).trans hk
    | ⟨1, _⟩ => exact mm0_rhs_1 _ _)
  rw [el, er]

theorem bias0_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => by
    match a with
    | ⟨0, _⟩ => rfl
    | ⟨1, _⟩ => rfl)

theorem pay0_apply (x0 : Vec Ideal S5000x128 .f32) (x1 : Vec Ideal S128x64 .f32) (x2 : Vec Ideal S1x64 .f32) (x3 : Vec Ideal S5000x64 .f32)
    (p : Fin 5000) (q : Fin 64) :
    k0_pay1 x0 x1 x2 x3 (ix2 p q) = (∑ k : Fin 128, x0 (ix2 p k) * x1 (ix2 k q)) + x2 (ix2 (0 : Fin 1) q) + x3 (ix2 p q) := by
  unfold k0_pay1
  rw [addf_apply, addf_apply, mm0_apply, shapeCast_self, bias0_apply]
  rfl

theorem zeros2 : (![0, 0] : Fin 2 → Nat) = fun _ => 0 := funext fun a => by fin_cases a <;> rfl

theorem where0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem xblk_apply (c : Dev nD) (t : Fin cfg0.N) (p : Fin 5000) (k : Fin 128) (r : Fin 200000) (hr : r.val = t.val * 5000 + p.val) :
    (iblk0 V c 0 t : Vec Ideal S5000x128 .f32) (ix2 p k) = (V c main_arg1 : S200000x128.Idx → EReal) (ix2 r k) := by
  obtain ⟨h0, h1, -⟩ := where0 t
  unfold iblk0
  rw [View.read_apply]
  show V c main_arg1 _ = V c main_arg1 _
  congr 1
  funext a
  apply Fin.ext
  match a with
  | ⟨0, _⟩ => show win0_0.index t (0 : Fin 2) * 5000 + 1 * p.val = r.val; rw [h0, hr]; omega
  | ⟨1, _⟩ => show win0_0.index t (1 : Fin 2) * 128 + 1 * k.val = k.val; rw [h1]; omega

theorem wblk_apply (c : Dev nD) (t : Fin cfg0.N) (k : Fin 128) (q : Fin 64) :
    (iblk0 V c 1 t : Vec Ideal S128x64 .f32) (ix2 k q) = (V c main_arg5 : S128x64.Idx → EReal) (ix2 k q) := by
  obtain ⟨-, -, h0, h1, -⟩ := where0 t
  unfold iblk0
  rw [View.read_apply]
  show V c main_arg5 _ = V c main_arg5 _
  congr 1
  funext a
  apply Fin.ext
  match a with
  | ⟨0, _⟩ => show win0_1.index t (0 : Fin 2) * 128 + 1 * k.val = k.val; rw [h0]; omega
  | ⟨1, _⟩ => show win0_1.index t (1 : Fin 2) * 64 + 1 * q.val = q.val; rw [h1]; omega

theorem bblk_apply (c : Dev nD) (t : Fin cfg0.N) (z : Fin 1) (q : Fin 64) :
    (iblk0 V c 2 t : Vec Ideal S1x64 .f32) (ix2 z q) = (V c main_v4 : S1x64.Idx → EReal) (ix2 z q) := by
  obtain ⟨-, -, -, -, h0, h1, -⟩ := where0 t
  unfold iblk0
  rw [View.read_apply]
  show V c main_v4 _ = V c main_v4 _
  congr 1
  funext a
  apply Fin.ext
  match a with
  | ⟨0, _⟩ => show win0_2.index t (0 : Fin 2) * 1 + 1 * z.val = z.val; rw [h0]; omega
  | ⟨1, _⟩ => show win0_2.index t (1 : Fin 2) * 64 + 1 * q.val = q.val; rw [h1]; omega

theorem eblk_apply (c : Dev nD) (t : Fin cfg0.N) (p : Fin 5000) (q : Fin 64) (r : Fin 200000) (hr : r.val = t.val * 5000 + p.val) :
    (iblk0 V c 3 t : Vec Ideal S5000x64 .f32) (ix2 p q) = (V c main_arg3 : S200000x64.Idx → EReal) (ix2 r q) := by
  obtain ⟨-, -, -, -, -, -, h0, h1, -⟩ := where0 t
  unfold iblk0
  rw [View.read_apply]
  show V c main_arg3 _ = V c main_arg3 _
  congr 1
  funext a
  apply Fin.ext
  match a with
  | ⟨0, _⟩ => show win0_3.index t (0 : Fin 2) * 5000 + 1 * p.val = r.val; rw [h0, hr]; omega
  | ⟨1, _⟩ => show win0_3.index t (1 : Fin 2) * 64 + 1 * q.val = q.val; rw [h1]; omega

theorem flushed0_eq (c : Dev nD) (t : Fin cfg0.N) :
    (dat0 (F := Ideal) V c).flushed 4 t
      = ((cfg0.win 4).blk t).view.read (Elt Ideal) (G0 (V c main_arg1) (V c main_arg5) (V c main_v4) (V c main_arg3)) := by
  show (cfg0.win 4).cut (grid0.coords t) ((dat0 (F := Ideal) V c).after 4 t) = _
  rw [after0_4]
  unfold out0_4
  rw [View.canon_unit_zero zeros2]
  simp only [View.ld_unit_zero (S := S5000x128) zeros2, View.ld_unit_zero (S := S128x64) zeros2,
    View.ld_unit_zero (S := S1x64) zeros2, View.ld_unit_zero (S := S5000x64) zeros2]
  obtain ⟨-, -, -, -, -, -, -, -, h0, h1⟩ := where0 t
  funext j
  obtain ⟨p, q, rfl⟩ : ∃ (p : Fin 5000) (q : Fin 64), j = ix2 p q := ⟨j 0, j 1, eq_ix2 j⟩

  have ht : t.val < 40 := lt_of_lt_of_eq t.isLt (N_0 : cfg0.N = 40)
  let r : Fin 200000 := ⟨t.val * 5000 + p.val, by have := p.isLt; omega⟩
  have hemb : ((cfg0.win 4).blk t).view.emb (ix2 p q) = (ix2 r q : S200000x64.Idx) := by
    funext a
    apply Fin.ext
    match a with
    | ⟨0, _⟩ => show win0_4.index t (0 : Fin 2) * 5000 + 1 * p.val = t.val * 5000 + p.val; rw [h0]; omega
    | ⟨1, _⟩ => show win0_4.index t (1 : Fin 2) * 64 + 1 * q.val = q.val; rw [h1]; omega
  show k0_pay1 (iblk0 V c 0 t) (iblk0 V c 1 t) (iblk0 V c 2 t) (iblk0 V c 3 t) (ix2 p q)
    = G0 (V c main_arg1) (V c main_arg5) (V c main_v4) (V c main_arg3) (((cfg0.win 4).blk t).view.emb (ix2 p q))
  rw [hemb, pay0_apply]
  show _ = g0 (V c main_arg1) (V c main_arg5) (V c main_v4) (V c main_arg3) r q
  unfold g0
  rw [bblk_apply V c t 0 q, eblk_apply V c t p q r rfl]
  congr 2
  exact Finset.sum_congr rfl fun k _ => by rw [xblk_apply V c t p k r rfl, wblk_apply V c t k q]

theorem covered0 (i : S200000x64.Idx) :
    ∃ t : Fin cfg0.N, (cfg0.win 4).flush t = true ∧ i ∈ ((cfg0.win 4).blk t).view.set := by
  have hi0 : (i 0).val < 200000 := (i 0).isLt
  have hi1 : (i 1).val < 64 := (i 1).isLt
  let t : Fin cfg0.N := ⟨(i 0).val / 5000, by rw [show cfg0.N = 40 from N_0]; omega⟩
  obtain ⟨-, -, -, -, -, -, -, -, h0, h1⟩ := where0 t
  have ht : t.val = (i 0).val / 5000 := rfl
  refine ⟨t, flush0_4 t, ?_⟩
  show i ∈ ((View.whole main_v5).slice (win0_4.rect t)).set
  rw [View.set_slice_whole, Rect.mem_set_unit]
  intro a
  match a with
  | ⟨0, _⟩ =>
    show win0_4.index t (0 : Fin 2) * 5000 ≤ (i 0).val ∧ (i 0).val < win0_4.index t (0 : Fin 2) * 5000 + 5000
    rw [h0, ht]; omega
  | ⟨1, _⟩ =>
    show win0_4.index t (1 : Fin 2) * 64 ≤ (i 1).val ∧ (i 1).val < win0_4.index t (1 : Fin 2) * 64 + 64
    rw [h1]; omega

theorem final0 (c : Dev nD) : (dat0 (F := Ideal) V c).arrAt 4 cfg0.N = G0 (V c main_arg1) (V c main_arg5) (V c main_v4) (V c main_arg3) :=
  (dat0 (F := Ideal) V c).arrAt_eq_of_cover 4 (G0 (V c main_arg1) (V c main_arg5) (V c main_v4) (V c main_arg3))
    (fun t _ => flushed0_eq V c t) covered0

end Cert.KernelIdeal.Hand

end
-- ==== Proof.Val1.lean ====
/- Region 1: the output array is x·w + b + e: entry (r, q) is the sum over k of x[r,k]·w[k,q], plus b[q], plus e[r,q]. -/
import proofs.«100265_j85727547228235_2_alg».proof.Proof.R1
import proofs.«100265_j85727547228235_2_alg».proof.Proof.GDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem mm1_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem mm1_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem mm1_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem mm1_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem mm1_apply (a : FVec Ideal S5000x128 .bf16) (b : FVec Ideal S128x64 .bf16) (p : Fin 5000) (q : Fin 64) :
    matmul dot_S5000x128_S128x64_S5000x64_1_0_0_1_n_n none a b (constant S5000x64 .f32 0x00000000#32) (ix2 p q)
      = ∑ k : Fin 128, a (ix2 p k) * b (ix2 k q) := by
  show FloatOps.matmul _ _ _ _ _ _ = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact mm1_lhs_0 _ _
    | ⟨1, _⟩ => exact (mm1_lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (mm1_rhs_0 _ _).trans hk
    | ⟨1, _⟩ => exact mm1_rhs_1 _ _)
  rw [el, er]

theorem bias1_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => by
    match a with
    | ⟨0, _⟩ => rfl
    | ⟨1, _⟩ => rfl)

theorem pay1_apply (x0 : Vec Ideal S5000x128 .f32) (x1 : Vec Ideal S128x64 .f32) (x2 : Vec Ideal S1x64 .f32) (x3 : Vec Ideal S5000x64 .f32)
    (p : Fin 5000) (q : Fin 64) :
    k1_pay1 x0 x1 x2 x3 (ix2 p q) = (∑ k : Fin 128, x0 (ix2 p k) * x1 (ix2 k q)) + x2 (ix2 (0 : Fin 1) q) + x3 (ix2 p q) := by
  unfold k1_pay1
  rw [addf_apply, addf_apply, mm1_apply, shapeCast_self, bias1_apply]
  rfl

theorem zeros2_1 : (![0, 0] : Fin 2 → Nat) = fun _ => 0 := funext fun a => by fin_cases a <;> rfl

theorem where1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem xblk_apply1 (c : Dev nD) (t : Fin cfg1.N) (p : Fin 5000) (k : Fin 128) (r : Fin 100000) (hr : r.val = t.val * 5000 + p.val) :
    (iblk1 V c 0 t : Vec Ideal S5000x128 .f32) (ix2 p k) = (V c main_arg2 : S100000x128.Idx → EReal) (ix2 r k) := by
  obtain ⟨h0, h1, -⟩ := where1 t
  unfold iblk1
  rw [View.read_apply]
  show V c main_arg2 _ = V c main_arg2 _
  congr 1
  funext a
  apply Fin.ext
  match a with
  | ⟨0, _⟩ => show win1_0.index t (0 : Fin 2) * 5000 + 1 * p.val = r.val; rw [h0, hr]; omega
  | ⟨1, _⟩ => show win1_0.index t (1 : Fin 2) * 128 + 1 * k.val = k.val; rw [h1]; omega

theorem wblk_apply1 (c : Dev nD) (t : Fin cfg1.N) (k : Fin 128) (q : Fin 64) :
    (iblk1 V c 1 t : Vec Ideal S128x64 .f32) (ix2 k q) = (V c main_arg7 : S128x64.Idx → EReal) (ix2 k q) := by
  obtain ⟨-, -, h0, h1, -⟩ := where1 t
  unfold iblk1
  rw [View.read_apply]
  show V c main_arg7 _ = V c main_arg7 _
  congr 1
  funext a
  apply Fin.ext
  match a with
  | ⟨0, _⟩ => show win1_1.index t (0 : Fin 2) * 128 + 1 * k.val = k.val; rw [h0]; omega
  | ⟨1, _⟩ => show win1_1.index t (1 : Fin 2) * 64 + 1 * q.val = q.val; rw [h1]; omega

theorem bblk_apply1 (c : Dev nD) (t : Fin cfg1.N) (z : Fin 1) (q : Fin 64) :
    (iblk1 V c 2 t : Vec Ideal S1x64 .f32) (ix2 z q) = (V c main_v6 : S1x64.Idx → EReal) (ix2 z q) := by
  obtain ⟨-, -, -, -, h0, h1, -⟩ := where1 t
  unfold iblk1
  rw [View.read_apply]
  show V c main_v6 _ = V c main_v6 _
  congr 1
  funext a
  apply Fin.ext
  match a with
  | ⟨0, _⟩ => show win1_2.index t (0 : Fin 2) * 1 + 1 * z.val = z.val; rw [h0]; omega
  | ⟨1, _⟩ => show win1_2.index t (1 : Fin 2) * 64 + 1 * q.val = q.val; rw [h1]; omega

theorem eblk_apply1 (c : Dev nD) (t : Fin cfg1.N) (p : Fin 5000) (q : Fin 64) (r : Fin 100000) (hr : r.val = t.val * 5000 + p.val) :
    (iblk1 V c 3 t : Vec Ideal S5000x64 .f32) (ix2 p q) = (V c main_arg4 : S100000x64.Idx → EReal) (ix2 r q) := by
  obtain ⟨-, -, -, -, -, -, h0, h1, -⟩ := where1 t
  unfold iblk1
  rw [View.read_apply]
  show V c main_arg4 _ = V c main_arg4 _
  congr 1
  funext a
  apply Fin.ext
  match a with
  | ⟨0, _⟩ => show win1_3.index t (0 : Fin 2) * 5000 + 1 * p.val = r.val; rw [h0, hr]; omega
  | ⟨1, _⟩ => show win1_3.index t (1 : Fin 2) * 64 + 1 * q.val = q.val; rw [h1]; omega

theorem flushed1_eq (c : Dev nD) (t : Fin cfg1.N) :
    (dat1 (F := Ideal) V c).flushed 4 t
      = ((cfg1.win 4).blk t).view.read (Elt Ideal) (G1 (V c main_arg2) (V c main_arg7) (V c main_v6) (V c main_arg4)) := by
  show (cfg1.win 4).cut (grid1.coords t) ((dat1 (F := Ideal) V c).after 4 t) = _
  rw [after1_4]
  unfold out1_4
  rw [View.canon_unit_zero zeros2_1]
  simp only [View.ld_unit_zero (S := S5000x128) zeros2_1, View.ld_unit_zero (S := S128x64) zeros2_1,
    View.ld_unit_zero (S := S1x64) zeros2_1, View.ld_unit_zero (S := S5000x64) zeros2_1]
  obtain ⟨-, -, -, -, -, -, -, -, h0, h1⟩ := where1 t
  funext j
  obtain ⟨p, q, rfl⟩ : ∃ (p : Fin 5000) (q : Fin 64), j = ix2 p q := ⟨j 0, j 1, eq_ix2 j⟩

  have ht : t.val < 20 := lt_of_lt_of_eq t.isLt (N_1 : cfg1.N = 20)
  let r : Fin 100000 := ⟨t.val * 5000 + p.val, by have := p.isLt; omega⟩
  have hemb : ((cfg1.win 4).blk t).view.emb (ix2 p q) = (ix2 r q : S100000x64.Idx) := by
    funext a
    apply Fin.ext
    match a with
    | ⟨0, _⟩ => show win1_4.index t (0 : Fin 2) * 5000 + 1 * p.val = t.val * 5000 + p.val; rw [h0]; omega
    | ⟨1, _⟩ => show win1_4.index t (1 : Fin 2) * 64 + 1 * q.val = q.val; rw [h1]; omega
  show k1_pay1 (iblk1 V c 0 t) (iblk1 V c 1 t) (iblk1 V c 2 t) (iblk1 V c 3 t) (ix2 p q)
    = G1 (V c main_arg2) (V c main_arg7) (V c main_v6) (V c main_arg4) (((cfg1.win 4).blk t).view.emb (ix2 p q))
  rw [hemb, pay1_apply]
  show _ = g1 (V c main_arg2) (V c main_arg7) (V c main_v6) (V c main_arg4) r q
  unfold g1
  rw [bblk_apply1 V c t 0 q, eblk_apply1 V c t p q r rfl]
  congr 2
  exact Finset.sum_congr rfl fun k _ => by rw [xblk_apply1 V c t p k r rfl, wblk_apply1 V c t k q]

theorem covered1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  let t : Fin cfg1.N := ⟨(i 0).val / 5000, by rw [show cfg1.N = 20 from N_1]; omega⟩
  obtain ⟨-, -, -, -, -, -, -, -, h0, h1⟩ := where1 t
  have ht : t.val = (i 0).val / 5000 := rfl
  refine ⟨t, flush1_4 t, ?_⟩
  show i ∈ ((View.whole main_v7).slice (win1_4.rect t)).set
  rw [View.set_slice_whole, Rect.mem_set_unit]
  intro a
  match a with
  | ⟨0, _⟩ =>
    show win1_4.index t (0 : Fin 2) * 5000 ≤ (i 0).val ∧ (i 0).val < win1_4.index t (0 : Fin 2) * 5000 + 5000
    rw [h0, ht]; omega
  | ⟨1, _⟩ =>
    show win1_4.index t (1 : Fin 2) * 64 ≤ (i 1).val ∧ (i 1).val < win1_4.index t (1 : Fin 2) * 64 + 64
    rw [h1]; omega

theorem final1 (c : Dev nD) : (dat1 (F := Ideal) V c).arrAt 4 cfg1.N = G1 (V c main_arg2) (V c main_arg7) (V c main_v6) (V c main_arg4) :=
  (dat1 (F := Ideal) V c).arrAt_eq_of_cover 4 (G1 (V c main_arg2) (V c main_arg7) (V c main_v6) (V c main_arg4))
    (fun t _ => flushed1_eq V c t) covered1

end Cert.KernelIdeal.Hand

end
-- ==== Proof.Val2.lean ====
/- Region 2: the output array is x·w with row r scaled by d[r]. -/
import proofs.«100265_j85727547228235_2_alg».proof.Proof.R2
import proofs.«100265_j85727547228235_2_alg».proof.Proof.GDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Algebra.BigOperators.Group.Finset.Basic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

namespace Val2

theorem zero_off : (![0, 0] : Fin 2 → Nat) = fun _ => 0 := funext fun a => by fin_cases a <;> rfl

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_contr (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_contr (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem matmul_entry (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  show FloatOps.matmul dot_S5000x64_S64x64_S5000x64_1_0_0_1_n_n none a b (constant (F := Ideal) S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_contr _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_contr _ _).trans hk
    | ⟨1, _⟩ => exact rhs_col _ _)
  rw [el, er]

theorem column_entry (x : FVec Ideal S5000x1 .f32) (p : Fin 5000) (q : Fin 64) :
    broadcastTo S5000x64 x broadcasts_S5000x1_S5000x64 (ix2 p q) = x (ix2 p (0 : Fin 1)) :=
  broadcastTo_apply x _ (ix2 p q) (ix2 p (0 : Fin 1)) fun a => by
    match a with
    | ⟨0, _⟩ => rfl
    | ⟨1, _⟩ => rfl

theorem pay_entry (x0 : Vec Ideal S5000x64 .f32) (x1 : Vec Ideal S64x64 .f32) (x2 : Vec Ideal S5000x1 .f32) (p : Fin 5000) (q : Fin 64) :
    k2_pay1 (F := Ideal) x0 x1 x2 (ix2 p q) = (∑ k : Fin 64, x0 (ix2 p k) * x1 (ix2 k q)) * x2 (ix2 p (0 : Fin 1)) := by
  unfold k2_pay1
  simp only [shapeCast_self]
  rw [truncf_apply, mulf_apply, matmul_entry, column_entry]
  rfl

theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 60 := lt_of_lt_of_eq t.isLt N_2

theorem rows_block (c : Dev nD) (t : Fin cfg2.N) (p : Fin 5000) (k : Fin 64) (r : Fin 300000) (hr : r.val = 5000 * t.val + p.val) :
    iblk2 V c 0 t (ix2 p k) = (V c main_v8 : FVec Ideal S300000x64 .f32) (ix2 r k) := by
  obtain ⟨e0, e1, -⟩ := index_facts t
  show V c main_v8 (((cfg2.win 0).blk t).view.emb (ix2 p k)) = V c main_v8 (ix2 r k)
  have h : ((cfg2.win 0).blk t).view.emb (ix2 p k) = ix2 r k := funext fun a => Fin.ext (by
    match a with
    | ⟨0, _⟩ => show win2_0.index t (0 : Fin 2) * 5000 + 1 * p.val = r.val; rw [e0, hr]; omega
    | ⟨1, _⟩ => show win2_0.index t (1 : Fin 2) * 64 + 1 * k.val = k.val; rw [e1]; omega)
  rw [h]

theorem square_block (c : Dev nD) (t : Fin cfg2.N) (k q : Fin 64) :
    iblk2 V c 1 t (ix2 k q) = (V c main_arg9 : FVec Ideal S64x64 .f32) (ix2 k q) := by
  obtain ⟨-, -, e0, e1, -⟩ := index_facts t
  show V c main_arg9 (((cfg2.win 1).blk t).view.emb (ix2 k q)) = V c main_arg9 (ix2 k q)
  have h : ((cfg2.win 1).blk t).view.emb (ix2 k q) = ix2 k q := funext fun a => Fin.ext (by
    match a with
    | ⟨0, _⟩ => show win2_1.index t (0 : Fin 2) * 64 + 1 * k.val = k.val; rw [e0]; omega
    | ⟨1, _⟩ => show win2_1.index t (1 : Fin 2) * 64 + 1 * q.val = q.val; rw [e1]; omega)
  rw [h]

theorem column_block (c : Dev nD) (t : Fin cfg2.N) (p : Fin 5000) (r : Fin 300000) (hr : r.val = 5000 * t.val + p.val) :
    iblk2 V c 2 t (ix2 p (0 : Fin 1)) = (V c main_v22 : FVec Ideal S300000x1 .f32) (ix2 r (0 : Fin 1)) := by
  obtain ⟨-, -, -, -, e0, e1, -⟩ := index_facts t
  show V c main_v22 (((cfg2.win 2).blk t).view.emb (ix2 p (0 : Fin 1))) = V c main_v22 (ix2 r (0 : Fin 1))
  have h : ((cfg2.win 2).blk t).view.emb (ix2 p (0 : Fin 1)) = ix2 r (0 : Fin 1) := funext fun a => Fin.ext (by
    match a with
    | ⟨0, _⟩ => show win2_2.index t (0 : Fin 2) * 5000 + 1 * p.val = r.val; rw [e0, hr]; omega
    | ⟨1, _⟩ => show win2_2.index t (1 : Fin 2) * 1 + 1 * (0 : Fin 1).val = (0 : Fin 1).val; rw [e1]; rfl)
  rw [h]

theorem flushed_block (c : Dev nD) (t : Fin cfg2.N) :
    (dat2 (F := Ideal) V c).flushed 3 t
      = ((cfg2.win 3).blk t).view.read (Elt Ideal) (G2 (V c main_v8) (V c main_arg9) (V c main_v22)) := by
  show (cfg2.win 3).cut (grid2.coords t) ((dat2 (F := Ideal) V c).after 3 t) = _
  rw [after2_3]
  unfold out2_3
  rw [View.canon_unit_zero zero_off]
  simp only [View.ld_unit_zero (S := S5000x64) zero_off, View.ld_unit_zero (S := S64x64) zero_off, View.ld_unit_zero (S := S5000x1) zero_off]
  funext j
  obtain ⟨p, q, rfl⟩ : ∃ (p : Fin 5000) (q : Fin 64), j = ix2 p q := ⟨j 0, j 1, eq_ix2 j⟩
  obtain ⟨-, -, -, -, -, -, e0, e1⟩ := index_facts t
  have ht := point_lt t
  have hr : 5000 * t.val + p.val < 300000 := by have := p.isLt; omega
  show k2_pay1 (F := Ideal) (iblk2 V c 0 t) (iblk2 V c 1 t) (iblk2 V c 2 t) (ix2 p q)
    = G2 (V c main_v8) (V c main_arg9) (V c main_v22) (((cfg2.win 3).blk t).view.emb (ix2 p q))
  have he : ((cfg2.win 3).blk t).view.emb (ix2 p q) = (ix2 (⟨5000 * t.val + p.val, hr⟩ : Fin 300000) q : S300000x64.Idx) :=
    funext fun a => Fin.ext (by
      match a with
      | ⟨0, _⟩ => show win2_3.index t (0 : Fin 2) * 5000 + 1 * p.val = 5000 * t.val + p.val; rw [e0]; omega
      | ⟨1, _⟩ => show win2_3.index t (1 : Fin 2) * 64 + 1 * q.val = q.val; rw [e1]; omega)
  rw [he, pay_entry]
  show _ = g2 (V c main_v8) (V c main_arg9) (V c main_v22) ⟨5000 * t.val + p.val, hr⟩ q
  unfold g2
  rw [column_block V c t p ⟨5000 * t.val + p.val, hr⟩ rfl]
  congr 1
  exact Finset.sum_congr rfl fun k _ => by rw [rows_block V c t p k ⟨5000 * t.val + p.val, hr⟩ rfl, square_block V c t k q]

theorem mem_block (t : Fin cfg2.N) (i : S300000x64.Idx) :
    i ∈ ((cfg2.win 3).blk t).view.set
      ↔ ∀ a : Fin 2, win2_3.index t a * S5000x64.size a ≤ (i a).val ∧ (i a).val < win2_3.index t a * S5000x64.size a + S5000x64.size a := by
  show i ∈ ((View.whole main_v23).slice (win2_3.rect t)).set ↔ _
  rw [View.set_slice_whole, Rect.mem_set_unit]
  exact Iff.rfl

theorem covered (i : S300000x64.Idx) : ∃ t : Fin cfg2.N, (cfg2.win 3).flush t = true ∧ i ∈ ((cfg2.win 3).blk t).view.set := by
  have h0 : (i 0).val < 300000 := (i 0).isLt
  have h1 : (i 1).val < 64 := (i 1).isLt
  obtain ⟨t, ht⟩ : ∃ t : Fin cfg2.N, t.val = (i 0).val / 5000 :=
    ⟨⟨(i 0).val / 5000, lt_of_lt_of_eq (by omega : (i 0).val / 5000 < 60) N_2.symm⟩, rfl⟩
  obtain ⟨-, -, -, -, -, -, e0, e1⟩ := index_facts t
  refine ⟨t, flush2_3 t, ?_⟩
  rw [mem_block]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 64 ≤ (i 1).val ∧ (i 1).val < win2_3.index t (1 : Fin 2) * 64 + 64
    rw [e1]; omega

end Val2

theorem final2 (c : Dev nD) : (dat2 (F := Ideal) V c).arrAt 3 cfg2.N = G2 (V c main_v8) (V c main_arg9) (V c main_v22) :=
  (dat2 (F := Ideal) V c).arrAt_eq_of_cover 3 (G2 (V c main_v8) (V c main_arg9) (V c main_v22))
    (fun t _ => Val2.flushed_block V c t) Val2.covered

end Cert.KernelIdeal.Hand

end
-- ==== Proof.Val3.lean ====
/- Region 3: t = max(d·a + b, 0) row by row, and the output is t·w with row r scaled by d[r]. -/
import proofs.«100265_j85727547228235_2_alg».proof.Proof.R3
import proofs.«100265_j85727547228235_2_alg».proof.Proof.GDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

theorem mm3_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

theorem mm3_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

theorem mm3_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

theorem mm3_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem mm3_apply (lhs : FVec Ideal S5000x64 .bf16) (rhs : FVec Ideal S64x64 .bf16) (p : Fin 5000) (q : Fin 64) :
    matmul dot_S5000x64_S64x64_S5000x64_1_0_0_1_n_n none lhs rhs (constant S5000x64 .f32 0x00000000#32) (ix2 p q)
      = ∑ k : Fin 64, lhs (ix2 p k) * rhs (ix2 k q) := by
  show FloatOps.matmul dot_S5000x64_S64x64_S5000x64_1_0_0_1_n_n none lhs rhs (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact mm3_lhs_0 _ _
    | ⟨1, _⟩ => exact (mm3_lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (mm3_rhs_0 _ _).trans hk
    | ⟨1, _⟩ => exact mm3_rhs_1 _ _)
  rw [el, er]

theorem bcast_col3 (x : FVec Ideal S5000x1 .f32) (p : Fin 5000) (q : Fin 64) :
    broadcastTo S5000x64 x broadcasts_S5000x1_S5000x64 (ix2 p q) = x (ix2 p (0 : Fin 1)) :=
  broadcastTo_apply x broadcasts_S5000x1_S5000x64 (ix2 p q) (ix2 p (0 : Fin 1)) (fun a => by
    match a with
    | ⟨0, _⟩ => rfl
    | ⟨1, _⟩ => rfl)

theorem bcast_row3 (x : FVec Ideal S1x64 .f32) (p : Fin 5000) (q : Fin 64) :
    broadcastTo S5000x64 x broadcasts_S1x64_S5000x64 (ix2 p q) = x (ix2 (0 : Fin 1) q) :=
  broadcastTo_apply x broadcasts_S1x64_S5000x64 (ix2 p q) (ix2 (0 : Fin 1) q) (fun a => by
    match a with
    | ⟨0, _⟩ => rfl
    | ⟨1, _⟩ => rfl)

theorem pay3_apply (d : Vec Ideal S5000x1 .f32) (a : Vec Ideal S5000x64 .f32) (b : Vec Ideal S1x64 .f32) (w : Vec Ideal S64x64 .f32)
    (p : Fin 5000) (q : Fin 64) :
    k3_pay1 (F := Ideal) d a b w d (ix2 p q)
      = (∑ k : Fin 64, max (d (ix2 p (0 : Fin 1)) * a (ix2 p k) + b (ix2 (0 : Fin 1) k)) 0 * w (ix2 k q)) * d (ix2 p (0 : Fin 1)) := by
  unfold k3_pay1
  simp only [shapeCast_self]
  rw [truncf_apply, mulf_apply, mm3_apply, bcast_col3]
  refine congrArg (· * _) (Finset.sum_congr rfl fun k _ => ?_)
  rw [truncf_apply, truncf_apply, maximumf_apply, addf_apply, mulf_apply, bcast_col3, bcast_row3, broadcast_apply]
  show max _ (Ideal.ofBits .f32 0x00000000#32) * _ = _
  rw [Ideal.ofBits_zero_f32]

variable (V : (c : Dev nD) → (b : Ref sig .tc) → Buf (Elt Ideal) ((c : Thread nD τ).loc b))

theorem hz3 : (![0, 0] : Fin 2 → Nat) = fun _ => 0 := funext fun a => by fin_cases a <;> rfl

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem iblk3_0_apply (c : Dev nD) (t : Fin cfg3.N) (p : Fin 5000) (k : Fin 64) (r : Fin 300000) (hr : r.val = t.val * 5000 + p.val) :
    (iblk3 V c 0 t : Vec Ideal S5000x64 .f32) (ix2 p k) = (V c main_v34 : S300000x64.Idx → Elt Ideal .f32) (ix2 r k) := by
  obtain ⟨e0, e1, -⟩ := idx_facts3 t
  unfold iblk3
  rw [View.read_apply]
  show V c main_v34 _ = V c main_v34 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 64 + 1 * k.val = k.val; rw [e1]; omega

theorem iblk3_1_apply (c : Dev nD) (t : Fin cfg3.N) (k : Fin 64) :
    (iblk3 V c 1 t : Vec Ideal S1x64 .f32) (ix2 (0 : Fin 1) k) = (V c main_v35 : S1x64.Idx → Elt Ideal .f32) (ix2 (0 : Fin 1) k) := by
  obtain ⟨-, -, e2, e3, -⟩ := idx_facts3 t
  unfold iblk3
  rw [View.read_apply]
  show V c main_v35 _ = V c main_v35 _
  congr 1
  funext a
  apply Fin.ext
  match a with
  | ⟨0, _⟩ => show win3_1.index t (0 : Fin 2) * 1 + 1 * 0 = 0; rw [e2]
  | ⟨1, _⟩ => show win3_1.index t (1 : Fin 2) * 64 + 1 * k.val = k.val; rw [e3]; omega

theorem iblk3_2_apply (c : Dev nD) (t : Fin cfg3.N) (p : Fin 5000) (r : Fin 300000) (hr : r.val = t.val * 5000 + p.val) :
    (iblk3 V c 2 t : Vec Ideal S5000x1 .f32) (ix2 p (0 : Fin 1)) = (V c main_v36 : S300000x1.Idx → Elt Ideal .f32) (ix2 r (0 : Fin 1)) := by
  obtain ⟨-, -, -, -, e4, e5, -⟩ := idx_facts3 t
  unfold iblk3
  rw [View.read_apply]
  show V c main_v36 _ = V c main_v36 _
  congr 1
  funext a
  apply Fin.ext
  match a with
  | ⟨0, _⟩ => show win3_2.index t (0 : Fin 2) * 5000 + 1 * p.val = r.val; rw [e4, hr]; omega
  | ⟨1, _⟩ => show win3_2.index t (1 : Fin 2) * 1 + 1 * 0 = 0; rw [e5]

theorem iblk3_3_apply (c : Dev nD) (t : Fin cfg3.N) (k q : Fin 64) :
    (iblk3 V c 3 t : Vec Ideal S64x64 .f32) (ix2 k q) = (V c main_arg11 : S64x64.Idx → Elt Ideal .f32) (ix2 k q) := by
  obtain ⟨-, -, -, -, -, -, e6, e7, -⟩ := idx_facts3 t
  unfold iblk3
  rw [View.read_apply]
  show V c main_arg11 _ = V c main_arg11 _
  congr 1
  funext a
  apply Fin.ext
  match a with
  | ⟨0, _⟩ => show win3_3.index t (0 : Fin 2) * 64 + 1 * k.val = k.val; rw [e6]; omega
  | ⟨1, _⟩ => show win3_3.index t (1 : Fin 2) * 64 + 1 * q.val = q.val; rw [e7]; omega

theorem flushed3_eq (c : Dev nD) (t : Fin cfg3.N) :
    (dat3 (F := Ideal) V c).flushed 4 t
      = ((cfg3.win 4).blk t).view.read (Elt Ideal) (G3 (V c main_v34) (V c main_v35) (V c main_v36) (V c main_arg11)) := by
  show (cfg3.win 4).cut (grid3.coords t) ((dat3 V c).after 4 t) = _
  rw [after3_4]
  unfold out3_4
  rw [View.canon_unit_zero hz3]
  simp only [View.ld_unit_zero (S := S5000x64) hz3, View.ld_unit_zero (S := S1x64) hz3, View.ld_unit_zero (S := S5000x1) hz3,
    View.ld_unit_zero (S := S64x64) hz3]
  obtain ⟨-, -, -, -, -, -, -, -, e8, e9⟩ := idx_facts3 t
  funext j
  obtain ⟨p, q, rfl⟩ : ∃ (p : Fin 5000) (q : Fin 64), j = ix2 p q := ⟨j 0, j 1, eq_ix2 j⟩
  have ht : t.val < 60 := lt_of_lt_of_eq t.isLt (show cfg3.N = 60 from N_3)
  have hp : p.val < 5000 := p.isLt
  let r : Fin 300000 := ⟨t.val * 5000 + p.val, by omega⟩
  have hemb : ((cfg3.win 4).blk t).view.emb (ix2 p q) = (ix2 r q : S300000x64.Idx) := by
    funext a
    apply Fin.ext
    match a with
    | ⟨0, _⟩ => show win3_4.index t (0 : Fin 2) * 5000 + 1 * p.val = t.val * 5000 + p.val; rw [e8]; omega
    | ⟨1, _⟩ => show win3_4.index t (1 : Fin 2) * 64 + 1 * q.val = q.val; rw [e9]; omega
  show k3_pay1 (F := Ideal) (iblk3 V c 2 t) (iblk3 V c 0 t) (iblk3 V c 1 t) (iblk3 V c 3 t) (iblk3 V c 2 t) (ix2 p q)
    = G3 (V c main_v34) (V c main_v35) (V c main_v36) (V c main_arg11) (((cfg3.win 4).blk t).view.emb (ix2 p q))
  rw [hemb, pay3_apply]
  show _ = g3 (V c main_v34) (V c main_v35) (V c main_v36) (V c main_arg11) r q
  unfold g3
  simp only [iblk3_0_apply V c t p _ r rfl, iblk3_1_apply V c t, iblk3_2_apply V c t p r rfl, iblk3_3_apply V c t]

theorem cover3 (i : S300000x64.Idx) :
    ∃ t : Fin cfg3.N, (cfg3.win 4).flush t = true ∧ i ∈ ((cfg3.win 4).blk t).view.set := by
  have h0 : (i 0).val < 300000 := (i 0).isLt
  have h1 : (i 1).val < 64 := (i 1).isLt
  have hN : cfg3.N = 60 := N_3
  have hlt : (i 0).val / 5000 < cfg3.N := by rw [hN]; omega
  obtain ⟨-, -, -, -, -, -, -, -, e8, e9⟩ := idx_facts3 ⟨(i 0).val / 5000, hlt⟩
  refine ⟨⟨(i 0).val / 5000, hlt⟩, flush3_4 _, ?_⟩
  show i ∈ ((View.whole main_v37).slice (win3_4.rect ⟨(i 0).val / 5000, hlt⟩)).set
  rw [View.set_slice_whole, Rect.mem_set_unit]
  intro a
  match a with
  | ⟨0, _⟩ =>
    show win3_4.index ⟨(i 0).val / 5000, hlt⟩ (0 : Fin 2) * 5000 ≤ (i 0).val
      ∧ (i 0).val < win3_4.index ⟨(i 0).val / 5000, hlt⟩ (0 : Fin 2) * 5000 + 5000
    rw [e8]; show (i 0).val / 5000 * 5000 ≤ (i 0).val ∧ (i 0).val < (i 0).val / 5000 * 5000 + 5000; omega
  | ⟨1, _⟩ =>
    show win3_4.index ⟨(i 0).val / 5000, hlt⟩ (1 : Fin 2) * 64 ≤ (i 1).val
      ∧ (i 1).val < win3_4.index ⟨(i 0).val / 5000, hlt⟩ (1 : Fin 2) * 64 + 64
    rw [e9]; omega

theorem final3 (c : Dev nD) : (dat3 (F := Ideal) V c).arrAt 4 cfg3.N = G3 (V c main_v34) (V c main_v35) (V c main_v36) (V c main_arg11) :=
  (dat3 (F := Ideal) V c).arrAt_eq_of_cover 4 (G3 (V c main_v34) (V c main_v35) (V c main_v36) (V c main_arg11))
    (fun t _ => flushed3_eq V c t) cover3

end Cert.KernelIdeal.Hand

end
-- ==== Proof.Val4.lean ====
/- Region 4: the output array is d·a + b row by row: entry (r, q) is d[r]·a[r,q] + b[q]. -/
import proofs.«100265_j85727547228235_2_alg».proof.Proof.R4
import proofs.«100265_j85727547228235_2_alg».proof.Proof.GDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz4 : (![0, 0] : Fin 2 → Nat) = fun _ => 0 := funext fun a => by
  match a with
  | ⟨0, _⟩ => rfl
  | ⟨1, _⟩ => rfl

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay4_apply (x2 : Vec Ideal S5000x1 .f32) (x0 : Vec Ideal S5000x64 .f32) (x1 : Vec Ideal S1x64 .f32) (p : Fin 5000) (q : Fin 64) :
    k4_pay1 x2 x0 x1 (ix2 p q) = x2 (ix2 p (0 : Fin 1)) * x0 (ix2 p q) + x1 (ix2 (0 : Fin 1) q) := by
  unfold k4_pay1
  simp only [shapeCast_self]
  rw [addf_apply, mulf_apply, broadcastTo_a1_ab_apply, broadcastTo_1b_ab_apply]

theorem pay4_at (x2 : Vec Ideal S5000x1 .f32) (x0 : Vec Ideal S5000x64 .f32) (x1 : Vec Ideal S1x64 .f32) (j : S5000x64.Idx) :
    k4_pay1 x2 x0 x1 j = x2 (ix2 (j 0) (0 : Fin 1)) * x0 j + x1 (ix2 (0 : Fin 1) (j 1)) := by
  obtain ⟨p, q, rfl⟩ : ∃ (p : Fin 5000) (q : Fin 64), j = ix2 p q := ⟨j 0, j 1, eq_ix2 j⟩
  exact pay4_apply x2 x0 x1 p q

theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

theorem g4_of_entries (a : FVec Ideal S300000x64 .f32) (b : FVec Ideal S1x64 .f32) (d : FVec Ideal S300000x1 .f32)
    (x0 : Vec Ideal S5000x64 .f32) (x1 : Vec Ideal S1x64 .f32) (x2 : Vec Ideal S5000x1 .f32) (j : S5000x64.Idx) (i : S300000x64.Idx)
    (h0 : x0 j = a (ix2 (i 0) (i 1))) (h1 : x1 (ix2 (0 : Fin 1) (j 1)) = b (ix2 (0 : Fin 1) (i 1)))
    (h2 : x2 (ix2 (j 0) (0 : Fin 1)) = d (ix2 (i 0) (0 : Fin 1))) :
    x2 (ix2 (j 0) (0 : Fin 1)) * x0 j + x1 (ix2 (0 : Fin 1) (j 1)) = G4 a b d i := by
  rw [h0, h1, h2]; rfl

theorem flushed4_eq (c : Dev nD) (t : Fin cfg4.N) :
    (dat4 (F := Ideal) V c).flushed 3 t = ((cfg4.win 3).blk t).view.read (Elt Ideal) (G4 (V c main_v48) (V c main_v49) (V c main_v50)) := by
  show (cfg4.win 3).cut (grid4.coords t) ((dat4 V c).after 3 t) = _
  rw [after4_3]
  unfold out4_3
  rw [View.canon_unit_zero hz4]
  simp only [View.ld_unit_zero (S := S5000x64) hz4, View.ld_unit_zero (S := S5000x1) hz4, View.ld_unit_zero (S := S1x64) hz4]
  obtain ⟨e00, e01, e10, e11, e20, e21, e30, e31⟩ := idx_facts4 t
  funext j
  refine (pay4_at (iblk4 V c 2 t) (iblk4 V c 0 t) (iblk4 V c 1 t) j).trans ?_
  refine g4_of_entries (V c main_v48) (V c main_v49) (V c main_v50) (iblk4 V c 0 t) (iblk4 V c 1 t) (iblk4 V c 2 t) j
    (((cfg4.win 3).blk t).view.emb j) ?_ ?_ ?_
  · show V c main_v48 (((cfg4.win 0).blk t).view.emb j) = V c main_v48 _
    refine congrArg (V c main_v48) (funext fun a => Fin.ext ?_)
    match a with
    | ⟨0, _⟩ => show win4_0.index t (0 : Fin 2) * 5000 + 1 * (j 0).val = win4_3.index t (0 : Fin 2) * 5000 + 1 * (j 0).val; rw [e00, e30]
    | ⟨1, _⟩ => show win4_0.index t (1 : Fin 2) * 64 + 1 * (j 1).val = win4_3.index t (1 : Fin 2) * 64 + 1 * (j 1).val; rw [e01, e31]
  · show V c main_v49 (((cfg4.win 1).blk t).view.emb (ix2 (0 : Fin 1) (j 1))) = V c main_v49 _
    refine congrArg (V c main_v49) (funext fun a => Fin.ext ?_)
    match a with
    | ⟨0, _⟩ => show win4_1.index t (0 : Fin 2) * 1 + 1 * 0 = 0; rw [e10]
    | ⟨1, _⟩ => show win4_1.index t (1 : Fin 2) * 64 + 1 * (j 1).val = win4_3.index t (1 : Fin 2) * 64 + 1 * (j 1).val; rw [e11, e31]
  · show V c main_v50 (((cfg4.win 2).blk t).view.emb (ix2 (j 0) (0 : Fin 1))) = V c main_v50 _
    refine congrArg (V c main_v50) (funext fun a => Fin.ext ?_)
    match a with
    | ⟨0, _⟩ => show win4_2.index t (0 : Fin 2) * 5000 + 1 * (j 0).val = win4_3.index t (0 : Fin 2) * 5000 + 1 * (j 0).val; rw [e20, e30]
    | ⟨1, _⟩ => show win4_2.index t (1 : Fin 2) * 1 + 1 * 0 = 0; rw [e21]

theorem mem_blk4 (t : Fin cfg4.N) (i : S300000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v51).slice (win4_3.rect t)).set ↔ _
  rw [View.set_slice_whole, Rect.mem_set_unit]
  exact Iff.rfl

theorem cover4 (i : S300000x64.Idx) : ∃ t : Fin cfg4.N, (cfg4.win 3).flush t = true ∧ i ∈ ((cfg4.win 3).blk t).view.set := by
  have hi0 : (i 0).val < 300000 := (i 0).isLt
  have hi1 : (i 1).val < 64 := (i 1).isLt
  have hN : cfg4.N = 60 := N_4
  obtain ⟨t, ht⟩ : ∃ t : Fin cfg4.N, t.val = (i 0).val / 5000 := ⟨⟨(i 0).val / 5000, by rw [hN]; omega⟩, rfl⟩
  refine ⟨t, flush4_3 t, ?_⟩
  rw [mem_blk4]
  obtain ⟨-, -, -, -, -, -, e30, e31⟩ := idx_facts4 t
  intro a
  match a with
  | ⟨0, _⟩ =>
    show win4_3.index t (0 : Fin 2) * 5000 ≤ (i 0).val ∧ (i 0).val < win4_3.index t (0 : Fin 2) * 5000 + 5000
    rw [e30, ht]; omega
  | ⟨1, _⟩ =>
    show win4_3.index t (1 : Fin 2) * 64 ≤ (i 1).val ∧ (i 1).val < win4_3.index t (1 : Fin 2) * 64 + 64
    rw [e31]; omega

theorem final4 (c : Dev nD) : (dat4 (F := Ideal) V c).arrAt 3 cfg4.N = G4 (V c main_v48) (V c main_v49) (V c main_v50) :=
  (dat4 (F := Ideal) V c).arrAt_eq_of_cover 3 (G4 (V c main_v48) (V c main_v49) (V c main_v50)) (fun t _ => flushed4_eq V c t) cover4

end Cert.KernelIdeal.Hand

end
-- ==== Proof.Val5.lean ====
/- Region 5: the output array is x·w: entry (r, q) is the sum over k of x[r,k]·w[k,q]. -/
import proofs.«100265_j85727547228235_2_alg».proof.Proof.R5
import proofs.«100265_j85727547228235_2_alg».proof.Proof.GDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz5 : (![0, 0] : Fin 2 → Nat) = fun _ => 0 := funext fun a => by fin_cases a <;> rfl

theorem mm5_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm5_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem mm5_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem mm5_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem pay5_apply (x0 : Vec Ideal S5000x64 .f32) (x1 : Vec Ideal S64x64 .f32) (p : Fin 5000) (q : Fin 64) :
    k5_pay1 (F := Ideal) x0 x1 (ix2 p q) = ∑ k : Fin 64, x0 (ix2 p k) * x1 (ix2 k q) := by
  unfold k5_pay1
  simp only [shapeCast_self]
  rw [truncf_apply]
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact mm5_lhs_0 _ _
    | ⟨1, _⟩ => exact (mm5_lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (mm5_rhs_0 _ _).trans hk
    | ⟨1, _⟩ => exact mm5_rhs_1 _ _)
  rw [truncf_apply, truncf_apply, el, er]

theorem idx5_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem iblk5_0_apply (c : Dev nD) (t : Fin cfg5.N) (y : S5000x64.Idx) (r : S200000x64.Idx)
    (h0 : (r 0).val = t.val * 5000 + (y 0).val) (h1 : (r 1).val = (y 1).val) :
    (iblk5 V c 0 t : Vec Ideal S5000x64 .f32) y = (V c main_v54 : S200000x64.Idx → EReal) r := by
  obtain ⟨e0, e1, -⟩ := idx5_facts t
  unfold iblk5
  rw [View.read_apply]
  show V c main_v54 _ = V c main_v54 _
  congr 1
  funext a
  apply Fin.ext
  match a with
  | ⟨0, _⟩ => show win5_0.index t 0 * 5000 + 1 * (y 0).val = (r 0).val; rw [e0, h0]; omega
  | ⟨1, _⟩ => show win5_0.index t 1 * 64 + 1 * (y 1).val = (r 1).val; rw [e1, h1]; omega

theorem iblk5_1_eq (c : Dev nD) (t : Fin cfg5.N) :
    (iblk5 V c 1 t : Vec Ideal S64x64 .f32) = (V c main_v52 : S64x64.Idx → EReal) := by
  obtain ⟨-, -, e0, e1, -⟩ := idx5_facts t
  funext y
  unfold iblk5
  rw [View.read_apply]
  show V c main_v52 _ = V c main_v52 y
  congr 1
  funext a
  apply Fin.ext
  match a with
  | ⟨0, _⟩ => show win5_1.index t 0 * 64 + 1 * (y 0).val = (y 0).val; rw [e0]; omega
  | ⟨1, _⟩ => show win5_1.index t 1 * 64 + 1 * (y 1).val = (y 1).val; rw [e1]; omega

theorem blk5_entry (x0 : Vec Ideal S5000x64 .f32) (X : FVec Ideal S200000x64 .f32) (W : FVec Ideal S64x64 .f32) (b : ℕ)
    (hx0 : ∀ (y : S5000x64.Idx) (r : S200000x64.Idx), (r 0).val = b * 5000 + (y 0).val → (r 1).val = (y 1).val → x0 y = X r)
    (j : S5000x64.Idx) (i : S200000x64.Idx) (hi0 : (i 0).val = b * 5000 + (j 0).val) (hi1 : (i 1).val = (j 1).val) :
    k5_pay1 (F := Ideal) x0 W j = G5 X W i := by
  obtain ⟨p, q, rfl⟩ : ∃ (p : Fin 5000) (q : Fin 64), j = ix2 p q := ⟨j 0, j 1, eq_ix2 j⟩
  have hp : (i 0).val = b * 5000 + p.val := hi0
  have hq : (i 1 : Fin 64) = q := Fin.ext hi1
  rw [pay5_apply]
  show _ = g5 X W (i 0) (i 1)
  unfold g5
  refine Finset.sum_congr rfl fun k _ => ?_
  rw [hx0 (ix2 p k) (ix2 (i 0) k) hp rfl, hq]

theorem flushed5_eq (c : Dev nD) (t : Fin cfg5.N) :
    (dat5 (F := Ideal) V c).flushed 2 t = ((cfg5.win 2).blk t).view.read (Elt Ideal) (G5 (V c main_v54) (V c main_v52)) := by
  obtain ⟨-, -, -, -, e0, e1⟩ := idx5_facts t
  show (cfg5.win 2).cut (grid5.coords t) ((dat5 V c).after 2 t) = _
  rw [after5_2]
  unfold out5_2
  rw [View.canon_unit_zero hz5]
  simp only [View.ld_unit_zero (S := S5000x64) hz5, View.ld_unit_zero (S := S64x64) hz5]
  rw [iblk5_1_eq]
  funext j
  show k5_pay1 (F := Ideal) (iblk5 V c 0 t) (V c main_v52) j = G5 (V c main_v54) (V c main_v52) (((cfg5.win 2).blk t).view.emb j)
  refine blk5_entry (iblk5 V c 0 t) (V c main_v54) (V c main_v52) t.val (fun y r h0 h1 => iblk5_0_apply V c t y r h0 h1) j _ ?_ ?_
  · show win5_2.index t 0 * 5000 + 1 * (j 0).val = t.val * 5000 + (j 0).val
    rw [e0]; omega
  · show win5_2.index t 1 * 64 + 1 * (j 1).val = (j 1).val
    rw [e1]; omega

theorem mem_blk5 (t : Fin cfg5.N) (i : S200000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v55).slice (win5_2.rect t)).set ↔ _
  rw [View.set_slice_whole, Rect.mem_set_unit]
  exact Iff.rfl

theorem cover5 (i : S200000x64.Idx) : ∃ t : Fin cfg5.N, (cfg5.win 2).flush t = true ∧ i ∈ ((cfg5.win 2).blk t).view.set := by
  have hN : cfg5.N = 40 := N_5
  have hi0 : (i 0).val < 200000 := (i 0).isLt
  have hi1 : (i 1).val < 64 := (i 1).isLt
  obtain ⟨t, ht⟩ : ∃ t : Fin cfg5.N, t.val = (i 0).val / 5000 := ⟨⟨(i 0).val / 5000, by rw [hN]; omega⟩, rfl⟩
  obtain ⟨-, -, -, -, e0, e1⟩ := idx5_facts t
  refine ⟨t, flush5_2 t, ?_⟩
  rw [mem_blk5]
  intro a
  match a with
  | ⟨0, _⟩ => show win5_2.index t 0 * 5000 ≤ (i 0).val ∧ (i 0).val < win5_2.index t 0 * 5000 + 5000; rw [e0, ht]; omega
  | ⟨1, _⟩ => show win5_2.index t 1 * 64 ≤ (i 1).val ∧ (i 1).val < win5_2.index t 1 * 64 + 64; rw [e1]; omega

theorem final5 (c : Dev nD) : (dat5 (F := Ideal) V c).arrAt 2 cfg5.N = G5 (V c main_v54) (V c main_v52) :=
  (dat5 (F := Ideal) V c).arrAt_eq_of_cover 2 (G5 (V c main_v54) (V c main_v52)) (fun t _ => flushed5_eq V c t) (cover5)

end Cert.KernelIdeal.Hand

end
-- ==== Proof.Val6.lean ====
/- Region 6: the output array is x·w: entry (r, q) is the sum over k of x[r,k]·w[k,q]. -/
import proofs.«100265_j85727547228235_2_alg».proof.Proof.R6
import proofs.«100265_j85727547228235_2_alg».proof.Proof.GDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz6 : (![0, 0] : Fin 2 → Nat) = fun _ => 0 := funext fun a => by fin_cases a <;> rfl

theorem mm6_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm6_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem mm6_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem mm6_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem pay6_apply (x0 : Vec Ideal S5000x64 .f32) (x1 : Vec Ideal S64x64 .f32) (p : Fin 5000) (q : Fin 64) :
    k6_pay1 (F := Ideal) x0 x1 (ix2 p q) = ∑ k : Fin 64, x0 (ix2 p k) * x1 (ix2 k q) := by
  unfold k6_pay1
  simp only [shapeCast_self]
  rw [truncf_apply]
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact mm6_lhs_0 _ _
    | ⟨1, _⟩ => exact (mm6_lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (mm6_rhs_0 _ _).trans hk
    | ⟨1, _⟩ => exact mm6_rhs_1 _ _)
  rw [truncf_apply, truncf_apply, el, er]

theorem idx6_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem iblk6_0_apply (c : Dev nD) (t : Fin cfg6.N) (y : S5000x64.Idx) (r : S100000x64.Idx)
    (h0 : (r 0).val = t.val * 5000 + (y 0).val) (h1 : (r 1).val = (y 1).val) :
    (iblk6 V c 0 t : Vec Ideal S5000x64 .f32) y = (V c main_v56 : S100000x64.Idx → EReal) r := by
  obtain ⟨e0, e1, -⟩ := idx6_facts t
  unfold iblk6
  rw [View.read_apply]
  show V c main_v56 _ = V c main_v56 _
  congr 1
  funext a
  apply Fin.ext
  match a with
  | ⟨0, _⟩ => show win6_0.index t 0 * 5000 + 1 * (y 0).val = (r 0).val; rw [e0, h0]; omega
  | ⟨1, _⟩ => show win6_0.index t 1 * 64 + 1 * (y 1).val = (r 1).val; rw [e1, h1]; omega

theorem iblk6_1_eq (c : Dev nD) (t : Fin cfg6.N) :
    (iblk6 V c 1 t : Vec Ideal S64x64 .f32) = (V c main_v53 : S64x64.Idx → EReal) := by
  obtain ⟨-, -, e0, e1, -⟩ := idx6_facts t
  funext y
  unfold iblk6
  rw [View.read_apply]
  show V c main_v53 _ = V c main_v53 y
  congr 1
  funext a
  apply Fin.ext
  match a with
  | ⟨0, _⟩ => show win6_1.index t 0 * 64 + 1 * (y 0).val = (y 0).val; rw [e0]; omega
  | ⟨1, _⟩ => show win6_1.index t 1 * 64 + 1 * (y 1).val = (y 1).val; rw [e1]; omega

theorem blk6_entry (x0 : Vec Ideal S5000x64 .f32) (X : FVec Ideal S100000x64 .f32) (W : FVec Ideal S64x64 .f32) (b : ℕ)
    (hx0 : ∀ (y : S5000x64.Idx) (r : S100000x64.Idx), (r 0).val = b * 5000 + (y 0).val → (r 1).val = (y 1).val → x0 y = X r)
    (j : S5000x64.Idx) (i : S100000x64.Idx) (hi0 : (i 0).val = b * 5000 + (j 0).val) (hi1 : (i 1).val = (j 1).val) :
    k6_pay1 (F := Ideal) x0 W j = G6 X W i := by
  obtain ⟨p, q, rfl⟩ : ∃ (p : Fin 5000) (q : Fin 64), j = ix2 p q := ⟨j 0, j 1, eq_ix2 j⟩
  have hp : (i 0).val = b * 5000 + p.val := hi0
  have hq : (i 1 : Fin 64) = q := Fin.ext hi1
  rw [pay6_apply]
  show _ = g6 X W (i 0) (i 1)
  unfold g6
  refine Finset.sum_congr rfl fun k _ => ?_
  rw [hx0 (ix2 p k) (ix2 (i 0) k) hp rfl, hq]

theorem flushed6_eq (c : Dev nD) (t : Fin cfg6.N) :
    (dat6 (F := Ideal) V c).flushed 2 t = ((cfg6.win 2).blk t).view.read (Elt Ideal) (G6 (V c main_v56) (V c main_v53)) := by
  obtain ⟨-, -, -, -, e0, e1⟩ := idx6_facts t
  show (cfg6.win 2).cut (grid6.coords t) ((dat6 V c).after 2 t) = _
  rw [after6_2]
  unfold out6_2
  rw [View.canon_unit_zero hz6]
  simp only [View.ld_unit_zero (S := S5000x64) hz6, View.ld_unit_zero (S := S64x64) hz6]
  rw [iblk6_1_eq]
  funext j
  show k6_pay1 (F := Ideal) (iblk6 V c 0 t) (V c main_v53) j = G6 (V c main_v56) (V c main_v53) (((cfg6.win 2).blk t).view.emb j)
  refine blk6_entry (iblk6 V c 0 t) (V c main_v56) (V c main_v53) t.val (fun y r h0 h1 => iblk6_0_apply V c t y r h0 h1) j _ ?_ ?_
  · show win6_2.index t 0 * 5000 + 1 * (j 0).val = t.val * 5000 + (j 0).val
    rw [e0]; omega
  · show win6_2.index t 1 * 64 + 1 * (j 1).val = (j 1).val
    rw [e1]; omega

theorem mem_blk6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v57).slice (win6_2.rect t)).set ↔ _
  rw [View.set_slice_whole, Rect.mem_set_unit]
  exact Iff.rfl

theorem cover6 (i : S100000x64.Idx) : ∃ t : Fin cfg6.N, (cfg6.win 2).flush t = true ∧ i ∈ ((cfg6.win 2).blk t).view.set := by
  have hN : cfg6.N = 20 := N_6
  have hi0 : (i 0).val < 100000 := (i 0).isLt
  have hi1 : (i 1).val < 64 := (i 1).isLt
  obtain ⟨t, ht⟩ : ∃ t : Fin cfg6.N, t.val = (i 0).val / 5000 := ⟨⟨(i 0).val / 5000, by rw [hN]; omega⟩, rfl⟩
  obtain ⟨-, -, -, -, e0, e1⟩ := idx6_facts t
  refine ⟨t, flush6_2 t, ?_⟩
  rw [mem_blk6]
  intro a
  match a with
  | ⟨0, _⟩ => show win6_2.index t 0 * 5000 ≤ (i 0).val ∧ (i 0).val < win6_2.index t 0 * 5000 + 5000; rw [e0, ht]; omega
  | ⟨1, _⟩ => show win6_2.index t 1 * 64 ≤ (i 1).val ∧ (i 1).val < win6_2.index t 1 * 64 + 64; rw [e1]; omega

theorem final6 (c : Dev nD) : (dat6 (F := Ideal) V c).arrAt 2 cfg6.N = G6 (V c main_v56) (V c main_v53) :=
  (dat6 (F := Ideal) V c).arrAt_eq_of_cover 2 (G6 (V c main_v56) (V c main_v53)) (fun t _ => flushed6_eq V c t) (cover6)

end Cert.KernelIdeal.Hand

end
-- ==== Proof.Val7.lean ====
/- Region 7: entry (r, 0) of the output is 5·logistic(sum over k of max(u[r,k] + p[r,k] + b1[k], 0)·w2[k,0], plus b2). -/
import proofs.«100265_j85727547228235_2_alg».proof.Proof.R7
import proofs.«100265_j85727547228235_2_alg».proof.Proof.GDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

theorem hz7 : (![0, 0] : Fin 2 → Nat) = fun _ => 0 := funext fun a => by fin_cases a <;> rfl

theorem lhs7_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhs7_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem rhs7_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rhs7_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

theorem matmul7_apply (a : FVec Ideal S5000x64 .bf16) (b : FVec Ideal S64x1 .bf16) (p : Fin 5000) (q : Fin 1) :
    matmul dot_S5000x64_S64x1_S5000x1_1_0_0_1_n_n none a b (constant (F := Ideal) S5000x1 .f32 0x00000000#32) (ix2 p q)
      = ∑ k : Fin 64, a (ix2 p k) * b (ix2 k q) := by
  simp only [matmul]
  rw [Ideal.matmul_constant_zero_apply, ← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 p q) ((ValueIdx.contrEquiv1 dot_S5000x64_S64x1_S5000x1_1_0_0_1_n_n 64 rfl rfl).symm k) = ix2 p k := funext fun a => Fin.ext (by
    match a with
    | ⟨0, _⟩ => exact lhs7_0 _ _
    | ⟨1, _⟩ => exact (lhs7_1 _ _).trans hk)
  have er : dot_S5000x64_S64x1_S5000x1_1_0_0_1_n_n.rhsIdx (ix2 p q) ((ValueIdx.contrEquiv1 dot_S5000x64_S64x1_S5000x1_1_0_0_1_n_n 64 rfl rfl).symm k) = ix2 k q := funext fun a => Fin.ext (by
    match a with
    | ⟨0, _⟩ => exact (rhs7_0 _ _).trans hk
    | ⟨1, _⟩ => exact rhs7_1 _ _)
  rw [el, er]

theorem logistic_apply7 {s : Shape} {φ : FTy} (a : FVec Ideal s φ) (i : s.Idx) : logistic a i = Ideal.logistic (a i) := rfl

theorem pay7_apply (x0 x1 : Vec Ideal S5000x64 .bf16) (x2 : Vec Ideal S1x64 .f32) (x3 : Vec Ideal S64x1 .f32) (x4 : Vec Ideal S1x1 .f32)
    (p : Fin 5000) (q : Fin 1) :
    k7_pay1 x0 x1 x2 x3 x4 (ix2 p q)
      = Ideal.logistic ((∑ k : Fin 64, max (x0 (ix2 p k) + x1 (ix2 p k) + x2 (ix2 (0 : Fin 1) k)) 0 * x3 (ix2 k q)) + x4 (ix2 (0 : Fin 1) q))
          * Ideal.ofBits .f32 0x40A00000#32 := by
  unfold k7_pay1
  simp only [shapeCast_self]
  rw [mulf_apply, broadcast_apply]
  rw [logistic_apply7, addf_apply, matmul7_apply, broadcastTo_1b_ab_apply]
  congr 2
  congr 1
  refine Finset.sum_congr rfl fun k _ => ?_
  rw [truncf_apply, truncf_apply, maximumf_apply, addf_apply, addf_apply, extf_apply, extf_apply, broadcastTo_1b_ab_apply,
    broadcast_apply]
  show max _ (Ideal.ofBits .f32 0x00000000#32) * _ = _
  rw [Ideal.ofBits_zero_f32]

variable (V : (c : Dev nD) → (b : Ref sig .tc) → Buf (Elt Ideal) ((c : Thread nD τ).loc b))

theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

def row7 (t : Fin cfg7.N) (p : Fin 5000) : Fin 1000000 :=
  ⟨t.val * 5000 + p.val, by have ht : t.val < 200 := lt_of_lt_of_eq t.isLt N_7; have hp := p.isLt; omega⟩

theorem iblk7_0_apply (c : Dev nD) (t : Fin cfg7.N) (p : Fin 5000) (k : Fin 64) :
    (iblk7 V c 0 t : Vec Ideal S5000x64 .bf16) (ix2 p k) = (V c main_v64 : S1000000x64.Idx → EReal) (ix2 (row7 t p) k) := by
  obtain ⟨e00, e01, -⟩ := idx7 t
  unfold iblk7
  rw [View.read_apply]
  show V c main_v64 _ = V c main_v64 _
  congr 1
  funext a
  apply Fin.ext
  match a with
  | ⟨0, _⟩ => show win7_0.index t (0 : Fin 2) * 5000 + 1 * p.val = t.val * 5000 + p.val; rw [e00]; omega
  | ⟨1, _⟩ => show win7_0.index t (1 : Fin 2) * 64 + 1 * k.val = k.val; rw [e01]; omega

theorem iblk7_1_apply (c : Dev nD) (t : Fin cfg7.N) (p : Fin 5000) (k : Fin 64) :
    (iblk7 V c 1 t : Vec Ideal S5000x64 .bf16) (ix2 p k) = (V c main_v71 : S1000000x64.Idx → EReal) (ix2 (row7 t p) k) := by
  obtain ⟨-, -, e10, e11, -⟩ := idx7 t
  unfold iblk7
  rw [View.read_apply]
  show V c main_v71 _ = V c main_v71 _
  congr 1
  funext a
  apply Fin.ext
  match a with
  | ⟨0, _⟩ => show win7_1.index t (0 : Fin 2) * 5000 + 1 * p.val = t.val * 5000 + p.val; rw [e10]; omega
  | ⟨1, _⟩ => show win7_1.index t (1 : Fin 2) * 64 + 1 * k.val = k.val; rw [e11]; omega

theorem iblk7_2_apply (c : Dev nD) (t : Fin cfg7.N) (z : Fin 1) (k : Fin 64) :
    (iblk7 V c 2 t : Vec Ideal S1x64 .f32) (ix2 z k) = (V c main_v72 : S1x64.Idx → EReal) (ix2 z k) := by
  obtain ⟨-, -, -, -, e20, e21, -⟩ := idx7 t
  unfold iblk7
  rw [View.read_apply]
  show V c main_v72 _ = V c main_v72 _
  congr 1
  funext a
  apply Fin.ext
  match a with
  | ⟨0, _⟩ => show win7_2.index t (0 : Fin 2) * 1 + 1 * z.val = z.val; rw [e20]; omega
  | ⟨1, _⟩ => show win7_2.index t (1 : Fin 2) * 64 + 1 * k.val = k.val; rw [e21]; omega

theorem iblk7_3_apply (c : Dev nD) (t : Fin cfg7.N) (k : Fin 64) (q : Fin 1) :
    (iblk7 V c 3 t : Vec Ideal S64x1 .f32) (ix2 k q) = (V c main_arg15 : S64x1.Idx → EReal) (ix2 k q) := by
  obtain ⟨-, -, -, -, -, -, e30, e31, -⟩ := idx7 t
  unfold iblk7
  rw [View.read_apply]
  show V c main_arg15 _ = V c main_arg15 _
  congr 1
  funext a
  apply Fin.ext
  match a with
  | ⟨0, _⟩ => show win7_3.index t (0 : Fin 2) * 64 + 1 * k.val = k.val; rw [e30]; omega
  | ⟨1, _⟩ => show win7_3.index t (1 : Fin 2) * 1 + 1 * q.val = q.val; rw [e31]; omega

theorem iblk7_4_apply (c : Dev nD) (t : Fin cfg7.N) (z : Fin 1) (q : Fin 1) :
    (iblk7 V c 4 t : Vec Ideal S1x1 .f32) (ix2 z q) = (V c main_v73 : S1x1.Idx → EReal) (ix2 z q) := by
  obtain ⟨-, -, -, -, -, -, -, -, e40, e41, -⟩ := idx7 t
  unfold iblk7
  rw [View.read_apply]
  show V c main_v73 _ = V c main_v73 _
  congr 1
  funext a
  apply Fin.ext
  match a with
  | ⟨0, _⟩ => show win7_4.index t (0 : Fin 2) * 1 + 1 * z.val = z.val; rw [e40]; omega
  | ⟨1, _⟩ => show win7_4.index t (1 : Fin 2) * 1 + 1 * q.val = q.val; rw [e41]; omega

theorem emb7_5 (t : Fin cfg7.N) (p : Fin 5000) (q : Fin 1) :
    ((cfg7.win 5).blk t).view.emb (ix2 p q) = (ix2 (row7 t p) q : S1000000x1.Idx) := by
  obtain ⟨-, -, -, -, -, -, -, -, -, -, e50, e51⟩ := idx7 t
  funext a
  apply Fin.ext
  match a with
  | ⟨0, _⟩ => show win7_5.index t (0 : Fin 2) * 5000 + 1 * p.val = t.val * 5000 + p.val; rw [e50]; omega
  | ⟨1, _⟩ => show win7_5.index t (1 : Fin 2) * 1 + 1 * q.val = q.val; rw [e51]; omega

theorem flushed7_eq (c : Dev nD) (t : Fin cfg7.N) :
    (dat7 (F := Ideal) V c).flushed 5 t
      = ((cfg7.win 5).blk t).view.read (Elt Ideal) (G7 (V c main_v64) (V c main_v71) (V c main_v72) (V c main_arg15) (V c main_v73)) := by
  show (cfg7.win 5).cut (grid7.coords t) ((dat7 (F := Ideal) V c).after 5 t) = _
  rw [after7_5]
  unfold out7_5
  rw [View.canon_unit_zero hz7]
  simp only [View.ld_unit_zero (S := S5000x64) hz7, View.ld_unit_zero (S := S1x64) hz7, View.ld_unit_zero (S := S64x1) hz7,
    View.ld_unit_zero (S := S1x1) hz7]
  funext j
  obtain ⟨p, q, rfl⟩ : ∃ (p : Fin 5000) (q : Fin 1), j = ix2 p q := ⟨j 0, j 1, eq_ix2 j⟩
  rw [View.read_apply, emb7_5]
  show k7_pay1 (iblk7 V c 0 t) (iblk7 V c 1 t) (iblk7 V c 2 t) (iblk7 V c 3 t) (iblk7 V c 4 t) (ix2 p q) = g7 _ _ _ _ _ (row7 t p) q
  rw [pay7_apply]
  unfold g7
  simp only [iblk7_0_apply, iblk7_1_apply, iblk7_2_apply, iblk7_3_apply, iblk7_4_apply]

theorem mem_blk7 (t : Fin cfg7.N) (i : S1000000x1.Idx) :
    i ∈ ((cfg7.win 5).blk t).view.set ↔ ∀ a : Fin 2, win7_5.index t a * S5000x1.size a ≤ (i a).val ∧ (i a).val < win7_5.index t a * S5000x1.size a + S5000x1.size a := by
  show i ∈ ((View.whole main_v74).slice (win7_5.rect t)).set ↔ _
  rw [View.set_slice_whole, Rect.mem_set_unit]
  exact Iff.rfl

theorem cover7 (i : S1000000x1.Idx) : ∃ t : Fin cfg7.N, (cfg7.win 5).flush t = true ∧ i ∈ ((cfg7.win 5).blk t).view.set := by
  have h0 : (i 0).val < 1000000 := (i 0).isLt
  have h1 : (i 1).val < 1 := (i 1).isLt
  refine ⟨⟨(i 0).val / 5000, by rw [show cfg7.N = 200 from N_7]; omega⟩, flush7_5 _, ?_⟩
  rw [mem_blk7]
  obtain ⟨-, -, -, -, -, -, -, -, -, -, e50, e51⟩ := idx7 ⟨(i 0).val / 5000, by rw [show cfg7.N = 200 from N_7]; omega⟩
  intro a
  match a with
  | ⟨0, _⟩ =>
    show win7_5.index _ (0 : Fin 2) * 5000 ≤ (i 0).val ∧ (i 0).val < win7_5.index _ (0 : Fin 2) * 5000 + 5000
    rw [e50]
    show (i 0).val / 5000 * 5000 ≤ (i 0).val ∧ (i 0).val < (i 0).val / 5000 * 5000 + 5000
    omega
  | ⟨1, _⟩ =>
    show win7_5.index _ (1 : Fin 2) * 1 ≤ (i 1).val ∧ (i 1).val < win7_5.index _ (1 : Fin 2) * 1 + 1
    rw [e51]
    omega

theorem final7 (c : Dev nD) : (dat7 (F := Ideal) V c).arrAt 5 cfg7.N = G7 (V c main_v64) (V c main_v71) (V c main_v72) (V c main_arg15) (V c main_v73) :=
  (dat7 (F := Ideal) V c).arrAt_eq_of_cover 5 _ (fun t _ => flushed7_eq V c t) cover7

end Cert.KernelIdeal.Hand

end
-- ==== Proof.KerVal.lean ====
/- From the launch to the end, boundary by boundary: every buffer a later item reads holds its stage of the kernel's term of the argument arrays. -/
import proofs.«100265_j85727547228235_2_alg».proof.Proof.Run
import proofs.«100265_j85727547228235_2_alg».proof.Proof.KerSpec
import proofs.«100265_j85727547228235_2_alg».proof.Proof.KerHost
import proofs.«100265_j85727547228235_2_alg».proof.Proof.Val0
import proofs.«100265_j85727547228235_2_alg».proof.Proof.Val1
import proofs.«100265_j85727547228235_2_alg».proof.Proof.Val2
import proofs.«100265_j85727547228235_2_alg».proof.Proof.Val3
import proofs.«100265_j85727547228235_2_alg».proof.Proof.Val4
import proofs.«100265_j85727547228235_2_alg».proof.Proof.Val5
import proofs.«100265_j85727547228235_2_alg».proof.Proof.Val6
import proofs.«100265_j85727547228235_2_alg».proof.Proof.Val7
import Idealize.ShloMosaic.Lib.StableHlo.Run
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

local notation "D[" r "]" => Proc.devRef (Proc.tc : Proc τ) r
set_option quotPrecheck false in
local notation "C[" S "," e "]" => (⟨S, e⟩ : BufTy).Contents (Elt Ideal)

variable (m : (ℓ : Loc nD τ sig) → Buf (Elt Ideal) ℓ) (ρ : Dev nD → PrngReg)

abbrev ar0 (c : Dev nD) : C[S2x1000000, .i32] := m ((c : Thread nD τ).loc main_arg0)
abbrev ar1 (c : Dev nD) : C[S200000x128, .f32] := m ((c : Thread nD τ).loc main_arg1)
abbrev ar2 (c : Dev nD) : C[S100000x128, .f32] := m ((c : Thread nD τ).loc main_arg2)
abbrev ar3 (c : Dev nD) : C[S200000x64, .f32] := m ((c : Thread nD τ).loc main_arg3)
abbrev ar4 (c : Dev nD) : C[S100000x64, .f32] := m ((c : Thread nD τ).loc main_arg4)
abbrev ar5 (c : Dev nD) : C[S128x64, .f32] := m ((c : Thread nD τ).loc main_arg5)
abbrev ar6 (c : Dev nD) : C[S64, .f32] := m ((c : Thread nD τ).loc main_arg6)
abbrev ar7 (c : Dev nD) : C[S128x64, .f32] := m ((c : Thread nD τ).loc main_arg7)
abbrev ar8 (c : Dev nD) : C[S64, .f32] := m ((c : Thread nD τ).loc main_arg8)
abbrev ar9 (c : Dev nD) : C[S64x64, .f32] := m ((c : Thread nD τ).loc main_arg9)
abbrev ar10 (c : Dev nD) : C[S64, .f32] := m ((c : Thread nD τ).loc main_arg10)
abbrev ar11 (c : Dev nD) : C[S64x64, .f32] := m ((c : Thread nD τ).loc main_arg11)
abbrev ar12 (c : Dev nD) : C[S64, .f32] := m ((c : Thread nD τ).loc main_arg12)
abbrev ar13 (c : Dev nD) : C[S128x64, .f32] := m ((c : Thread nD τ).loc main_arg13)
abbrev ar14 (c : Dev nD) : C[S64, .f32] := m ((c : Thread nD τ).loc main_arg14)
abbrev ar15 (c : Dev nD) : C[S64x1, .f32] := m ((c : Thread nD τ).loc main_arg15)
abbrev ar16 (c : Dev nD) : C[S1, .f32] := m ((c : Thread nD τ).loc main_arg16)

abbrev arX (c : Dev nD) : C[S300000x64, .f32] :=
  kvX (ar1 m c) (ar2 m c) (ar3 m c) (ar4 m c) (ar5 m c) (ar6 m c) (ar7 m c) (ar8 m c)

abbrev arX2 (c : Dev nD) : C[S300000x64, .f32] :=
  kvX2 (arX m c) (ar0 m c) (ar9 m c) (ar10 m c) (ar11 m c) (ar12 m c)

variable (c : Dev nD)

theorem keep_1_4 (r : Ref sig .tc) (h2 : r ∉ ([main_v5] : List (Ref sig .tc)) := by decide) (h3 : r ∉ hostOps1_W := by decide)
    (h4 : r ∉ ([main_v7] : List (Ref sig .tc)) := by decide) : W4 m ρ c D[r] = W1 m ρ c D[r] :=
  (W4_of m ρ c r h4).trans <| (W3_of m ρ c r h3).trans (W2_of m ρ c r h2)
theorem keep_2_4 (r : Ref sig .tc) (h3 : r ∉ hostOps1_W := by decide) (h4 : r ∉ ([main_v7] : List (Ref sig .tc)) := by decide) :
    W4 m ρ c D[r] = W2 m ρ c D[r] := (W4_of m ρ c r h4).trans (W3_of m ρ c r h3)
theorem keep_5_7 (r : Ref sig .tc) (h6 : r ∉ hostOps2_1_W := by decide) (h7 : r ∉ hostOps2_2_W := by decide) :
    W7 m ρ c D[r] = W5 m ρ c D[r] := (W7_of m ρ c r h7).trans (W6_of m ρ c r h6)
theorem keep_5_8 (r : Ref sig .tc) (h6 : r ∉ hostOps2_1_W := by decide) (h7 : r ∉ hostOps2_2_W := by decide)
    (h8 : r ∉ ([main_v23] : List (Ref sig .tc)) := by decide) : W8 m ρ c D[r] = W5 m ρ c D[r] :=
  (W8_of m ρ c r h8).trans (keep_5_7 m ρ c r h6 h7)
theorem keep_6_8 (r : Ref sig .tc) (h7 : r ∉ hostOps2_2_W := by decide) (h8 : r ∉ ([main_v23] : List (Ref sig .tc)) := by decide) :
    W8 m ρ c D[r] = W6 m ρ c D[r] := (W8_of m ρ c r h8).trans (W7_of m ρ c r h7)
theorem keep_8_10 (r : Ref sig .tc) (h9 : r ∉ hostOps3_W := by decide) (h10 : r ∉ ([main_v37] : List (Ref sig .tc)) := by decide) :
    W10 m ρ c D[r] = W8 m ρ c D[r] := (W10_of m ρ c r h10).trans (W9_of m ρ c r h9)
theorem keep_12_14 (r : Ref sig .tc) (h13 : r ∉ hostOps5_W := by decide) (h14 : r ∉ ([main_v55] : List (Ref sig .tc)) := by decide) :
    W14 m ρ c D[r] = W12 m ρ c D[r] := (W14_of m ρ c r h14).trans (W13_of m ρ c r h13)
theorem keep_13_15 (r : Ref sig .tc) (h14 : r ∉ ([main_v55] : List (Ref sig .tc)) := by decide) (h15 : r ∉ hostOps6_W := by decide) :
    W15 m ρ c D[r] = W13 m ρ c D[r] := (W15_of m ρ c r h15).trans (W14_of m ρ c r h14)
theorem keep_14_16 (r : Ref sig .tc) (h15 : r ∉ hostOps6_W := by decide) (h16 : r ∉ ([main_v57] : List (Ref sig .tc)) := by decide) :
    W16 m ρ c D[r] = W14 m ρ c D[r] := (W16_of m ρ c r h16).trans (W15_of m ρ c r h15)
theorem keep_4_16 (r : Ref sig .tc) (h5 : r ∉ hostOps2_W := by decide) (h6 : r ∉ hostOps2_1_W := by decide) (h7 : r ∉ hostOps2_2_W := by decide)
    (h8 : r ∉ ([main_v23] : List (Ref sig .tc)) := by decide) (h9 : r ∉ hostOps3_W := by decide)
    (h10 : r ∉ ([main_v37] : List (Ref sig .tc)) := by decide) (h11 : r ∉ hostOps4_W := by decide)
    (h12 : r ∉ ([main_v51] : List (Ref sig .tc)) := by decide) (h13 : r ∉ hostOps5_W := by decide)
    (h14 : r ∉ ([main_v55] : List (Ref sig .tc)) := by decide) (h15 : r ∉ hostOps6_W := by decide)
    (h16 : r ∉ ([main_v57] : List (Ref sig .tc)) := by decide) : W16 m ρ c D[r] = W4 m ρ c D[r] :=
  (W16_of m ρ c r h16).trans <| (W15_of m ρ c r h15).trans <| (W14_of m ρ c r h14).trans <| (W13_of m ρ c r h13).trans <|
    (W12_of m ρ c r h12).trans <| (W11_of m ρ c r h11).trans <| (W10_of m ρ c r h10).trans <| (W9_of m ρ c r h9).trans <|
    (W8_of m ρ c r h8).trans <| (W7_of m ρ c r h7).trans <| (W6_of m ρ c r h6).trans (W5_of m ρ c r h5)

theorem W1_v1 : W1 m ρ c D[main_v1] = kvUi (ar0 m c) := h0_v1 (W0 m ρ c)
theorem W1_v3 : W1 m ρ c D[main_v3] = kvPi (ar0 m c) := h0_v3 (W0 m ρ c)
theorem W1_v4 : W1 m ρ c D[main_v4] = kvRow64 (ar6 m c) := h0_v4 (W0 m ρ c)
theorem W2_v5 : W2 m ρ c D[main_v5] = G0 (ar1 m c) (ar5 m c) (kvRow64 (ar6 m c)) (ar3 m c) :=
  ((W2_arr m ρ c 4).trans (final0 (Vh1 m ρ) c)).trans (by
    show G0 (W1 m ρ c D[main_arg1]) (W1 m ρ c D[main_arg5]) (W1 m ρ c D[main_v4]) (W1 m ρ c D[main_arg3]) = _
    rw [W1_arg m ρ c main_arg1 (by decide), W1_arg m ρ c main_arg5 (by decide), W1_v4, W1_arg m ρ c main_arg3 (by decide)])
theorem W3_v6 : W3 m ρ c D[main_v6] = kvRow64 (ar8 m c) :=
  (h1_v6 (W2 m ρ c)).trans (congrArg kvRow64 (W2_arg m ρ c main_arg8 (by decide)))
theorem W4_v7 : W4 m ρ c D[main_v7] = G1 (ar2 m c) (ar7 m c) (kvRow64 (ar8 m c)) (ar4 m c) :=
  ((W4_arr m ρ c 4).trans (final1 (Vh3 m ρ) c)).trans (by
    show G1 (W3 m ρ c D[main_arg2]) (W3 m ρ c D[main_arg7]) (W3 m ρ c D[main_v6]) (W3 m ρ c D[main_arg4]) = _
    rw [W3_arg m ρ c main_arg2 (by decide), W3_arg m ρ c main_arg7 (by decide), W3_v6, W3_arg m ρ c main_arg4 (by decide)])
theorem W4_v5 : W4 m ρ c D[main_v5] = G0 (ar1 m c) (ar5 m c) (kvRow64 (ar6 m c)) (ar3 m c) :=
  (keep_2_4 m ρ c main_v5).trans (W2_v5 m ρ c)
theorem W4_v1 : W4 m ρ c D[main_v1] = kvUi (ar0 m c) := (keep_1_4 m ρ c main_v1).trans (W1_v1 m ρ c)
theorem W4_v3 : W4 m ρ c D[main_v3] = kvPi (ar0 m c) := (keep_1_4 m ρ c main_v3).trans (W1_v3 m ρ c)
theorem W5_v8 : W5 m ρ c D[main_v8] = arX m c := h2_v8 (W4 m ρ c) _ _ _ _ _ _ _ _ (W4_v5 m ρ c) (W4_v7 m ρ c)

theorem W5_v10 : W5 m ρ c D[main_v10] = kvRowE (ar0 m c) := h2_v10 (W4 m ρ c) _ (W4_v1 m ρ c) (W4_v3 m ρ c)
theorem W5_v11 : W5 m ρ c D[main_v11] = kvColE (ar0 m c) := h2_v11 (W4 m ρ c) _ (W4_v1 m ρ c) (W4_v3 m ρ c)
theorem W5_v17 : W5 m ρ c D[main_v17]
    = cmpf (F := Ideal) .ogt (kvDeg (ar0 m c)) (broadcastInDim S300000 ![] bcast_S_S300000 (constant (F := Ideal) S_ .f32 0x00000000#32)) :=
  h2_v17 (W4 m ρ c) _ (W4_v1 m ρ c) (W4_v3 m ρ c)
theorem W5_v20 : W5 m ρ c D[main_v20]
    = Host.rsqrt (F := Ideal) (maximumf (F := Ideal) (kvDeg (ar0 m c)) (broadcastInDim S300000 ![] bcast_S_S300000 (constant (F := Ideal) S_ .f32 0x3F800000#32))) :=
  h2_v20 (W4 m ρ c) _ (W4_v1 m ρ c) (W4_v3 m ρ c)
theorem W5_cst3 : W5 m ρ c D[main_cst_3] = constant (F := Ideal) S_ .f32 0x00000000#32 := h2_cst3 (W4 m ρ c)
theorem W6_v21 : W6 m ρ c D[main_v21] = kvDis (ar0 m c) :=
  h21_v21 (W5 m ρ c) _ _ _ (W5_v17 m ρ c) (W5_v20 m ρ c) (W5_cst3 m ρ c)
theorem W7_v22 : W7 m ρ c D[main_v22] = kvDisC (ar0 m c) := h22_v22 (W6 m ρ c) _ (W6_v21 m ρ c)
theorem W7_v8 : W7 m ρ c D[main_v8] = arX m c := (keep_5_7 m ρ c main_v8).trans (W5_v8 m ρ c)

theorem W8_v23 : W8 m ρ c D[main_v23] = kvH1 (arX m c) (ar0 m c) (ar9 m c) :=
  ((W8_arr m ρ c 3).trans (final2 (Vh7 m ρ) c)).trans (by
    show G2 (W7 m ρ c D[main_v8]) (W7 m ρ c D[main_arg9]) (W7 m ρ c D[main_v22]) = _
    rw [W7_v8, W7_arg m ρ c main_arg9 (by decide), W7_v22]; rfl)
theorem W8_v10 : W8 m ρ c D[main_v10] = kvRowE (ar0 m c) := (keep_5_8 m ρ c main_v10).trans (W5_v10 m ρ c)
theorem W8_v11 : W8 m ρ c D[main_v11] = kvColE (ar0 m c) := (keep_5_8 m ρ c main_v11).trans (W5_v11 m ρ c)
theorem W8_v21 : W8 m ρ c D[main_v21] = kvDis (ar0 m c) := (keep_6_8 m ρ c main_v21).trans (W6_v21 m ρ c)
theorem W9_v34 : W9 m ρ c D[main_v34] = kvAgg (kvH1 (arX m c) (ar0 m c) (ar9 m c)) (ar0 m c) :=
  h3_v34 (W8 m ρ c) _ _ (W8_v10 m ρ c) (W8_v11 m ρ c) (W8_v23 m ρ c)
theorem W9_v35 : W9 m ρ c D[main_v35] = kvRow64 (ar10 m c) :=
  (h3_v35 (W8 m ρ c)).trans (congrArg kvRow64 (W8_arg m ρ c main_arg10 (by decide)))
theorem W9_v36 : W9 m ρ c D[main_v36] = kvDisC (ar0 m c) := h3_v36 (W8 m ρ c) _ (W8_v21 m ρ c)

theorem W10_v37 : W10 m ρ c D[main_v37] = kvH2 (arX m c) (ar0 m c) (ar9 m c) (ar10 m c) (ar11 m c) :=
  ((W10_arr m ρ c 4).trans (final3 (Vh9 m ρ) c)).trans (by
    show G3 (W9 m ρ c D[main_v34]) (W9 m ρ c D[main_v35]) (W9 m ρ c D[main_v36]) (W9 m ρ c D[main_arg11]) = _
    rw [W9_v34, W9_v35, W9_v36, W9_arg m ρ c main_arg11 (by decide)]; rfl)
theorem W10_v10 : W10 m ρ c D[main_v10] = kvRowE (ar0 m c) := (keep_8_10 m ρ c main_v10).trans (W8_v10 m ρ c)
theorem W10_v11 : W10 m ρ c D[main_v11] = kvColE (ar0 m c) := (keep_8_10 m ρ c main_v11).trans (W8_v11 m ρ c)
theorem W10_v21 : W10 m ρ c D[main_v21] = kvDis (ar0 m c) := (keep_8_10 m ρ c main_v21).trans (W8_v21 m ρ c)
theorem W11_v48 : W11 m ρ c D[main_v48] = kvAgg (kvH2 (arX m c) (ar0 m c) (ar9 m c) (ar10 m c) (ar11 m c)) (ar0 m c) :=
  h4_v48 (W10 m ρ c) _ _ (W10_v10 m ρ c) (W10_v11 m ρ c) (W10_v37 m ρ c)
theorem W11_v49 : W11 m ρ c D[main_v49] = kvRow64 (ar12 m c) :=
  (h4_v49 (W10 m ρ c)).trans (congrArg kvRow64 (W10_arg m ρ c main_arg12 (by decide)))
theorem W11_v50 : W11 m ρ c D[main_v50] = kvDisC (ar0 m c) := h4_v50 (W10 m ρ c) _ (W10_v21 m ρ c)
theorem W12_v51 : W12 m ρ c D[main_v51] = arX2 m c :=
  ((W12_arr m ρ c 3).trans (final4 (Vh11 m ρ) c)).trans (by
    show G4 (W11 m ρ c D[main_v48]) (W11 m ρ c D[main_v49]) (W11 m ρ c D[main_v50]) = _
    rw [W11_v48, W11_v49, W11_v50]; rfl)

theorem W13_v52 : W13 m ρ c D[main_v52] = extractStridedSlice S64x64 ![0, 0] (ar13 m c) slices_S128x64_S64x64_0_0 :=
  (h5_v52 (W12 m ρ c)).trans
    (congrArg (fun a : C[S128x64, .f32] => extractStridedSlice S64x64 ![0, 0] a slices_S128x64_S64x64_0_0) (W12_arg m ρ c main_arg13 (by decide)))
theorem W13_v53 : W13 m ρ c D[main_v53] = extractStridedSlice S64x64 ![64, 0] (ar13 m c) slices_S128x64_S64x64_64_0 :=
  (h5_v53 (W12 m ρ c)).trans
    (congrArg (fun a : C[S128x64, .f32] => extractStridedSlice S64x64 ![64, 0] a slices_S128x64_S64x64_64_0) (W12_arg m ρ c main_arg13 (by decide)))
theorem W13_v54 : W13 m ρ c D[main_v54] = extractStridedSlice S200000x64 ![0, 0] (arX2 m c) slices_S300000x64_S200000x64_0_0 :=
  (h5_v54 (W12 m ρ c)).trans
    (congrArg (fun a : C[S300000x64, .f32] => extractStridedSlice S200000x64 ![0, 0] a slices_S300000x64_S200000x64_0_0) (W12_v51 m ρ c))
theorem W14_v55 : W14 m ρ c D[main_v55] = kvPu (arX2 m c) (ar13 m c) :=
  ((W14_arr m ρ c 2).trans (final5 (Vh13 m ρ) c)).trans (by
    show G5 (W13 m ρ c D[main_v54]) (W13 m ρ c D[main_v52]) = _
    rw [W13_v54, W13_v52]; rfl)
theorem W14_v51 : W14 m ρ c D[main_v51] = arX2 m c := (keep_12_14 m ρ c main_v51).trans (W12_v51 m ρ c)
theorem W15_v56 : W15 m ρ c D[main_v56] = extractStridedSlice S100000x64 ![200000, 0] (arX2 m c) slices_S300000x64_S100000x64_200000_0 :=
  (h6_v56 (W14 m ρ c)).trans
    (congrArg (fun a : C[S300000x64, .f32] => extractStridedSlice S100000x64 ![200000, 0] a slices_S300000x64_S100000x64_200000_0) (W14_v51 m ρ c))
theorem W15_v53 : W15 m ρ c D[main_v53] = extractStridedSlice S64x64 ![64, 0] (ar13 m c) slices_S128x64_S64x64_64_0 :=
  (keep_13_15 m ρ c main_v53).trans (W13_v53 m ρ c)
theorem W16_v57 : W16 m ρ c D[main_v57] = kvPp (arX2 m c) (ar13 m c) :=
  ((W16_arr m ρ c 2).trans (final6 (Vh15 m ρ) c)).trans (by
    show G6 (W15 m ρ c D[main_v56]) (W15 m ρ c D[main_v53]) = _
    rw [W15_v56, W15_v53]; rfl)
theorem W16_v55 : W16 m ρ c D[main_v55] = kvPu (arX2 m c) (ar13 m c) := (keep_14_16 m ρ c main_v55).trans (W14_v55 m ρ c)
theorem W16_v1 : W16 m ρ c D[main_v1] = kvUi (ar0 m c) := (keep_4_16 m ρ c main_v1).trans (W4_v1 m ρ c)
theorem W16_v3 : W16 m ρ c D[main_v3] = kvPi (ar0 m c) := (keep_4_16 m ρ c main_v3).trans (W4_v3 m ρ c)

theorem W17_v64 : W17 m ρ c D[main_v64]
    = Host.gather gather_S200000x64_S1000000x1_S1000000x64_1_0_n_n_0_1_164 (kvPu (arX2 m c) (ar13 m c)) (kvUiN (ar0 m c)) :=
  h7_v64 (W16 m ρ c) _ _ (W16_v1 m ρ c) (W16_v55 m ρ c)
theorem W17_v71 : W17 m ρ c D[main_v71]
    = Host.gather gather_S100000x64_S1000000x1_S1000000x64_1_0_n_n_0_1_164 (kvPp (arX2 m c) (ar13 m c)) (kvPiN (ar0 m c)) :=
  h7_v71 (W16 m ρ c) _ _ (W16_v3 m ρ c) (W16_v57 m ρ c)
theorem W17_v72 : W17 m ρ c D[main_v72] = kvRow64 (ar14 m c) :=
  (h7_v72 (W16 m ρ c)).trans (congrArg kvRow64 (W16_arg m ρ c main_arg14 (by decide)))
theorem W17_v73 : W17 m ρ c D[main_v73] = shapeCast _ (ar16 m c) shapeCasts_S1_S1x1 :=
  (h7_v73 (W16 m ρ c)).trans (congrArg (fun a : C[S1, .f32] => shapeCast _ a shapeCasts_S1_S1x1) (W16_arg m ρ c main_arg16 (by decide)))
theorem W18_v74 : W18 m ρ c D[main_v74]
    = G7 (Host.gather gather_S200000x64_S1000000x1_S1000000x64_1_0_n_n_0_1_164 (kvPu (arX2 m c) (ar13 m c)) (kvUiN (ar0 m c)))
        (Host.gather gather_S100000x64_S1000000x1_S1000000x64_1_0_n_n_0_1_164 (kvPp (arX2 m c) (ar13 m c)) (kvPiN (ar0 m c)))
        (kvRow64 (ar14 m c)) (ar15 m c) (shapeCast _ (ar16 m c) shapeCasts_S1_S1x1) :=
  ((W18_arr m ρ c 5).trans (final7 (Vh17 m ρ) c)).trans (by
    show G7 (W17 m ρ c D[main_v64]) (W17 m ρ c D[main_v71]) (W17 m ρ c D[main_v72]) (W17 m ρ c D[main_arg15]) (W17 m ρ c D[main_v73]) = _
    rw [W17_v64, W17_v71, W17_v72, W17_arg m ρ c main_arg15 (by decide), W17_v73])

theorem ker_val :
    W19 m ρ c (Proc.devRef .tc main_v75) = kvAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (h8_v75 (W18 m ρ c)).trans
    (congrArg (fun a : C[S1000000x1, .f32] => shapeCast _ a shapeCasts_S1000000x1_S1000000) (W18_v74 m ρ c))

end Cert.KernelIdeal.Hand

end
-- ==== Proof.LibGsIdx.lean ====
/- Gathers and scatter-adds read at an index, and the law that a non-negative real factor distributes over a finite sum of extended reals. -/
import Idealize.ShloMosaic.Lib.ValueIdx
import Idealize.ShloMosaic.Lib.StableHlo.Predicate
import Idealize.ShloMosaic.PureOps.Ideal
import Mathlib.Data.EReal.Operations
import Mathlib.Algebra.BigOperators.Fin

open scoped BigOperators

namespace Cert.Hand.GsIdx

open Idealize.ShloMosaic Idealize.ShloMosaic.ValueIdx Idealize.ShloMosaic.StableHlo.Predicate

private theorem getElem_singleton_of_eq {β : Type} {l : List β} {x : β} (h : l = [x]) (i : Nat) (hi : i < l.length) : l[i] = x := by
  subst h
  have hi0 : i = 0 := by simpa using hi
  subst hi0
  rfl

private theorem zero_not_mem_one : (0 : Fin 2) ∉ [(1 : Fin 2)] := by decide
private theorem one_not_mem_zero : (1 : Fin 2) ∉ [(0 : Fin 2)] := by decide
private theorem zero_ne_one_nat : ¬ (0 : Nat) = 1 := by decide

section Gather
variable {α : Type} {N C n w : Nat}

theorem gather_rows_siIdx (d : GatherDims ⟨2, ![N, C]⟩ ⟨2, ![n, 1]⟩ ⟨2, ![n, C]⟩) (hoff : d.offsetDims = [1])
    (hsim : d.startIndexMap = [0]) (hivd : d.indexVectorDim = 1) (p : Fin n) (q : Fin C) (c : Fin d.startIndexMap.length) :
    d.siIdx (ix2 p q) c = ixP p := by
  have hbD : d.batchDims = [0] := by
    show (⟨2, ![n, C]⟩ : Shape).kept d.offsetDims = [0]
    rw [hoff]; rfl
  funext b
  match b with
  | ⟨0, _⟩ =>
    unfold GatherDims.siIdx
    rw [dif_neg (by rw [hivd]; exact zero_ne_one_nat)]
    unfold GatherDims.siCoord
    apply Fin.ext
    simp only [Fin.val_cast]
    rw [getElem_singleton_of_eq hbD]
    rfl
  | ⟨1, _⟩ =>
    unfold GatherDims.siIdx
    rw [dif_pos (by rw [hivd])]
    apply Fin.ext
    show c.val = 0
    have hc : c.val < d.startIndexMap.length := c.isLt
    have hl : d.startIndexMap.length = 1 := by rw [hsim]; rfl
    omega

theorem gather_rows (d : GatherDims ⟨2, ![N, C]⟩ ⟨2, ![n, 1]⟩ ⟨2, ![n, C]⟩) (hoff : d.offsetDims = [1])
    (hcoll : d.collapsedSliceDims = [0]) (hob : d.operandBatchingDims = []) (hsim : d.startIndexMap = [0])
    (hivd : d.indexVectorDim = 1) (x : (⟨2, ![N, C]⟩ : Shape).Idx → α) (idx : IVec ⟨2, ![n, 1]⟩ w) (p : Fin n) (q : Fin C)
    (hN : 0 < N) :
    Host.gather d x idx (ix2 p q) = x (ix2 ⟨min (idx (ixP p)).toInt.toNat (N - 1), by omega⟩ q) := by
  unfold Host.gather
  congr 1
  funext a
  apply Fin.ext
  have hb : ∀ a : Fin 2, a ∉ d.operandBatchingDims := fun a => by rw [hob]; exact List.not_mem_nil

  have hsK : d.sKept = [1] := by
    show (⟨2, ![N, C]⟩ : Shape).kept (d.collapsedSliceDims ++ d.operandBatchingDims) = [1]
    rw [hcoll, hob]; rfl
  match a with
  | ⟨0, _⟩ =>

    have hk : (0 : Fin 2) ∉ d.sKept := by rw [hsK]; exact zero_not_mem_one
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min (idx (ixP p)).toInt.toNat (N - 1)
    rw [GatherDims.batchCoord_eq_zero _ _ _ (hb 0), GatherDims.offCoord_eq_zero _ _ _ hk]
    simp only [Nat.add_zero]
    unfold GatherDims.start
    rw [dif_pos hm, gather_rows_siIdx d hoff hsim hivd, hsl]
    rfl
  | ⟨1, _⟩ =>

    have hk : (1 : Fin 2) ∈ d.sKept := by rw [hsK]; exact List.mem_singleton.mpr rfl
    have hm : (1 : Fin 2) ∉ d.startIndexMap := by rw [hsim]; exact one_not_mem_zero
    show d.start (ix2 p q) idx 1 + d.batchCoord (ix2 p q) 1 + d.offCoord (ix2 p q) 1 = q.val
    rw [GatherDims.batchCoord_eq_zero _ _ _ (hb 1), Nat.add_zero]
    unfold GatherDims.start GatherDims.offCoord
    rw [dif_neg hm, dif_pos hk, Nat.zero_add, getElem_singleton_of_eq hoff]
    rfl

end Gather

section Scatter
variable {N C n w : Nat}

theorem scatter_rows_siIdx (d : ScatterDims ⟨2, ![N, C]⟩ ⟨2, ![n, 1]⟩ ⟨2, ![n, C]⟩) (hu : d.updateWindowDims = [1])
    (hs : d.scatterDimsToOperandDims = [0]) (hivd : d.indexVectorDim = 1) (p : Fin n) (q : Fin C)
    (c : Fin d.scatterDimsToOperandDims.length) :
    d.siIdx (ix2 p q) c = ixP p := by
  have huS : d.uScatter = [0] := by
    show (⟨2, ![n, C]⟩ : Shape).kept d.updateWindowDims = [0]
    rw [hu]; rfl
  funext b
  match b with
  | ⟨0, _⟩ =>
    unfold ScatterDims.siIdx
    rw [dif_neg (by rw [hivd]; exact zero_ne_one_nat)]
    unfold ScatterDims.siCoord
    apply Fin.ext
    simp only [Fin.val_cast]
    rw [getElem_singleton_of_eq huS]
    rfl
  | ⟨1, _⟩ =>
    unfold ScatterDims.siIdx
    rw [dif_pos (by rw [hivd])]
    apply Fin.ext
    show c.val = 0
    have hc : c.val < d.scatterDimsToOperandDims.length := c.isLt
    have hl : d.scatterDimsToOperandDims.length = 1 := by rw [hs]; rfl
    omega

theorem scatter_rows_iff (d : ScatterDims ⟨2, ![N, C]⟩ ⟨2, ![n, 1]⟩ ⟨2, ![n, C]⟩) (hu : d.updateWindowDims = [1])
    (hi : d.insertedWindowDims = [0]) (hs : d.scatterDimsToOperandDims = [0]) (hivd : d.indexVectorDim = 1)
    (idx : IVec ⟨2, ![n, 1]⟩ w) (p : Fin n) (q : Fin C) (i : (⟨2, ![N, C]⟩ : Shape).Idx) :
    d.resultIdx? (ix2 p q) idx = some i ↔ (idx (ixP p)).toInt = ((i 0).val : Int) ∧ (i 1).val = q.val := by

  have hsK : d.sKept = [1] := by
    show (⟨2, ![N, C]⟩ : Shape).kept d.insertedWindowDims = [1]
    rw [hi]; rfl

  have hs0 : d.start (ix2 p q) idx 0 = (idx (ixP p)).toInt := by
    unfold ScatterDims.start
    rw [dif_pos (by rw [hs]; exact List.mem_singleton.mpr rfl), scatter_rows_siIdx d hu hs hivd]
  have hs1 : d.start (ix2 p q) idx 1 = 0 := by
    unfold ScatterDims.start
    rw [dif_neg (by rw [hs]; exact one_not_mem_zero)]
  have hw0 : d.window (ix2 p q) 0 = 0 := by
    unfold ScatterDims.window
    rw [dif_neg (by rw [hsK]; exact zero_not_mem_one)]
  have hw1 : d.window (ix2 p q) 1 = q.val := by
    unfold ScatterDims.window
    rw [dif_pos (by rw [hsK]; exact List.mem_singleton.mpr rfl), getElem_singleton_of_eq hu]
    rfl
  have hi0 := idx2_lt0 i
  have hi1 := idx2_lt1 i
  have hq := q.isLt
  unfold ScatterDims.resultIdx?
  constructor
  · intro h
    split at h
    · next hc =>
      have e := Option.some.inj h
      subst e
      refine ⟨?_, ?_⟩
      · show (idx (ixP p)).toInt = (((d.start (ix2 p q) idx 0 + (d.window (ix2 p q) 0 : Nat)).toNat : Nat) : Int)
        have h0 := (hc 0).1
        rw [hs0, hw0] at h0 ⊢
        omega
      · show (d.start (ix2 p q) idx 1 + (d.window (ix2 p q) 1 : Nat)).toNat = q.val
        rw [hs1, hw1]
        omega
    · exact absurd h (by simp)
  · rintro ⟨h0, h1⟩
    have hc : ∀ a, 0 ≤ d.start (ix2 p q) idx a + d.window (ix2 p q) a ∧
        d.start (ix2 p q) idx a + d.window (ix2 p q) a < (⟨2, ![N, C]⟩ : Shape).size a := by
      intro a
      match a with
      | ⟨0, _⟩ =>
        show 0 ≤ d.start (ix2 p q) idx 0 + (d.window (ix2 p q) 0 : Nat) ∧
          d.start (ix2 p q) idx 0 + (d.window (ix2 p q) 0 : Nat) < (N : Int)
        rw [hs0, hw0, h0]
        omega
      | ⟨1, _⟩ =>
        show 0 ≤ d.start (ix2 p q) idx 1 + (d.window (ix2 p q) 1 : Nat) ∧
          d.start (ix2 p q) idx 1 + (d.window (ix2 p q) 1 : Nat) < (C : Int)
        rw [hs1, hw1]
        omega
    rw [dif_pos hc]
    congr 1
    funext a
    apply Fin.ext
    match a with
    | ⟨0, _⟩ =>
      show (d.start (ix2 p q) idx 0 + (d.window (ix2 p q) 0 : Nat)).toNat = (i 0).val
      rw [hs0, hw0, h0]
      omega
    | ⟨1, _⟩ =>
      show (d.start (ix2 p q) idx 1 + (d.window (ix2 p q) 1 : Nat)).toNat = (i 1).val
      rw [hs1, hw1]
      omega

end Scatter

section ScatterVec
variable {N n w : Nat}

theorem scatter_vec_siIdx (d : ScatterDims ⟨1, ![N]⟩ ⟨2, ![n, 1]⟩ ⟨1, ![n]⟩) (hu : d.updateWindowDims = [])
    (hs : d.scatterDimsToOperandDims = [0]) (hivd : d.indexVectorDim = 1) (j : (⟨1, ![n]⟩ : Shape).Idx)
    (c : Fin d.scatterDimsToOperandDims.length) :
    d.siIdx j c = ixP (j 0) := by
  have huS : d.uScatter = [0] := by
    show (⟨1, ![n]⟩ : Shape).kept d.updateWindowDims = [0]
    rw [hu]; rfl
  funext b
  match b with
  | ⟨0, _⟩ =>
    unfold ScatterDims.siIdx
    rw [dif_neg (by rw [hivd]; exact zero_ne_one_nat)]
    unfold ScatterDims.siCoord
    apply Fin.ext
    simp only [Fin.val_cast]
    rw [getElem_singleton_of_eq huS]
  | ⟨1, _⟩ =>
    unfold ScatterDims.siIdx
    rw [dif_pos (by rw [hivd])]
    apply Fin.ext
    show c.val = 0
    have hc : c.val < d.scatterDimsToOperandDims.length := c.isLt
    have hl : d.scatterDimsToOperandDims.length = 1 := by rw [hs]; rfl
    omega

theorem scatter_vec_iff (d : ScatterDims ⟨1, ![N]⟩ ⟨2, ![n, 1]⟩ ⟨1, ![n]⟩) (hu : d.updateWindowDims = [])
    (hi : d.insertedWindowDims = [0]) (hs : d.scatterDimsToOperandDims = [0]) (hivd : d.indexVectorDim = 1)
    (idx : IVec ⟨2, ![n, 1]⟩ w) (j : (⟨1, ![n]⟩ : Shape).Idx) (i : (⟨1, ![N]⟩ : Shape).Idx) :
    d.resultIdx? j idx = some i ↔ (idx (ixP (j 0))).toInt = ((i 0).val : Int) := by

  have hsK : d.sKept = [] := by
    show (⟨1, ![N]⟩ : Shape).kept d.insertedWindowDims = []
    rw [hi]; rfl
  have hs0 : d.start j idx 0 = (idx (ixP (j 0))).toInt := by
    unfold ScatterDims.start
    rw [dif_pos (by rw [hs]; exact List.mem_singleton.mpr rfl)]
    exact congrArg (fun k => (idx k).toInt) (scatter_vec_siIdx d hu hs hivd j _)
  have hw0 : d.window j 0 = 0 := by
    unfold ScatterDims.window
    rw [dif_neg (by rw [hsK]; exact List.not_mem_nil)]
  have hi0 : (i 0).val < N := (i 0).isLt
  unfold ScatterDims.resultIdx?
  constructor
  · intro h
    split at h
    · next hc =>
      have e := Option.some.inj h
      subst e
      show (idx (ixP (j 0))).toInt = (((d.start j idx 0 + (d.window j 0 : Nat)).toNat : Nat) : Int)
      have h0 := (hc 0).1
      rw [hs0, hw0] at h0 ⊢
      omega
    · exact absurd h (by simp)
  · intro h0
    have hc : ∀ a, 0 ≤ d.start j idx a + d.window j a ∧ d.start j idx a + d.window j a < (⟨1, ![N]⟩ : Shape).size a := by
      intro a
      obtain rfl : a = 0 := Subsingleton.elim _ _
      show 0 ≤ d.start j idx 0 + (d.window j 0 : Nat) ∧ d.start j idx 0 + (d.window j 0 : Nat) < (N : Int)
      rw [hs0, hw0, h0]
      omega
    rw [dif_pos hc]
    congr 1
    funext a
    obtain rfl : a = 0 := Subsingleton.elim _ _
    apply Fin.ext
    show (d.start j idx 0 + (d.window j 0 : Nat)).toNat = (i 0).val
    rw [hs0, hw0, h0]
    omega

end ScatterVec

theorem coe_nonneg_mul_sum {ι : Type} (s : Finset ι) (r : ℝ) (hr : 0 ≤ r) (f : ι → EReal) :
    (r : EReal) * ∑ j ∈ s, f j = ∑ j ∈ s, (r : EReal) * f j := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

theorem sum_fin128_split (f : Fin 128 → EReal) :
    ∑ k : Fin 128, f k = (∑ k : Fin 64, f ⟨k.val, by omega⟩) + ∑ k : Fin 64, f ⟨64 + k.val, by omega⟩ :=
  Fin.sum_univ_add (a := 64) (b := 64) f

end Cert.Hand.GsIdx
-- ==== Proof.RefRunP.lean ====
/- The reference's operations, in order. -/
import proofs.«100265_j85727547228235_2_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ unary main_arg0 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg0 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    binary main_arg1 main_arg5 main_v4 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    unary main_arg6 main_v5 (broadcastInDim S1x64 ![1] bcast_S64_S1x64_1 : (⟨S64, .f32⟩ : BufTy).Contents (Elt F) → (⟨S1x64, .f32⟩ : BufTy).Contents (Elt F)),
    unary main_v5 main_v6 (broadcastInDim S200000x64 ![0, 1] bcast_S1x64_S200000x64_0_1 : (⟨S1x64, .f32⟩ : BufTy).Contents (Elt F) → (⟨S200000x64, .f32⟩ : BufTy).Contents (Elt F)),
    binary main_v4 main_v6 main_v7 (addf : (⟨S200000x64, .f32⟩ : BufTy).Contents (Elt F) → (⟨S200000x64, .f32⟩ : BufTy).Contents (Elt F) → (⟨S200000x64, .f32⟩ : BufTy).Contents (Elt F)),
    binary main_v7 main_arg3 main_v8 (addf : (⟨S200000x64, .f32⟩ : BufTy).Contents (Elt F) → (⟨S200000x64, .f32⟩ : BufTy).Contents (Elt F) → (⟨S200000x64, .f32⟩ : BufTy).Contents (Elt F)),
    binary main_arg2 main_arg7 main_v9 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v10 (broadcastInDim S1x64 ![1] bcast_S64_S1x64_1 : (⟨S64, .f32⟩ : BufTy).Contents (Elt F) → (⟨S1x64, .f32⟩ : BufTy).Contents (Elt F)),
    unary main_v10 main_v11 (broadcastInDim S100000x64 ![0, 1] bcast_S1x64_S100000x64_0_1 : (⟨S1x64, .f32⟩ : BufTy).Contents (Elt F) → (⟨S100000x64, .f32⟩ : BufTy).Contents (Elt F)),
    binary main_v9 main_v11 main_v12 (addf : (⟨S100000x64, .f32⟩ : BufTy).Contents (Elt F) → (⟨S100000x64, .f32⟩ : BufTy).Contents (Elt F) → (⟨S100000x64, .f32⟩ : BufTy).Contents (Elt F)),
    binary main_v12 main_arg4 main_v13 (addf : (⟨S100000x64, .f32⟩ : BufTy).Contents (Elt F) → (⟨S100000x64, .f32⟩ : BufTy).Contents (Elt F) → (⟨S100000x64, .f32⟩ : BufTy).Contents (Elt F)),
    binary main_v8 main_v13 main_v14 ((fun a b => concatenate S300000x64 0 [⟨S200000x64, a⟩, ⟨S100000x64, b⟩] concatenates_S200000x64_S100000x64_S300000x64_d0) : (⟨S200000x64, .f32⟩ : BufTy).Contents (Elt F) → (⟨S100000x64, .f32⟩ : BufTy).Contents (Elt F) → (⟨S300000x64, .f32⟩ : BufTy).Contents (Elt F)),
    nullary main_v15 (iotaInDim S300000 32 0),
    nary ![main_v1, main_v3, main_v15] main_v16 (fun u => concatenate S2300000 0 [⟨S1000000, u 0⟩, ⟨S1000000, u 1⟩, ⟨S300000, u 2⟩] concatenates_S1000000_S1000000_S300000_S2300000_d0),
    nary ![main_v3, main_v1, main_v15] main_v17 (fun u => concatenate S2300000 0 [⟨S1000000, u 0⟩, ⟨S1000000, u 1⟩, ⟨S300000, u 2⟩] concatenates_S1000000_S1000000_S300000_S2300000_d0),
    binary main_v14 main_arg9 main_v18 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    nullary main_cst (constant S_ .f32 0x3F800000#32),
    unary main_cst main_v19 (broadcastInDim S2300000 ![] bcast_S_S2300000 : (⟨S_, .f32⟩ : BufTy).Contents (Elt F) → (⟨S2300000, .f32⟩ : BufTy).Contents (Elt F)),
    nullary main_cst_0 (constant S_ .f32 0x00000000#32),
    unary main_cst_0 main_v20 (broadcastInDim S300000 ![] bcast_S_S300000 : (⟨S_, .f32⟩ : BufTy).Contents (Elt F) → (⟨S300000, .f32⟩ : BufTy).Contents (Elt F)),
    unary main_v17 main_v21 (broadcastInDim S2300000x1 ![0] bcast_S2300000_S2300000x1_0 : (⟨S2300000, .i32⟩ : BufTy).Contents (Elt F) → (⟨S2300000x1, .i32⟩ : BufTy).Contents (Elt F)),
    ternary main_v20 main_v21 main_v19 main_v22 ((fun x i u => Host.scatterAdd scatter_S300000_S2300000x1_S2300000_n_0_0_1 x i u) : (⟨S300000, .f32⟩ : BufTy).Contents (Elt F) → (⟨S2300000x1, .i32⟩ : BufTy).Contents (Elt F) → (⟨S2300000, .f32⟩ : BufTy).Contents (Elt F) → (⟨S300000, .f32⟩ : BufTy).Contents (Elt F)),
    nullary main_cst_1 (constant S_ .f32 0x00000000#32),
    unary main_cst_1 main_v23 (broadcastInDim S300000 ![] bcast_S_S300000 : (⟨S_, .f32⟩ : BufTy).Contents (Elt F) → (⟨S300000, .f32⟩ : BufTy).Contents (Elt F)),
    binary main_v22 main_v23 main_v24 (cmpf (F := F) .ogt : (⟨S300000, .f32⟩ : BufTy).Contents (Elt F) → (⟨S300000, .f32⟩ : BufTy).Contents (Elt F) → (⟨S300000, .i1⟩ : BufTy).Contents (Elt F)),
    nullary main_cst_2 (constant S_ .f32 0x3F800000#32),
    unary main_cst_2 main_v25 (broadcastInDim S300000 ![] bcast_S_S300000 : (⟨S_, .f32⟩ : BufTy).Contents (Elt F) → (⟨S300000, .f32⟩ : BufTy).Contents (Elt F)),
    binary main_v22 main_v25 main_v26 (maximumf : (⟨S300000, .f32⟩ : BufTy).Contents (Elt F) → (⟨S300000, .f32⟩ : BufTy).Contents (Elt F) → (⟨S300000, .f32⟩ : BufTy).Contents (Elt F)),
    unary main_v26 main_v27 (Host.rsqrt : (⟨S300000, .f32⟩ : BufTy).Contents (Elt F) → (⟨S300000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S300000, .f32⟩) main_call0_v1) (broadcastInDim S300000 ![] bcast_S_S300000),
    TRef.ternary (TRef.of (T := ⟨S300000, .i1⟩) main_v24) (TRef.of (T := ⟨S300000, .f32⟩) main_v27) (TRef.of (T := ⟨S300000, .f32⟩) main_call0_v1) (TRef.of (T := ⟨S300000, .f32⟩) main_v28) select,
    nullary main_c (constantI S_ 32 0#32),
    unary main_c main_v29 (broadcastInDim S2300000 ![] bcast_S_S2300000 : (⟨S_, .i32⟩ : BufTy).Contents (Elt F) → (⟨S2300000, .i32⟩ : BufTy).Contents (Elt F)),
    binary main_v16 main_v29 main_v30 (cmpi .slt : (⟨S2300000, .i32⟩ : BufTy).Contents (Elt F) → (⟨S2300000, .i32⟩ : BufTy).Contents (Elt F) → (⟨S2300000, .i1⟩ : BufTy).Contents (Elt F)),
    nullary main_c_4 (constantI S_ 32 300000#32),
    unary main_c_4 main_v31 (broadcastInDim S2300000 ![] bcast_S_S2300000 : (⟨S_, .i32⟩ : BufTy).Contents (Elt F) → (⟨S2300000, .i32⟩ : BufTy).Contents (Elt F)),
    binary main_v16 main_v31 main_v32 (addi : (⟨S2300000, .i32⟩ : BufTy).Contents (Elt F) → (⟨S2300000, .i32⟩ : BufTy).Contents (Elt F) → (⟨S2300000, .i32⟩ : BufTy).Contents (Elt F)),
    ternary main_v30 main_v32 main_v16 main_v33 (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)),
    unary main_v33 main_v34 (broadcastInDim S2300000x1 ![0] bcast_S2300000_S2300000x1_0 : (⟨S2300000, .i32⟩ : BufTy).Contents (Elt F) → (⟨S2300000x1, .i32⟩ : BufTy).Contents (Elt F)),
    binary main_v28 main_v34 main_v35 ((fun x i => Host.gather gather_S300000_S2300000x1_S2300000_n_0_n_n_0_1_1 x i) : (⟨S300000, .f32⟩ : BufTy).Contents (Elt F) → (⟨S2300000x1, .i32⟩ : BufTy).Contents (Elt F) → (⟨S2300000, .f32⟩ : BufTy).Contents (Elt F)),
    nullary main_c_5 (constantI S_ 32 0#32),
    unary main_c_5 main_v36 (broadcastInDim S2300000 ![] bcast_S_S2300000 : (⟨S_, .i32⟩ : BufTy).Contents (Elt F) → (⟨S2300000, .i32⟩ : BufTy).Contents (Elt F)),
    binary main_v17 main_v36 main_v37 (cmpi .slt : (⟨S2300000, .i32⟩ : BufTy).Contents (Elt F) → (⟨S2300000, .i32⟩ : BufTy).Contents (Elt F) → (⟨S2300000, .i1⟩ : BufTy).Contents (Elt F)),
    nullary main_c_6 (constantI S_ 32 300000#32),
    unary main_c_6 main_v38 (broadcastInDim S2300000 ![] bcast_S_S2300000 : (⟨S_, .i32⟩ : BufTy).Contents (Elt F) → (⟨S2300000, .i32⟩ : BufTy).Contents (Elt F)),
    binary main_v17 main_v38 main_v39 (addi : (⟨S2300000, .i32⟩ : BufTy).Contents (Elt F) → (⟨S2300000, .i32⟩ : BufTy).Contents (Elt F) → (⟨S2300000, .i32⟩ : BufTy).Contents (Elt F)),
    ternary main_v37 main_v39 main_v17 main_v40 (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)),
    unary main_v40 main_v41 (broadcastInDim S2300000x1 ![0] bcast_S2300000_S2300000x1_0 : (⟨S2300000, .i32⟩ : BufTy).Contents (Elt F) → (⟨S2300000x1, .i32⟩ : BufTy).Contents (Elt F)),
    binary main_v28 main_v41 main_v42 ((fun x i => Host.gather gather_S300000_S2300000x1_S2300000_n_0_n_n_0_1_1 x i) : (⟨S300000, .f32⟩ : BufTy).Contents (Elt F) → (⟨S2300000x1, .i32⟩ : BufTy).Contents (Elt F) → (⟨S2300000, .f32⟩ : BufTy).Contents (Elt F)),
    binary main_v35 main_v42 main_v43 (mulf : (⟨S2300000, .f32⟩ : BufTy).Contents (Elt F) → (⟨S2300000, .f32⟩ : BufTy).Contents (Elt F) → (⟨S2300000, .f32⟩ : BufTy).Contents (Elt F)),
    nullary main_c_7 (constantI S_ 32 0#32),
    unary main_c_7 main_v44 (broadcastInDim S2300000 ![] bcast_S_S2300000 : (⟨S_, .i32⟩ : BufTy).Contents (Elt F) → (⟨S2300000, .i32⟩ : BufTy).Contents (Elt F)),
    binary main_v16 main_v44 main_v45 (cmpi .slt : (⟨S2300000, .i32⟩ : BufTy).Contents (Elt F) → (⟨S2300000, .i32⟩ : BufTy).Contents (Elt F) → (⟨S2300000, .i1⟩ : BufTy).Contents (Elt F)),
    nullary main_c_8 (constantI S_ 32 300000#32),
    unary main_c_8 main_v46 (broadcastInDim S2300000 ![] bcast_S_S2300000 : (⟨S_, .i32⟩ : BufTy).Contents (Elt F) → (⟨S2300000, .i32⟩ : BufTy).Contents (Elt F)),
    binary main_v16 main_v46 main_v47 (addi : (⟨S2300000, .i32⟩ : BufTy).Contents (Elt F) → (⟨S2300000, .i32⟩ : BufTy).Contents (Elt F) → (⟨S2300000, .i32⟩ : BufTy).Contents (Elt F)),
    ternary main_v45 main_v47 main_v16 main_v48 (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)),
    unary main_v48 main_v49 (broadcastInDim S2300000x1 ![0] bcast_S2300000_S2300000x1_0 : (⟨S2300000, .i32⟩ : BufTy).Contents (Elt F) → (⟨S2300000x1, .i32⟩ : BufTy).Contents (Elt F)),
    binary main_v18 main_v49 main_v50 ((fun x i => Host.gather gather_S300000x64_S2300000x1_S2300000x64_1_0_n_n_0_1_164 x i) : (⟨S300000x64, .f32⟩ : BufTy).Contents (Elt F) → (⟨S2300000x1, .i32⟩ : BufTy).Contents (Elt F) → (⟨S2300000x64, .f32⟩ : BufTy).Contents (Elt F)),
    unary main_v43 main_v51 (broadcastInDim S2300000x1 ![0] bcast_S2300000_S2300000x1_0 : (⟨S2300000, .f32⟩ : BufTy).Contents (Elt F) → (⟨S2300000x1, .f32⟩ : BufTy).Contents (Elt F)),
    unary main_v51 main_v52 (broadcastInDim S2300000x64 ![0, 1] bcast_S2300000x1_S2300000x64_0_1 : (⟨S2300000x1, .f32⟩ : BufTy).Contents (Elt F) → (⟨S2300000x64, .f32⟩ : BufTy).Contents (Elt F)),
    binary main_v50 main_v52 main_v53 (mulf : (⟨S2300000x64, .f32⟩ : BufTy).Contents (Elt F) → (⟨S2300000x64, .f32⟩ : BufTy).Contents (Elt F) → (⟨S2300000x64, .f32⟩ : BufTy).Contents (Elt F)),
    nullary main_cst_9 (constant S_ .f32 0x00000000#32),
    unary main_cst_9 main_v54 (broadcastInDim S300000x64 ![] bcast_S_S300000x64 : (⟨S_, .f32⟩ : BufTy).Contents (Elt F) → (⟨S300000x64, .f32⟩ : BufTy).Contents (Elt F)),
    unary main_v17 main_v55 (broadcastInDim S2300000x1 ![0] bcast_S2300000_S2300000x1_0 : (⟨S2300000, .i32⟩ : BufTy).Contents (Elt F) → (⟨S2300000x1, .i32⟩ : BufTy).Contents (Elt F)),
    ternary main_v54 main_v55 main_v53 main_v56 ((fun x i u => Host.scatterAdd scatter_S300000x64_S2300000x1_S2300000x64_1_0_0_1 x i u) : (⟨S300000x64, .f32⟩ : BufTy).Contents (Elt F) → (⟨S2300000x1, .i32⟩ : BufTy).Contents (Elt F) → (⟨S2300000x64, .f32⟩ : BufTy).Contents (Elt F) → (⟨S300000x64, .f32⟩ : BufTy).Contents (Elt F)),
    unary main_arg10 main_v57 (broadcastInDim S1x64 ![1] bcast_S64_S1x64_1 : (⟨S64, .f32⟩ : BufTy).Contents (Elt F) → (⟨S1x64, .f32⟩ : BufTy).Contents (Elt F)),
    unary main_v57 main_v58 (broadcastInDim S300000x64 ![0, 1] bcast_S1x64_S300000x64_0_1 : (⟨S1x64, .f32⟩ : BufTy).Contents (Elt F) → (⟨S300000x64, .f32⟩ : BufTy).Contents (Elt F)),
    binary main_v56 main_v58 main_v59 (addf : (⟨S300000x64, .f32⟩ : BufTy).Contents (Elt F) → (⟨S300000x64, .f32⟩ : BufTy).Contents (Elt F) → (⟨S300000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S300000x64, .f32⟩) main_call1_v0) (broadcastInDim S300000x64 ![] bcast_S_S300000x64),
    TRef.binary (TRef.of (T := ⟨S300000x64, .f32⟩) main_v59) (TRef.of (T := ⟨S300000x64, .f32⟩) main_call1_v0) (TRef.of (T := ⟨S300000x64, .f32⟩) main_v60) maximumf,
    binary main_v60 main_arg11 main_v61 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    nullary main_cst_10 (constant S_ .f32 0x3F800000#32),
    unary main_cst_10 main_v62 (broadcastInDim S2300000 ![] bcast_S_S2300000 : (⟨S_, .f32⟩ : BufTy).Contents (Elt F) → (⟨S2300000, .f32⟩ : BufTy).Contents (Elt F)),
    nullary main_cst_11 (constant S_ .f32 0x00000000#32),
    unary main_cst_11 main_v63 (broadcastInDim S300000 ![] bcast_S_S300000 : (⟨S_, .f32⟩ : BufTy).Contents (Elt F) → (⟨S300000, .f32⟩ : BufTy).Contents (Elt F)),
    unary main_v17 main_v64 (broadcastInDim S2300000x1 ![0] bcast_S2300000_S2300000x1_0 : (⟨S2300000, .i32⟩ : BufTy).Contents (Elt F) → (⟨S2300000x1, .i32⟩ : BufTy).Contents (Elt F)),
    ternary main_v63 main_v64 main_v62 main_v65 ((fun x i u => Host.scatterAdd scatter_S300000_S2300000x1_S2300000_n_0_0_1 x i u) : (⟨S300000, .f32⟩ : BufTy).Contents (Elt F) → (⟨S2300000x1, .i32⟩ : BufTy).Contents (Elt F) → (⟨S2300000, .f32⟩ : BufTy).Contents (Elt F) → (⟨S300000, .f32⟩ : BufTy).Contents (Elt F)),
    nullary main_cst_12 (constant S_ .f32 0x00000000#32),
    unary main_cst_12 main_v66 (broadcastInDim S300000 ![] bcast_S_S300000 : (⟨S_, .f32⟩ : BufTy).Contents (Elt F) → (⟨S300000, .f32⟩ : BufTy).Contents (Elt F)),
    binary main_v65 main_v66 main_v67 (cmpf (F := F) .ogt : (⟨S300000, .f32⟩ : BufTy).Contents (Elt F) → (⟨S300000, .f32⟩ : BufTy).Contents (Elt F) → (⟨S300000, .i1⟩ : BufTy).Contents (Elt F)),
    nullary main_cst_13 (constant S_ .f32 0x3F800000#32),
    unary main_cst_13 main_v68 (broadcastInDim S300000 ![] bcast_S_S300000 : (⟨S_, .f32⟩ : BufTy).Contents (Elt F) → (⟨S300000, .f32⟩ : BufTy).Contents (Elt F)),
    binary main_v65 main_v68 main_v69 (maximumf : (⟨S300000, .f32⟩ : BufTy).Contents (Elt F) → (⟨S300000, .f32⟩ : BufTy).Contents (Elt F) → (⟨S300000, .f32⟩ : BufTy).Contents (Elt F)),
    unary main_v69 main_v70 (Host.rsqrt : (⟨S300000, .f32⟩ : BufTy).Contents (Elt F) → (⟨S300000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S300000, .f32⟩) main_call2_v1) (broadcastInDim S300000 ![] bcast_S_S300000),
    TRef.ternary (TRef.of (T := ⟨S300000, .i1⟩) main_v67) (TRef.of (T := ⟨S300000, .f32⟩) main_v70) (TRef.of (T := ⟨S300000, .f32⟩) main_call2_v1) (TRef.of (T := ⟨S300000, .f32⟩) main_v71) select,
    nullary main_c_15 (constantI S_ 32 0#32),
    unary main_c_15 main_v72 (broadcastInDim S2300000 ![] bcast_S_S2300000 : (⟨S_, .i32⟩ : BufTy).Contents (Elt F) → (⟨S2300000, .i32⟩ : BufTy).Contents (Elt F)),
    binary main_v16 main_v72 main_v73 (cmpi .slt : (⟨S2300000, .i32⟩ : BufTy).Contents (Elt F) → (⟨S2300000, .i32⟩ : BufTy).Contents (Elt F) → (⟨S2300000, .i1⟩ : BufTy).Contents (Elt F)),
    nullary main_c_16 (constantI S_ 32 300000#32),
    unary main_c_16 main_v74 (broadcastInDim S2300000 ![] bcast_S_S2300000 : (⟨S_, .i32⟩ : BufTy).Contents (Elt F) → (⟨S2300000, .i32⟩ : BufTy).Contents (Elt F)),
    binary main_v16 main_v74 main_v75 (addi : (⟨S2300000, .i32⟩ : BufTy).Contents (Elt F) → (⟨S2300000, .i32⟩ : BufTy).Contents (Elt F) → (⟨S2300000, .i32⟩ : BufTy).Contents (Elt F)),
    ternary main_v73 main_v75 main_v16 main_v76 (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)),
    unary main_v76 main_v77 (broadcastInDim S2300000x1 ![0] bcast_S2300000_S2300000x1_0 : (⟨S2300000, .i32⟩ : BufTy).Contents (Elt F) → (⟨S2300000x1, .i32⟩ : BufTy).Contents (Elt F)),
    binary main_v71 main_v77 main_v78 ((fun x i => Host.gather gather_S300000_S2300000x1_S2300000_n_0_n_n_0_1_1 x i) : (⟨S300000, .f32⟩ : BufTy).Contents (Elt F) → (⟨S2300000x1, .i32⟩ : BufTy).Contents (Elt F) → (⟨S2300000, .f32⟩ : BufTy).Contents (Elt F)),
    nullary main_c_17 (constantI S_ 32 0#32),
    unary main_c_17 main_v79 (broadcastInDim S2300000 ![] bcast_S_S2300000 : (⟨S_, .i32⟩ : BufTy).Contents (Elt F) → (⟨S2300000, .i32⟩ : BufTy).Contents (Elt F)),
    binary main_v17 main_v79 main_v80 (cmpi .slt : (⟨S2300000, .i32⟩ : BufTy).Contents (Elt F) → (⟨S2300000, .i32⟩ : BufTy).Contents (Elt F) → (⟨S2300000, .i1⟩ : BufTy).Contents (Elt F)),
    nullary main_c_18 (constantI S_ 32 300000#32),
    unary main_c_18 main_v81 (broadcastInDim S2300000 ![] bcast_S_S2300000 : (⟨S_, .i32⟩ : BufTy).Contents (Elt F) → (⟨S2300000, .i32⟩ : BufTy).Contents (Elt F)),
    binary main_v17 main_v81 main_v82 (addi : (⟨S2300000, .i32⟩ : BufTy).Contents (Elt F) → (⟨S2300000, .i32⟩ : BufTy).Contents (Elt F) → (⟨S2300000, .i32⟩ : BufTy).Contents (Elt F)),
    ternary main_v80 main_v82 main_v17 main_v83 (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)),
    unary main_v83 main_v84 (broadcastInDim S2300000x1 ![0] bcast_S2300000_S2300000x1_0 : (⟨S2300000, .i32⟩ : BufTy).Contents (Elt F) → (⟨S2300000x1, .i32⟩ : BufTy).Contents (Elt F)),
    binary main_v71 main_v84 main_v85 ((fun x i => Host.gather gather_S300000_S2300000x1_S2300000_n_0_n_n_0_1_1 x i) : (⟨S300000, .f32⟩ : BufTy).Contents (Elt F) → (⟨S2300000x1, .i32⟩ : BufTy).Contents (Elt F) → (⟨S2300000, .f32⟩ : BufTy).Contents (Elt F)),
    binary main_v78 main_v85 main_v86 (mulf : (⟨S2300000, .f32⟩ : BufTy).Contents (Elt F) → (⟨S2300000, .f32⟩ : BufTy).Contents (Elt F) → (⟨S2300000, .f32⟩ : BufTy).Contents (Elt F)),
    nullary main_c_19 (constantI S_ 32 0#32),
    unary main_c_19 main_v87 (broadcastInDim S2300000 ![] bcast_S_S2300000 : (⟨S_, .i32⟩ : BufTy).Contents (Elt F) → (⟨S2300000, .i32⟩ : BufTy).Contents (Elt F)),
    binary main_v16 main_v87 main_v88 (cmpi .slt : (⟨S2300000, .i32⟩ : BufTy).Contents (Elt F) → (⟨S2300000, .i32⟩ : BufTy).Contents (Elt F) → (⟨S2300000, .i1⟩ : BufTy).Contents (Elt F)),
    nullary main_c_20 (constantI S_ 32 300000#32),
    unary main_c_20 main_v89 (broadcastInDim S2300000 ![] bcast_S_S2300000 : (⟨S_, .i32⟩ : BufTy).Contents (Elt F) → (⟨S2300000, .i32⟩ : BufTy).Contents (Elt F)),
    binary main_v16 main_v89 main_v90 (addi : (⟨S2300000, .i32⟩ : BufTy).Contents (Elt F) → (⟨S2300000, .i32⟩ : BufTy).Contents (Elt F) → (⟨S2300000, .i32⟩ : BufTy).Contents (Elt F)),
    ternary main_v88 main_v90 main_v16 main_v91 (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)),
    unary main_v91 main_v92 (broadcastInDim S2300000x1 ![0] bcast_S2300000_S2300000x1_0 : (⟨S2300000, .i32⟩ : BufTy).Contents (Elt F) → (⟨S2300000x1, .i32⟩ : BufTy).Contents (Elt F)),
    binary main_v61 main_v92 main_v93 ((fun x i => Host.gather gather_S300000x64_S2300000x1_S2300000x64_1_0_n_n_0_1_164 x i) : (⟨S300000x64, .f32⟩ : BufTy).Contents (Elt F) → (⟨S2300000x1, .i32⟩ : BufTy).Contents (Elt F) → (⟨S2300000x64, .f32⟩ : BufTy).Contents (Elt F)),
    unary main_v86 main_v94 (broadcastInDim S2300000x1 ![0] bcast_S2300000_S2300000x1_0 : (⟨S2300000, .f32⟩ : BufTy).Contents (Elt F) → (⟨S2300000x1, .f32⟩ : BufTy).Contents (Elt F)),
    unary main_v94 main_v95 (broadcastInDim S2300000x64 ![0, 1] bcast_S2300000x1_S2300000x64_0_1 : (⟨S2300000x1, .f32⟩ : BufTy).Contents (Elt F) → (⟨S2300000x64, .f32⟩ : BufTy).Contents (Elt F)),
    binary main_v93 main_v95 main_v96 (mulf : (⟨S2300000x64, .f32⟩ : BufTy).Contents (Elt F) → (⟨S2300000x64, .f32⟩ : BufTy).Contents (Elt F) → (⟨S2300000x64, .f32⟩ : BufTy).Contents (Elt F)),
    nullary main_cst_21 (constant S_ .f32 0x00000000#32),
    unary main_cst_21 main_v97 (broadcastInDim S300000x64 ![] bcast_S_S300000x64 : (⟨S_, .f32⟩ : BufTy).Contents (Elt F) → (⟨S300000x64, .f32⟩ : BufTy).Contents (Elt F)),
    unary main_v17 main_v98 (broadcastInDim S2300000x1 ![0] bcast_S2300000_S2300000x1_0 : (⟨S2300000, .i32⟩ : BufTy).Contents (Elt F) → (⟨S2300000x1, .i32⟩ : BufTy).Contents (Elt F)),
    ternary main_v97 main_v98 main_v96 main_v99 ((fun x i u => Host.scatterAdd scatter_S300000x64_S2300000x1_S2300000x64_1_0_0_1 x i u) : (⟨S300000x64, .f32⟩ : BufTy).Contents (Elt F) → (⟨S2300000x1, .i32⟩ : BufTy).Contents (Elt F) → (⟨S2300000x64, .f32⟩ : BufTy).Contents (Elt F) → (⟨S300000x64, .f32⟩ : BufTy).Contents (Elt F)),
    unary main_arg12 main_v100 (broadcastInDim S1x64 ![1] bcast_S64_S1x64_1 : (⟨S64, .f32⟩ : BufTy).Contents (Elt F) → (⟨S1x64, .f32⟩ : BufTy).Contents (Elt F)),
    unary main_v100 main_v101 (broadcastInDim S300000x64 ![0, 1] bcast_S1x64_S300000x64_0_1 : (⟨S1x64, .f32⟩ : BufTy).Contents (Elt F) → (⟨S300000x64, .f32⟩ : BufTy).Contents (Elt F)),
    binary main_v99 main_v101 main_v102 (addf : (⟨S300000x64, .f32⟩ : BufTy).Contents (Elt F) → (⟨S300000x64, .f32⟩ : BufTy).Contents (Elt F) → (⟨S300000x64, .f32⟩ : BufTy).Contents (Elt F)),
    unary main_v102 main_v103 ((extractStridedSlice S200000x64 ![0, 0] · slices_S300000x64_S200000x64_0_0) : (⟨S300000x64, .f32⟩ : BufTy).Contents (Elt F) → (⟨S200000x64, .f32⟩ : BufTy).Contents (Elt F)),
    nullary main_c_22 (constantI S_ 32 0#32),
    unary main_c_22 main_v104 (broadcastInDim S1000000 ![] bcast_S_S1000000 : (⟨S_, .i32⟩ : BufTy).Contents (Elt F) → (⟨S1000000, .i32⟩ : BufTy).Contents (Elt F)),
    binary main_v1 main_v104 main_v105 (cmpi .slt : (⟨S1000000, .i32⟩ : BufTy).Contents (Elt F) → (⟨S1000000, .i32⟩ : BufTy).Contents (Elt F) → (⟨S1000000, .i1⟩ : BufTy).Contents (Elt F)),
    nullary main_c_23 (constantI S_ 32 200000#32),
    unary main_c_23 main_v106 (broadcastInDim S1000000 ![] bcast_S_S1000000 : (⟨S_, .i32⟩ : BufTy).Contents (Elt F) → (⟨S1000000, .i32⟩ : BufTy).Contents (Elt F)),
    binary main_v1 main_v106 main_v107 (addi : (⟨S1000000, .i32⟩ : BufTy).Contents (Elt F) → (⟨S1000000, .i32⟩ : BufTy).Contents (Elt F) → (⟨S1000000, .i32⟩ : BufTy).Contents (Elt F)),
    ternary main_v105 main_v107 main_v1 main_v108 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v108 main_v109 (broadcastInDim S1000000x1 ![0] bcast_S1000000_S1000000x1_0 : (⟨S1000000, .i32⟩ : BufTy).Contents (Elt F) → (⟨S1000000x1, .i32⟩ : BufTy).Contents (Elt F)),
    binary main_v103 main_v109 main_v110 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    unary main_v102 main_v111 ((extractStridedSlice S100000x64 ![200000, 0] · slices_S300000x64_S100000x64_200000_0) : (⟨S300000x64, .f32⟩ : BufTy).Contents (Elt F) → (⟨S100000x64, .f32⟩ : BufTy).Contents (Elt F)),
    nullary main_c_24 (constantI S_ 32 0#32),
    unary main_c_24 main_v112 (broadcastInDim S1000000 ![] bcast_S_S1000000 : (⟨S_, .i32⟩ : BufTy).Contents (Elt F) → (⟨S1000000, .i32⟩ : BufTy).Contents (Elt F)),
    binary main_v3 main_v112 main_v113 (cmpi .slt : (⟨S1000000, .i32⟩ : BufTy).Contents (Elt F) → (⟨S1000000, .i32⟩ : BufTy).Contents (Elt F) → (⟨S1000000, .i1⟩ : BufTy).Contents (Elt F)),
    nullary main_c_25 (constantI S_ 32 100000#32),
    unary main_c_25 main_v114 (broadcastInDim S1000000 ![] bcast_S_S1000000 : (⟨S_, .i32⟩ : BufTy).Contents (Elt F) → (⟨S1000000, .i32⟩ : BufTy).Contents (Elt F)),
    binary main_v3 main_v114 main_v115 (addi : (⟨S1000000, .i32⟩ : BufTy).Contents (Elt F) → (⟨S1000000, .i32⟩ : BufTy).Contents (Elt F) → (⟨S1000000, .i32⟩ : BufTy).Contents (Elt F)),
    ternary main_v113 main_v115 main_v3 main_v116 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v116 main_v117 (broadcastInDim S1000000x1 ![0] bcast_S1000000_S1000000x1_0 : (⟨S1000000, .i32⟩ : BufTy).Contents (Elt F) → (⟨S1000000x1, .i32⟩ : BufTy).Contents (Elt F)),
    binary main_v111 main_v117 main_v118 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v110 main_v118 main_v119 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    binary main_v119 main_arg13 main_v120 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_arg14 main_v121 (broadcastInDim S1x64 ![1] bcast_S64_S1x64_1 : (⟨S64, .f32⟩ : BufTy).Contents (Elt F) → (⟨S1x64, .f32⟩ : BufTy).Contents (Elt F)),
    unary main_v121 main_v122 (broadcastInDim S1000000x64 ![0, 1] bcast_S1x64_S1000000x64_0_1 : (⟨S1x64, .f32⟩ : BufTy).Contents (Elt F) → (⟨S1000000x64, .f32⟩ : BufTy).Contents (Elt F)),
    binary main_v120 main_v122 main_v123 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1000000x64, .f32⟩) main_call3_v0) (broadcastInDim S1000000x64 ![] bcast_S_S1000000x64),
    TRef.binary (TRef.of (T := ⟨S1000000x64, .f32⟩) main_v123) (TRef.of (T := ⟨S1000000x64, .f32⟩) main_call3_v0) (TRef.of (T := ⟨S1000000x64, .f32⟩) main_v124) maximumf,
    binary main_v124 main_arg15 main_v125 ((fun l r => Host.dotGeneral dot_S1000000x64_S64x1_S1000000x1_1_0_0_1_n_n none l r) : (⟨S1000000x64, .f32⟩ : BufTy).Contents (Elt F) → (⟨S64x1, .f32⟩ : BufTy).Contents (Elt F) → (⟨S1000000x1, .f32⟩ : BufTy).Contents (Elt F)),
    unary main_arg16 main_v126 (broadcastInDim S1x1 ![1] bcast_S1_S1x1_1 : (⟨S1, .f32⟩ : BufTy).Contents (Elt F) → (⟨S1x1, .f32⟩ : BufTy).Contents (Elt F)),
    unary main_v126 main_v127 (broadcastInDim S1000000x1 ![0, 1] bcast_S1x1_S1000000x1_0_1 : (⟨S1x1, .f32⟩ : BufTy).Contents (Elt F) → (⟨S1000000x1, .f32⟩ : BufTy).Contents (Elt F)),
    binary main_v125 main_v127 main_v128 (addf : (⟨S1000000x1, .f32⟩ : BufTy).Contents (Elt F) → (⟨S1000000x1, .f32⟩ : BufTy).Contents (Elt F) → (⟨S1000000x1, .f32⟩ : BufTy).Contents (Elt F)),
    unary main_v128 main_v129 (Host.negf : (⟨S1000000x1, .f32⟩ : BufTy).Contents (Elt F) → (⟨S1000000x1, .f32⟩ : BufTy).Contents (Elt F)),
    unary main_v129 main_v130 (Host.exp : (⟨S1000000x1, .f32⟩ : BufTy).Contents (Elt F) → (⟨S1000000x1, .f32⟩ : BufTy).Contents (Elt F)),
    nullary main_cst_26 (constant S_ .f32 0x3F800000#32),
    unary main_cst_26 main_v131 (broadcastInDim S1000000x1 ![] bcast_S_S1000000x1 : (⟨S_, .f32⟩ : BufTy).Contents (Elt F) → (⟨S1000000x1, .f32⟩ : BufTy).Contents (Elt F)),
    binary main_v131 main_v130 main_v132 (addf : (⟨S1000000x1, .f32⟩ : BufTy).Contents (Elt F) → (⟨S1000000x1, .f32⟩ : BufTy).Contents (Elt F) → (⟨S1000000x1, .f32⟩ : BufTy).Contents (Elt F)),
    nullary main_cst_27 (constant S_ .f32 0x3F800000#32),
    unary main_cst_27 main_v133 (broadcastInDim S1000000x1 ![] bcast_S_S1000000x1 : (⟨S_, .f32⟩ : BufTy).Contents (Elt F) → (⟨S1000000x1, .f32⟩ : BufTy).Contents (Elt F)),
    binary main_v133 main_v132 main_v134 (Host.divf : (⟨S1000000x1, .f32⟩ : BufTy).Contents (Elt F) → (⟨S1000000x1, .f32⟩ : BufTy).Contents (Elt F) → (⟨S1000000x1, .f32⟩ : BufTy).Contents (Elt F)),
    reshape main_v134 main_v135 rfl shapeCasts_S1000000x1_S1000000,
    nullary main_cst_28 (constant S_ .f32 0x40A00000#32),
    unary main_cst_28 main_v136 (broadcastInDim S1000000 ![] bcast_S_S1000000 : (⟨S_, .f32⟩ : BufTy).Contents (Elt F) → (⟨S1000000, .f32⟩ : BufTy).Contents (Elt F)),
    binary main_v135 main_v136 main_v137 (mulf : (⟨S1000000, .f32⟩ : BufTy).Contents (Elt F) → (⟨S1000000, .f32⟩ : BufTy).Contents (Elt F) → (⟨S1000000, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., nullary_bufs_sub .., nary_bufs_sub .., nary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., unary_bufs_sub .., binary_bufs_sub ..⟩

end Cert.ReferenceIdeal.Value

end
-- ==== Proof.RefReadP.lean ====
/- Each operation of the reference as a stage of the argument arrays, read at an index; the reference's run ends with its result at the last stage and its arguments unchanged. -/
import proofs.«100265_j85727547228235_2_alg».proof.Proof.RefRunP
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S2x1000000, .i32⟩ : BufTy).Contents (Elt F)) (x1 : (⟨S200000x128, .f32⟩ : BufTy).Contents (Elt F)) (x2 : (⟨S100000x128, .f32⟩ : BufTy).Contents (Elt F)) (x3 : (⟨S200000x64, .f32⟩ : BufTy).Contents (Elt F)) (x4 : (⟨S100000x64, .f32⟩ : BufTy).Contents (Elt F)) (x5 : (⟨S128x64, .f32⟩ : BufTy).Contents (Elt F)) (x6 : (⟨S64, .f32⟩ : BufTy).Contents (Elt F)) (x7 : (⟨S128x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S128x64, .f32⟩ : BufTy).Contents (Elt F)) (x14 : (⟨S64, .f32⟩ : BufTy).Contents (Elt F)) (x15 : (⟨S64x1, .f32⟩ : BufTy).Contents (Elt F)) (x16 : (⟨S1, .f32⟩ : BufTy).Contents (Elt F))
def val_main_v0 : (⟨S1x1000000, .i32⟩ : BufTy).Contents (Elt F) :=
  extractStridedSlice S1x1000000 ![0, 0] (x0) slices_S2x1000000_S1x1000000_0_0
def val_main_v1 : (⟨S1000000, .i32⟩ : BufTy).Contents (Elt F) :=
  shapeCast _ (val_main_v0 (F := F) x0) shapeCasts_S1x1000000_S1000000
def val_main_v2 : (⟨S1x1000000, .i32⟩ : BufTy).Contents (Elt F) :=
  extractStridedSlice S1x1000000 ![1, 0] (x0) slices_S2x1000000_S1x1000000_1_0
def val_main_v3 : (⟨S1000000, .i32⟩ : BufTy).Contents (Elt F) :=
  shapeCast _ (val_main_v2 (F := F) x0) shapeCasts_S1x1000000_S1000000
def val_main_v4 : (⟨S200000x64, .f32⟩ : BufTy).Contents (Elt F) :=
  Host.dotGeneral dot_S200000x128_S128x64_S200000x64_1_0_0_1_n_n none (x1) (x5)
theorem lhs_main_v4_0 (i : S200000x64.Idx) (q : dot_S200000x128_S128x64_S200000x64_1_0_0_1_n_n.contr.Idx) :
    (dot_S200000x128_S128x64_S200000x64_1_0_0_1_n_n.lhsIdx i q 0).val = (i 0).val := by
  unfold DotDims.lhsIdx
  rw [dif_neg (show ¬(0 : Fin S200000x128.rank) ∈ dot_S200000x128_S128x64_S200000x64_1_0_0_1_n_n.lhsBatch by decide), dif_pos (show (0 : Fin S200000x128.rank) ∈ dot_S200000x128_S128x64_S200000x64_1_0_0_1_n_n.lhsNonContracting by decide)]
  rfl
theorem lhs_main_v4_1 (i : S200000x64.Idx) (q : dot_S200000x128_S128x64_S200000x64_1_0_0_1_n_n.contr.Idx) :
    (dot_S200000x128_S128x64_S200000x64_1_0_0_1_n_n.lhsIdx i q 1).val = (q ⟨0, by decide⟩).val :=
  dot_S200000x128_S128x64_S200000x64_1_0_0_1_n_n.lhsIdx_val_of_single rfl i q
theorem rhs_main_v4_0 (i : S200000x64.Idx) (q : dot_S200000x128_S128x64_S200000x64_1_0_0_1_n_n.contr.Idx) :
    (dot_S200000x128_S128x64_S200000x64_1_0_0_1_n_n.rhsIdx i q 0).val = (q ⟨0, by decide⟩).val :=
  dot_S200000x128_S128x64_S200000x64_1_0_0_1_n_n.rhsIdx_val_of_single rfl i q
theorem rhs_main_v4_1 (i : S200000x64.Idx) (q : dot_S200000x128_S128x64_S200000x64_1_0_0_1_n_n.contr.Idx) :
    (dot_S200000x128_S128x64_S200000x64_1_0_0_1_n_n.rhsIdx i q 1).val = (i 1).val := by
  unfold DotDims.rhsIdx
  rw [dif_neg (show ¬(1 : Fin S128x64.rank) ∈ dot_S200000x128_S128x64_S200000x64_1_0_0_1_n_n.rhsBatch by decide), dif_pos (show (1 : Fin S128x64.rank) ∈ dot_S200000x128_S128x64_S200000x64_1_0_0_1_n_n.rhsNonContracting by decide)]
  rfl
abbrev lidx_main_v4 (i : S200000x64.Idx) (k : Fin 128) : S200000x128.Idx := fun a => match a with
  | ⟨0, _⟩ => ⟨(i 0).val, (i 0).isLt⟩
  | ⟨1, _⟩ => ⟨k.val, k.isLt⟩
abbrev ridx_main_v4 (i : S200000x64.Idx) (k : Fin 128) : S128x64.Idx := fun a => match a with
  | ⟨0, _⟩ => ⟨k.val, k.isLt⟩
  | ⟨1, _⟩ => ⟨(i 1).val, (i 1).isLt⟩
theorem val_main_v4_apply (x1 : (⟨S200000x128, .f32⟩ : BufTy).Contents (Elt Ideal)) (x5 : (⟨S128x64, .f32⟩ : BufTy).Contents (Elt Ideal)) (i : S200000x64.Idx) :
    val_main_v4 (F := Ideal) x1 x5 i = ∑ k : Fin 128, x1 (lidx_main_v4 i k) * x5 (ridx_main_v4 i k) := by
  unfold val_main_v4
  simp only [Host.dotGeneral]
  rw [Ideal.dotGeneral_apply, ← Equiv.sum_comp (ValueIdx.contrEquiv1 dot_S200000x128_S128x64_S200000x64_1_0_0_1_n_n 128 rfl rfl).symm]
  refine Finset.sum_congr rfl fun k _ => ?_
  have hk := ValueIdx.contrEquiv1_symm_val dot_S200000x128_S128x64_S200000x64_1_0_0_1_n_n 128 rfl rfl k
  have el : dot_S200000x128_S128x64_S200000x64_1_0_0_1_n_n.lhsIdx i ((ValueIdx.contrEquiv1 dot_S200000x128_S128x64_S200000x64_1_0_0_1_n_n 128 rfl rfl).symm k) = lidx_main_v4 i k := funext fun a => Fin.ext (by
    match a with
    | ⟨0, _⟩ => exact lhs_main_v4_0 _ _
    | ⟨1, _⟩ => exact (lhs_main_v4_1 _ _).trans hk)
  have er : dot_S200000x128_S128x64_S200000x64_1_0_0_1_n_n.rhsIdx i ((ValueIdx.contrEquiv1 dot_S200000x128_S128x64_S200000x64_1_0_0_1_n_n 128 rfl rfl).symm k) = ridx_main_v4 i k := funext fun a => Fin.ext (by
    match a with
    | ⟨0, _⟩ => exact (rhs_main_v4_0 _ _).trans hk
    | ⟨1, _⟩ => exact rhs_main_v4_1 _ _)
  rw [el, er]
def val_main_v5 : (⟨S1x64, .f32⟩ : BufTy).Contents (Elt F) :=
  broadcastInDim S1x64 ![1] bcast_S64_S1x64_1 (x6)
abbrev idx_main_v5 (i : S1x64.Idx) : S64.Idx := fun a => match a with
  | ⟨0, _⟩ => ⟨(i 1).val, (i 1).isLt⟩
theorem val_main_v5_apply (i : S1x64.Idx) :
    val_main_v5 (F := F) x6 i = x6 (idx_main_v5 i) := by
  unfold val_main_v5
  exact broadcastInDim_apply _ bcast_S64_S1x64_1 x6 i (idx_main_v5 i) (fun a => match a with
    | ⟨0, _⟩ => by show (i 1).val = if (64 : Nat) = 1 then 0 else (i 1).val; rw [if_neg (by decide)])
def val_main_v6 : (⟨S200000x64, .f32⟩ : BufTy).Contents (Elt F) :=
  broadcastInDim S200000x64 ![0, 1] bcast_S1x64_S200000x64_0_1 (val_main_v5 (F := F) x6)
abbrev idx_main_v6 (i : S200000x64.Idx) : S1x64.Idx := fun a => match a with
  | ⟨0, _⟩ => ⟨0, Nat.one_pos⟩
  | ⟨1, _⟩ => ⟨(i 1).val, (i 1).isLt⟩
theorem val_main_v6_apply (i : S200000x64.Idx) :
    val_main_v6 (F := F) x6 i = val_main_v5 (F := F) x6 (idx_main_v6 i) := by
  unfold val_main_v6
  generalize val_main_v5 (F := F) x6 = y
  exact broadcastInDim_apply _ bcast_S1x64_S200000x64_0_1 y i (idx_main_v6 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])
def val_main_v7 : (⟨S200000x64, .f32⟩ : BufTy).Contents (Elt F) :=
  addf (val_main_v4 (F := F) x1 x5) (val_main_v6 (F := F) x6)
theorem val_main_v7_apply (i : S200000x64.Idx) :
    val_main_v7 (F := F) x1 x5 x6 i = FloatOps.addf (val_main_v4 (F := F) x1 x5 i) (val_main_v6 (F := F) x6 i) := rfl
def val_main_v8 : (⟨S200000x64, .f32⟩ : BufTy).Contents (Elt F) :=
  addf (val_main_v7 (F := F) x1 x5 x6) (x3)
theorem val_main_v8_apply (i : S200000x64.Idx) :
    val_main_v8 (F := F) x1 x3 x5 x6 i = FloatOps.addf (val_main_v7 (F := F) x1 x5 x6 i) (x3 i) := rfl
def val_main_v9 : (⟨S100000x64, .f32⟩ : BufTy).Contents (Elt F) :=
  Host.dotGeneral dot_S100000x128_S128x64_S100000x64_1_0_0_1_n_n none (x2) (x7)
theorem lhs_main_v9_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs_main_v9_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs_main_v9_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs_main_v9_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl
abbrev lidx_main_v9 (i : S100000x64.Idx) (k : Fin 128) : S100000x128.Idx := fun a => match a with
  | ⟨0, _⟩ => ⟨(i 0).val, (i 0).isLt⟩
  | ⟨1, _⟩ => ⟨k.val, k.isLt⟩
abbrev ridx_main_v9 (i : S100000x64.Idx) (k : Fin 128) : S128x64.Idx := fun a => match a with
  | ⟨0, _⟩ => ⟨k.val, k.isLt⟩
  | ⟨1, _⟩ => ⟨(i 1).val, (i 1).isLt⟩
theorem val_main_v9_apply (x2 : (⟨S100000x128, .f32⟩ : BufTy).Contents (Elt Ideal)) (x7 : (⟨S128x64, .f32⟩ : BufTy).Contents (Elt Ideal)) (i : S100000x64.Idx) :
    val_main_v9 (F := Ideal) x2 x7 i = ∑ k : Fin 128, x2 (lidx_main_v9 i k) * x7 (ridx_main_v9 i k) := by
  unfold val_main_v9
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lidx_main_v9 i k := funext fun a => Fin.ext (by
    match a with
    | ⟨0, _⟩ => exact lhs_main_v9_0 _ _
    | ⟨1, _⟩ => exact (lhs_main_v9_1 _ _).trans hk)
  have er : dot_S100000x128_S128x64_S100000x64_1_0_0_1_n_n.rhsIdx i ((ValueIdx.contrEquiv1 dot_S100000x128_S128x64_S100000x64_1_0_0_1_n_n 128 rfl rfl).symm k) = ridx_main_v9 i k := funext fun a => Fin.ext (by
    match a with
    | ⟨0, _⟩ => exact (rhs_main_v9_0 _ _).trans hk
    | ⟨1, _⟩ => exact rhs_main_v9_1 _ _)
  rw [el, er]
def val_main_v10 : (⟨S1x64, .f32⟩ : BufTy).Contents (Elt F) :=
  broadcastInDim S1x64 ![1] bcast_S64_S1x64_1 (x8)
abbrev idx_main_v10 (i : S1x64.Idx) : S64.Idx := fun a => match a with
  | ⟨0, _⟩ => ⟨(i 1).val, (i 1).isLt⟩
theorem val_main_v10_apply (i : S1x64.Idx) :
    val_main_v10 (F := F) x8 i = x8 (idx_main_v10 i) := by
  unfold val_main_v10
  exact broadcastInDim_apply _ bcast_S64_S1x64_1 x8 i (idx_main_v10 i) (fun a => match a with
    | ⟨0, _⟩ => by show (i 1).val = if (64 : Nat) = 1 then 0 else (i 1).val; rw [if_neg (by decide)])
def val_main_v11 : (⟨S100000x64, .f32⟩ : BufTy).Contents (Elt F) :=
  broadcastInDim S100000x64 ![0, 1] bcast_S1x64_S100000x64_0_1 (val_main_v10 (F := F) x8)
abbrev idx_main_v11 (i : S100000x64.Idx) : S1x64.Idx := fun a => match a with
  | ⟨0, _⟩ => ⟨0, Nat.one_pos⟩
  | ⟨1, _⟩ => ⟨(i 1).val, (i 1).isLt⟩
theorem val_main_v11_apply (i : S100000x64.Idx) :
    val_main_v11 (F := F) x8 i = val_main_v10 (F := F) x8 (idx_main_v11 i) := by
  unfold val_main_v11
  generalize val_main_v10 (F := F) x8 = y
  exact broadcastInDim_apply _ bcast_S1x64_S100000x64_0_1 y i (idx_main_v11 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])
def val_main_v12 : (⟨S100000x64, .f32⟩ : BufTy).Contents (Elt F) :=
  addf (val_main_v9 (F := F) x2 x7) (val_main_v11 (F := F) x8)
theorem val_main_v12_apply (i : S100000x64.Idx) :
    val_main_v12 (F := F) x2 x7 x8 i = FloatOps.addf (val_main_v9 (F := F) x2 x7 i) (val_main_v11 (F := F) x8 i) := rfl
def val_main_v13 : (⟨S100000x64, .f32⟩ : BufTy).Contents (Elt F) :=
  addf (val_main_v12 (F := F) x2 x7 x8) (x4)
theorem val_main_v13_apply (i : S100000x64.Idx) :
    val_main_v13 (F := F) x2 x4 x7 x8 i = FloatOps.addf (val_main_v12 (F := F) x2 x7 x8 i) (x4 i) := rfl
def val_main_v14 : (⟨S300000x64, .f32⟩ : BufTy).Contents (Elt F) :=
  concatenate S300000x64 0 [⟨S200000x64, (val_main_v8 (F := F) x1 x3 x5 x6)⟩, ⟨S100000x64, (val_main_v13 (F := F) x2 x4 x7 x8)⟩] concatenates_S200000x64_S100000x64_S300000x64_d0
def val_main_v15 : (⟨S300000, .i32⟩ : BufTy).Contents (Elt F) :=
  iotaInDim S300000 32 0
def val_main_v16 : (⟨S2300000, .i32⟩ : BufTy).Contents (Elt F) :=
  concatenate S2300000 0 [⟨S1000000, (val_main_v1 (F := F) x0)⟩, ⟨S1000000, (val_main_v3 (F := F) x0)⟩, ⟨S300000, (val_main_v15 (F := F))⟩] concatenates_S1000000_S1000000_S300000_S2300000_d0
def val_main_v17 : (⟨S2300000, .i32⟩ : BufTy).Contents (Elt F) :=
  concatenate S2300000 0 [⟨S1000000, (val_main_v3 (F := F) x0)⟩, ⟨S1000000, (val_main_v1 (F := F) x0)⟩, ⟨S300000, (val_main_v15 (F := F))⟩] concatenates_S1000000_S1000000_S300000_S2300000_d0
def val_main_v18 : (⟨S300000x64, .f32⟩ : BufTy).Contents (Elt F) :=
  Host.dotGeneral dot_S300000x64_S64x64_S300000x64_1_0_0_1_n_n none (val_main_v14 (F := F) x1 x2 x3 x4 x5 x6 x7 x8) (x9)
theorem lhs_main_v18_0 (i : S300000x64.Idx) (q : dot_S300000x64_S64x64_S300000x64_1_0_0_1_n_n.contr.Idx) :
    (dot_S300000x64_S64x64_S300000x64_1_0_0_1_n_n.lhsIdx i q 0).val = (i 0).val := by
  unfold DotDims.lhsIdx
  rw [dif_neg (show ¬(0 : Fin S300000x64.rank) ∈ dot_S300000x64_S64x64_S300000x64_1_0_0_1_n_n.lhsBatch by decide), dif_pos (show (0 : Fin S300000x64.rank) ∈ dot_S300000x64_S64x64_S300000x64_1_0_0_1_n_n.lhsNonContracting by decide)]
  rfl
theorem lhs_main_v18_1 (i : S300000x64.Idx) (q : dot_S300000x64_S64x64_S300000x64_1_0_0_1_n_n.contr.Idx) :
    (dot_S300000x64_S64x64_S300000x64_1_0_0_1_n_n.lhsIdx i q 1).val = (q ⟨0, by decide⟩).val :=
  dot_S300000x64_S64x64_S300000x64_1_0_0_1_n_n.lhsIdx_val_of_single rfl i q
theorem rhs_main_v18_0 (i : S300000x64.Idx) (q : dot_S300000x64_S64x64_S300000x64_1_0_0_1_n_n.contr.Idx) :
    (dot_S300000x64_S64x64_S300000x64_1_0_0_1_n_n.rhsIdx i q 0).val = (q ⟨0, by decide⟩).val :=
  dot_S300000x64_S64x64_S300000x64_1_0_0_1_n_n.rhsIdx_val_of_single rfl i q
theorem rhs_main_v18_1 (i : S300000x64.Idx) (q : dot_S300000x64_S64x64_S300000x64_1_0_0_1_n_n.contr.Idx) :
    (dot_S300000x64_S64x64_S300000x64_1_0_0_1_n_n.rhsIdx i q 1).val = (i 1).val := by
  unfold DotDims.rhsIdx
  rw [dif_neg (show ¬(1 : Fin S64x64.rank) ∈ dot_S300000x64_S64x64_S300000x64_1_0_0_1_n_n.rhsBatch by decide), dif_pos (show (1 : Fin S64x64.rank) ∈ dot_S300000x64_S64x64_S300000x64_1_0_0_1_n_n.rhsNonContracting by decide)]
  rfl
abbrev lidx_main_v18 (i : S300000x64.Idx) (k : Fin 64) : S300000x64.Idx := fun a => match a with
  | ⟨0, _⟩ => ⟨(i 0).val, (i 0).isLt⟩
  | ⟨1, _⟩ => ⟨k.val, k.isLt⟩
abbrev ridx_main_v18 (i : S300000x64.Idx) (k : Fin 64) : S64x64.Idx := fun a => match a with
  | ⟨0, _⟩ => ⟨k.val, k.isLt⟩
  | ⟨1, _⟩ => ⟨(i 1).val, (i 1).isLt⟩
theorem val_main_v18_apply (x1 : (⟨S200000x128, .f32⟩ : BufTy).Contents (Elt Ideal)) (x2 : (⟨S100000x128, .f32⟩ : BufTy).Contents (Elt Ideal)) (x3 : (⟨S200000x64, .f32⟩ : BufTy).Contents (Elt Ideal)) (x4 : (⟨S100000x64, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (i : S300000x64.Idx) :
    val_main_v18 (F := Ideal) x1 x2 x3 x4 x5 x6 x7 x8 x9 i = ∑ k : Fin 64, (val_main_v14 (F := Ideal) x1 x2 x3 x4 x5 x6 x7 x8) (lidx_main_v18 i k) * x9 (ridx_main_v18 i k) := by
  unfold val_main_v18
  generalize val_main_v14 (F := Ideal) x1 x2 x3 x4 x5 x6 x7 x8 = y0
  simp only [Host.dotGeneral]
  rw [Ideal.dotGeneral_apply, ← Equiv.sum_comp (ValueIdx.contrEquiv1 dot_S300000x64_S64x64_S300000x64_1_0_0_1_n_n 64 rfl rfl).symm]
  refine Finset.sum_congr rfl fun k _ => ?_
  have hk := ValueIdx.contrEquiv1_symm_val dot_S300000x64_S64x64_S300000x64_1_0_0_1_n_n 64 rfl rfl k
  have el : dot_S300000x64_S64x64_S300000x64_1_0_0_1_n_n.lhsIdx i ((ValueIdx.contrEquiv1 dot_S300000x64_S64x64_S300000x64_1_0_0_1_n_n 64 rfl rfl).symm k) = lidx_main_v18 i k := funext fun a => Fin.ext (by
    match a with
    | ⟨0, _⟩ => exact lhs_main_v18_0 _ _
    | ⟨1, _⟩ => exact (lhs_main_v18_1 _ _).trans hk)
  have er : dot_S300000x64_S64x64_S300000x64_1_0_0_1_n_n.rhsIdx i ((ValueIdx.contrEquiv1 dot_S300000x64_S64x64_S300000x64_1_0_0_1_n_n 64 rfl rfl).symm k) = ridx_main_v18 i k := funext fun a => Fin.ext (by
    match a with
    | ⟨0, _⟩ => exact (rhs_main_v18_0 _ _).trans hk
    | ⟨1, _⟩ => exact rhs_main_v18_1 _ _)
  rw [el, er]
def val_main_cst : (⟨S_, .f32⟩ : BufTy).Contents (Elt F) :=
  constant S_ .f32 0x3F800000#32
def val_main_v19 : (⟨S2300000, .f32⟩ : BufTy).Contents (Elt F) :=
  broadcastInDim S2300000 ![] bcast_S_S2300000 (val_main_cst (F := F))
def val_main_cst_0 : (⟨S_, .f32⟩ : BufTy).Contents (Elt F) :=
  constant S_ .f32 0x00000000#32
def val_main_v20 : (⟨S300000, .f32⟩ : BufTy).Contents (Elt F) :=
  broadcastInDim S300000 ![] bcast_S_S300000 (val_main_cst_0 (F := F))
def val_main_v21 : (⟨S2300000x1, .i32⟩ : BufTy).Contents (Elt F) :=
  broadcastInDim S2300000x1 ![0] bcast_S2300000_S2300000x1_0 (val_main_v17 (F := F) x0)
def val_main_v22 : (⟨S300000, .f32⟩ : BufTy).Contents (Elt F) :=
  Host.scatterAdd scatter_S300000_S2300000x1_S2300000_n_0_0_1 (val_main_v20 (F := F)) (val_main_v21 (F := F) x0) (val_main_v19 (F := F))
def val_main_cst_1 : (⟨S_, .f32⟩ : BufTy).Contents (Elt F) :=
  constant S_ .f32 0x00000000#32
def val_main_v23 : (⟨S300000, .f32⟩ : BufTy).Contents (Elt F) :=
  broadcastInDim S300000 ![] bcast_S_S300000 (val_main_cst_1 (F := F))
def val_main_v24 : (⟨S300000, .i1⟩ : BufTy).Contents (Elt F) :=
  cmpf .ogt (val_main_v22 (F := F) x0) (val_main_v23 (F := F))
def val_main_cst_2 : (⟨S_, .f32⟩ : BufTy).Contents (Elt F) :=
  constant S_ .f32 0x3F800000#32
def val_main_v25 : (⟨S300000, .f32⟩ : BufTy).Contents (Elt F) :=
  broadcastInDim S300000 ![] bcast_S_S300000 (val_main_cst_2 (F := F))
def val_main_v26 : (⟨S300000, .f32⟩ : BufTy).Contents (Elt F) :=
  maximumf (val_main_v22 (F := F) x0) (val_main_v25 (F := F))
def val_main_v27 : (⟨S300000, .f32⟩ : BufTy).Contents (Elt F) :=
  Host.rsqrt (val_main_v26 (F := F) x0)
def val_main_cst_3 : (⟨S_, .f32⟩ : BufTy).Contents (Elt F) :=
  constant S_ .f32 0x00000000#32
def val_main_call0_v0 : (⟨S_, .f32⟩ : BufTy).Contents (Elt F) :=
  id (val_main_cst_3 (F := F))
def val_main_call0_v1 : (⟨S300000, .f32⟩ : BufTy).Contents (Elt F) :=
  broadcastInDim S300000 ![] bcast_S_S300000 (val_main_call0_v0 (F := F))
def val_main_v28 : (⟨S300000, .f32⟩ : BufTy).Contents (Elt F) :=
  select (val_main_v24 (F := F) x0) (val_main_v27 (F := F) x0) (val_main_call0_v1 (F := F))
def val_main_c : (⟨S_, .i32⟩ : BufTy).Contents (Elt F) :=
  constantI S_ 32 0#32
def val_main_v29 : (⟨S2300000, .i32⟩ : BufTy).Contents (Elt F) :=
  broadcastInDim S2300000 ![] bcast_S_S2300000 (val_main_c (F := F))
def val_main_v30 : (⟨S2300000, .i1⟩ : BufTy).Contents (Elt F) :=
  cmpi .slt (val_main_v16 (F := F) x0) (val_main_v29 (F := F))
def val_main_c_4 : (⟨S_, .i32⟩ : BufTy).Contents (Elt F) :=
  constantI S_ 32 300000#32
def val_main_v31 : (⟨S2300000, .i32⟩ : BufTy).Contents (Elt F) :=
  broadcastInDim S2300000 ![] bcast_S_S2300000 (val_main_c_4 (F := F))
def val_main_v32 : (⟨S2300000, .i32⟩ : BufTy).Contents (Elt F) :=
  addi (val_main_v16 (F := F) x0) (val_main_v31 (F := F))
def val_main_v33 : (⟨S2300000, .i32⟩ : BufTy).Contents (Elt F) :=
  select (val_main_v30 (F := F) x0) (val_main_v32 (F := F) x0) (val_main_v16 (F := F) x0)
def val_main_v34 : (⟨S2300000x1, .i32⟩ : BufTy).Contents (Elt F) :=
  broadcastInDim S2300000x1 ![0] bcast_S2300000_S2300000x1_0 (val_main_v33 (F := F) x0)
def val_main_v35 : (⟨S2300000, .f32⟩ : BufTy).Contents (Elt F) :=
  Host.gather gather_S300000_S2300000x1_S2300000_n_0_n_n_0_1_1 (val_main_v28 (F := F) x0) (val_main_v34 (F := F) x0)
def val_main_c_5 : (⟨S_, .i32⟩ : BufTy).Contents (Elt F) :=
  constantI S_ 32 0#32
theorem val_main_c_5_apply (i : S_.Idx) :
    val_main_c_5 (F := F) i = 0#32 := rfl
def val_main_v36 : (⟨S2300000, .i32⟩ : BufTy).Contents (Elt F) :=
  broadcastInDim S2300000 ![] bcast_S_S2300000 (val_main_c_5 (F := F))
abbrev idx_main_v36 (i : S2300000.Idx) : S_.Idx := fun a => a.elim0
theorem val_main_v36_apply (i : S2300000.Idx) :
    val_main_v36 (F := F) i = val_main_c_5 (F := F) (idx_main_v36 i) := by
  unfold val_main_v36
  generalize val_main_c_5 (F := F) = y
  exact broadcastInDim_apply _ bcast_S_S2300000 y i (idx_main_v36 i) (fun a => a.elim0)
def val_main_v37 : (⟨S2300000, .i1⟩ : BufTy).Contents (Elt F) :=
  cmpi .slt (val_main_v17 (F := F) x0) (val_main_v36 (F := F))
theorem val_main_v37_apply (i : S2300000.Idx) :
    val_main_v37 (F := F) x0 i = IntOp.cmpi .slt (val_main_v17 (F := F) x0 i) (val_main_v36 (F := F) i) := rfl
def val_main_c_6 : (⟨S_, .i32⟩ : BufTy).Contents (Elt F) :=
  constantI S_ 32 300000#32
theorem val_main_c_6_apply (i : S_.Idx) :
    val_main_c_6 (F := F) i = 300000#32 := rfl
def val_main_v38 : (⟨S2300000, .i32⟩ : BufTy).Contents (Elt F) :=
  broadcastInDim S2300000 ![] bcast_S_S2300000 (val_main_c_6 (F := F))
abbrev idx_main_v38 (i : S2300000.Idx) : S_.Idx := fun a => a.elim0
theorem val_main_v38_apply (i : S2300000.Idx) :
    val_main_v38 (F := F) i = val_main_c_6 (F := F) (idx_main_v38 i) := by
  unfold val_main_v38
  generalize val_main_c_6 (F := F) = y
  exact broadcastInDim_apply _ bcast_S_S2300000 y i (idx_main_v38 i) (fun a => a.elim0)
def val_main_v39 : (⟨S2300000, .i32⟩ : BufTy).Contents (Elt F) :=
  addi (val_main_v17 (F := F) x0) (val_main_v38 (F := F))
theorem val_main_v39_apply (i : S2300000.Idx) :
    val_main_v39 (F := F) x0 i = IntOp.addi (val_main_v17 (F := F) x0 i) (val_main_v38 (F := F) i) := rfl
def val_main_v40 : (⟨S2300000, .i32⟩ : BufTy).Contents (Elt F) :=
  select (val_main_v37 (F := F) x0) (val_main_v39 (F := F) x0) (val_main_v17 (F := F) x0)
theorem val_main_v40_apply (i : S2300000.Idx) :
    val_main_v40 (F := F) x0 i = Scalar.select (val_main_v37 (F := F) x0 i) (val_main_v39 (F := F) x0 i) (val_main_v17 (F := F) x0 i) := rfl
def val_main_v41 : (⟨S2300000x1, .i32⟩ : BufTy).Contents (Elt F) :=
  broadcastInDim S2300000x1 ![0] bcast_S2300000_S2300000x1_0 (val_main_v40 (F := F) x0)
abbrev idx_main_v41 (i : S2300000x1.Idx) : S2300000.Idx := fun a => match a with
  | ⟨0, _⟩ => ⟨(i 0).val, (i 0).isLt⟩
theorem val_main_v41_apply (i : S2300000x1.Idx) :
    val_main_v41 (F := F) x0 i = val_main_v40 (F := F) x0 (idx_main_v41 i) := by
  unfold val_main_v41
  generalize val_main_v40 (F := F) x0 = y
  exact broadcastInDim_apply _ bcast_S2300000_S2300000x1_0 y i (idx_main_v41 i) (fun a => match a with
    | ⟨0, _⟩ => by show (i 0).val = if (2300000 : Nat) = 1 then 0 else (i 0).val; rw [if_neg (by decide)])
def val_main_v42 : (⟨S2300000, .f32⟩ : BufTy).Contents (Elt F) :=
  Host.gather gather_S300000_S2300000x1_S2300000_n_0_n_n_0_1_1 (val_main_v28 (F := F) x0) (val_main_v41 (F := F) x0)
def val_main_v43 : (⟨S2300000, .f32⟩ : BufTy).Contents (Elt F) :=
  mulf (val_main_v35 (F := F) x0) (val_main_v42 (F := F) x0)
theorem val_main_v43_apply (i : S2300000.Idx) :
    val_main_v43 (F := F) x0 i = FloatOps.mulf (val_main_v35 (F := F) x0 i) (val_main_v42 (F := F) x0 i) := rfl
def val_main_c_7 : (⟨S_, .i32⟩ : BufTy).Contents (Elt F) :=
  constantI S_ 32 0#32
def val_main_v44 : (⟨S2300000, .i32⟩ : BufTy).Contents (Elt F) :=
  broadcastInDim S2300000 ![] bcast_S_S2300000 (val_main_c_7 (F := F))
def val_main_v45 : (⟨S2300000, .i1⟩ : BufTy).Contents (Elt F) :=
  cmpi .slt (val_main_v16 (F := F) x0) (val_main_v44 (F := F))
def val_main_c_8 : (⟨S_, .i32⟩ : BufTy).Contents (Elt F) :=
  constantI S_ 32 300000#32
def val_main_v46 : (⟨S2300000, .i32⟩ : BufTy).Contents (Elt F) :=
  broadcastInDim S2300000 ![] bcast_S_S2300000 (val_main_c_8 (F := F))
def val_main_v47 : (⟨S2300000, .i32⟩ : BufTy).Contents (Elt F) :=
  addi (val_main_v16 (F := F) x0) (val_main_v46 (F := F))
def val_main_v48 : (⟨S2300000, .i32⟩ : BufTy).Contents (Elt F) :=
  select (val_main_v45 (F := F) x0) (val_main_v47 (F := F) x0) (val_main_v16 (F := F) x0)
def val_main_v49 : (⟨S2300000x1, .i32⟩ : BufTy).Contents (Elt F) :=
  broadcastInDim S2300000x1 ![0] bcast_S2300000_S2300000x1_0 (val_main_v48 (F := F) x0)
def val_main_v50 : (⟨S2300000x64, .f32⟩ : BufTy).Contents (Elt F) :=
  Host.gather gather_S300000x64_S2300000x1_S2300000x64_1_0_n_n_0_1_164 (val_main_v18 (F := F) x1 x2 x3 x4 x5 x6 x7 x8 x9) (val_main_v49 (F := F) x0)
def val_main_v51 : (⟨S2300000x1, .f32⟩ : BufTy).Contents (Elt F) :=
  broadcastInDim S2300000x1 ![0] bcast_S2300000_S2300000x1_0 (val_main_v43 (F := F) x0)
abbrev idx_main_v51 (i : S2300000x1.Idx) : S2300000.Idx := fun a => match a with
  | ⟨0, _⟩ => ⟨(i 0).val, (i 0).isLt⟩
theorem val_main_v51_apply (i : S2300000x1.Idx) :
    val_main_v51 (F := F) x0 i = val_main_v43 (F := F) x0 (idx_main_v51 i) := by
  unfold val_main_v51
  generalize val_main_v43 (F := F) x0 = y
  exact broadcastInDim_apply _ bcast_S2300000_S2300000x1_0 y i (idx_main_v51 i) (fun a => match a with
    | ⟨0, _⟩ => by show (i 0).val = if (2300000 : Nat) = 1 then 0 else (i 0).val; rw [if_neg (by decide)])
def val_main_v52 : (⟨S2300000x64, .f32⟩ : BufTy).Contents (Elt F) :=
  broadcastInDim S2300000x64 ![0, 1] bcast_S2300000x1_S2300000x64_0_1 (val_main_v51 (F := F) x0)
abbrev idx_main_v52 (i : S2300000x64.Idx) : S2300000x1.Idx := fun a => match a with
  | ⟨0, _⟩ => ⟨(i 0).val, (i 0).isLt⟩
  | ⟨1, _⟩ => ⟨0, Nat.one_pos⟩
theorem val_main_v52_apply (i : S2300000x64.Idx) :
    val_main_v52 (F := F) x0 i = val_main_v51 (F := F) x0 (idx_main_v52 i) := by
  unfold val_main_v52
  generalize val_main_v51 (F := F) x0 = y
  exact broadcastInDim_apply _ bcast_S2300000x1_S2300000x64_0_1 y i (idx_main_v52 i) (fun a => match a with
    | ⟨0, _⟩ => by show (i 0).val = if (2300000 : Nat) = 1 then 0 else (i 0).val; rw [if_neg (by decide)]
    | ⟨1, _⟩ => by show 0 = if (1 : Nat) = 1 then 0 else (i 1).val; rw [if_pos rfl])
def val_main_v53 : (⟨S2300000x64, .f32⟩ : BufTy).Contents (Elt F) :=
  mulf (val_main_v50 (F := F) x0 x1 x2 x3 x4 x5 x6 x7 x8 x9) (val_main_v52 (F := F) x0)
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl
def val_main_v54 : (⟨S300000x64, .f32⟩ : BufTy).Contents (Elt F) :=
  broadcastInDim S300000x64 ![] bcast_S_S300000x64 (val_main_cst_9 (F := F))
abbrev idx_main_v54 (i : S300000x64.Idx) : S_.Idx := fun a => a.elim0
theorem val_main_v54_apply (i : S300000x64.Idx) :
    val_main_v54 (F := F) i = val_main_cst_9 (F := F) (idx_main_v54 i) := by
  unfold val_main_v54
  generalize val_main_cst_9 (F := F) = y
  exact broadcastInDim_apply _ bcast_S_S300000x64 y i (idx_main_v54 i) (fun a => a.elim0)
def val_main_v55 : (⟨S2300000x1, .i32⟩ : BufTy).Contents (Elt F) :=
  broadcastInDim S2300000x1 ![0] bcast_S2300000_S2300000x1_0 (val_main_v17 (F := F) x0)
abbrev idx_main_v55 (i : S2300000x1.Idx) : S2300000.Idx := fun a => match a with
  | ⟨0, _⟩ => ⟨(i 0).val, (i 0).isLt⟩
theorem val_main_v55_apply (i : S2300000x1.Idx) :
    val_main_v55 (F := F) x0 i = val_main_v17 (F := F) x0 (idx_main_v55 i) := by
  unfold val_main_v55
  generalize val_main_v17 (F := F) x0 = y
  exact broadcastInDim_apply _ bcast_S2300000_S2300000x1_0 y i (idx_main_v55 i) (fun a => match a with
    | ⟨0, _⟩ => by show (i 0).val = if (2300000 : Nat) = 1 then 0 else (i 0).val; rw [if_neg (by decide)])
def val_main_v56 : (⟨S300000x64, .f32⟩ : BufTy).Contents (Elt F) :=
  Host.scatterAdd scatter_S300000x64_S2300000x1_S2300000x64_1_0_0_1 (val_main_v54 (F := F)) (val_main_v55 (F := F) x0) (val_main_v53 (F := F) x0 x1 x2 x3 x4 x5 x6 x7 x8 x9)
def val_main_v57 : (⟨S1x64, .f32⟩ : BufTy).Contents (Elt F) :=
  broadcastInDim S1x64 ![1] bcast_S64_S1x64_1 (x10)
abbrev idx_main_v57 (i : S1x64.Idx) : S64.Idx := fun a => match a with
  | ⟨0, _⟩ => ⟨(i 1).val, (i 1).isLt⟩
theorem val_main_v57_apply (i : S1x64.Idx) :
    val_main_v57 (F := F) x10 i = x10 (idx_main_v57 i) := by
  unfold val_main_v57
  exact broadcastInDim_apply _ bcast_S64_S1x64_1 x10 i (idx_main_v57 i) (fun a => match a with
    | ⟨0, _⟩ => by show (i 1).val = if (64 : Nat) = 1 then 0 else (i 1).val; rw [if_neg (by decide)])
def val_main_v58 : (⟨S300000x64, .f32⟩ : BufTy).Contents (Elt F) :=
  broadcastInDim S300000x64 ![0, 1] bcast_S1x64_S300000x64_0_1 (val_main_v57 (F := F) x10)
abbrev idx_main_v58 (i : S300000x64.Idx) : S1x64.Idx := fun a => match a with
  | ⟨0, _⟩ => ⟨0, Nat.one_pos⟩
  | ⟨1, _⟩ => ⟨(i 1).val, (i 1).isLt⟩
theorem val_main_v58_apply (i : S300000x64.Idx) :
    val_main_v58 (F := F) x10 i = val_main_v57 (F := F) x10 (idx_main_v58 i) := by
  unfold val_main_v58
  generalize val_main_v57 (F := F) x10 = y
  exact broadcastInDim_apply _ bcast_S1x64_S300000x64_0_1 y i (idx_main_v58 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])
def val_main_v59 : (⟨S300000x64, .f32⟩ : BufTy).Contents (Elt F) :=
  addf (val_main_v56 (F := F) x0 x1 x2 x3 x4 x5 x6 x7 x8 x9) (val_main_v58 (F := F) x10)
theorem val_main_v59_apply (i : S300000x64.Idx) :
    val_main_v59 (F := F) x0 x1 x2 x3 x4 x5 x6 x7 x8 x9 x10 i = FloatOps.addf (val_main_v56 (F := F) x0 x1 x2 x3 x4 x5 x6 x7 x8 x9 i) (val_main_v58 (F := F) x10 i) := rfl
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl
def val_main_call1_v0 : (⟨S300000x64, .f32⟩ : BufTy).Contents (Elt F) :=
  broadcastInDim S300000x64 ![] bcast_S_S300000x64 (val_main_call1_cst (F := F))
abbrev idx_main_call1_v0 (i : S300000x64.Idx) : S_.Idx := fun a => a.elim0
theorem val_main_call1_v0_apply (i : S300000x64.Idx) :
    val_main_call1_v0 (F := F) i = val_main_call1_cst (F := F) (idx_main_call1_v0 i) := by
  unfold val_main_call1_v0
  generalize val_main_call1_cst (F := F) = y
  exact broadcastInDim_apply _ bcast_S_S300000x64 y i (idx_main_call1_v0 i) (fun a => a.elim0)
def val_main_v60 : (⟨S300000x64, .f32⟩ : BufTy).Contents (Elt F) :=
  maximumf (val_main_v59 (F := F) x0 x1 x2 x3 x4 x5 x6 x7 x8 x9 x10) (val_main_call1_v0 (F := F))
theorem val_main_v60_apply (i : S300000x64.Idx) :
    val_main_v60 (F := F) x0 x1 x2 x3 x4 x5 x6 x7 x8 x9 x10 i = FloatOps.maximumf (val_main_v59 (F := F) x0 x1 x2 x3 x4 x5 x6 x7 x8 x9 x10 i) (val_main_call1_v0 (F := F) i) := rfl
def val_main_v61 : (⟨S300000x64, .f32⟩ : BufTy).Contents (Elt F) :=
  Host.dotGeneral dot_S300000x64_S64x64_S300000x64_1_0_0_1_n_n none (val_main_v60 (F := F) x0 x1 x2 x3 x4 x5 x6 x7 x8 x9 x10) (x11)
theorem lhs_main_v61_0 (i : S300000x64.Idx) (q : dot_S300000x64_S64x64_S300000x64_1_0_0_1_n_n.contr.Idx) :
    (dot_S300000x64_S64x64_S300000x64_1_0_0_1_n_n.lhsIdx i q 0).val = (i 0).val := by
  unfold DotDims.lhsIdx
  rw [dif_neg (show ¬(0 : Fin S300000x64.rank) ∈ dot_S300000x64_S64x64_S300000x64_1_0_0_1_n_n.lhsBatch by decide), dif_pos (show (0 : Fin S300000x64.rank) ∈ dot_S300000x64_S64x64_S300000x64_1_0_0_1_n_n.lhsNonContracting by decide)]
  rfl
theorem lhs_main_v61_1 (i : S300000x64.Idx) (q : dot_S300000x64_S64x64_S300000x64_1_0_0_1_n_n.contr.Idx) :
    (dot_S300000x64_S64x64_S300000x64_1_0_0_1_n_n.lhsIdx i q 1).val = (q ⟨0, by decide⟩).val :=
  dot_S300000x64_S64x64_S300000x64_1_0_0_1_n_n.lhsIdx_val_of_single rfl i q
theorem rhs_main_v61_0 (i : S300000x64.Idx) (q : dot_S300000x64_S64x64_S300000x64_1_0_0_1_n_n.contr.Idx) :
    (dot_S300000x64_S64x64_S300000x64_1_0_0_1_n_n.rhsIdx i q 0).val = (q ⟨0, by decide⟩).val :=
  dot_S300000x64_S64x64_S300000x64_1_0_0_1_n_n.rhsIdx_val_of_single rfl i q
theorem rhs_main_v61_1 (i : S300000x64.Idx) (q : dot_S300000x64_S64x64_S300000x64_1_0_0_1_n_n.contr.Idx) :
    (dot_S300000x64_S64x64_S300000x64_1_0_0_1_n_n.rhsIdx i q 1).val = (i 1).val := by
  unfold DotDims.rhsIdx
  rw [dif_neg (show ¬(1 : Fin S64x64.rank) ∈ dot_S300000x64_S64x64_S300000x64_1_0_0_1_n_n.rhsBatch by decide), dif_pos (show (1 : Fin S64x64.rank) ∈ dot_S300000x64_S64x64_S300000x64_1_0_0_1_n_n.rhsNonContracting by decide)]
  rfl
abbrev lidx_main_v61 (i : S300000x64.Idx) (k : Fin 64) : S300000x64.Idx := fun a => match a with
  | ⟨0, _⟩ => ⟨(i 0).val, (i 0).isLt⟩
  | ⟨1, _⟩ => ⟨k.val, k.isLt⟩
abbrev ridx_main_v61 (i : S300000x64.Idx) (k : Fin 64) : S64x64.Idx := fun a => match a with
  | ⟨0, _⟩ => ⟨k.val, k.isLt⟩
  | ⟨1, _⟩ => ⟨(i 1).val, (i 1).isLt⟩
theorem val_main_v61_apply (x0 : (⟨S2x1000000, .i32⟩ : BufTy).Contents (Elt Ideal)) (x1 : (⟨S200000x128, .f32⟩ : BufTy).Contents (Elt Ideal)) (x2 : (⟨S100000x128, .f32⟩ : BufTy).Contents (Elt Ideal)) (x3 : (⟨S200000x64, .f32⟩ : BufTy).Contents (Elt Ideal)) (x4 : (⟨S100000x64, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (i : S300000x64.Idx) :
    val_main_v61 (F := Ideal) x0 x1 x2 x3 x4 x5 x6 x7 x8 x9 x10 x11 i = ∑ k : Fin 64, (val_main_v60 (F := Ideal) x0 x1 x2 x3 x4 x5 x6 x7 x8 x9 x10) (lidx_main_v61 i k) * x11 (ridx_main_v61 i k) := by
  unfold val_main_v61
  generalize val_main_v60 (F := Ideal) x0 x1 x2 x3 x4 x5 x6 x7 x8 x9 x10 = y0
  simp only [Host.dotGeneral]
  rw [Ideal.dotGeneral_apply, ← Equiv.sum_comp (ValueIdx.contrEquiv1 dot_S300000x64_S64x64_S300000x64_1_0_0_1_n_n 64 rfl rfl).symm]
  refine Finset.sum_congr rfl fun k _ => ?_
  have hk := ValueIdx.contrEquiv1_symm_val dot_S300000x64_S64x64_S300000x64_1_0_0_1_n_n 64 rfl rfl k
  have el : dot_S300000x64_S64x64_S300000x64_1_0_0_1_n_n.lhsIdx i ((ValueIdx.contrEquiv1 dot_S300000x64_S64x64_S300000x64_1_0_0_1_n_n 64 rfl rfl).symm k) = lidx_main_v61 i k := funext fun a => Fin.ext (by
    match a with
    | ⟨0, _⟩ => exact lhs_main_v61_0 _ _
    | ⟨1, _⟩ => exact (lhs_main_v61_1 _ _).trans hk)
  have er : dot_S300000x64_S64x64_S300000x64_1_0_0_1_n_n.rhsIdx i ((ValueIdx.contrEquiv1 dot_S300000x64_S64x64_S300000x64_1_0_0_1_n_n 64 rfl rfl).symm k) = ridx_main_v61 i k := funext fun a => Fin.ext (by
    match a with
    | ⟨0, _⟩ => exact (rhs_main_v61_0 _ _).trans hk
    | ⟨1, _⟩ => exact rhs_main_v61_1 _ _)
  rw [el, er]
def val_main_cst_10 : (⟨S_, .f32⟩ : BufTy).Contents (Elt F) :=
  constant S_ .f32 0x3F800000#32
def val_main_v62 : (⟨S2300000, .f32⟩ : BufTy).Contents (Elt F) :=
  broadcastInDim S2300000 ![] bcast_S_S2300000 (val_main_cst_10 (F := F))
def val_main_cst_11 : (⟨S_, .f32⟩ : BufTy).Contents (Elt F) :=
  constant S_ .f32 0x00000000#32
def val_main_v63 : (⟨S300000, .f32⟩ : BufTy).Contents (Elt F) :=
  broadcastInDim S300000 ![] bcast_S_S300000 (val_main_cst_11 (F := F))
def val_main_v64 : (⟨S2300000x1, .i32⟩ : BufTy).Contents (Elt F) :=
  broadcastInDim S2300000x1 ![0] bcast_S2300000_S2300000x1_0 (val_main_v17 (F := F) x0)
def val_main_v65 : (⟨S300000, .f32⟩ : BufTy).Contents (Elt F) :=
  Host.scatterAdd scatter_S300000_S2300000x1_S2300000_n_0_0_1 (val_main_v63 (F := F)) (val_main_v64 (F := F) x0) (val_main_v62 (F := F))
def val_main_cst_12 : (⟨S_, .f32⟩ : BufTy).Contents (Elt F) :=
  constant S_ .f32 0x00000000#32
def val_main_v66 : (⟨S300000, .f32⟩ : BufTy).Contents (Elt F) :=
  broadcastInDim S300000 ![] bcast_S_S300000 (val_main_cst_12 (F := F))
def val_main_v67 : (⟨S300000, .i1⟩ : BufTy).Contents (Elt F) :=
  cmpf .ogt (val_main_v65 (F := F) x0) (val_main_v66 (F := F))
def val_main_cst_13 : (⟨S_, .f32⟩ : BufTy).Contents (Elt F) :=
  constant S_ .f32 0x3F800000#32
def val_main_v68 : (⟨S300000, .f32⟩ : BufTy).Contents (Elt F) :=
  broadcastInDim S300000 ![] bcast_S_S300000 (val_main_cst_13 (F := F))
def val_main_v69 : (⟨S300000, .f32⟩ : BufTy).Contents (Elt F) :=
  maximumf (val_main_v65 (F := F) x0) (val_main_v68 (F := F))
def val_main_v70 : (⟨S300000, .f32⟩ : BufTy).Contents (Elt F) :=
  Host.rsqrt (val_main_v69 (F := F) x0)
def val_main_cst_14 : (⟨S_, .f32⟩ : BufTy).Contents (Elt F) :=
  constant S_ .f32 0x00000000#32
def val_main_call2_v0 : (⟨S_, .f32⟩ : BufTy).Contents (Elt F) :=
  id (val_main_cst_14 (F := F))
def val_main_call2_v1 : (⟨S300000, .f32⟩ : BufTy).Contents (Elt F) :=
  broadcastInDim S300000 ![] bcast_S_S300000 (val_main_call2_v0 (F := F))
def val_main_v71 : (⟨S300000, .f32⟩ : BufTy).Contents (Elt F) :=
  select (val_main_v67 (F := F) x0) (val_main_v70 (F := F) x0) (val_main_call2_v1 (F := F))
def val_main_c_15 : (⟨S_, .i32⟩ : BufTy).Contents (Elt F) :=
  constantI S_ 32 0#32
def val_main_v72 : (⟨S2300000, .i32⟩ : BufTy).Contents (Elt F) :=
  broadcastInDim S2300000 ![] bcast_S_S2300000 (val_main_c_15 (F := F))
def val_main_v73 : (⟨S2300000, .i1⟩ : BufTy).Contents (Elt F) :=
  cmpi .slt (val_main_v16 (F := F) x0) (val_main_v72 (F := F))
def val_main_c_16 : (⟨S_, .i32⟩ : BufTy).Contents (Elt F) :=
  constantI S_ 32 300000#32
def val_main_v74 : (⟨S2300000, .i32⟩ : BufTy).Contents (Elt F) :=
  broadcastInDim S2300000 ![] bcast_S_S2300000 (val_main_c_16 (F := F))
def val_main_v75 : (⟨S2300000, .i32⟩ : BufTy).Contents (Elt F) :=
  addi (val_main_v16 (F := F) x0) (val_main_v74 (F := F))
def val_main_v76 : (⟨S2300000, .i32⟩ : BufTy).Contents (Elt F) :=
  select (val_main_v73 (F := F) x0) (val_main_v75 (F := F) x0) (val_main_v16 (F := F) x0)
def val_main_v77 : (⟨S2300000x1, .i32⟩ : BufTy).Contents (Elt F) :=
  broadcastInDim S2300000x1 ![0] bcast_S2300000_S2300000x1_0 (val_main_v76 (F := F) x0)
def val_main_v78 : (⟨S2300000, .f32⟩ : BufTy).Contents (Elt F) :=
  Host.gather gather_S300000_S2300000x1_S2300000_n_0_n_n_0_1_1 (val_main_v71 (F := F) x0) (val_main_v77 (F := F) x0)
def val_main_c_17 : (⟨S_, .i32⟩ : BufTy).Contents (Elt F) :=
  constantI S_ 32 0#32
def val_main_v79 : (⟨S2300000, .i32⟩ : BufTy).Contents (Elt F) :=
  broadcastInDim S2300000 ![] bcast_S_S2300000 (val_main_c_17 (F := F))
def val_main_v80 : (⟨S2300000, .i1⟩ : BufTy).Contents (Elt F) :=
  cmpi .slt (val_main_v17 (F := F) x0) (val_main_v79 (F := F))
def val_main_c_18 : (⟨S_, .i32⟩ : BufTy).Contents (Elt F) :=
  constantI S_ 32 300000#32
def val_main_v81 : (⟨S2300000, .i32⟩ : BufTy).Contents (Elt F) :=
  broadcastInDim S2300000 ![] bcast_S_S2300000 (val_main_c_18 (F := F))
def val_main_v82 : (⟨S2300000, .i32⟩ : BufTy).Contents (Elt F) :=
  addi (val_main_v17 (F := F) x0) (val_main_v81 (F := F))
def val_main_v83 : (⟨S2300000, .i32⟩ : BufTy).Contents (Elt F) :=
  select (val_main_v80 (F := F) x0) (val_main_v82 (F := F) x0) (val_main_v17 (F := F) x0)
def val_main_v84 : (⟨S2300000x1, .i32⟩ : BufTy).Contents (Elt F) :=
  broadcastInDim S2300000x1 ![0] bcast_S2300000_S2300000x1_0 (val_main_v83 (F := F) x0)
def val_main_v85 : (⟨S2300000, .f32⟩ : BufTy).Contents (Elt F) :=
  Host.gather gather_S300000_S2300000x1_S2300000_n_0_n_n_0_1_1 (val_main_v71 (F := F) x0) (val_main_v84 (F := F) x0)
def val_main_v86 : (⟨S2300000, .f32⟩ : BufTy).Contents (Elt F) :=
  mulf (val_main_v78 (F := F) x0) (val_main_v85 (F := F) x0)
theorem val_main_v86_apply (i : S2300000.Idx) :
    val_main_v86 (F := F) x0 i = FloatOps.mulf (val_main_v78 (F := F) x0 i) (val_main_v85 (F := F) x0 i) := rfl
def val_main_c_19 : (⟨S_, .i32⟩ : BufTy).Contents (Elt F) :=
  constantI S_ 32 0#32
def val_main_v87 : (⟨S2300000, .i32⟩ : BufTy).Contents (Elt F) :=
  broadcastInDim S2300000 ![] bcast_S_S2300000 (val_main_c_19 (F := F))
def val_main_v88 : (⟨S2300000, .i1⟩ : BufTy).Contents (Elt F) :=
  cmpi .slt (val_main_v16 (F := F) x0) (val_main_v87 (F := F))
def val_main_c_20 : (⟨S_, .i32⟩ : BufTy).Contents (Elt F) :=
  constantI S_ 32 300000#32
def val_main_v89 : (⟨S2300000, .i32⟩ : BufTy).Contents (Elt F) :=
  broadcastInDim S2300000 ![] bcast_S_S2300000 (val_main_c_20 (F := F))
def val_main_v90 : (⟨S2300000, .i32⟩ : BufTy).Contents (Elt F) :=
  addi (val_main_v16 (F := F) x0) (val_main_v89 (F := F))
def val_main_v91 : (⟨S2300000, .i32⟩ : BufTy).Contents (Elt F) :=
  select (val_main_v88 (F := F) x0) (val_main_v90 (F := F) x0) (val_main_v16 (F := F) x0)
def val_main_v92 : (⟨S2300000x1, .i32⟩ : BufTy).Contents (Elt F) :=
  broadcastInDim S2300000x1 ![0] bcast_S2300000_S2300000x1_0 (val_main_v91 (F := F) x0)
def val_main_v93 : (⟨S2300000x64, .f32⟩ : BufTy).Contents (Elt F) :=
  Host.gather gather_S300000x64_S2300000x1_S2300000x64_1_0_n_n_0_1_164 (val_main_v61 (F := F) x0 x1 x2 x3 x4 x5 x6 x7 x8 x9 x10 x11) (val_main_v92 (F := F) x0)
def val_main_v94 : (⟨S2300000x1, .f32⟩ : BufTy).Contents (Elt F) :=
  broadcastInDim S2300000x1 ![0] bcast_S2300000_S2300000x1_0 (val_main_v86 (F := F) x0)
abbrev idx_main_v94 (i : S2300000x1.Idx) : S2300000.Idx := fun a => match a with
  | ⟨0, _⟩ => ⟨(i 0).val, (i 0).isLt⟩
theorem val_main_v94_apply (i : S2300000x1.Idx) :
    val_main_v94 (F := F) x0 i = val_main_v86 (F := F) x0 (idx_main_v94 i) := by
  unfold val_main_v94
  generalize val_main_v86 (F := F) x0 = y
  exact broadcastInDim_apply _ bcast_S2300000_S2300000x1_0 y i (idx_main_v94 i) (fun a => match a with
    | ⟨0, _⟩ => by show (i 0).val = if (2300000 : Nat) = 1 then 0 else (i 0).val; rw [if_neg (by decide)])
def val_main_v95 : (⟨S2300000x64, .f32⟩ : BufTy).Contents (Elt F) :=
  broadcastInDim S2300000x64 ![0, 1] bcast_S2300000x1_S2300000x64_0_1 (val_main_v94 (F := F) x0)
abbrev idx_main_v95 (i : S2300000x64.Idx) : S2300000x1.Idx := fun a => match a with
  | ⟨0, _⟩ => ⟨(i 0).val, (i 0).isLt⟩
  | ⟨1, _⟩ => ⟨0, Nat.one_pos⟩
theorem val_main_v95_apply (i : S2300000x64.Idx) :
    val_main_v95 (F := F) x0 i = val_main_v94 (F := F) x0 (idx_main_v95 i) := by
  unfold val_main_v95
  generalize val_main_v94 (F := F) x0 = y
  exact broadcastInDim_apply _ bcast_S2300000x1_S2300000x64_0_1 y i (idx_main_v95 i) (fun a => match a with
    | ⟨0, _⟩ => by show (i 0).val = if (2300000 : Nat) = 1 then 0 else (i 0).val; rw [if_neg (by decide)]
    | ⟨1, _⟩ => by show 0 = if (1 : Nat) = 1 then 0 else (i 1).val; rw [if_pos rfl])
def val_main_v96 : (⟨S2300000x64, .f32⟩ : BufTy).Contents (Elt F) :=
  mulf (val_main_v93 (F := F) x0 x1 x2 x3 x4 x5 x6 x7 x8 x9 x10 x11) (val_main_v95 (F := F) x0)
def val_main_cst_21 : (⟨S_, .f32⟩ : BufTy).Contents (Elt F) :=
  constant S_ .f32 0x00000000#32
theorem val_main_cst_21_apply (i : S_.Idx) :
    val_main_cst_21 (F := F) i = FloatOps.ofBits .f32 0x00000000#32 := rfl
def val_main_v97 : (⟨S300000x64, .f32⟩ : BufTy).Contents (Elt F) :=
  broadcastInDim S300000x64 ![] bcast_S_S300000x64 (val_main_cst_21 (F := F))
abbrev idx_main_v97 (i : S300000x64.Idx) : S_.Idx := fun a => a.elim0
theorem val_main_v97_apply (i : S300000x64.Idx) :
    val_main_v97 (F := F) i = val_main_cst_21 (F := F) (idx_main_v97 i) := by
  unfold val_main_v97
  generalize val_main_cst_21 (F := F) = y
  exact broadcastInDim_apply _ bcast_S_S300000x64 y i (idx_main_v97 i) (fun a => a.elim0)
def val_main_v98 : (⟨S2300000x1, .i32⟩ : BufTy).Contents (Elt F) :=
  broadcastInDim S2300000x1 ![0] bcast_S2300000_S2300000x1_0 (val_main_v17 (F := F) x0)
def val_main_v99 : (⟨S300000x64, .f32⟩ : BufTy).Contents (Elt F) :=
  Host.scatterAdd scatter_S300000x64_S2300000x1_S2300000x64_1_0_0_1 (val_main_v97 (F := F)) (val_main_v98 (F := F) x0) (val_main_v96 (F := F) x0 x1 x2 x3 x4 x5 x6 x7 x8 x9 x10 x11)
def val_main_v100 : (⟨S1x64, .f32⟩ : BufTy).Contents (Elt F) :=
  broadcastInDim S1x64 ![1] bcast_S64_S1x64_1 (x12)
abbrev idx_main_v100 (i : S1x64.Idx) : S64.Idx := fun a => match a with
  | ⟨0, _⟩ => ⟨(i 1).val, (i 1).isLt⟩
theorem val_main_v100_apply (i : S1x64.Idx) :
    val_main_v100 (F := F) x12 i = x12 (idx_main_v100 i) := by
  unfold val_main_v100
  exact broadcastInDim_apply _ bcast_S64_S1x64_1 x12 i (idx_main_v100 i) (fun a => match a with
    | ⟨0, _⟩ => by show (i 1).val = if (64 : Nat) = 1 then 0 else (i 1).val; rw [if_neg (by decide)])
def val_main_v101 : (⟨S300000x64, .f32⟩ : BufTy).Contents (Elt F) :=
  broadcastInDim S300000x64 ![0, 1] bcast_S1x64_S300000x64_0_1 (val_main_v100 (F := F) x12)
abbrev idx_main_v101 (i : S300000x64.Idx) : S1x64.Idx := fun a => match a with
  | ⟨0, _⟩ => ⟨0, Nat.one_pos⟩
  | ⟨1, _⟩ => ⟨(i 1).val, (i 1).isLt⟩
theorem val_main_v101_apply (i : S300000x64.Idx) :
    val_main_v101 (F := F) x12 i = val_main_v100 (F := F) x12 (idx_main_v101 i) := by
  unfold val_main_v101
  generalize val_main_v100 (F := F) x12 = y
  exact broadcastInDim_apply _ bcast_S1x64_S300000x64_0_1 y i (idx_main_v101 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])
def val_main_v102 : (⟨S300000x64, .f32⟩ : BufTy).Contents (Elt F) :=
  addf (val_main_v99 (F := F) x0 x1 x2 x3 x4 x5 x6 x7 x8 x9 x10 x11) (val_main_v101 (F := F) x12)
theorem val_main_v102_apply (i : S300000x64.Idx) :
    val_main_v102 (F := F) x0 x1 x2 x3 x4 x5 x6 x7 x8 x9 x10 x11 x12 i = FloatOps.addf (val_main_v99 (F := F) x0 x1 x2 x3 x4 x5 x6 x7 x8 x9 x10 x11 i) (val_main_v101 (F := F) x12 i) := rfl
def val_main_v103 : (⟨S200000x64, .f32⟩ : BufTy).Contents (Elt F) :=
  extractStridedSlice S200000x64 ![0, 0] (val_main_v102 (F := F) x0 x1 x2 x3 x4 x5 x6 x7 x8 x9 x10 x11 x12) slices_S300000x64_S200000x64_0_0
abbrev idx_main_v103 (i : S200000x64.Idx) : S300000x64.Idx := fun a => match a with
  | ⟨0, _⟩ => ⟨(i 0).val, by have h0 : (i 0).val < 200000 := (i 0).isLt; show (i 0).val < 300000; omega⟩
  | ⟨1, _⟩ => ⟨(i 1).val, (i 1).isLt⟩
theorem val_main_v103_apply (i : S200000x64.Idx) :
    val_main_v103 (F := F) x0 x1 x2 x3 x4 x5 x6 x7 x8 x9 x10 x11 x12 i = val_main_v102 (F := F) x0 x1 x2 x3 x4 x5 x6 x7 x8 x9 x10 x11 x12 (idx_main_v103 i) := by
  unfold val_main_v103
  generalize val_main_v102 (F := F) x0 x1 x2 x3 x4 x5 x6 x7 x8 x9 x10 x11 x12 = y
  exact extractStridedSlice_apply ![0, 0] y slices_S300000x64_S200000x64_0_0 i (idx_main_v103 i) (fun a => match a with
    | ⟨0, _⟩ => by show (i 0).val = 0 + (i 0).val; omega
    | ⟨1, _⟩ => by show (i 1).val = 0 + (i 1).val; omega)
def val_main_c_22 : (⟨S_, .i32⟩ : BufTy).Contents (Elt F) :=
  constantI S_ 32 0#32
def val_main_v104 : (⟨S1000000, .i32⟩ : BufTy).Contents (Elt F) :=
  broadcastInDim S1000000 ![] bcast_S_S1000000 (val_main_c_22 (F := F))
def val_main_v105 : (⟨S1000000, .i1⟩ : BufTy).Contents (Elt F) :=
  cmpi .slt (val_main_v1 (F := F) x0) (val_main_v104 (F := F))
def val_main_c_23 : (⟨S_, .i32⟩ : BufTy).Contents (Elt F) :=
  constantI S_ 32 200000#32
def val_main_v106 : (⟨S1000000, .i32⟩ : BufTy).Contents (Elt F) :=
  broadcastInDim S1000000 ![] bcast_S_S1000000 (val_main_c_23 (F := F))
def val_main_v107 : (⟨S1000000, .i32⟩ : BufTy).Contents (Elt F) :=
  addi (val_main_v1 (F := F) x0) (val_main_v106 (F := F))
def val_main_v108 : (⟨S1000000, .i32⟩ : BufTy).Contents (Elt F) :=
  select (val_main_v105 (F := F) x0) (val_main_v107 (F := F) x0) (val_main_v1 (F := F) x0)
def val_main_v109 : (⟨S1000000x1, .i32⟩ : BufTy).Contents (Elt F) :=
  broadcastInDim S1000000x1 ![0] bcast_S1000000_S1000000x1_0 (val_main_v108 (F := F) x0)
def val_main_v110 : (⟨S1000000x64, .f32⟩ : BufTy).Contents (Elt F) :=
  Host.gather gather_S200000x64_S1000000x1_S1000000x64_1_0_n_n_0_1_164 (val_main_v103 (F := F) x0 x1 x2 x3 x4 x5 x6 x7 x8 x9 x10 x11 x12) (val_main_v109 (F := F) x0)
def val_main_v111 : (⟨S100000x64, .f32⟩ : BufTy).Contents (Elt F) :=
  extractStridedSlice S100000x64 ![200000, 0] (val_main_v102 (F := F) x0 x1 x2 x3 x4 x5 x6 x7 x8 x9 x10 x11 x12) slices_S300000x64_S100000x64_200000_0
abbrev idx_main_v111 (i : S100000x64.Idx) : S300000x64.Idx := fun a => match a with
  | ⟨0, _⟩ => ⟨200000 + (i 0).val, by have h0 : (i 0).val < 100000 := (i 0).isLt; show 200000 + (i 0).val < 300000; omega⟩
  | ⟨1, _⟩ => ⟨(i 1).val, (i 1).isLt⟩
theorem val_main_v111_apply (i : S100000x64.Idx) :
    val_main_v111 (F := F) x0 x1 x2 x3 x4 x5 x6 x7 x8 x9 x10 x11 x12 i = val_main_v102 (F := F) x0 x1 x2 x3 x4 x5 x6 x7 x8 x9 x10 x11 x12 (idx_main_v111 i) := by
  unfold val_main_v111
  generalize val_main_v102 (F := F) x0 x1 x2 x3 x4 x5 x6 x7 x8 x9 x10 x11 x12 = y
  exact extractStridedSlice_apply ![200000, 0] y slices_S300000x64_S100000x64_200000_0 i (idx_main_v111 i) (fun a => match a with
    | ⟨0, _⟩ => by show 200000 + (i 0).val = 200000 + (i 0).val; omega
    | ⟨1, _⟩ => by show (i 1).val = 0 + (i 1).val; omega)
def val_main_c_24 : (⟨S_, .i32⟩ : BufTy).Contents (Elt F) :=
  constantI S_ 32 0#32
def val_main_v112 : (⟨S1000000, .i32⟩ : BufTy).Contents (Elt F) :=
  broadcastInDim S1000000 ![] bcast_S_S1000000 (val_main_c_24 (F := F))
def val_main_v113 : (⟨S1000000, .i1⟩ : BufTy).Contents (Elt F) :=
  cmpi .slt (val_main_v3 (F := F) x0) (val_main_v112 (F := F))
def val_main_c_25 : (⟨S_, .i32⟩ : BufTy).Contents (Elt F) :=
  constantI S_ 32 100000#32
def val_main_v114 : (⟨S1000000, .i32⟩ : BufTy).Contents (Elt F) :=
  broadcastInDim S1000000 ![] bcast_S_S1000000 (val_main_c_25 (F := F))
def val_main_v115 : (⟨S1000000, .i32⟩ : BufTy).Contents (Elt F) :=
  addi (val_main_v3 (F := F) x0) (val_main_v114 (F := F))
def val_main_v116 : (⟨S1000000, .i32⟩ : BufTy).Contents (Elt F) :=
  select (val_main_v113 (F := F) x0) (val_main_v115 (F := F) x0) (val_main_v3 (F := F) x0)
def val_main_v117 : (⟨S1000000x1, .i32⟩ : BufTy).Contents (Elt F) :=
  broadcastInDim S1000000x1 ![0] bcast_S1000000_S1000000x1_0 (val_main_v116 (F := F) x0)
def val_main_v118 : (⟨S1000000x64, .f32⟩ : BufTy).Contents (Elt F) :=
  Host.gather gather_S100000x64_S1000000x1_S1000000x64_1_0_n_n_0_1_164 (val_main_v111 (F := F) x0 x1 x2 x3 x4 x5 x6 x7 x8 x9 x10 x11 x12) (val_main_v117 (F := F) x0)
def val_main_v119 : (⟨S1000000x128, .f32⟩ : BufTy).Contents (Elt F) :=
  concatenate S1000000x128 1 [⟨S1000000x64, (val_main_v110 (F := F) x0 x1 x2 x3 x4 x5 x6 x7 x8 x9 x10 x11 x12)⟩, ⟨S1000000x64, (val_main_v118 (F := F) x0 x1 x2 x3 x4 x5 x6 x7 x8 x9 x10 x11 x12)⟩] concatenates_S1000000x64_S1000000x64_S1000000x128_d1
def val_main_v120 : (⟨S1000000x64, .f32⟩ : BufTy).Contents (Elt F) :=
  Host.dotGeneral dot_S1000000x128_S128x64_S1000000x64_1_0_0_1_n_n none (val_main_v119 (F := F) x0 x1 x2 x3 x4 x5 x6 x7 x8 x9 x10 x11 x12) (x13)
theorem lhs_main_v120_0 (i : S1000000x64.Idx) (q : dot_S1000000x128_S128x64_S1000000x64_1_0_0_1_n_n.contr.Idx) :
    (dot_S1000000x128_S128x64_S1000000x64_1_0_0_1_n_n.lhsIdx i q 0).val = (i 0).val := by
  unfold DotDims.lhsIdx
  rw [dif_neg (show ¬(0 : Fin S1000000x128.rank) ∈ dot_S1000000x128_S128x64_S1000000x64_1_0_0_1_n_n.lhsBatch by decide), dif_pos (show (0 : Fin S1000000x128.rank) ∈ dot_S1000000x128_S128x64_S1000000x64_1_0_0_1_n_n.lhsNonContracting by decide)]
  rfl
theorem lhs_main_v120_1 (i : S1000000x64.Idx) (q : dot_S1000000x128_S128x64_S1000000x64_1_0_0_1_n_n.contr.Idx) :
    (dot_S1000000x128_S128x64_S1000000x64_1_0_0_1_n_n.lhsIdx i q 1).val = (q ⟨0, by decide⟩).val :=
  dot_S1000000x128_S128x64_S1000000x64_1_0_0_1_n_n.lhsIdx_val_of_single rfl i q
theorem rhs_main_v120_0 (i : S1000000x64.Idx) (q : dot_S1000000x128_S128x64_S1000000x64_1_0_0_1_n_n.contr.Idx) :
    (dot_S1000000x128_S128x64_S1000000x64_1_0_0_1_n_n.rhsIdx i q 0).val = (q ⟨0, by decide⟩).val :=
  dot_S1000000x128_S128x64_S1000000x64_1_0_0_1_n_n.rhsIdx_val_of_single rfl i q
theorem rhs_main_v120_1 (i : S1000000x64.Idx) (q : dot_S1000000x128_S128x64_S1000000x64_1_0_0_1_n_n.contr.Idx) :
    (dot_S1000000x128_S128x64_S1000000x64_1_0_0_1_n_n.rhsIdx i q 1).val = (i 1).val := by
  unfold DotDims.rhsIdx
  rw [dif_neg (show ¬(1 : Fin S128x64.rank) ∈ dot_S1000000x128_S128x64_S1000000x64_1_0_0_1_n_n.rhsBatch by decide), dif_pos (show (1 : Fin S128x64.rank) ∈ dot_S1000000x128_S128x64_S1000000x64_1_0_0_1_n_n.rhsNonContracting by decide)]
  rfl
abbrev lidx_main_v120 (i : S1000000x64.Idx) (k : Fin 128) : S1000000x128.Idx := fun a => match a with
  | ⟨0, _⟩ => ⟨(i 0).val, (i 0).isLt⟩
  | ⟨1, _⟩ => ⟨k.val, k.isLt⟩
abbrev ridx_main_v120 (i : S1000000x64.Idx) (k : Fin 128) : S128x64.Idx := fun a => match a with
  | ⟨0, _⟩ => ⟨k.val, k.isLt⟩
  | ⟨1, _⟩ => ⟨(i 1).val, (i 1).isLt⟩
theorem val_main_v120_apply (x0 : (⟨S2x1000000, .i32⟩ : BufTy).Contents (Elt Ideal)) (x1 : (⟨S200000x128, .f32⟩ : BufTy).Contents (Elt Ideal)) (x2 : (⟨S100000x128, .f32⟩ : BufTy).Contents (Elt Ideal)) (x3 : (⟨S200000x64, .f32⟩ : BufTy).Contents (Elt Ideal)) (x4 : (⟨S100000x64, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S128x64, .f32⟩ : BufTy).Contents (Elt Ideal)) (i : S1000000x64.Idx) :
    val_main_v120 (F := Ideal) x0 x1 x2 x3 x4 x5 x6 x7 x8 x9 x10 x11 x12 x13 i = ∑ k : Fin 128, (val_main_v119 (F := Ideal) x0 x1 x2 x3 x4 x5 x6 x7 x8 x9 x10 x11 x12) (lidx_main_v120 i k) * x13 (ridx_main_v120 i k) := by
  unfold val_main_v120
  generalize val_main_v119 (F := Ideal) x0 x1 x2 x3 x4 x5 x6 x7 x8 x9 x10 x11 x12 = y0
  simp only [Host.dotGeneral]
  rw [Ideal.dotGeneral_apply, ← Equiv.sum_comp (ValueIdx.contrEquiv1 dot_S1000000x128_S128x64_S1000000x64_1_0_0_1_n_n 128 rfl rfl).symm]
  refine Finset.sum_congr rfl fun k _ => ?_
  have hk := ValueIdx.contrEquiv1_symm_val dot_S1000000x128_S128x64_S1000000x64_1_0_0_1_n_n 128 rfl rfl k
  have el : dot_S1000000x128_S128x64_S1000000x64_1_0_0_1_n_n.lhsIdx i ((ValueIdx.contrEquiv1 dot_S1000000x128_S128x64_S1000000x64_1_0_0_1_n_n 128 rfl rfl).symm k) = lidx_main_v120 i k := funext fun a => Fin.ext (by
    match a with
    | ⟨0, _⟩ => exact lhs_main_v120_0 _ _
    | ⟨1, _⟩ => exact (lhs_main_v120_1 _ _).trans hk)
  have er : dot_S1000000x128_S128x64_S1000000x64_1_0_0_1_n_n.rhsIdx i ((ValueIdx.contrEquiv1 dot_S1000000x128_S128x64_S1000000x64_1_0_0_1_n_n 128 rfl rfl).symm k) = ridx_main_v120 i k := funext fun a => Fin.ext (by
    match a with
    | ⟨0, _⟩ => exact (rhs_main_v120_0 _ _).trans hk
    | ⟨1, _⟩ => exact rhs_main_v120_1 _ _)
  rw [el, er]
def val_main_v121 : (⟨S1x64, .f32⟩ : BufTy).Contents (Elt F) :=
  broadcastInDim S1x64 ![1] bcast_S64_S1x64_1 (x14)
abbrev idx_main_v121 (i : S1x64.Idx) : S64.Idx := fun a => match a with
  | ⟨0, _⟩ => ⟨(i 1).val, (i 1).isLt⟩
theorem val_main_v121_apply (i : S1x64.Idx) :
    val_main_v121 (F := F) x14 i = x14 (idx_main_v121 i) := by
  unfold val_main_v121
  exact broadcastInDim_apply _ bcast_S64_S1x64_1 x14 i (idx_main_v121 i) (fun a => match a with
    | ⟨0, _⟩ => by show (i 1).val = if (64 : Nat) = 1 then 0 else (i 1).val; rw [if_neg (by decide)])
def val_main_v122 : (⟨S1000000x64, .f32⟩ : BufTy).Contents (Elt F) :=
  broadcastInDim S1000000x64 ![0, 1] bcast_S1x64_S1000000x64_0_1 (val_main_v121 (F := F) x14)
abbrev idx_main_v122 (i : S1000000x64.Idx) : S1x64.Idx := fun a => match a with
  | ⟨0, _⟩ => ⟨0, Nat.one_pos⟩
  | ⟨1, _⟩ => ⟨(i 1).val, (i 1).isLt⟩
theorem val_main_v122_apply (i : S1000000x64.Idx) :
    val_main_v122 (F := F) x14 i = val_main_v121 (F := F) x14 (idx_main_v122 i) := by
  unfold val_main_v122
  generalize val_main_v121 (F := F) x14 = y
  exact broadcastInDim_apply _ bcast_S1x64_S1000000x64_0_1 y i (idx_main_v122 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])
def val_main_v123 : (⟨S1000000x64, .f32⟩ : BufTy).Contents (Elt F) :=
  addf (val_main_v120 (F := F) x0 x1 x2 x3 x4 x5 x6 x7 x8 x9 x10 x11 x12 x13) (val_main_v122 (F := F) x14)
theorem val_main_v123_apply (i : S1000000x64.Idx) :
    val_main_v123 (F := F) x0 x1 x2 x3 x4 x5 x6 x7 x8 x9 x10 x11 x12 x13 x14 i = FloatOps.addf (val_main_v120 (F := F) x0 x1 x2 x3 x4 x5 x6 x7 x8 x9 x10 x11 x12 x13 i) (val_main_v122 (F := F) x14 i) := rfl
def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl
def val_main_call3_v0 : (⟨S1000000x64, .f32⟩ : BufTy).Contents (Elt F) :=
  broadcastInDim S1000000x64 ![] bcast_S_S1000000x64 (val_main_call3_cst (F := F))
abbrev idx_main_call3_v0 (i : S1000000x64.Idx) : S_.Idx := fun a => a.elim0
theorem val_main_call3_v0_apply (i : S1000000x64.Idx) :
    val_main_call3_v0 (F := F) i = val_main_call3_cst (F := F) (idx_main_call3_v0 i) := by
  unfold val_main_call3_v0
  generalize val_main_call3_cst (F := F) = y
  exact broadcastInDim_apply _ bcast_S_S1000000x64 y i (idx_main_call3_v0 i) (fun a => a.elim0)
def val_main_v124 : (⟨S1000000x64, .f32⟩ : BufTy).Contents (Elt F) :=
  maximumf (val_main_v123 (F := F) x0 x1 x2 x3 x4 x5 x6 x7 x8 x9 x10 x11 x12 x13 x14) (val_main_call3_v0 (F := F))
theorem val_main_v124_apply (i : S1000000x64.Idx) :
    val_main_v124 (F := F) x0 x1 x2 x3 x4 x5 x6 x7 x8 x9 x10 x11 x12 x13 x14 i = FloatOps.maximumf (val_main_v123 (F := F) x0 x1 x2 x3 x4 x5 x6 x7 x8 x9 x10 x11 x12 x13 x14 i) (val_main_call3_v0 (F := F) i) := rfl
def val_main_v125 : (⟨S1000000x1, .f32⟩ : BufTy).Contents (Elt F) :=
  Host.dotGeneral dot_S1000000x64_S64x1_S1000000x1_1_0_0_1_n_n none (val_main_v124 (F := F) x0 x1 x2 x3 x4 x5 x6 x7 x8 x9 x10 x11 x12 x13 x14) (x15)
theorem lhs_main_v125_0 (i : S1000000x1.Idx) (q : dot_S1000000x64_S64x1_S1000000x1_1_0_0_1_n_n.contr.Idx) :
    (dot_S1000000x64_S64x1_S1000000x1_1_0_0_1_n_n.lhsIdx i q 0).val = (i 0).val := by
  unfold DotDims.lhsIdx
  rw [dif_neg (show ¬(0 : Fin S1000000x64.rank) ∈ dot_S1000000x64_S64x1_S1000000x1_1_0_0_1_n_n.lhsBatch by decide), dif_pos (show (0 : Fin S1000000x64.rank) ∈ dot_S1000000x64_S64x1_S1000000x1_1_0_0_1_n_n.lhsNonContracting by decide)]
  rfl
theorem lhs_main_v125_1 (i : S1000000x1.Idx) (q : dot_S1000000x64_S64x1_S1000000x1_1_0_0_1_n_n.contr.Idx) :
    (dot_S1000000x64_S64x1_S1000000x1_1_0_0_1_n_n.lhsIdx i q 1).val = (q ⟨0, by decide⟩).val :=
  dot_S1000000x64_S64x1_S1000000x1_1_0_0_1_n_n.lhsIdx_val_of_single rfl i q
theorem rhs_main_v125_0 (i : S1000000x1.Idx) (q : dot_S1000000x64_S64x1_S1000000x1_1_0_0_1_n_n.contr.Idx) :
    (dot_S1000000x64_S64x1_S1000000x1_1_0_0_1_n_n.rhsIdx i q 0).val = (q ⟨0, by decide⟩).val :=
  dot_S1000000x64_S64x1_S1000000x1_1_0_0_1_n_n.rhsIdx_val_of_single rfl i q
theorem rhs_main_v125_1 (i : S1000000x1.Idx) (q : dot_S1000000x64_S64x1_S1000000x1_1_0_0_1_n_n.contr.Idx) :
    (dot_S1000000x64_S64x1_S1000000x1_1_0_0_1_n_n.rhsIdx i q 1).val = (i 1).val := by
  unfold DotDims.rhsIdx
  rw [dif_neg (show ¬(1 : Fin S64x1.rank) ∈ dot_S1000000x64_S64x1_S1000000x1_1_0_0_1_n_n.rhsBatch by decide), dif_pos (show (1 : Fin S64x1.rank) ∈ dot_S1000000x64_S64x1_S1000000x1_1_0_0_1_n_n.rhsNonContracting by decide)]
  rfl
abbrev lidx_main_v125 (i : S1000000x1.Idx) (k : Fin 64) : S1000000x64.Idx := fun a => match a with
  | ⟨0, _⟩ => ⟨(i 0).val, (i 0).isLt⟩
  | ⟨1, _⟩ => ⟨k.val, k.isLt⟩
abbrev ridx_main_v125 (i : S1000000x1.Idx) (k : Fin 64) : S64x1.Idx := fun a => match a with
  | ⟨0, _⟩ => ⟨k.val, k.isLt⟩
  | ⟨1, _⟩ => ⟨(i 1).val, (i 1).isLt⟩
theorem val_main_v125_apply (x0 : (⟨S2x1000000, .i32⟩ : BufTy).Contents (Elt Ideal)) (x1 : (⟨S200000x128, .f32⟩ : BufTy).Contents (Elt Ideal)) (x2 : (⟨S100000x128, .f32⟩ : BufTy).Contents (Elt Ideal)) (x3 : (⟨S200000x64, .f32⟩ : BufTy).Contents (Elt Ideal)) (x4 : (⟨S100000x64, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S128x64, .f32⟩ : BufTy).Contents (Elt Ideal)) (x14 : (⟨S64, .f32⟩ : BufTy).Contents (Elt Ideal)) (x15 : (⟨S64x1, .f32⟩ : BufTy).Contents (Elt Ideal)) (i : S1000000x1.Idx) :
    val_main_v125 (F := Ideal) x0 x1 x2 x3 x4 x5 x6 x7 x8 x9 x10 x11 x12 x13 x14 x15 i = ∑ k : Fin 64, (val_main_v124 (F := Ideal) x0 x1 x2 x3 x4 x5 x6 x7 x8 x9 x10 x11 x12 x13 x14) (lidx_main_v125 i k) * x15 (ridx_main_v125 i k) := by
  unfold val_main_v125
  generalize val_main_v124 (F := Ideal) x0 x1 x2 x3 x4 x5 x6 x7 x8 x9 x10 x11 x12 x13 x14 = y0
  simp only [Host.dotGeneral]
  rw [Ideal.dotGeneral_apply, ← Equiv.sum_comp (ValueIdx.contrEquiv1 dot_S1000000x64_S64x1_S1000000x1_1_0_0_1_n_n 64 rfl rfl).symm]
  refine Finset.sum_congr rfl fun k _ => ?_
  have hk := ValueIdx.contrEquiv1_symm_val dot_S1000000x64_S64x1_S1000000x1_1_0_0_1_n_n 64 rfl rfl k
  have el : dot_S1000000x64_S64x1_S1000000x1_1_0_0_1_n_n.lhsIdx i ((ValueIdx.contrEquiv1 dot_S1000000x64_S64x1_S1000000x1_1_0_0_1_n_n 64 rfl rfl).symm k) = lidx_main_v125 i k := funext fun a => Fin.ext (by
    match a with
    | ⟨0, _⟩ => exact lhs_main_v125_0 _ _
    | ⟨1, _⟩ => exact (lhs_main_v125_1 _ _).trans hk)
  have er : dot_S1000000x64_S64x1_S1000000x1_1_0_0_1_n_n.rhsIdx i ((ValueIdx.contrEquiv1 dot_S1000000x64_S64x1_S1000000x1_1_0_0_1_n_n 64 rfl rfl).symm k) = ridx_main_v125 i k := funext fun a => Fin.ext (by
    match a with
    | ⟨0, _⟩ => exact (rhs_main_v125_0 _ _).trans hk
    | ⟨1, _⟩ => exact rhs_main_v125_1 _ _)
  rw [el, er]
def val_main_v126 : (⟨S1x1, .f32⟩ : BufTy).Contents (Elt F) :=
  broadcastInDim S1x1 ![1] bcast_S1_S1x1_1 (x16)
abbrev idx_main_v126 (i : S1x1.Idx) : S1.Idx := fun a => match a with
  | ⟨0, _⟩ => ⟨0, Nat.one_pos⟩
theorem val_main_v126_apply (i : S1x1.Idx) :
    val_main_v126 (F := F) x16 i = x16 (idx_main_v126 i) := by
  unfold val_main_v126
  exact broadcastInDim_apply _ bcast_S1_S1x1_1 x16 i (idx_main_v126 i) (fun a => match a with
    | ⟨0, _⟩ => by show 0 = if (1 : Nat) = 1 then 0 else (i 1).val; rw [if_pos rfl])
def val_main_v127 : (⟨S1000000x1, .f32⟩ : BufTy).Contents (Elt F) :=
  broadcastInDim S1000000x1 ![0, 1] bcast_S1x1_S1000000x1_0_1 (val_main_v126 (F := F) x16)
abbrev idx_main_v127 (i : S1000000x1.Idx) : S1x1.Idx := fun a => match a with
  | ⟨0, _⟩ => ⟨0, Nat.one_pos⟩
  | ⟨1, _⟩ => ⟨0, Nat.one_pos⟩
theorem val_main_v127_apply (i : S1000000x1.Idx) :
    val_main_v127 (F := F) x16 i = val_main_v126 (F := F) x16 (idx_main_v127 i) := by
  unfold val_main_v127
  generalize val_main_v126 (F := F) x16 = y
  exact broadcastInDim_apply _ bcast_S1x1_S1000000x1_0_1 y i (idx_main_v127 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])
def val_main_v128 : (⟨S1000000x1, .f32⟩ : BufTy).Contents (Elt F) :=
  addf (val_main_v125 (F := F) x0 x1 x2 x3 x4 x5 x6 x7 x8 x9 x10 x11 x12 x13 x14 x15) (val_main_v127 (F := F) x16)
theorem val_main_v128_apply (i : S1000000x1.Idx) :
    val_main_v128 (F := F) x0 x1 x2 x3 x4 x5 x6 x7 x8 x9 x10 x11 x12 x13 x14 x15 x16 i = FloatOps.addf (val_main_v125 (F := F) x0 x1 x2 x3 x4 x5 x6 x7 x8 x9 x10 x11 x12 x13 x14 x15 i) (val_main_v127 (F := F) x16 i) := rfl
def val_main_v129 : (⟨S1000000x1, .f32⟩ : BufTy).Contents (Elt F) :=
  Host.negf (val_main_v128 (F := F) x0 x1 x2 x3 x4 x5 x6 x7 x8 x9 x10 x11 x12 x13 x14 x15 x16)
theorem val_main_v129_apply (i : S1000000x1.Idx) :
    val_main_v129 (F := F) x0 x1 x2 x3 x4 x5 x6 x7 x8 x9 x10 x11 x12 x13 x14 x15 x16 i = FloatOps.hostNegf (val_main_v128 (F := F) x0 x1 x2 x3 x4 x5 x6 x7 x8 x9 x10 x11 x12 x13 x14 x15 x16 i) := rfl
def val_main_v130 : (⟨S1000000x1, .f32⟩ : BufTy).Contents (Elt F) :=
  Host.exp (val_main_v129 (F := F) x0 x1 x2 x3 x4 x5 x6 x7 x8 x9 x10 x11 x12 x13 x14 x15 x16)
theorem val_main_v130_apply (i : S1000000x1.Idx) :
    val_main_v130 (F := F) x0 x1 x2 x3 x4 x5 x6 x7 x8 x9 x10 x11 x12 x13 x14 x15 x16 i = FloatOps.hostUnary .exp (val_main_v129 (F := F) x0 x1 x2 x3 x4 x5 x6 x7 x8 x9 x10 x11 x12 x13 x14 x15 x16 i) := rfl
def val_main_cst_26 : (⟨S_, .f32⟩ : BufTy).Contents (Elt F) :=
  constant S_ .f32 0x3F800000#32
theorem val_main_cst_26_apply (i : S_.Idx) :
    val_main_cst_26 (F := F) i = FloatOps.ofBits .f32 0x3F800000#32 := rfl
def val_main_v131 : (⟨S1000000x1, .f32⟩ : BufTy).Contents (Elt F) :=
  broadcastInDim S1000000x1 ![] bcast_S_S1000000x1 (val_main_cst_26 (F := F))
abbrev idx_main_v131 (i : S1000000x1.Idx) : S_.Idx := fun a => a.elim0
theorem val_main_v131_apply (i : S1000000x1.Idx) :
    val_main_v131 (F := F) i = val_main_cst_26 (F := F) (idx_main_v131 i) := by
  unfold val_main_v131
  generalize val_main_cst_26 (F := F) = y
  exact broadcastInDim_apply _ bcast_S_S1000000x1 y i (idx_main_v131 i) (fun a => a.elim0)
def val_main_v132 : (⟨S1000000x1, .f32⟩ : BufTy).Contents (Elt F) :=
  addf (val_main_v131 (F := F)) (val_main_v130 (F := F) x0 x1 x2 x3 x4 x5 x6 x7 x8 x9 x10 x11 x12 x13 x14 x15 x16)
theorem val_main_v132_apply (i : S1000000x1.Idx) :
    val_main_v132 (F := F) x0 x1 x2 x3 x4 x5 x6 x7 x8 x9 x10 x11 x12 x13 x14 x15 x16 i = FloatOps.addf (val_main_v131 (F := F) i) (val_main_v130 (F := F) x0 x1 x2 x3 x4 x5 x6 x7 x8 x9 x10 x11 x12 x13 x14 x15 x16 i) := rfl
def val_main_cst_27 : (⟨S_, .f32⟩ : BufTy).Contents (Elt F) :=
  constant S_ .f32 0x3F800000#32
theorem val_main_cst_27_apply (i : S_.Idx) :
    val_main_cst_27 (F := F) i = FloatOps.ofBits .f32 0x3F800000#32 := rfl
def val_main_v133 : (⟨S1000000x1, .f32⟩ : BufTy).Contents (Elt F) :=
  broadcastInDim S1000000x1 ![] bcast_S_S1000000x1 (val_main_cst_27 (F := F))
abbrev idx_main_v133 (i : S1000000x1.Idx) : S_.Idx := fun a => a.elim0
theorem val_main_v133_apply (i : S1000000x1.Idx) :
    val_main_v133 (F := F) i = val_main_cst_27 (F := F) (idx_main_v133 i) := by
  unfold val_main_v133
  generalize val_main_cst_27 (F := F) = y
  exact broadcastInDim_apply _ bcast_S_S1000000x1 y i (idx_main_v133 i) (fun a => a.elim0)
def val_main_v134 : (⟨S1000000x1, .f32⟩ : BufTy).Contents (Elt F) :=
  Host.divf (val_main_v133 (F := F)) (val_main_v132 (F := F) x0 x1 x2 x3 x4 x5 x6 x7 x8 x9 x10 x11 x12 x13 x14 x15 x16)
theorem val_main_v134_apply (i : S1000000x1.Idx) :
    val_main_v134 (F := F) x0 x1 x2 x3 x4 x5 x6 x7 x8 x9 x10 x11 x12 x13 x14 x15 x16 i = FloatOps.hostDivf (val_main_v133 (F := F) i) (val_main_v132 (F := F) x0 x1 x2 x3 x4 x5 x6 x7 x8 x9 x10 x11 x12 x13 x14 x15 x16 i) := rfl
def val_main_v135 : (⟨S1000000, .f32⟩ : BufTy).Contents (Elt F) :=
  shapeCast _ (val_main_v134 (F := F) x0 x1 x2 x3 x4 x5 x6 x7 x8 x9 x10 x11 x12 x13 x14 x15 x16) shapeCasts_S1000000x1_S1000000
abbrev idx_main_v135 (i : S1000000.Idx) : S1000000x1.Idx := fun a => match a with
  | ⟨0, _⟩ => ⟨((i 0).val) / 1, by have h0 : (i 0).val < 1000000 := (i 0).isLt; show ((i 0).val) / 1 < 1000000; omega⟩
  | ⟨1, _⟩ => ⟨0, Nat.one_pos⟩
theorem val_main_v135_apply (i : S1000000.Idx) :
    val_main_v135 (F := F) x0 x1 x2 x3 x4 x5 x6 x7 x8 x9 x10 x11 x12 x13 x14 x15 x16 i = val_main_v134 (F := F) x0 x1 x2 x3 x4 x5 x6 x7 x8 x9 x10 x11 x12 x13 x14 x15 x16 (idx_main_v135 i) := by
  unfold val_main_v135
  generalize val_main_v134 (F := F) x0 x1 x2 x3 x4 x5 x6 x7 x8 x9 x10 x11 x12 x13 x14 x15 x16 = y
  exact shapeCast_apply y shapeCasts_S1000000x1_S1000000 i (idx_main_v135 i)
    (by rewrite [Shape.rowMajor_val_two, Shape.rowMajor_val_one]; have h0 : (i 0).val < 1000000 := (i 0).isLt; show ((i 0).val) / 1 * 1 + 0 = (i 0).val; omega)
def val_main_cst_28 : (⟨S_, .f32⟩ : BufTy).Contents (Elt F) :=
  constant S_ .f32 0x40A00000#32
theorem val_main_cst_28_apply (i : S_.Idx) :
    val_main_cst_28 (F := F) i = FloatOps.ofBits .f32 0x40A00000#32 := rfl
def val_main_v136 : (⟨S1000000, .f32⟩ : BufTy).Contents (Elt F) :=
  broadcastInDim S1000000 ![] bcast_S_S1000000 (val_main_cst_28 (F := F))
abbrev idx_main_v136 (i : S1000000.Idx) : S_.Idx := fun a => a.elim0
theorem val_main_v136_apply (i : S1000000.Idx) :
    val_main_v136 (F := F) i = val_main_cst_28 (F := F) (idx_main_v136 i) := by
  unfold val_main_v136
  generalize val_main_cst_28 (F := F) = y
  exact broadcastInDim_apply _ bcast_S_S1000000 y i (idx_main_v136 i) (fun a => a.elim0)
def val_main_v137 : (⟨S1000000, .f32⟩ : BufTy).Contents (Elt F) :=
  mulf (val_main_v135 (F := F) x0 x1 x2 x3 x4 x5 x6 x7 x8 x9 x10 x11 x12 x13 x14 x15 x16) (val_main_v136 (F := F))
theorem val_main_v137_apply (i : S1000000.Idx) :
    val_main_v137 (F := F) x0 x1 x2 x3 x4 x5 x6 x7 x8 x9 x10 x11 x12 x13 x14 x15 x16 i = FloatOps.mulf (val_main_v135 (F := F) x0 x1 x2 x3 x4 x5 x6 x7 x8 x9 x10 x11 x12 x13 x14 x15 x16 i) (val_main_v136 (F := F) i) := rfl

end Cert.ReferenceIdeal.Read

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 70800000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v137) = Read.val_main_v137 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v137).trans (by after_results_simp <;> (try simp only [TRef.ofBuf, TRef.toBuf, cast_eq]) <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl)⟩)
    (run_seq scopedRefs_eq scopedSems_eq defs main (fun _ => ops) main_eq (fun _ => ops_sub) m ρ)

end Cert.ReferenceIdeal.Value

end
-- ==== Proof.BridgeA.lean ====
/- The stages the two programs share (index rows, edge lists, degree, its inverse square root) and the node features agree entry by entry. -/
import proofs.«100265_j85727547228235_2_alg».proof.Proof.KerSpec
import proofs.«100265_j85727547228235_2_alg».proof.Proof.LibGsIdx
import proofs.«100265_j85727547228235_2_alg».proof.Proof.RefReadP
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.Hand.Bridge

open Idealize.ShloMosaic Idealize.ShloMosaic.ValueIdx
open Cert.KernelIdeal Cert.KernelIdeal.Gen Cert.KernelIdeal.Hand

set_option quotPrecheck false in
local notation "C[" S "," e "]" => (⟨S, e⟩ : BufTy).Contents (Elt Ideal)

private theorem one_f32 : Ideal.ofBits .f32 0x3F800000#32 = 1 := by
  rw [show (1 : EReal) = ((1 : ℝ) : EReal) by norm_cast]
  simp [Ideal.ofBits, Ideal.ieee, -EReal.coe_mul]; norm_num

private theorem count_nat {ι : Type} (s : Finset ι) (a : EReal) (u : ι → EReal) (ha : a = 0) (hu : ∀ j, u j = 1) :
    ∃ c : ℕ, a + ∑ j ∈ s, u j = ((c : ℝ) : EReal) := by
  subst ha
  exact ⟨s.card, by rw [Finset.sum_congr rfl (fun j _ => hu j), zero_add, Finset.sum_const, nsmul_one]; rfl⟩

private theorem scatter_count {s si su : Shape} (d : ScatterDims s si su) {w : Nat} (x : FVec Ideal s .f32) (idx : IVec si w)
    (u : FVec Ideal su .f32) (hx : ∀ i, x i = 0) (hu : ∀ j, u j = 1) (i : s.Idx) :
    ∃ c : ℕ, Host.scatterAdd (F := Ideal) d x idx u i = ((c : ℝ) : EReal) := by
  show ∃ c : ℕ, Ideal.hostScatterAdd d x idx u i = ((c : ℝ) : EReal)
  unfold Ideal.hostScatterAdd
  exact count_nat _ (x i) u (hx i) hu

private theorem deg_nat (x0 : C[S2x1000000, .i32]) (i : S300000.Idx) : ∃ c : ℕ, kvDeg x0 i = ((c : ℝ) : EReal) := by
  unfold kvDeg
  exact scatter_count _ _ _ _ (fun _ => Ideal.ofBits_zero_f32) (fun _ => one_f32) i

private theorem dis_at (d : FVec Ideal S300000 .f32) (i : S300000.Idx) :
    select (cmpf (F := Ideal) .ogt d (broadcastInDim S300000 ![] bcast_S_S300000 (constant (F := Ideal) S_ .f32 0x00000000#32)))
      (Host.rsqrt (F := Ideal) (maximumf (F := Ideal) d (broadcastInDim S300000 ![] bcast_S_S300000 (constant (F := Ideal) S_ .f32 0x3F800000#32))))
      (broadcastInDim S300000 ![] bcast_S_S300000 (id (constant (F := Ideal) S_ .f32 0x00000000#32))) i
    = Scalar.select (Ideal.cmp .ogt (d i) 0) (Ideal.rsqrt (max (d i) 1)) 0 := by
  show Scalar.select (Ideal.cmp .ogt (d i) (Ideal.ofBits .f32 0x00000000#32))
      (Ideal.rsqrt (max (d i) (Ideal.ofBits .f32 0x3F800000#32))) (Ideal.ofBits .f32 0x00000000#32) = _
  rw [Ideal.ofBits_zero_f32, one_f32]

private theorem G0_eq (x1 : C[S200000x128, .f32]) (x3 : C[S200000x64, .f32]) (x5 : C[S128x64, .f32]) (x6 : C[S64, .f32]) :
    G0 x1 x5 (kvRow64 x6) x3 = Cert.ReferenceIdeal.Read.val_main_v8 (F := Ideal) x1 x3 x5 x6 := by
  funext i
  obtain ⟨r, q, rfl⟩ : ∃ (r : Fin 200000) (q : Fin 64), i = ix2 r q := ⟨i 0, i 1, eq_ix2 i⟩
  rw [Cert.ReferenceIdeal.Read.val_main_v8_apply, Cert.ReferenceIdeal.Read.val_main_v7_apply,
    Cert.ReferenceIdeal.Read.val_main_v4_apply, Cert.ReferenceIdeal.Read.val_main_v6_apply,
    Cert.ReferenceIdeal.Read.val_main_v5_apply, Ideal.addf_def, Ideal.addf_def]
  have hl : ∀ k : Fin 128, Cert.ReferenceIdeal.Read.lidx_main_v4 (ix2 r q) k = ix2 r k := fun k => by
    funext a; match a with | ⟨0, _⟩ => rfl | ⟨1, _⟩ => rfl
  have hr : ∀ k : Fin 128, Cert.ReferenceIdeal.Read.ridx_main_v4 (ix2 r q) k = ix2 k q := fun k => by
    funext a; match a with | ⟨0, _⟩ => rfl | ⟨1, _⟩ => rfl
  have hb : kvRow64 x6 (ix2 (0 : Fin 1) q)
      = x6 (Cert.ReferenceIdeal.Read.idx_main_v5 (Cert.ReferenceIdeal.Read.idx_main_v6 (ix2 r q))) := by
    unfold kvRow64
    exact shapeCast_apply x6 _ _ _ (by
      rw [Shape.rowMajor_val_one, Shape.rowMajor_val_two]; show q.val = 0 * 64 + q.val; omega)
  simp only [hl, hr]
  rw [← hb]
  rfl

private theorem G1_eq (x2 : C[S100000x128, .f32]) (x4 : C[S100000x64, .f32]) (x7 : C[S128x64, .f32]) (x8 : C[S64, .f32]) :
    G1 x2 x7 (kvRow64 x8) x4 = Cert.ReferenceIdeal.Read.val_main_v13 (F := Ideal) x2 x4 x7 x8 := by
  funext i
  obtain ⟨r, q, rfl⟩ : ∃ (r : Fin 100000) (q : Fin 64), i = ix2 r q := ⟨i 0, i 1, eq_ix2 i⟩
  rw [Cert.ReferenceIdeal.Read.val_main_v13_apply, Cert.ReferenceIdeal.Read.val_main_v12_apply,
    Cert.ReferenceIdeal.Read.val_main_v9_apply, Cert.ReferenceIdeal.Read.val_main_v11_apply,
    Cert.ReferenceIdeal.Read.val_main_v10_apply, Ideal.addf_def, Ideal.addf_def]
  have hl : ∀ k : Fin 128, Cert.ReferenceIdeal.Read.lidx_main_v9 (ix2 r q) k = ix2 r k := fun k => by
    funext a; match a with | ⟨0, _⟩ => rfl | ⟨1, _⟩ => rfl
  have hr : ∀ k : Fin 128, Cert.ReferenceIdeal.Read.ridx_main_v9 (ix2 r q) k = ix2 k q := fun k => by
    funext a; match a with | ⟨0, _⟩ => rfl | ⟨1, _⟩ => rfl
  have hb : kvRow64 x8 (ix2 (0 : Fin 1) q)
      = x8 (Cert.ReferenceIdeal.Read.idx_main_v10 (Cert.ReferenceIdeal.Read.idx_main_v11 (ix2 r q))) := by
    unfold kvRow64
    exact shapeCast_apply x8 _ _ _ (by
      rw [Shape.rowMajor_val_one, Shape.rowMajor_val_two]; show q.val = 0 * 64 + q.val; omega)
  simp only [hl, hr]
  rw [← hb]
  rfl

theorem ui_eq (x0 : C[S2x1000000, .i32]) : kvUi x0 = Cert.ReferenceIdeal.Read.val_main_v1 (F := Ideal) x0 := by
  rfl
theorem pi_eq (x0 : C[S2x1000000, .i32]) : kvPi x0 = Cert.ReferenceIdeal.Read.val_main_v3 (F := Ideal) x0 := by
  rfl
theorem rowE_eq (x0 : C[S2x1000000, .i32]) : kvRowE x0 = Cert.ReferenceIdeal.Read.val_main_v16 (F := Ideal) x0 := by
  rfl
theorem colE_eq (x0 : C[S2x1000000, .i32]) : kvColE x0 = Cert.ReferenceIdeal.Read.val_main_v17 (F := Ideal) x0 := by
  rfl

theorem dis_eq (x0 : C[S2x1000000, .i32]) : kvDis x0 = Cert.ReferenceIdeal.Read.val_main_v28 (F := Ideal) x0 := by
  rfl

theorem dis_eq' (x0 : C[S2x1000000, .i32]) : kvDis x0 = Cert.ReferenceIdeal.Read.val_main_v71 (F := Ideal) x0 := by
  rfl

theorem dis_real (x0 : C[S2x1000000, .i32]) (n : Fin 300000) : ∃ r : ℝ, 0 ≤ r ∧ kvDis x0 (ix1 n) = (r : EReal) := by
  obtain ⟨c, hc⟩ := deg_nat x0 (ix1 n)
  unfold kvDis
  rw [dis_at, hc]
  unfold Scalar.select
  split
  · refine ⟨(Real.sqrt (max (c : ℝ) 1))⁻¹, inv_nonneg.mpr (Real.sqrt_nonneg _), ?_⟩
    have hp : (0 : ℝ) < max (c : ℝ) 1 := lt_of_lt_of_le one_pos (le_max_right _ _)
    rw [← EReal.coe_one, ← EReal.coe_strictMono.monotone.map_max, Ideal.rsqrt_coe, if_neg (not_lt.mpr hp.le), if_neg hp.ne']
  · exact ⟨0, le_refl _, rfl⟩
theorem X_eq (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) : kvX x1 x2 x3 x4 x5 x6 x7 x8 = Cert.ReferenceIdeal.Read.val_main_v14 (F := Ideal) x1 x2 x3 x4 x5 x6 x7 x8 := by
  unfold kvX Cert.ReferenceIdeal.Read.val_main_v14
  rw [G0_eq, G1_eq]
end Cert.Hand.Bridge

end
-- ==== Proof.BridgeL.lean ====
/- A layer: the reference weights each message by dis[source]·dis[target]; the kernel scales rows by dis before the edge sum and after it. Every edge landing on node n has target n, and a non-negative real factor distributes over a sum of extended reals. -/
import proofs.«100265_j85727547228235_2_alg».proof.Proof.KerSpec
import proofs.«100265_j85727547228235_2_alg».proof.Proof.LibGsIdx
import proofs.«100265_j85727547228235_2_alg».proof.Proof.RefReadP
import proofs.«100265_j85727547228235_2_alg».proof.Proof.BridgeA
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.Hand.Bridge

open Idealize.ShloMosaic Idealize.ShloMosaic.ValueIdx
open Cert.KernelIdeal Cert.KernelIdeal.Gen Cert.KernelIdeal.Hand

set_option quotPrecheck false in
local notation "C[" S "," e "]" => (⟨S, e⟩ : BufTy).Contents (Elt Ideal)

section Generic
open Idealize.ShloMosaic.StableHlo.Predicate Cert.Hand.GsIdx
variable {N C n : Nat}

theorem ofFin_eq_ix1 {k : Nat} (a : Fin k) : Shape.Idx.ofFin a = ix1 a := by
  funext c; match c with | ⟨0, _⟩ => rfl

theorem hostScatterAdd_rows (d : ScatterDims ⟨2, ![N, C]⟩ ⟨2, ![n, 1]⟩ ⟨2, ![n, C]⟩) (hu : d.updateWindowDims = [1])
    (hi : d.insertedWindowDims = [0]) (hs : d.scatterDimsToOperandDims = [0]) (hivd : d.indexVectorDim = 1)
    (Z : (⟨2, ![N, C]⟩ : Shape).Idx → EReal) (colB : IVec ⟨2, ![n, 1]⟩ 32) (upd : (⟨2, ![n, C]⟩ : Shape).Idx → EReal)
    (m : Fin N) (f : Fin C) :
    Ideal.hostScatterAdd d Z colB upd (ix2 m f)
      = Z (ix2 m f) + ∑ p ∈ Finset.univ.filter (fun p : Fin n => (colB (ixP p)).toInt = (m.val : Int)), upd (ix2 p f) := by
  unfold Ideal.hostScatterAdd
  congr 1
  have key : ∀ j : (⟨2, ![n, C]⟩ : Shape).Idx, d.resultIdx? j colB = some (ix2 m f) →
      (colB (ixP (j 0))).toInt = (m.val : Int) ∧ f = j 1 := by
    intro j hj
    rw [eq_ix2 j] at hj
    have h2 := (scatter_rows_iff d hu hi hs hivd colB (j 0) (j 1) (ix2 m f)).mp hj
    exact ⟨h2.1, Fin.ext h2.2⟩
  refine Finset.sum_bij' (fun j _ => (j 0 : Fin n)) (fun p _ => ix2 p f) ?_ ?_ ?_ ?_ ?_
  · intro j hj
    exact Finset.mem_filter.mpr ⟨Finset.mem_univ _, (key j (Finset.mem_filter.mp hj).2).1⟩
  · intro p hp
    exact Finset.mem_filter.mpr ⟨Finset.mem_univ _,
      (scatter_rows_iff d hu hi hs hivd colB p f (ix2 m f)).mpr ⟨(Finset.mem_filter.mp hp).2, rfl⟩⟩
  · intro j hj
    have h1 := (key j (Finset.mem_filter.mp hj).2).2
    rw [h1]
    exact (eq_ix2 j).symm
  · intro p hp
    rfl
  · intro j hj
    have h1 := (key j (Finset.mem_filter.mp hj).2).2
    rw [h1]
    exact congrArg upd (eq_ix2 j)

theorem norm_clamp_of_toInt (c K : BitVec 32) (m N : Nat) (hm : m < N) (hc : c.toInt = (m : Int)) :
    min (Scalar.select (IntOp.cmpi .slt c 0#32) (IntOp.addi c K) c).toInt.toNat (N - 1) = m := by
  have h0 : (0#32 : BitVec 32).toInt = 0 := by decide
  have hslt : c.slt 0#32 = false := by
    unfold BitVec.slt
    rw [hc, h0]
    exact decide_eq_false (by omega)
  have hsel : Scalar.select (IntOp.cmpi .slt c 0#32) (IntOp.addi c K) c = c := by
    show (if BitVec.ofBool (c.slt 0#32) = 1 then IntOp.addi c K else c) = c
    rw [hslt]
    exact if_neg (by decide)
  rw [hsel, hc]
  omega

theorem agg_core (hN : 0 < N)
    (sK sR : ScatterDims ⟨2, ![N, C]⟩ ⟨2, ![n, 1]⟩ ⟨2, ![n, C]⟩)
    (hKu : sK.updateWindowDims = [1]) (hKi : sK.insertedWindowDims = [0]) (hKs : sK.scatterDimsToOperandDims = [0])
    (hKv : sK.indexVectorDim = 1)
    (hRu : sR.updateWindowDims = [1]) (hRi : sR.insertedWindowDims = [0]) (hRs : sR.scatterDimsToOperandDims = [0])
    (hRv : sR.indexVectorDim = 1)
    (gK gR : GatherDims ⟨2, ![N, C]⟩ ⟨2, ![n, 1]⟩ ⟨2, ![n, C]⟩)
    (hK1 : gK.offsetDims = [1]) (hK2 : gK.collapsedSliceDims = [0]) (hK3 : gK.operandBatchingDims = [])
    (hK4 : gK.startIndexMap = [0]) (hK5 : gK.indexVectorDim = 1)
    (hR1 : gR.offsetDims = [1]) (hR2 : gR.collapsedSliceDims = [0]) (hR3 : gR.operandBatchingDims = [])
    (hR4 : gR.startIndexMap = [0]) (hR5 : gR.indexVectorDim = 1)
    (D : FVec Ideal ⟨1, ![N]⟩ .f32) (hD : ∀ m : Fin N, ∃ r : ℝ, 0 ≤ r ∧ D (ix1 m) = (r : EReal))
    (ZK ZR : FVec Ideal ⟨2, ![N, C]⟩ .f32) (hZK : ∀ i, ZK i = 0) (hZR : ∀ i, ZR i = 0)
    (rowN colB : IVec ⟨2, ![n, 1]⟩ 32)
    (h : FVec Ideal ⟨2, ![N, C]⟩ .f32) (hs : FVec Ideal ⟨2, ![N, C]⟩ .bf16) (hlt : FTy.bits .bf16 < FTy.bits .f32)
    (hhs : ∀ (a : Fin N) (b : Fin C), hs (ix2 a b) = h (ix2 a b) * D (ix1 a))
    (W : FVec Ideal ⟨2, ![n, C]⟩ .f32)
    (hW : ∀ (p : Fin n) (q : Fin C) (m : Fin N), (colB (ixP p)).toInt = (m.val : Int) →
        W (ix2 p q) = D (ix1 ⟨min (rowN (ixP p)).toInt.toNat (N - 1), by omega⟩) * D (ix1 m))
    (m : Fin N) (f : Fin C) :
    D (ix1 m) * Host.scatterAdd (F := Ideal) sK ZK colB (extf (F := Ideal) .f32 (Host.gather gK hs rowN) hlt) (ix2 m f)
      = Host.scatterAdd (F := Ideal) sR ZR colB (mulf (Host.gather gR h rowN) W) (ix2 m f) := by
  show D (ix1 m) * Ideal.hostScatterAdd sK ZK colB (Host.gather gK hs rowN) (ix2 m f)
      = Ideal.hostScatterAdd sR ZR colB (fun j => Host.gather gR h rowN j * W j) (ix2 m f)
  rw [hostScatterAdd_rows sK hKu hKi hKs hKv, hostScatterAdd_rows sR hRu hRi hRs hRv, hZK, hZR, zero_add, zero_add]
  obtain ⟨r, hr, hDr⟩ := hD m
  rw [hDr, coe_nonneg_mul_sum _ r hr]
  refine Finset.sum_congr rfl fun p hp => ?_
  have hp2 := (Finset.mem_filter.mp hp).2
  rw [gather_rows gK hK1 hK2 hK3 hK4 hK5 hs rowN p f hN, gather_rows gR hR1 hR2 hR3 hR4 hR5 h rowN p f hN, hhs,
    hW p f m hp2, hDr]
  rw [mul_comm (r : EReal), mul_assoc]

end Generic

section Specific
open Idealize.ShloMosaic.StableHlo.Predicate Cert.Hand.GsIdx Cert.ReferenceIdeal.Read

theorem rowN_v34 (x0 : C[S2x1000000, .i32]) : val_main_v34 (F := Ideal) x0 = kvRowN x0 := by
  unfold kvRowN val_main_v34 val_main_v33 val_main_v30 val_main_v32 val_main_v29 val_main_v31 val_main_c val_main_c_4
  rw [rowE_eq x0]
  try rfl
theorem rowN_v49 (x0 : C[S2x1000000, .i32]) : val_main_v49 (F := Ideal) x0 = kvRowN x0 := by
  unfold kvRowN val_main_v49 val_main_v48 val_main_v45 val_main_v47 val_main_v44 val_main_v46 val_main_c_7 val_main_c_8
  rw [rowE_eq x0]
  try rfl
theorem rowN_v77 (x0 : C[S2x1000000, .i32]) : val_main_v77 (F := Ideal) x0 = kvRowN x0 := by
  unfold kvRowN val_main_v77 val_main_v76 val_main_v73 val_main_v75 val_main_v72 val_main_v74 val_main_c_15 val_main_c_16
  rw [rowE_eq x0]
  try rfl
theorem rowN_v92 (x0 : C[S2x1000000, .i32]) : val_main_v92 (F := Ideal) x0 = kvRowN x0 := by
  unfold kvRowN val_main_v92 val_main_v91 val_main_v88 val_main_v90 val_main_v87 val_main_v89 val_main_c_19 val_main_c_20
  rw [rowE_eq x0]
  try rfl

theorem colB_v55 (x0 : C[S2x1000000, .i32]) : val_main_v55 (F := Ideal) x0 = kvColB x0 := by
  unfold kvColB val_main_v55
  rw [colE_eq x0]
  try rfl
theorem colB_v98 (x0 : C[S2x1000000, .i32]) : val_main_v98 (F := Ideal) x0 = kvColB x0 := by
  unfold kvColB val_main_v98
  rw [colE_eq x0]
  try rfl

theorem colN_v84 (x0 : C[S2x1000000, .i32]) : val_main_v84 (F := Ideal) x0 = val_main_v41 (F := Ideal) x0 := by
  unfold val_main_v84 val_main_v83 val_main_v80 val_main_v82 val_main_v79 val_main_v81 val_main_c_17 val_main_c_18
    val_main_v41 val_main_v40 val_main_v37 val_main_v39 val_main_v36 val_main_v38 val_main_c_5 val_main_c_6
  rfl

theorem disC_apply (x0 : C[S2x1000000, .i32]) (a : Fin 300000) (u : Fin 1) : kvDisC x0 (ix2 a u) = kvDis x0 (ix1 a) := by
  unfold kvDisC
  exact shapeCast_apply _ _ _ _ (by
    have hu : u.val = 0 := by omega
    rw [Shape.rowMajor_val_one, Shape.rowMajor_val_two]
    show a.val = a.val * 1 + u.val
    omega)

theorem row64_apply (b : C[S64, .f32]) (u : Fin 1) (q : Fin 64) : kvRow64 b (ix2 u q) = b (ix1 q) := by
  unfold kvRow64
  exact shapeCast_a_1a_apply b _ u q

theorem zeroK (hb : S_.BroadcastsInDim S300000x64 ![]) (i : S300000x64.Idx) :
    (broadcastInDim S300000x64 ![] hb (constant (F := Ideal) S_ .f32 0x00000000#32) : FVec Ideal S300000x64 .f32) i = 0 := by
  show Ideal.ofBits .f32 0x00000000#32 = 0
  exact Ideal.ofBits_zero_f32
theorem zero54 (i : Cert.ReferenceIdeal.S300000x64.Idx) : (val_main_v54 (F := Ideal) : FVec Ideal _ .f32) i = 0 := by
  rw [val_main_v54_apply, val_main_cst_9_apply, Ideal.ofBits_def, Ideal.ofBits_zero_f32]
theorem zero97 (i : Cert.ReferenceIdeal.S300000x64.Idx) : (val_main_v97 (F := Ideal) : FVec Ideal _ .f32) i = 0 := by
  rw [val_main_v97_apply, val_main_cst_21_apply, Ideal.ofBits_def, Ideal.ofBits_zero_f32]

theorem col_norm (x0 : C[S2x1000000, .i32]) (p : Fin 2300000) (m : Nat) (hm : m < 300000) (hc : ((kvColB x0 : IVec S2300000x1 32) (ixP p)).toInt = (m : Int)) :
    min ((val_main_v41 (F := Ideal) x0 : IVec S2300000x1 32) (ixP p)).toInt.toNat (300000 - 1) = m := by
  have hi55 : idx_main_v55 (ixP p) = ix1 p := by
    funext c; match c with | ⟨0, _⟩ => rfl
  have hi41 : idx_main_v41 (ixP p) = ix1 p := by
    funext c; match c with | ⟨0, _⟩ => rfl
  have e1 : (kvColB x0 : IVec S2300000x1 32) (ixP p) = val_main_v17 (F := Ideal) x0 (ix1 p) := by
    rw [← colB_v55 x0, val_main_v55_apply, hi55]
  have e2 : (val_main_v41 (F := Ideal) x0 : IVec S2300000x1 32) (ixP p)
      = Scalar.select (IntOp.cmpi .slt (val_main_v17 (F := Ideal) x0 (ix1 p)) 0#32) (IntOp.addi (val_main_v17 (F := Ideal) x0 (ix1 p)) 300000#32) (val_main_v17 (F := Ideal) x0 (ix1 p)) := by
    rw [val_main_v41_apply, hi41, val_main_v40_apply, val_main_v37_apply, val_main_v39_apply, val_main_v36_apply, val_main_v38_apply,
      val_main_c_5_apply, val_main_c_6_apply]
  rw [e2]
  rw [e1] at hc
  exact norm_clamp_of_toInt _ _ m 300000 hm hc

theorem weight_gen (x0 : C[S2x1000000, .i32]) (Dr : FVec Ideal S300000 .f32) (hDr : Dr = kvDis x0) (rowR colR : IVec S2300000x1 32)
    (hrow : rowR = kvRowN x0) (hcol : colR = val_main_v41 (F := Ideal) x0) (p : Fin 2300000) :
    (Host.gather Cert.ReferenceIdeal.gather_S300000_S2300000x1_S2300000_n_0_n_n_0_1_1 Dr rowR (ix1 p) : EReal) * Host.gather Cert.ReferenceIdeal.gather_S300000_S2300000x1_S2300000_n_0_n_n_0_1_1 Dr colR (ix1 p)
      = kvDis x0 (ix1 ⟨min (kvRowN x0 (ixP p)).toInt.toNat (300000 - 1), by omega⟩) * kvDis x0 (ix1 ⟨min (val_main_v41 (F := Ideal) x0 (ixP p)).toInt.toNat (300000 - 1), by omega⟩) := by
  subst hDr hrow hcol
  rw [← ofFin_eq_ix1 p, gather_take Cert.ReferenceIdeal.gather_S300000_S2300000x1_S2300000_n_0_n_n_0_1_1 rfl rfl rfl rfl _ _ p (by omega),
    gather_take Cert.ReferenceIdeal.gather_S300000_S2300000x1_S2300000_n_0_n_n_0_1_1 rfl rfl rfl rfl _ _ p (by omega), ofFin_eq_ix1, ofFin_eq_ix1]

theorem weight1 (x0 : C[S2x1000000, .i32]) (p : Fin 2300000) (q : Fin 64) :
    (val_main_v52 (F := Ideal) x0 (ix2 p q) : EReal) = kvDis x0 (ix1 ⟨min (kvRowN x0 (ixP p)).toInt.toNat (300000 - 1), by omega⟩) * kvDis x0 (ix1 ⟨min (val_main_v41 (F := Ideal) x0 (ixP p)).toInt.toNat (300000 - 1), by omega⟩) := by
  have hi : idx_main_v51 (idx_main_v52 (ix2 p q)) = ix1 p := by
    funext c; match c with | ⟨0, _⟩ => rfl
  rw [val_main_v52_apply, val_main_v51_apply, hi, val_main_v43_apply, Ideal.mulf_def]
  unfold val_main_v35 val_main_v42
  exact weight_gen x0 (val_main_v28 (F := Ideal) x0) (dis_eq x0).symm (val_main_v34 (F := Ideal) x0) (val_main_v41 (F := Ideal) x0) (rowN_v34 x0) rfl p

theorem weight2 (x0 : C[S2x1000000, .i32]) (p : Fin 2300000) (q : Fin 64) :
    (val_main_v95 (F := Ideal) x0 (ix2 p q) : EReal) = kvDis x0 (ix1 ⟨min (kvRowN x0 (ixP p)).toInt.toNat (300000 - 1), by omega⟩) * kvDis x0 (ix1 ⟨min (val_main_v41 (F := Ideal) x0 (ixP p)).toInt.toNat (300000 - 1), by omega⟩) := by
  have hi : idx_main_v94 (idx_main_v95 (ix2 p q)) = ix1 p := by
    funext c; match c with | ⟨0, _⟩ => rfl
  rw [val_main_v95_apply, val_main_v94_apply, hi, val_main_v86_apply, Ideal.mulf_def]
  unfold val_main_v78 val_main_v85
  exact weight_gen x0 (val_main_v71 (F := Ideal) x0) (dis_eq' x0).symm (val_main_v77 (F := Ideal) x0) (val_main_v84 (F := Ideal) x0) (rowN_v77 x0) (colN_v84 x0) p

theorem layer_core (x0 : C[S2x1000000, .i32]) (h : FVec Ideal S300000x64 .f32) (hs : FVec Ideal S300000x64 .bf16)
    (hhs : ∀ (a : Fin 300000) (b : Fin 64), hs (ix2 a b) = h (ix2 a b) * kvDis x0 (ix1 a))
    (ZR : FVec Ideal S300000x64 .f32) (hZR : ∀ i, ZR i = 0)
    (colR rowR : IVec S2300000x1 32) (hcolR : colR = kvColB x0) (hrowR : rowR = kvRowN x0)
    (W : FVec Ideal S2300000x64 .f32)
    (hW : ∀ (p : Fin 2300000) (q : Fin 64), W (ix2 p q) = kvDis x0 (ix1 ⟨min (kvRowN x0 (ixP p)).toInt.toNat (300000 - 1), by omega⟩) * kvDis x0 (ix1 ⟨min (val_main_v41 (F := Ideal) x0 (ixP p)).toInt.toNat (300000 - 1), by omega⟩))
    (m : Fin 300000) (f : Fin 64) :
    (kvDis x0 (ix1 m) : EReal) * kvAgg hs x0 (ix2 m f)
      = Host.scatterAdd (F := Ideal) Cert.ReferenceIdeal.scatter_S300000x64_S2300000x1_S2300000x64_1_0_0_1 ZR colR (mulf (Host.gather Cert.ReferenceIdeal.gather_S300000x64_S2300000x1_S2300000x64_1_0_n_n_0_1_164 h rowR) W) (ix2 m f) := by
  subst hcolR hrowR
  unfold kvAgg
  exact agg_core (N := 300000) (C := 64) (n := 2300000) (by omega) scatter_S300000x64_S2300000x1_S2300000x64_1_0_0_1 Cert.ReferenceIdeal.scatter_S300000x64_S2300000x1_S2300000x64_1_0_0_1
    rfl rfl rfl rfl rfl rfl rfl rfl gather_S300000x64_S2300000x1_S2300000x64_1_0_n_n_0_1_164 Cert.ReferenceIdeal.gather_S300000x64_S2300000x1_S2300000x64_1_0_n_n_0_1_164 rfl rfl rfl rfl rfl rfl rfl rfl rfl rfl
    (kvDis x0) (dis_real x0)
    (broadcastInDim S300000x64 ![] bcast_S_S300000x64 (constant (F := Ideal) S_ .f32 0x00000000#32)) ZR
    (zeroK bcast_S_S300000x64) hZR (kvRowN x0) (kvColB x0) h hs bitsLt_bf16_f32 hhs W
    (fun p q m hc => by
      rw [hW p q]
      have e : (⟨min (val_main_v41 (F := Ideal) x0 (ixP p)).toInt.toNat (300000 - 1), by omega⟩ : Fin 300000) = m := Fin.ext (col_norm x0 p m.val m.isLt hc)
      rw [e])
    m f

theorem lidx18 (a : Fin 300000) (b k : Fin 64) : lidx_main_v18 (ix2 a b) k = ix2 a k := by
  funext c; match c with | ⟨0, _⟩ => rfl | ⟨1, _⟩ => rfl
theorem ridx18 (a : Fin 300000) (b k : Fin 64) : ridx_main_v18 (ix2 a b) k = ix2 k b := by
  funext c; match c with | ⟨0, _⟩ => rfl | ⟨1, _⟩ => rfl
theorem lidx61 (a : Fin 300000) (b k : Fin 64) : lidx_main_v61 (ix2 a b) k = ix2 a k := by
  funext c; match c with | ⟨0, _⟩ => rfl | ⟨1, _⟩ => rfl
theorem ridx61 (a : Fin 300000) (b k : Fin 64) : ridx_main_v61 (ix2 a b) k = ix2 k b := by
  funext c; match c with | ⟨0, _⟩ => rfl | ⟨1, _⟩ => rfl

theorem h1_eq (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (a : Fin 300000) (b : Fin 64) :
    kvH1 (kvX x1 x2 x3 x4 x5 x6 x7 x8) x0 x9 (ix2 a b) = (val_main_v18 (F := Ideal) x1 x2 x3 x4 x5 x6 x7 x8 x9 (ix2 a b) : EReal) * kvDis x0 (ix1 a) := by
  unfold kvH1 G2
  show g2 (kvX x1 x2 x3 x4 x5 x6 x7 x8) x9 (kvDisC x0) a b = _
  unfold g2
  rw [disC_apply, val_main_v18_apply, ← X_eq x0 x1 x2 x3 x4 x5 x6 x7 x8]
  exact congrArg (fun s : EReal => s * kvDis x0 (ix1 a)) (Finset.sum_congr rfl fun k _ => by rw [lidx18, ridx18])

theorem layer1 (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (m : Fin 300000) (f : Fin 64) :
    (kvDis x0 (ix1 m) : EReal) * kvAgg (kvH1 (kvX x1 x2 x3 x4 x5 x6 x7 x8) x0 x9) x0 (ix2 m f) = val_main_v56 (F := Ideal) x0 x1 x2 x3 x4 x5 x6 x7 x8 x9 (ix2 m f) := by
  unfold val_main_v56 val_main_v53 val_main_v50
  exact layer_core x0 (val_main_v18 (F := Ideal) x1 x2 x3 x4 x5 x6 x7 x8 x9) (kvH1 (kvX x1 x2 x3 x4 x5 x6 x7 x8) x0 x9) (h1_eq x0 x1 x2 x3 x4 x5 x6 x7 x8 x9) (val_main_v54 (F := Ideal)) zero54
    (val_main_v55 (F := Ideal) x0) (val_main_v49 (F := Ideal) x0) (colB_v55 x0) (rowN_v49 x0) (val_main_v52 (F := Ideal) x0) (weight1 x0) m f

theorem v60_read (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (a : Fin 300000) (k : Fin 64) :
    (val_main_v60 (F := Ideal) x0 x1 x2 x3 x4 x5 x6 x7 x8 x9 x10 (ix2 a k) : EReal) = max (val_main_v56 (F := Ideal) x0 x1 x2 x3 x4 x5 x6 x7 x8 x9 (ix2 a k) + x10 (ix1 k)) 0 := by
  have hi : idx_main_v57 (idx_main_v58 (ix2 a k)) = ix1 k := by
    funext c; match c with | ⟨0, _⟩ => rfl
  rw [val_main_v60_apply, val_main_v59_apply, val_main_v58_apply, val_main_v57_apply, hi, val_main_call1_v0_apply,
    val_main_call1_cst_apply, Ideal.maximumf_def, Ideal.addf_def, Ideal.ofBits_def, Ideal.ofBits_zero_f32]

theorem h2_eq (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (a : Fin 300000) (b : Fin 64) :
    kvH2 (kvX x1 x2 x3 x4 x5 x6 x7 x8) x0 x9 x10 x11 (ix2 a b) = (val_main_v61 (F := Ideal) x0 x1 x2 x3 x4 x5 x6 x7 x8 x9 x10 x11 (ix2 a b) : EReal) * kvDis x0 (ix1 a) := by
  unfold kvH2 G3
  show g3 (kvAgg (kvH1 (kvX x1 x2 x3 x4 x5 x6 x7 x8) x0 x9) x0) (kvRow64 x10) (kvDisC x0) x11 a b = _
  unfold g3
  rw [disC_apply, val_main_v61_apply]
  refine congrArg (fun s : EReal => s * kvDis x0 (ix1 a)) (Finset.sum_congr rfl fun k _ => ?_)
  rw [lidx61, ridx61, layer1, row64_apply, v60_read]

theorem layer2 (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (m : Fin 300000) (f : Fin 64) :
    (kvDis x0 (ix1 m) : EReal) * kvAgg (kvH2 (kvX x1 x2 x3 x4 x5 x6 x7 x8) x0 x9 x10 x11) x0 (ix2 m f) = val_main_v99 (F := Ideal) x0 x1 x2 x3 x4 x5 x6 x7 x8 x9 x10 x11 (ix2 m f) := by
  unfold val_main_v99 val_main_v96 val_main_v93
  exact layer_core x0 (val_main_v61 (F := Ideal) x0 x1 x2 x3 x4 x5 x6 x7 x8 x9 x10 x11) (kvH2 (kvX x1 x2 x3 x4 x5 x6 x7 x8) x0 x9 x10 x11) (h2_eq x0 x1 x2 x3 x4 x5 x6 x7 x8 x9 x10 x11) (val_main_v97 (F := Ideal)) zero97
    (val_main_v98 (F := Ideal) x0) (val_main_v92 (F := Ideal) x0) (colB_v98 x0) (rowN_v92 x0) (val_main_v95 (F := Ideal) x0) (weight2 x0) m f

end Specific

theorem x2_eq (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (x12 : C[S64, .f32]) :
    kvX2 (kvX x1 x2 x3 x4 x5 x6 x7 x8) x0 x9 x10 x11 x12 = Cert.ReferenceIdeal.Read.val_main_v102 (F := Ideal) x0 x1 x2 x3 x4 x5 x6 x7 x8 x9 x10 x11 x12 := by
  funext i
  obtain ⟨m, f, rfl⟩ : ∃ (m : Fin 300000) (f : Fin 64), i = ix2 m f := ⟨i 0, i 1, eq_ix2 (n0 := 300000) (n1 := 64) i⟩
  have hi : Cert.ReferenceIdeal.Read.idx_main_v100 (Cert.ReferenceIdeal.Read.idx_main_v101 (ix2 m f)) = ix1 f := by
    funext c; match c with | ⟨0, _⟩ => rfl
  unfold kvX2 G4
  show g4 (kvAgg (kvH2 (kvX x1 x2 x3 x4 x5 x6 x7 x8) x0 x9 x10 x11) x0) (kvRow64 x12) (kvDisC x0) m f = _
  unfold g4
  rw [disC_apply, layer2, row64_apply, Cert.ReferenceIdeal.Read.val_main_v102_apply, Cert.ReferenceIdeal.Read.val_main_v101_apply,
    Cert.ReferenceIdeal.Read.val_main_v100_apply, hi, Ideal.addf_def]

end Cert.Hand.Bridge

end
-- ==== Proof.BridgeP.lean ====
/- The predictor: the product over the joined row of 128 is the sum of the two products over 64, and a row of a product is the product of the row; the logistic is the same term on both sides. -/
import proofs.«100265_j85727547228235_2_alg».proof.Proof.KerSpec
import proofs.«100265_j85727547228235_2_alg».proof.Proof.LibGsIdx
import proofs.«100265_j85727547228235_2_alg».proof.Proof.RefReadP
import proofs.«100265_j85727547228235_2_alg».proof.Proof.BridgeA
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.Hand.Bridge

open Idealize.ShloMosaic Idealize.ShloMosaic.ValueIdx
open Idealize.ShloMosaic.StableHlo.Predicate (ixP)
open Cert.KernelIdeal Cert.KernelIdeal.Gen Cert.KernelIdeal.Hand

set_option quotPrecheck false in
local notation "C[" S "," e "]" => (⟨S, e⟩ : BufTy).Contents (Elt Ideal)

theorem idx2_eq {n0 n1 : Nat} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

theorem concat_cols_left {α : Type} {n c1 c2 c : Nat} (x₁ : (⟨2, ![n, c1]⟩ : Shape).Idx → α) (x₂ : (⟨2, ![n, c2]⟩ : Shape).Idx → α)
    (h : Shape.Concatenates [⟨2, ![n, c1]⟩, ⟨2, ![n, c2]⟩] ⟨2, ![n, c]⟩ 1) (r : Fin n) (k : Fin c1) (hk : k.val < c) :
    concatenate ⟨2, ![n, c]⟩ 1 [⟨⟨2, ![n, c1]⟩, x₁⟩, ⟨⟨2, ![n, c2]⟩, x₂⟩] h (ix2 r ⟨k.val, hk⟩) = x₁ (ix2 r k) := by
  refine concatenate_pair_apply_left 1 x₁ x₂ h _ rfl (ix2 r k) (fun b => ?_)
  match b with
  | ⟨0, _⟩ => rfl
  | ⟨1, _⟩ => rfl

theorem concat_cols_right {α : Type} {n c1 c2 c : Nat} (x₁ : (⟨2, ![n, c1]⟩ : Shape).Idx → α) (x₂ : (⟨2, ![n, c2]⟩ : Shape).Idx → α)
    (h : Shape.Concatenates [⟨2, ![n, c1]⟩, ⟨2, ![n, c2]⟩] ⟨2, ![n, c]⟩ 1) (r : Fin n) (k : Fin c2) (hk : c1 + k.val < c) :
    concatenate ⟨2, ![n, c]⟩ 1 [⟨⟨2, ![n, c1]⟩, x₁⟩, ⟨⟨2, ![n, c2]⟩, x₂⟩] h (ix2 r ⟨c1 + k.val, hk⟩) = x₂ (ix2 r k) := by
  refine concatenate_pair_apply_right 1 x₁ x₂ h _ rfl rfl (ix2 r k) (fun b hb => ?_) ?_
  · match b with
    | ⟨0, _⟩ => rfl
    | ⟨1, _⟩ => exact absurd rfl hb
  · show k.val + c1 = c1 + k.val
    omega

theorem ofBits_one_f32 : Ideal.ofBits .f32 0x3F800000#32 = 1 := by
  simp [Ideal.ofBits, Ideal.ieee, -EReal.coe_mul]; norm_num

theorem logistic_spelled (x : EReal) :
    Ideal.div (Ideal.ofBits .f32 0x3F800000#32) (Ideal.ofBits .f32 0x3F800000#32 + Ideal.exp (-x)) = Ideal.logistic x := by
  rw [ofBits_one_f32]; rfl

def predVal (Y : FVec Ideal S300000x64 .f32) (W : FVec Ideal S128x64 .f32) (b1 : FVec Ideal S64 .f32) (w2 : FVec Ideal S64x1 .f32)
    (b2 : FVec Ideal S1 .f32) (ru rp : Fin 300000) : EReal :=
  Ideal.logistic ((∑ k : Fin 64, max ((∑ j : Fin 64, Y (ix2 ru j) * W (ix2 ⟨j.val, by omega⟩ k))
      + (∑ j : Fin 64, Y (ix2 rp j) * W (ix2 ⟨64 + j.val, by omega⟩ k)) + b1 (ix1 k)) 0 * w2 (ix2 k (0 : Fin 1)))
    + b2 (ix1 (0 : Fin 1))) * Ideal.ofBits .f32 0x40A00000#32

theorem pu_at (Y : C[S300000x64, .f32]) (x13 : C[S128x64, .f32]) (r : Fin 200000) (q : Fin 64) :
    kvPu Y x13 (ix2 r q) = ∑ j : Fin 64, Y (ix2 ⟨r.val, by omega⟩ j) * x13 (ix2 ⟨j.val, by omega⟩ q) := by
  show g5 _ _ r q = _
  unfold g5
  refine Finset.sum_congr rfl fun j _ => ?_
  rw [extractStridedSlice_apply ![0, 0] Y slices_S300000x64_S200000x64_0_0 (ix2 r j) (ix2 ⟨r.val, by omega⟩ j)
        (fun a => match a with
          | ⟨0, _⟩ => by show r.val = 0 + r.val; omega
          | ⟨1, _⟩ => by show j.val = 0 + j.val; omega),
      extractStridedSlice_apply ![0, 0] x13 slices_S128x64_S64x64_0_0 (ix2 j q) (ix2 ⟨j.val, by omega⟩ q)
        (fun a => match a with
          | ⟨0, _⟩ => by show j.val = 0 + j.val; omega
          | ⟨1, _⟩ => by show q.val = 0 + q.val; omega)]

theorem pp_at (Y : C[S300000x64, .f32]) (x13 : C[S128x64, .f32]) (r : Fin 100000) (q : Fin 64) :
    kvPp Y x13 (ix2 r q) = ∑ j : Fin 64, Y (ix2 ⟨200000 + r.val, by omega⟩ j) * x13 (ix2 ⟨64 + j.val, by omega⟩ q) := by
  show g6 _ _ r q = _
  unfold g6
  refine Finset.sum_congr rfl fun j _ => ?_
  rw [extractStridedSlice_apply ![200000, 0] Y slices_S300000x64_S100000x64_200000_0 (ix2 r j) (ix2 ⟨200000 + r.val, by omega⟩ j)
        (fun a => match a with
          | ⟨0, _⟩ => by show 200000 + r.val = 200000 + r.val; rfl
          | ⟨1, _⟩ => by show j.val = 0 + j.val; omega),
      extractStridedSlice_apply ![64, 0] x13 slices_S128x64_S64x64_64_0 (ix2 j q) (ix2 ⟨64 + j.val, by omega⟩ q)
        (fun a => match a with
          | ⟨0, _⟩ => by show 64 + j.val = 64 + j.val; rfl
          | ⟨1, _⟩ => by show q.val = 0 + q.val; omega)]

theorem gu_at (Y : C[S300000x64, .f32]) (x13 : C[S128x64, .f32]) (idx : C[S1000000x1, .i32]) (p : Fin 1000000) (q : Fin 64) :
    Host.gather gather_S200000x64_S1000000x1_S1000000x64_1_0_n_n_0_1_164 (kvPu Y x13) idx (ix2 p q)
      = ∑ j : Fin 64, Y (ix2 ⟨min ((idx) (ixP p)).toInt.toNat (200000 - 1), by omega⟩ j) * x13 (ix2 ⟨j.val, by omega⟩ q) :=
  (GsIdx.gather_rows gather_S200000x64_S1000000x1_S1000000x64_1_0_n_n_0_1_164 rfl rfl rfl rfl rfl (kvPu Y x13) idx p q (by omega)).trans (pu_at Y x13 _ q)

theorem gp_at (Y : C[S300000x64, .f32]) (x13 : C[S128x64, .f32]) (idx : C[S1000000x1, .i32]) (p : Fin 1000000) (q : Fin 64) :
    Host.gather gather_S100000x64_S1000000x1_S1000000x64_1_0_n_n_0_1_164 (kvPp Y x13) idx (ix2 p q)
      = ∑ j : Fin 64, Y (ix2 ⟨200000 + min ((idx) (ixP p)).toInt.toNat (100000 - 1), by omega⟩ j) * x13 (ix2 ⟨64 + j.val, by omega⟩ q) :=
  (GsIdx.gather_rows gather_S100000x64_S1000000x1_S1000000x64_1_0_n_n_0_1_164 rfl rfl rfl rfl rfl (kvPp Y x13) idx p q (by omega)).trans (pp_at Y x13 _ q)

theorem row64_at (b : C[S64, .f32]) (k : Fin 64) : kvRow64 b (ix2 (0 : Fin 1) k) = b (ix1 k) := by
  unfold kvRow64
  exact shapeCast_apply b shapeCasts_S64_S1x64 (ix2 (0 : Fin 1) k) (ix1 k)
    (by rewrite [Shape.rowMajor_val_two, Shape.rowMajor_val_one]; show k.val = 0 * 64 + k.val; omega)

theorem one_at (b : C[S1, .f32]) : shapeCast S1x1 b shapeCasts_S1_S1x1 (ix2 (0 : Fin 1) (0 : Fin 1)) = b (ix1 (0 : Fin 1)) :=
  shapeCast_apply b shapeCasts_S1_S1x1 (ix2 (0 : Fin 1) (0 : Fin 1)) (ix1 (0 : Fin 1))
    (by rewrite [Shape.rowMajor_val_two, Shape.rowMajor_val_one]; rfl)

theorem uiN_eq (x0 : C[S2x1000000, .i32]) : kvUiN x0 = Cert.ReferenceIdeal.Read.val_main_v109 (F := Ideal) x0 := by
  first
    | rfl
    | (unfold kvUiN; rw [ui_eq]; rfl)

theorem piN_eq (x0 : C[S2x1000000, .i32]) : kvPiN x0 = Cert.ReferenceIdeal.Read.val_main_v117 (F := Ideal) x0 := by
  first
    | rfl
    | (unfold kvPiN; rw [pi_eq]; rfl)

theorem ker_at (Y : C[S300000x64, .f32]) (x0 : C[S2x1000000, .i32]) (x13 : C[S128x64, .f32]) (x14 : C[S64, .f32])
    (x15 : C[S64x1, .f32]) (x16 : C[S1, .f32]) (p : Fin 1000000) :
    kvOut Y x0 x13 x14 x15 x16 (ix1 p)
      = predVal Y x13 x14 x15 x16 ⟨min ((Cert.ReferenceIdeal.Read.val_main_v109 (F := Ideal) x0) (ixP p)).toInt.toNat (200000 - 1), by omega⟩ ⟨200000 + min ((Cert.ReferenceIdeal.Read.val_main_v117 (F := Ideal) x0) (ixP p)).toInt.toNat (100000 - 1), by omega⟩ := by
  unfold kvOut
  rw [uiN_eq, piN_eq]
  rw [shapeCast_apply _ shapeCasts_S1000000x1_S1000000 (ix1 p) (ix2 p (0 : Fin 1))
    (by rewrite [Shape.rowMajor_val_two, Shape.rowMajor_val_one]; show p.val * 1 + 0 = p.val; omega)]
  show g7 _ _ _ _ _ p (0 : Fin 1) = _
  unfold g7 predVal
  rw [one_at]
  simp only [row64_at]
  refine congrArg (fun s => Ideal.logistic (s + x16 (ix1 (0 : Fin 1))) * Ideal.ofBits .f32 0x40A00000#32)
    (Finset.sum_congr rfl fun k _ => ?_)
  exact congrArg (fun z => max (z + x14 (ix1 k)) 0 * x15 (ix2 k (0 : Fin 1)))
    (congrArg₂ (· + ·) (gu_at Y x13 _ p k) (gp_at Y x13 _ p k))

theorem v110_at (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (x12 : C[S64, .f32]) (p : Fin 1000000) (j : Fin 64) :
    Cert.ReferenceIdeal.Read.val_main_v110 (F := Ideal) x0 x1 x2 x3 x4 x5 x6 x7 x8 x9 x10 x11 x12 (ix2 p j) = (Cert.ReferenceIdeal.Read.val_main_v102 (F := Ideal) x0 x1 x2 x3 x4 x5 x6 x7 x8 x9 x10 x11 x12) (ix2 ⟨min ((Cert.ReferenceIdeal.Read.val_main_v109 (F := Ideal) x0) (ixP p)).toInt.toNat (200000 - 1), by omega⟩ j) := by
  unfold Cert.ReferenceIdeal.Read.val_main_v110
  rw [GsIdx.gather_rows Cert.ReferenceIdeal.gather_S200000x64_S1000000x1_S1000000x64_1_0_n_n_0_1_164 rfl rfl rfl rfl rfl _ _ p j (by omega), Cert.ReferenceIdeal.Read.val_main_v103_apply]
  exact congrArg (Cert.ReferenceIdeal.Read.val_main_v102 (F := Ideal) x0 x1 x2 x3 x4 x5 x6 x7 x8 x9 x10 x11 x12) (idx2_eq _ _ _ rfl rfl)

theorem v118_at (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (x12 : C[S64, .f32]) (p : Fin 1000000) (j : Fin 64) :
    Cert.ReferenceIdeal.Read.val_main_v118 (F := Ideal) x0 x1 x2 x3 x4 x5 x6 x7 x8 x9 x10 x11 x12 (ix2 p j) = (Cert.ReferenceIdeal.Read.val_main_v102 (F := Ideal) x0 x1 x2 x3 x4 x5 x6 x7 x8 x9 x10 x11 x12) (ix2 ⟨200000 + min ((Cert.ReferenceIdeal.Read.val_main_v117 (F := Ideal) x0) (ixP p)).toInt.toNat (100000 - 1), by omega⟩ j) := by
  unfold Cert.ReferenceIdeal.Read.val_main_v118
  rw [GsIdx.gather_rows Cert.ReferenceIdeal.gather_S100000x64_S1000000x1_S1000000x64_1_0_n_n_0_1_164 rfl rfl rfl rfl rfl _ _ p j (by omega), Cert.ReferenceIdeal.Read.val_main_v111_apply]
  exact congrArg (Cert.ReferenceIdeal.Read.val_main_v102 (F := Ideal) x0 x1 x2 x3 x4 x5 x6 x7 x8 x9 x10 x11 x12) (idx2_eq _ _ _ rfl rfl)

theorem v119_left (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (x12 : C[S64, .f32]) (p : Fin 1000000) (j : Fin 64) (h : j.val < 128) :
    Cert.ReferenceIdeal.Read.val_main_v119 (F := Ideal) x0 x1 x2 x3 x4 x5 x6 x7 x8 x9 x10 x11 x12 (ix2 p ⟨j.val, h⟩) = Cert.ReferenceIdeal.Read.val_main_v110 (F := Ideal) x0 x1 x2 x3 x4 x5 x6 x7 x8 x9 x10 x11 x12 (ix2 p j) := by
  unfold Cert.ReferenceIdeal.Read.val_main_v119
  exact concat_cols_left _ _ _ p j h

theorem v119_right (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (x12 : C[S64, .f32]) (p : Fin 1000000) (j : Fin 64) (h : 64 + j.val < 128) :
    Cert.ReferenceIdeal.Read.val_main_v119 (F := Ideal) x0 x1 x2 x3 x4 x5 x6 x7 x8 x9 x10 x11 x12 (ix2 p ⟨64 + j.val, h⟩) = Cert.ReferenceIdeal.Read.val_main_v118 (F := Ideal) x0 x1 x2 x3 x4 x5 x6 x7 x8 x9 x10 x11 x12 (ix2 p j) := by
  unfold Cert.ReferenceIdeal.Read.val_main_v119
  exact concat_cols_right _ _ _ p j h

theorem v120_at (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (x12 : C[S64, .f32]) (x13 : C[S128x64, .f32]) (p : Fin 1000000) (q : Fin 64) :
    Cert.ReferenceIdeal.Read.val_main_v120 (F := Ideal) x0 x1 x2 x3 x4 x5 x6 x7 x8 x9 x10 x11 x12 x13 (ix2 p q) = (∑ j : Fin 64, (Cert.ReferenceIdeal.Read.val_main_v102 (F := Ideal) x0 x1 x2 x3 x4 x5 x6 x7 x8 x9 x10 x11 x12) (ix2 ⟨min ((Cert.ReferenceIdeal.Read.val_main_v109 (F := Ideal) x0) (ixP p)).toInt.toNat (200000 - 1), by omega⟩ j) * x13 (ix2 ⟨j.val, by omega⟩ q)) + (∑ j : Fin 64, (Cert.ReferenceIdeal.Read.val_main_v102 (F := Ideal) x0 x1 x2 x3 x4 x5 x6 x7 x8 x9 x10 x11 x12) (ix2 ⟨200000 + min ((Cert.ReferenceIdeal.Read.val_main_v117 (F := Ideal) x0) (ixP p)).toInt.toNat (100000 - 1), by omega⟩ j) * x13 (ix2 ⟨64 + j.val, by omega⟩ q)) := by
  rw [Cert.ReferenceIdeal.Read.val_main_v120_apply, GsIdx.sum_fin128_split]
  refine congrArg₂ (· + ·) (Finset.sum_congr rfl fun j _ => ?_) (Finset.sum_congr rfl fun j _ => ?_)
  · have hl : Cert.ReferenceIdeal.Read.lidx_main_v120 (ix2 p q) ⟨j.val, by omega⟩ = ix2 p ⟨j.val, by omega⟩ := idx2_eq _ _ _ rfl rfl
    have hr : Cert.ReferenceIdeal.Read.ridx_main_v120 (ix2 p q) ⟨j.val, by omega⟩ = ix2 ⟨j.val, by omega⟩ q := idx2_eq _ _ _ rfl rfl
    show Cert.ReferenceIdeal.Read.val_main_v119 (F := Ideal) x0 x1 x2 x3 x4 x5 x6 x7 x8 x9 x10 x11 x12 (Cert.ReferenceIdeal.Read.lidx_main_v120 (ix2 p q) ⟨j.val, by omega⟩)
      * x13 (Cert.ReferenceIdeal.Read.ridx_main_v120 (ix2 p q) ⟨j.val, by omega⟩) = _
    rw [hl, hr, v119_left, v110_at]
  · have hl : Cert.ReferenceIdeal.Read.lidx_main_v120 (ix2 p q) ⟨64 + j.val, by omega⟩ = ix2 p ⟨64 + j.val, by omega⟩ := idx2_eq _ _ _ rfl rfl
    have hr : Cert.ReferenceIdeal.Read.ridx_main_v120 (ix2 p q) ⟨64 + j.val, by omega⟩ = ix2 ⟨64 + j.val, by omega⟩ q := idx2_eq _ _ _ rfl rfl
    show Cert.ReferenceIdeal.Read.val_main_v119 (F := Ideal) x0 x1 x2 x3 x4 x5 x6 x7 x8 x9 x10 x11 x12 (Cert.ReferenceIdeal.Read.lidx_main_v120 (ix2 p q) ⟨64 + j.val, by omega⟩)
      * x13 (Cert.ReferenceIdeal.Read.ridx_main_v120 (ix2 p q) ⟨64 + j.val, by omega⟩) = _
    rw [hl, hr, v119_right, v118_at]

theorem v123_at (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (x12 : C[S64, .f32]) (x13 : C[S128x64, .f32]) (x14 : C[S64, .f32]) (p : Fin 1000000) (q : Fin 64) :
    Cert.ReferenceIdeal.Read.val_main_v123 (F := Ideal) x0 x1 x2 x3 x4 x5 x6 x7 x8 x9 x10 x11 x12 x13 x14 (ix2 p q) = (∑ j : Fin 64, (Cert.ReferenceIdeal.Read.val_main_v102 (F := Ideal) x0 x1 x2 x3 x4 x5 x6 x7 x8 x9 x10 x11 x12) (ix2 ⟨min ((Cert.ReferenceIdeal.Read.val_main_v109 (F := Ideal) x0) (ixP p)).toInt.toNat (200000 - 1), by omega⟩ j) * x13 (ix2 ⟨j.val, by omega⟩ q)) + (∑ j : Fin 64, (Cert.ReferenceIdeal.Read.val_main_v102 (F := Ideal) x0 x1 x2 x3 x4 x5 x6 x7 x8 x9 x10 x11 x12) (ix2 ⟨200000 + min ((Cert.ReferenceIdeal.Read.val_main_v117 (F := Ideal) x0) (ixP p)).toInt.toNat (100000 - 1), by omega⟩ j) * x13 (ix2 ⟨64 + j.val, by omega⟩ q)) + x14 (ix1 q) := by
  rw [Cert.ReferenceIdeal.Read.val_main_v123_apply, v120_at, Cert.ReferenceIdeal.Read.val_main_v122_apply,
    Cert.ReferenceIdeal.Read.val_main_v121_apply]
  rw [show Cert.ReferenceIdeal.Read.idx_main_v121 (Cert.ReferenceIdeal.Read.idx_main_v122 (ix2 p q)) = ix1 q from
    funext fun a => match a with | ⟨0, _⟩ => rfl]
  rfl

theorem v128_at (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (x12 : C[S64, .f32]) (x13 : C[S128x64, .f32]) (x14 : C[S64, .f32]) (x15 : C[S64x1, .f32]) (x16 : C[S1, .f32]) (p : Fin 1000000) :
    Cert.ReferenceIdeal.Read.val_main_v128 (F := Ideal) x0 x1 x2 x3 x4 x5 x6 x7 x8 x9 x10 x11 x12 x13 x14 x15 x16 (ix2 p (0 : Fin 1))
      = (∑ k : Fin 64, max (Cert.ReferenceIdeal.Read.val_main_v123 (F := Ideal) x0 x1 x2 x3 x4 x5 x6 x7 x8 x9 x10 x11 x12 x13 x14 (ix2 p k)) 0 * x15 (ix2 k (0 : Fin 1))) + x16 (ix1 (0 : Fin 1)) := by
  rw [Cert.ReferenceIdeal.Read.val_main_v128_apply, Cert.ReferenceIdeal.Read.val_main_v125_apply,
    Cert.ReferenceIdeal.Read.val_main_v127_apply, Cert.ReferenceIdeal.Read.val_main_v126_apply]
  rw [Ideal.addf_def]
  refine congrArg₂ (· + ·) (Finset.sum_congr rfl fun k _ => ?_) ?_
  · have hl : Cert.ReferenceIdeal.Read.lidx_main_v125 (ix2 p (0 : Fin 1)) k = ix2 p k := idx2_eq _ _ _ rfl rfl
    have hr : Cert.ReferenceIdeal.Read.ridx_main_v125 (ix2 p (0 : Fin 1)) k = ix2 k (0 : Fin 1) := idx2_eq _ _ _ rfl rfl
    rw [hl, hr, Cert.ReferenceIdeal.Read.val_main_v124_apply, Cert.ReferenceIdeal.Read.val_main_call3_v0_apply,
      Cert.ReferenceIdeal.Read.val_main_call3_cst_apply]
    show max _ (Ideal.ofBits .f32 0x00000000#32) * _ = _
    rw [Ideal.ofBits_zero_f32]
  · exact congrArg x16 (funext fun a => match a with | ⟨0, _⟩ => rfl)

theorem v134_at (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (x12 : C[S64, .f32]) (x13 : C[S128x64, .f32]) (x14 : C[S64, .f32]) (x15 : C[S64x1, .f32]) (x16 : C[S1, .f32]) (p : Fin 1000000) :
    Cert.ReferenceIdeal.Read.val_main_v134 (F := Ideal) x0 x1 x2 x3 x4 x5 x6 x7 x8 x9 x10 x11 x12 x13 x14 x15 x16 (ix2 p (0 : Fin 1)) = Ideal.logistic (Cert.ReferenceIdeal.Read.val_main_v128 (F := Ideal) x0 x1 x2 x3 x4 x5 x6 x7 x8 x9 x10 x11 x12 x13 x14 x15 x16 (ix2 p (0 : Fin 1))) := by
  rw [Cert.ReferenceIdeal.Read.val_main_v134_apply, Cert.ReferenceIdeal.Read.val_main_v133_apply,
    Cert.ReferenceIdeal.Read.val_main_cst_27_apply, Cert.ReferenceIdeal.Read.val_main_v132_apply,
    Cert.ReferenceIdeal.Read.val_main_v131_apply, Cert.ReferenceIdeal.Read.val_main_cst_26_apply,
    Cert.ReferenceIdeal.Read.val_main_v130_apply, Cert.ReferenceIdeal.Read.val_main_v129_apply]
  generalize Cert.ReferenceIdeal.Read.val_main_v128 (F := Ideal) x0 x1 x2 x3 x4 x5 x6 x7 x8 x9 x10 x11 x12 x13 x14 x15 x16 (ix2 p (0 : Fin 1)) = z
  exact logistic_spelled z

theorem ref_at (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (x12 : C[S64, .f32]) (x13 : C[S128x64, .f32]) (x14 : C[S64, .f32]) (x15 : C[S64x1, .f32]) (x16 : C[S1, .f32]) (p : Fin 1000000) :
    Cert.ReferenceIdeal.Read.val_main_v137 (F := Ideal) x0 x1 x2 x3 x4 x5 x6 x7 x8 x9 x10 x11 x12 x13 x14 x15 x16 (ix1 p) = predVal (Cert.ReferenceIdeal.Read.val_main_v102 (F := Ideal) x0 x1 x2 x3 x4 x5 x6 x7 x8 x9 x10 x11 x12) x13 x14 x15 x16 ⟨min ((Cert.ReferenceIdeal.Read.val_main_v109 (F := Ideal) x0) (ixP p)).toInt.toNat (200000 - 1), by omega⟩ ⟨200000 + min ((Cert.ReferenceIdeal.Read.val_main_v117 (F := Ideal) x0) (ixP p)).toInt.toNat (100000 - 1), by omega⟩ := by
  rw [Cert.ReferenceIdeal.Read.val_main_v137_apply, Cert.ReferenceIdeal.Read.val_main_v136_apply,
    Cert.ReferenceIdeal.Read.val_main_cst_28_apply, Cert.ReferenceIdeal.Read.val_main_v135_apply]
  rw [show Cert.ReferenceIdeal.Read.idx_main_v135 (ix1 p) = ix2 p (0 : Fin 1) from idx2_eq _ _ _ (Nat.div_one _) rfl]
  rw [v134_at, v128_at]
  simp only [v123_at]
  rfl

theorem out_eq (x0 : C[S2x1000000, .i32]) (x1 : C[S200000x128, .f32]) (x2 : C[S100000x128, .f32]) (x3 : C[S200000x64, .f32]) (x4 : C[S100000x64, .f32]) (x5 : C[S128x64, .f32]) (x6 : C[S64, .f32]) (x7 : C[S128x64, .f32]) (x8 : C[S64, .f32]) (x9 : C[S64x64, .f32]) (x10 : C[S64, .f32]) (x11 : C[S64x64, .f32]) (x12 : C[S64, .f32]) (x13 : C[S128x64, .f32]) (x14 : C[S64, .f32]) (x15 : C[S64x1, .f32]) (x16 : C[S1, .f32]) :
    kvOut (Cert.ReferenceIdeal.Read.val_main_v102 (F := Ideal) x0 x1 x2 x3 x4 x5 x6 x7 x8 x9 x10 x11 x12) x0 x13 x14 x15 x16 = Cert.ReferenceIdeal.Read.val_main_v137 (F := Ideal) x0 x1 x2 x3 x4 x5 x6 x7 x8 x9 x10 x11 x12 x13 x14 x15 x16 := by
  funext e
  obtain ⟨p, rfl⟩ : ∃ p : Fin 1000000, e = ix1 p := ⟨e 0, eq_ix1 e⟩
  exact (ker_at _ x0 x13 x14 x15 x16 p).trans (ref_at x0 x1 x2 x3 x4 x5 x6 x7 x8 x9 x10 x11 x12 x13 x14 x15 x16 p).symm

end Cert.Hand.Bridge

end
-- ==== Proof.lean ====
/- A two-layer graph convolution over a bipartite user-product graph with an edge-level predictor, against the same model in
   plain array operations. Over the extended reals the two agree: a matrix product is the sum over the contracted index; the
   reference weights an edge's message by dis[source]·dis[target] where the kernel scales a node's row by dis before the edges read
   it and the node's sum by dis after, and these agree because every edge that lands on node n has target n and a non-negative
   real factor distributes over a sum of extended reals; the predictor's product over 128 splits into its two halves of 64, and a
   row of a product is the product of the row; the logistic is 1/(1+e^(-x)) on both sides. Each program runs to the end, faults
   nowhere and leaves its argument arrays as launched. -/
import proofs.«100265_j85727547228235_2_alg».proof.Defs
import proofs.«100265_j85727547228235_2_alg».proof.Proof.Gen.Kernel
import proofs.«100265_j85727547228235_2_alg».proof.Proof.Gen.KernelIdeal
import proofs.«100265_j85727547228235_2_alg».proof.Proof.Gen.ReferenceIdeal
import proofs.«100265_j85727547228235_2_alg».proof.Proof.Gen.Pre_finite_inputs
import proofs.«100265_j85727547228235_2_alg».proof.Proof.RunB
import proofs.«100265_j85727547228235_2_alg».proof.Proof.Run
import proofs.«100265_j85727547228235_2_alg».proof.Proof.KerVal
import proofs.«100265_j85727547228235_2_alg».proof.Proof.BridgeL
import proofs.«100265_j85727547228235_2_alg».proof.Proof.BridgeP
import proofs.«100265_j85727547228235_2_alg».proof.Proof.RefRunP
import proofs.«100265_j85727547228235_2_alg».proof.Proof.RefReadP
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ =>
  (θ_run (Cert.Kernel.defs (F := Bits)) _ _).mono (fun r h c =>
    ⟨Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide),
     Cert.Kernel.Hand.arg_end m ρ h c _ (by decide)⟩)
    (Cert.Kernel.Hand.run_all (F := Bits) m ρ)

theorem frame_ki : Cert.frame_KernelIdeal := fun m ρ _ =>
  (θ_run (Cert.KernelIdeal.defs (F := Ideal)) _ _).mono (fun r h c =>
    ⟨Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide),
     Cert.KernelIdeal.Hand.arg_end m ρ h c _ (by decide)⟩)
    (Cert.KernelIdeal.Hand.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem all_eq (x0 : (⟨Cert.KernelIdeal.S2x1000000, .i32⟩ : BufTy).Contents (Elt Ideal)) (x1 : (⟨Cert.KernelIdeal.S200000x128, .f32⟩ : BufTy).Contents (Elt Ideal)) (x2 : (⟨Cert.KernelIdeal.S100000x128, .f32⟩ : BufTy).Contents (Elt Ideal)) (x3 : (⟨Cert.KernelIdeal.S200000x64, .f32⟩ : BufTy).Contents (Elt Ideal)) (x4 : (⟨Cert.KernelIdeal.S100000x64, .f32⟩ : BufTy).Contents (Elt Ideal)) (x5 : (⟨Cert.KernelIdeal.S128x64, .f32⟩ : BufTy).Contents (Elt Ideal)) (x6 : (⟨Cert.KernelIdeal.S64, .f32⟩ : BufTy).Contents (Elt Ideal)) (x7 : (⟨Cert.KernelIdeal.S128x64, .f32⟩ : BufTy).Contents (Elt Ideal)) (x8 : (⟨Cert.KernelIdeal.S64, .f32⟩ : BufTy).Contents (Elt Ideal)) (x9 : (⟨Cert.KernelIdeal.S64x64, .f32⟩ : BufTy).Contents (Elt Ideal)) (x10 : (⟨Cert.KernelIdeal.S64, .f32⟩ : BufTy).Contents (Elt Ideal)) (x11 : (⟨Cert.KernelIdeal.S64x64, .f32⟩ : BufTy).Contents (Elt Ideal)) (x12 : (⟨Cert.KernelIdeal.S64, .f32⟩ : BufTy).Contents (Elt Ideal)) (x13 : (⟨Cert.KernelIdeal.S128x64, .f32⟩ : BufTy).Contents (Elt Ideal)) (x14 : (⟨Cert.KernelIdeal.S64, .f32⟩ : BufTy).Contents (Elt Ideal)) (x15 : (⟨Cert.KernelIdeal.S64x1, .f32⟩ : BufTy).Contents (Elt Ideal)) (x16 : (⟨Cert.KernelIdeal.S1, .f32⟩ : BufTy).Contents (Elt Ideal)) :
    Cert.KernelIdeal.Hand.kvAll x0 x1 x2 x3 x4 x5 x6 x7 x8 x9 x10 x11 x12 x13 x14 x15 x16 = Cert.ReferenceIdeal.Read.val_main_v137 (F := Ideal) x0 x1 x2 x3 x4 x5 x6 x7 x8 x9 x10 x11 x12 x13 x14 x15 x16 := by
  unfold Cert.KernelIdeal.Hand.kvAll
  rw [Cert.Hand.Bridge.x2_eq]
  exact Cert.Hand.Bridge.out_eq x0 x1 x2 x3 x4 x5 x6 x7 x8 x9 x10 x11 x12 x13 x14 x15 x16

theorem algebraic : Cert.algebraic_KernelIdeal_ReferenceIdeal := by
  intro m ρ m' ρ' _ hagree
  refine ⟨fun c => Cert.KernelIdeal.Hand.W19 m ρ c (Proc.devRef .tc Cert.KernelIdeal.main_v75), ?_, ?_⟩
  · exact (θ_run (Cert.KernelIdeal.defs (F := Ideal)) _ _).mono (fun r h c =>
      ⟨h c _ (Cert.KernelIdeal.Hand.mem_uc Cert.KernelIdeal.main_v75 (by decide)),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide),
       Cert.KernelIdeal.Hand.arg_end m ρ h c _ (by decide)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    show _ = Cert.KernelIdeal.Hand.W19 m ρ c (Proc.devRef .tc Cert.KernelIdeal.main_v75)
    rw [Cert.KernelIdeal.Hand.ker_val m ρ c]
    obtain ⟨e0, e1, e2, e3, e4, e5, e6, e7, e8, e9, e10, e11, e12, e13, e14, e15, e16⟩ := hagree c
    rw [e0, e1, e2, e3, e4, e5, e6, e7, e8, e9, e10, e11, e12, e13, e14, e15, e16]
    exact (all_eq _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
